-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S3x8192x8192 : Shape := ⟨3, ![3, 8192, 8192]⟩
abbrev S256x256 : Shape := ⟨2, ![256, 256]⟩
abbrev S256 : Shape := ⟨1, ![256]⟩
abbrev S512x1 : Shape := ⟨2, ![512, 1]⟩
abbrev S1 : Shape := ⟨1, ![1]⟩
abbrev S3x256x256 : Shape := ⟨3, ![3, 256, 256]⟩
abbrev S3x256 : Shape := ⟨2, ![3, 256]⟩
abbrev S1024x2 : Shape := ⟨2, ![1024, 2]⟩
abbrev S2 : Shape := ⟨1, ![2]⟩
abbrev S262144 : Shape := ⟨1, ![262144]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S3x8192x8192 : S_.BroadcastsInDim S3x8192x8192 (![] : Fin 0 → Fin S3x8192x8192.rank)
  reducesTo_S3x8192x8192_S_d0_1_2 : S3x8192x8192.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S1024x2 : S_.BroadcastsInDim S1024x2 (![] : Fin 0 → Fin S1024x2.rank)
  reducesTo_S1024x2_S_d0_1 : S1024x2.ReducesTo [0, 1] S_
  bcast_S_S2 : S_.BroadcastsInDim S2 (![] : Fin 0 → Fin S2.rank)
  reducesTo_S2_S_d0 : S2.ReducesTo [0] S_
  bcast_S_S262144 : S_.BroadcastsInDim S262144 (![] : Fin 0 → Fin S262144.rank)
  reducesTo_S262144_S_d0 : S262144.ReducesTo [0] S_

variable [Facts]

def fn_part4 {F : FTy → Type} [FloatOps F] (main_arg13 : IVec S262144 32) (main_v65 : IVec S_ 1) (main_v67 : IVec S262144 1) : IVec S_ 1 :=
  let main_c_26 : IVec S_ 32 := constantI S_ 32 8192#32
  let main_v68 : IVec S262144 32 := broadcastInDim S262144 ![] bcast_S_S262144 main_c_26
  let main_v69 : IVec S262144 1 := cmpi .slt main_arg13 main_v68
  let main_v70 : IVec S262144 1 := andi main_v67 main_v69
  let main_c_27 : IVec S_ 1 := constantI S_ 1 1#1
  let main_v71 : IVec S_ 1 := (fun x v => Host.reduce IntOp.andi x v reducesTo_S262144_S_d0 h_S_) main_v70 main_c_27
  let main_v72 : IVec S_ 1 := andi main_v65 main_v71
  main_v72

def fn_part3 {F : FTy → Type} [FloatOps F] (main_arg11 : FVec F S2 .f32) (main_arg12 : IVec S262144 32) (main_arg13 : IVec S262144 32) (main_v48 : IVec S_ 1) (main_v49 : FVec F S1024x2 .f32) (main_v50 : FVec F S1024x2 .f32) : IVec S_ 1 :=
  let main_v51 : IVec S1024x2 1 := cmpf .olt main_v49 main_v50
  let main_c_19 : IVec S_ 1 := constantI S_ 1 1#1
  let main_v52 : IVec S_ 1 := (fun x v => Host.reduce IntOp.andi x v reducesTo_S1024x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_c_22 : IVec S_ 32 := constantI S_ 32 0#32
  let main_v59 : IVec S262144 32 := broadcastInDim S262144 ![] bcast_S_S262144 main_c_22
  let main_v60 : IVec S262144 1 := cmpi .sge main_arg12 main_v59
  let main_c_23 : IVec S_ 32 := constantI S_ 32 8192#32
  let main_v61 : IVec S262144 32 := broadcastInDim S262144 ![] bcast_S_S262144 main_c_23
  let main_v62 : IVec S262144 1 := cmpi .slt main_arg12 main_v61
  let main_v63 : IVec S262144 1 := andi main_v60 main_v62
  let main_c_24 : IVec S_ 1 := constantI S_ 1 1#1
  let main_v64 : IVec S_ 1 := (fun x v => Host.reduce IntOp.andi x v reducesTo_S262144_S_d0 h_S_) main_v63 main_c_24
  let main_v65 : IVec S_ 1 := andi main_v58 main_v64
  let main_c_25 : IVec S_ 32 := constantI S_ 32 0#32
  let main_v66 : IVec S262144 32 := broadcastInDim S262144 ![] bcast_S_S262144 main_c_25
  let main_v67 : IVec S262144 1 := cmpi .sge main_arg13 main_v66
  fn_part4 (F := F) main_arg13 main_v65 main_v67

def fn_part2 {F : FTy → Type} [FloatOps F] (main_arg7 : FVec F S1 .f32) (main_arg8 : FVec F S3x256x256 .f32) (main_arg9 : FVec F S3x256 .f32) (main_arg10 : FVec F S1024x2 .f32) (main_arg11 : FVec F S2 .f32) (main_arg12 : IVec S262144 32) (main_arg13 : IVec S262144 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S3x256x256 .f32 := Host.absf main_arg8
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg9
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S1024x2 .f32 := Host.absf main_arg10
  let main_cst_18 : FVec F S_ .f32 := constant S_ .f32 0x7F800000#32
  let main_v50 : FVec F S1024x2 .f32 := broadcastInDim S1024x2 ![] bcast_S_S1024x2 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S512x1 .f32) (main_arg7 : FVec F S1 .f32) (main_arg8 : FVec F S3x256x256 .f32) (main_arg9 : FVec F S3x256 .f32) (main_arg10 : FVec F S1024x2 .f32) (main_arg11 : FVec F S2 .f32) (main_arg12 : IVec S262144 32) (main_arg13 : IVec S262144 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x256 .f32) (main_arg1 : FVec F S3x8192x8192 .f32) (main_arg2 : FVec F S256x256 .f32) (main_arg3 : FVec F S256 .f32) (main_arg4 : FVec F S256x256 .f32) (main_arg5 : FVec F S256 .f32) (main_arg6 : FVec F S512x1 .f32) (main_arg7 : FVec F S1 .f32) (main_arg8 : FVec F S3x256x256 .f32) (main_arg9 : FVec F S3x256 .f32) (main_arg10 : FVec F S1024x2 .f32) (main_arg11 : FVec F S2 .f32) (main_arg12 : IVec S262144 32) (main_arg13 : IVec S262144 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S3x8192x8192 .f32 := Host.absf main_arg1
  let main_cst_0 : FVec F S_ .f32 := constant S_ .f32 0x7F800000#32
  let main_v5 : FVec F S3x8192x8192 .f32 := broadcastInDim S3x8192x8192 ![] bcast_S_S3x8192x8192 main_cst_0
  let main_v6 : IVec S3x8192x8192 1 := cmpf .olt main_v4 main_v5
  let main_c_1 : IVec S_ 1 := constantI S_ 1 1#1
  let main_v7 : IVec S_ 1 := (fun x v => Host.reduce IntOp.andi x v reducesTo_S3x8192x8192_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x256 : Shape := ⟨2, ![8192, 256]⟩
abbrev S3x8192x8192 : Shape := ⟨3, ![3, 8192, 8192]⟩
abbrev S256x256 : Shape := ⟨2, ![256, 256]⟩
abbrev S256 : Shape := ⟨1, ![256]⟩
abbrev S512x1 : Shape := ⟨2, ![512, 1]⟩
abbrev S1 : Shape := ⟨1, ![1]⟩
abbrev S3x256x256 : Shape := ⟨3, ![3, 256, 256]⟩
abbrev S3x256 : Shape := ⟨2, ![3, 256]⟩
abbrev S1024x2 : Shape := ⟨2, ![1024, 2]⟩
abbrev S2 : Shape := ⟨1, ![2]⟩
abbrev S262144 : Shape := ⟨1, ![262144]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S2x8192x256 : Shape := ⟨3, ![2, 8192, 256]⟩
abbrev S256x1 : Shape := ⟨2, ![256, 1]⟩
abbrev S1x8192x256 : Shape := ⟨3, ![1, 8192, 256]⟩
abbrev S1x8192 : Shape := ⟨2, ![1, 8192]⟩
abbrev S256x8192 : Shape := ⟨2, ![256, 8192]⟩
abbrev S1x256 : Shape := ⟨2, ![1, 256]⟩
abbrev S262144x2 : Shape := ⟨2, ![262144, 2]⟩
abbrev S3 : Shape := ⟨1, ![3]⟩
abbrev S3x1 : Shape := ⟨2, ![3, 1]⟩
abbrev S1x262144 : Shape := ⟨2, ![1, 262144]⟩
abbrev S3x262144 : Shape := ⟨2, ![3, 262144]⟩
abbrev S201326592 : Shape := ⟨1, ![201326592]⟩
abbrev S786432 : Shape := ⟨1, ![786432]⟩
abbrev S786432x1 : Shape := ⟨2, ![786432, 1]⟩
abbrev S1x1 : Shape := ⟨2, ![1, 1]⟩
abbrev S2x3x8192 : Shape := ⟨3, ![2, 3, 8192]⟩
abbrev S1x512 : Shape := ⟨2, ![1, 512]⟩
abbrev S3x512 : Shape := ⟨2, ![3, 512]⟩
abbrev S1x3x8192 : Shape := ⟨3, ![1, 3, 8192]⟩
abbrev S3x8192 : Shape := ⟨2, ![3, 8192]⟩
abbrev S512x8192 : Shape := ⟨2, ![512, 8192]⟩
abbrev S8192x3 : Shape := ⟨2, ![8192, 3]⟩
abbrev S1x256x256 : Shape := ⟨3, ![1, 256, 256]⟩
abbrev S1024 : Shape := ⟨1, ![1024]⟩
abbrev S1x1024 : Shape := ⟨2, ![1, 1024]⟩
abbrev S1x2 : Shape := ⟨2, ![1, 2]⟩

abbrev nBuf : Space → Nat
  | .hbm => 302
  | .vmem => 26
  | .smem => 0
  | _ => 0

abbrev hbmTy0_0 (i : Nat) : BufTy := match i % 128 with
  | 0 => ⟨S8192x256, .f32⟩
  | 1 => ⟨S3x8192x8192, .f32⟩
  | 2 => ⟨S256x256, .f32⟩
  | 3 => ⟨S256, .f32⟩
  | 4 => ⟨S256x256, .f32⟩
  | 5 => ⟨S256, .f32⟩
  | 6 => ⟨S512x1, .f32⟩
  | 7 => ⟨S1, .f32⟩
  | 8 => ⟨S3x256x256, .f32⟩
  | 9 => ⟨S3x256, .f32⟩
  | 10 => ⟨S1024x2, .f32⟩
  | 11 => ⟨S2, .f32⟩
  | 12 => ⟨S262144, .i32⟩
  | 13 => ⟨S262144, .i32⟩
  | 14 => ⟨S_, .f32⟩
  | 15 => ⟨S262144, .f32⟩
  | 16 => ⟨S_, .f32⟩
  | 17 => ⟨S8192, .f32⟩
  | 18 => ⟨S262144x1, .i32⟩
  | 19 => ⟨S8192, .f32⟩
  | 20 => ⟨S_, .f32⟩
  | 21 => ⟨S8192, .f32⟩
  | 22 => ⟨S8192, .f32⟩
  | 23 => ⟨S_, .f32⟩
  | 24 => ⟨S8192, .f32⟩
  | 25 => ⟨S262144x1, .i32⟩
  | 26 => ⟨S8192, .f32⟩
  | 27 => ⟨S_, .f32⟩
  | 28 => ⟨S8192, .f32⟩
  | 29 => ⟨S8192, .f32⟩
  | 30 => ⟨S8192x256, .f32⟩
  | 31 => ⟨S8192, .f32⟩
  | 32 => ⟨S8192x1, .f32⟩
  | 33 => ⟨S8192x256, .f32⟩
  | 34 => ⟨S8192x256, .f32⟩
  | 35 => ⟨S8192x256, .bf16⟩
  | 36 => ⟨S8192x256, .f32⟩
  | 37 => ⟨S8192x256, .f32⟩
  | 38 => ⟨S8192x256, .bf16⟩
  | 39 => ⟨S_, .i32⟩
  | 40 => ⟨S_, .i32⟩
  | 41 => ⟨S262144, .i32⟩
  | 42 => ⟨S_, .i32⟩
  | 43 => ⟨S_, .i32⟩
  | 44 => ⟨S262144, .i32⟩
  | 45 => ⟨S262144x1, .i32⟩
  | 46 => ⟨S262144x1, .i32⟩
  | 47 => ⟨S2x8192x256, .f32⟩
  | 48 => ⟨S_, .f32⟩
  | 49 => ⟨S8192x256, .f32⟩
  | 50 => ⟨S8192x256, .f32⟩
  | 51 => ⟨S8192, .f32⟩
  | 52 => ⟨S8192x1, .f32⟩
  | 53 => ⟨S8192x256, .f32⟩
  | 54 => ⟨S8192x256, .f32⟩
  | 55 => ⟨S1x256, .f32⟩
  | 56 => ⟨S8192x256, .f32⟩
  | 57 => ⟨S8192x256, .f32⟩
  | 58 => ⟨S8192x256, .f32⟩
  | 59 => ⟨S1x256, .f32⟩
  | 60 => ⟨S8192x256, .f32⟩
  | 61 => ⟨S8192x256, .f32⟩
  | 62 => ⟨S256x1, .f32⟩
  | 63 => ⟨S256x1, .f32⟩
  | 64 => ⟨S8192x1, .f32⟩
  | 65 => ⟨S8192x1, .f32⟩
  | 66 => ⟨S_, .i32⟩
  | 67 => ⟨S262144, .i32⟩
  | 68 => ⟨S262144, .i1⟩
  | 69 => ⟨S_, .i32⟩
  | 70 => ⟨S262144, .i32⟩
  | 71 => ⟨S262144, .i32⟩
  | 72 => ⟨S262144, .i32⟩
  | 73 => ⟨S_, .i32⟩
  | 74 => ⟨S262144, .i32⟩
  | 75 => ⟨S262144, .i32⟩
  | 76 => ⟨S262144x1, .i32⟩
  | 77 => ⟨S262144x1, .i32⟩
  | 78 => ⟨S262144x2, .i32⟩
  | 79 => ⟨S262144, .f32⟩
  | 80 => ⟨S_, .i32⟩
  | 81 => ⟨S262144, .i32⟩
  | 82 => ⟨S262144, .i1⟩
  | 83 => ⟨S_, .i32⟩
  | 84 => ⟨S262144, .i32⟩
  | 85 => ⟨S262144, .i32⟩
  | 86 => ⟨S262144, .i32⟩
  | 87 => ⟨S_, .i32⟩
  | 88 => ⟨S262144, .i32⟩
  | 89 => ⟨S262144, .i32⟩
  | 90 => ⟨S262144x1, .i32⟩
  | 91 => ⟨S262144x1, .i32⟩
  | 92 => ⟨S262144x2, .i32⟩
  | 93 => ⟨S262144, .f32⟩
  | 94 => ⟨S262144, .f32⟩
  | 95 => ⟨S_, .f32⟩
  | 96 => ⟨S262144, .f32⟩
  | 97 => ⟨S262144, .f32⟩
  | 98 => ⟨S_, .f32⟩
  | 99 => ⟨S262144, .f32⟩
  | 100 => ⟨S262144, .i1⟩
  | 101 => ⟨S_, .f32⟩
  | 102 => ⟨S262144, .f32⟩
  | 103 => ⟨S262144, .f32⟩
  | 104 => ⟨S262144, .f32⟩
  | 105 => ⟨S262144, .f32⟩
  | 106 => ⟨S3, .i32⟩
  | 107 => ⟨S3x1, .i32⟩
  | 108 => ⟨S_, .i32⟩
  | 109 => ⟨S3x1, .i32⟩
  | 110 => ⟨S3x1, .i32⟩
  | 111 => ⟨S1x262144, .i32⟩
  | 112 => ⟨S_, .i32⟩
  | 113 => ⟨S1x262144, .i32⟩
  | 114 => ⟨S1x262144, .i32⟩
  | 115 => ⟨S3x262144, .i32⟩
  | 116 => ⟨S3x262144, .i32⟩
  | 117 => ⟨S3x262144, .i32⟩
  | 118 => ⟨S1x262144, .i32⟩
  | 119 => ⟨S3x262144, .i32⟩
  | 120 => ⟨S3x262144, .i32⟩
  | 121 => ⟨S201326592, .f32⟩
  | 122 => ⟨S786432, .i32⟩
  | 123 => ⟨S_, .i32⟩
  | 124 => ⟨S786432, .i32⟩
  | 125 => ⟨S786432, .i1⟩
  | 126 => ⟨S_, .i32⟩
  | 127 => ⟨S786432, .i32⟩
  | _ => ⟨S8192x256, .f32⟩

abbrev hbmTy0_1 (i : Nat) : BufTy := match i % 128 with
  | 0 => ⟨S786432, .i32⟩
  | 1 => ⟨S786432, .i32⟩
  | 2 => ⟨S786432x1, .i32⟩
  | 3 => ⟨S1, .i32⟩
  | 4 => ⟨S_, .i32⟩
  | 5 => ⟨S786432x1, .i32⟩
  | 6 => ⟨S786432x1, .i1⟩
  | 7 => ⟨S1x1, .i32⟩
  | 8 => ⟨S786432x1, .i32⟩
  | 9 => ⟨S786432x1, .i1⟩
  | 10 => ⟨S786432x1, .i1⟩
  | 11 => ⟨S_, .i1⟩
  | 12 => ⟨S786432, .i1⟩
  | 13 => ⟨S786432, .f32⟩
  | 14 => ⟨S_, .f32⟩
  | 15 => ⟨S786432, .f32⟩
  | 16 => ⟨S786432, .f32⟩
  | 17 => ⟨S3x262144, .f32⟩
  | 18 => ⟨S_, .f32⟩
  | 19 => ⟨S3x262144, .f32⟩
  | 20 => ⟨S3x262144, .i1⟩
  | 21 => ⟨S3x262144, .f32⟩
  | 22 => ⟨S_, .i32⟩
  | 23 => ⟨S_, .i32⟩
  | 24 => ⟨S262144, .i32⟩
  | 25 => ⟨S_, .i32⟩
  | 26 => ⟨S_, .i32⟩
  | 27 => ⟨S262144, .i32⟩
  | 28 => ⟨S_, .i32⟩
  | 29 => ⟨S_, .f32⟩
  | 30 => ⟨S262144, .f32⟩
  | 31 => ⟨S_, .i32⟩
  | 32 => ⟨S_, .f32⟩
  | 33 => ⟨S3x262144, .f32⟩
  | 34 => ⟨S3x262144, .bf16⟩
  | 35 => ⟨S262144x1, .i32⟩
  | 36 => ⟨S262144x1, .i32⟩
  | 37 => ⟨S1x262144, .f32⟩
  | 38 => ⟨S2x3x8192, .f32⟩
  | 39 => ⟨S2x3x8192, .f32⟩
  | 40 => ⟨S2x3x8192, .f32⟩
  | 41 => ⟨S_, .f32⟩
  | 42 => ⟨S3x8192, .f32⟩
  | 43 => ⟨S8192x3, .f32⟩
  | 44 => ⟨S_, .f32⟩
  | 45 => ⟨S3x8192, .f32⟩
  | 46 => ⟨S8192x3, .f32⟩
  | 47 => ⟨S_, .f32⟩
  | 48 => ⟨S3x8192, .f32⟩
  | 49 => ⟨S8192x3, .f32⟩
  | 50 => ⟨S_, .f32⟩
  | 51 => ⟨S8192x3, .f32⟩
  | 52 => ⟨S8192x3, .f32⟩
  | 53 => ⟨S8192x3, .f32⟩
  | 54 => ⟨S8192x3, .f32⟩
  | 55 => ⟨S_, .f32⟩
  | 56 => ⟨S8192x3, .f32⟩
  | 57 => ⟨S8192x3, .i1⟩
  | 58 => ⟨S8192x3, .f32⟩
  | 59 => ⟨S_, .f32⟩
  | 60 => ⟨S256, .f32⟩
  | 61 => ⟨S_, .f32⟩
  | 62 => ⟨S256, .f32⟩
  | 63 => ⟨S256, .f32⟩
  | 64 => ⟨S1x256x256, .f32⟩
  | 65 => ⟨S256x256, .f32⟩
  | 66 => ⟨S8192x256, .f32⟩
  | 67 => ⟨S1x256, .f32⟩
  | 68 => ⟨S256, .f32⟩
  | 69 => ⟨S1x256, .f32⟩
  | 70 => ⟨S8192x256, .f32⟩
  | 71 => ⟨S8192x256, .f32⟩
  | 72 => ⟨S8192x1, .f32⟩
  | 73 => ⟨S_, .f32⟩
  | 74 => ⟨S8192x1, .f32⟩
  | 75 => ⟨S8192x1, .i1⟩
  | 76 => ⟨S8192x1, .f32⟩
  | 77 => ⟨S8192x256, .f32⟩
  | 78 => ⟨S8192x256, .f32⟩
  | 79 => ⟨S8192x256, .i1⟩
  | 80 => ⟨S8192x256, .f32⟩
  | 81 => ⟨S8192x1, .f32⟩
  | 82 => ⟨S_, .f32⟩
  | 83 => ⟨S_, .f32⟩
  | 84 => ⟨S_, .f32⟩
  | 85 => ⟨S_, .f32⟩
  | 86 => ⟨S8192x256, .f32⟩
  | 87 => ⟨S8192x256, .f32⟩
  | 88 => ⟨S_, .f32⟩
  | 89 => ⟨S256, .f32⟩
  | 90 => ⟨S256, .f32⟩
  | 91 => ⟨S256, .f32⟩
  | 92 => ⟨S_, .f32⟩
  | 93 => ⟨S_, .f32⟩
  | 94 => ⟨S_, .f32⟩
  | 95 => ⟨S_, .i1⟩
  | 96 => ⟨S_, .f32⟩
  | 97 => ⟨S256, .f32⟩
  | 98 => ⟨S256, .f32⟩
  | 99 => ⟨S1x256x256, .f32⟩
  | 100 => ⟨S256x256, .f32⟩
  | 101 => ⟨S8192x256, .f32⟩
  | 102 => ⟨S1x256, .f32⟩
  | 103 => ⟨S256, .f32⟩
  | 104 => ⟨S1x256, .f32⟩
  | 105 => ⟨S8192x256, .f32⟩
  | 106 => ⟨S8192x256, .f32⟩
  | 107 => ⟨S8192x1, .f32⟩
  | 108 => ⟨S_, .f32⟩
  | 109 => ⟨S8192x1, .f32⟩
  | 110 => ⟨S8192x1, .i1⟩
  | 111 => ⟨S8192x1, .f32⟩
  | 112 => ⟨S8192x256, .f32⟩
  | 113 => ⟨S8192x256, .f32⟩
  | 114 => ⟨S8192x256, .i1⟩
  | 115 => ⟨S8192x256, .f32⟩
  | 116 => ⟨S8192x1, .f32⟩
  | 117 => ⟨S_, .f32⟩
  | 118 => ⟨S_, .f32⟩
  | 119 => ⟨S_, .f32⟩
  | 120 => ⟨S_, .f32⟩
  | 121 => ⟨S8192x256, .f32⟩
  | 122 => ⟨S8192x256, .f32⟩
  | 123 => ⟨S_, .f32⟩
  | 124 => ⟨S256, .f32⟩
  | 125 => ⟨S256, .f32⟩
  | 126 => ⟨S256, .f32⟩
  | 127 => ⟨S_, .f32⟩
  | _ => ⟨S8192x256, .f32⟩

abbrev hbmTy0_2 (i : Nat) : BufTy := match i % 128 with
  | 0 => ⟨S_, .f32⟩
  | 1 => ⟨S_, .f32⟩
  | 2 => ⟨S_, .i1⟩
  | 3 => ⟨S_, .f32⟩
  | 4 => ⟨S256, .f32⟩
  | 5 => ⟨S256, .f32⟩
  | 6 => ⟨S1x256x256, .f32⟩
  | 7 => ⟨S256x256, .f32⟩
  | 8 => ⟨S8192x256, .f32⟩
  | 9 => ⟨S1x256, .f32⟩
  | 10 => ⟨S256, .f32⟩
  | 11 => ⟨S1x256, .f32⟩
  | 12 => ⟨S8192x256, .f32⟩
  | 13 => ⟨S8192x256, .f32⟩
  | 14 => ⟨S8192x1, .f32⟩
  | 15 => ⟨S_, .f32⟩
  | 16 => ⟨S8192x1, .f32⟩
  | 17 => ⟨S8192x1, .i1⟩
  | 18 => ⟨S8192x1, .f32⟩
  | 19 => ⟨S8192x256, .f32⟩
  | 20 => ⟨S8192x256, .f32⟩
  | 21 => ⟨S8192x256, .i1⟩
  | 22 => ⟨S8192x256, .f32⟩
  | 23 => ⟨S8192x1, .f32⟩
  | 24 => ⟨S_, .f32⟩
  | 25 => ⟨S_, .f32⟩
  | 26 => ⟨S_, .f32⟩
  | 27 => ⟨S_, .f32⟩
  | 28 => ⟨S8192x256, .f32⟩
  | 29 => ⟨S8192x256, .f32⟩
  | 30 => ⟨S_, .f32⟩
  | 31 => ⟨S256, .f32⟩
  | 32 => ⟨S256, .f32⟩
  | 33 => ⟨S256, .f32⟩
  | 34 => ⟨S_, .f32⟩
  | 35 => ⟨S_, .f32⟩
  | 36 => ⟨S_, .f32⟩
  | 37 => ⟨S_, .i1⟩
  | 38 => ⟨S_, .f32⟩
  | 39 => ⟨S256, .f32⟩
  | 40 => ⟨S256, .f32⟩
  | 41 => ⟨S1024, .f32⟩
  | 42 => ⟨S1x1024, .f32⟩
  | 43 => ⟨S1x2, .f32⟩
  | 44 => ⟨S1x2, .f32⟩
  | 45 => ⟨S1x2, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | .local _ .vmem, ⟨0, _⟩ => ⟨S256x1, .i32⟩
  | .local _ .vmem, ⟨1, _⟩ => ⟨S256x1, .i32⟩
  | .local _ .vmem, ⟨2, _⟩ => ⟨S256x1, .i32⟩
  | .local _ .vmem, ⟨3, _⟩ => ⟨S256x1, .i32⟩
  | .local _ .vmem, ⟨4, _⟩ => ⟨S8192x256, .bf16⟩
  | .local _ .vmem, ⟨5, _⟩ => ⟨S8192x256, .bf16⟩
  | .local _ .vmem, ⟨6, _⟩ => ⟨S1x8192x256, .f32⟩
  | .local _ .vmem, ⟨7, _⟩ => ⟨S1x8192x256, .f32⟩
  | .local _ .vmem, ⟨8, _⟩ => ⟨S8192x256, .f32⟩
  | .local _ .vmem, ⟨9, _⟩ => ⟨S512x1, .i32⟩
  | .local _ .vmem, ⟨10, _⟩ => ⟨S512x1, .i32⟩
  | .local _ .vmem, ⟨11, _⟩ => ⟨S512x1, .i32⟩
  | .local _ .vmem, ⟨12, _⟩ => ⟨S512x1, .i32⟩
  | .local _ .vmem, ⟨13, _⟩ => ⟨S1x512, .f32⟩
  | .local _ .vmem, ⟨14, _⟩ => ⟨S1x512, .f32⟩
  | .local _ .vmem, ⟨15, _⟩ => ⟨S3x512, .bf16⟩
  | .local _ .vmem, ⟨16, _⟩ => ⟨S3x512, .bf16⟩
  | .local _ .vmem, ⟨17, _⟩ => ⟨S1x3x8192, .f32⟩
  | .local _ .vmem, ⟨18, _⟩ => ⟨S1x3x8192, .f32⟩
  | .local _ .vmem, ⟨19, _⟩ => ⟨S1x3x8192, .f32⟩
  | .local _ .vmem, ⟨20, _⟩ => ⟨S1x3x8192, .f32⟩
  | .local _ .vmem, ⟨21, _⟩ => ⟨S1x3x8192, .f32⟩
  | .local _ .vmem, ⟨22, _⟩ => ⟨S1x3x8192, .f32⟩
  | .local _ .vmem, ⟨23, _⟩ => ⟨S3x8192, .f32⟩
  | .local _ .vmem, ⟨24, _⟩ => ⟨S3x8192, .f32⟩
  | .local _ .vmem, ⟨25, _⟩ => ⟨S3x8192, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_call0_v0 : Ref sig .tc := ⟨.hbm, 40, rfl⟩
abbrev main_v20 : Ref sig .tc := ⟨.hbm, 41, rfl⟩
abbrev main_c_4 : Ref sig .tc := ⟨.hbm, 42, rfl⟩
abbrev main_call1_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_12 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_13 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_cst : Ref sig .tc := ⟨.hbm, 142, rfl⟩
abbrev main_call3_v14 : Ref sig .tc := ⟨.hbm, 143, rfl⟩
abbrev main_v85 : Ref sig .tc := ⟨.hbm, 144, rfl⟩
abbrev main_v86 : Ref sig .tc := ⟨.hbm, 145, rfl⟩
abbrev main_cst_14 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_c_15 : Ref sig .tc := ⟨.hbm, 150, rfl⟩
abbrev main_call4_v0 : Ref sig .tc := ⟨.hbm, 151, rfl⟩
abbrev main_v90 : Ref sig .tc := ⟨.hbm, 152, rfl⟩
abbrev main_c_16 : Ref sig .tc := ⟨.hbm, 153, rfl⟩
abbrev main_call5_v0 : Ref sig .tc := ⟨.hbm, 154, rfl⟩
abbrev main_v91 : Ref sig .tc := ⟨.hbm, 155, rfl⟩
abbrev main_c_17 : Ref sig .tc := ⟨.hbm, 156, rfl⟩
abbrev main_call6_v0 : Ref sig .tc := ⟨.hbm, 157, rfl⟩
abbrev main_v92 : Ref sig .tc := ⟨.hbm, 158, rfl⟩
abbrev main_c_18 : Ref sig .tc := ⟨.hbm, 159, rfl⟩
abbrev main_call7_v0 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98_0 : Ref sig .tc := ⟨.hbm, 166, rfl⟩
abbrev main_v98_1 : Ref sig .tc := ⟨.hbm, 167, rfl⟩
abbrev main_v98_2 : Ref sig .tc := ⟨.hbm, 168, rfl⟩
abbrev main_cst_19 : Ref sig .tc := ⟨.hbm, 169, rfl⟩
abbrev main_v99 : Ref sig .tc := ⟨.hbm, 170, rfl⟩
abbrev main_v100 : Ref sig .tc := ⟨.hbm, 171, rfl⟩
abbrev main_cst_20 : Ref sig .tc := ⟨.hbm, 172, rfl⟩
abbrev main_v101 : Ref sig .tc := ⟨.hbm, 173, rfl⟩
abbrev main_v102 : Ref sig .tc := ⟨.hbm, 174, rfl⟩
abbrev main_cst_21 : Ref sig .tc := ⟨.hbm, 175, rfl⟩
abbrev main_v103 : Ref sig .tc := ⟨.hbm, 176, rfl⟩
abbrev main_v104 : Ref sig .tc := ⟨.hbm, 177, rfl⟩
abbrev main_cst_22 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_cst_23 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_cst_24 : Ref sig .tc := ⟨.hbm, 187, rfl⟩
abbrev main_v112 : Ref sig .tc := ⟨.hbm, 188, rfl⟩
abbrev main_cst_25 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_cst_26 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_call8_v0 : Ref sig .tc := ⟨.hbm, 207, rfl⟩
abbrev main_v129 : Ref sig .tc := ⟨.hbm, 208, rfl⟩
abbrev main_v130 : Ref sig .tc := ⟨.hbm, 209, rfl⟩
abbrev main_cst_27 : Ref sig .tc := ⟨.hbm, 210, rfl⟩
abbrev main_v131 : Ref sig .tc := ⟨.hbm, 211, rfl⟩
abbrev main_cst_28 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_cst_29 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_30 : Ref sig .tc := ⟨.hbm, 220, rfl⟩
abbrev main_v138 : Ref sig .tc := ⟨.hbm, 221, rfl⟩
abbrev main_cst_31 : Ref sig .tc := ⟨.hbm, 222, rfl⟩
abbrev main_v139 : Ref sig .tc := ⟨.hbm, 223, rfl⟩
abbrev main_cst_32 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_33 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_call10_v0 : Ref sig .tc := ⟨.hbm, 242, rfl⟩
abbrev main_v156 : Ref sig .tc := ⟨.hbm, 243, rfl⟩
abbrev main_v157 : Ref sig .tc := ⟨.hbm, 244, rfl⟩
abbrev main_cst_34 : Ref sig .tc := ⟨.hbm, 245, rfl⟩
abbrev main_v158 : Ref sig .tc := ⟨.hbm, 246, rfl⟩
abbrev main_cst_35 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_cst_36 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_cst_37 : Ref sig .tc := ⟨.hbm, 255, rfl⟩
abbrev main_v165 : Ref sig .tc := ⟨.hbm, 256, rfl⟩
abbrev main_cst_38 : Ref sig .tc := ⟨.hbm, 257, rfl⟩
abbrev main_v166 : Ref sig .tc := ⟨.hbm, 258, rfl⟩
abbrev main_cst_39 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_cst_40 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_call12_v0 : Ref sig .tc := ⟨.hbm, 277, rfl⟩
abbrev main_v183 : Ref sig .tc := ⟨.hbm, 278, rfl⟩
abbrev main_v184 : Ref sig .tc := ⟨.hbm, 279, rfl⟩
abbrev main_cst_41 : Ref sig .tc := ⟨.hbm, 280, rfl⟩
abbrev main_v185 : Ref sig .tc := ⟨.hbm, 281, rfl⟩
abbrev main_cst_42 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_cst_43 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_cst_44 : Ref sig .tc := ⟨.hbm, 290, rfl⟩
abbrev main_v192 : Ref sig .tc := ⟨.hbm, 291, rfl⟩
abbrev main_cst_45 : Ref sig .tc := ⟨.hbm, 292, rfl⟩
abbrev main_v193 : Ref sig .tc := ⟨.hbm, 293, rfl⟩
abbrev main_cst_46 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![2, 512], ![false, false]⟩

def k0_cond2 (i : grid0.Coords) : BitVec 1 :=
  let arg1 : BitVec 32 := BitVec.ofNat 32 (i 1).val
  let c511_i32 : BitVec 32 := 511#32
  let v40 : BitVec 1 := Scalar.cmpi .eq arg1 c511_i32
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 256], ![false, false]⟩

def k1_cond2 (i : grid1.Coords) : BitVec 1 :=
  let arg1 : BitVec 32 := BitVec.ofNat 32 (i 1).val
  let c255_i32 : BitVec 32 := 255#32
  let v61 : BitVec 1 := Scalar.cmpi .eq arg1 c255_i32
  let v62 : BitVec 32 := Scalar.extui v61
  let c0_i32_27 : BitVec 32 := 0#32
  let v63 : BitVec 1 := Scalar.cmpi .ne v62 c0_i32_27
  v63

def cc1_transform_0 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x3x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x3x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x3x8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  pads_S262144_S262144_000 : S262144.Pads (![0] : Fin 1 → Nat) ![0] ![0] S262144
  h_S_ : 0 < S_.numel
  shapeCasts_S262144_S262144x1 : S262144.ShapeCasts S262144x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x8192_d1_w32 : S1x8192.Iotas .tc 32 [1]
  broadcasts_S256x1_S256x8192 : S256x1.Broadcasts S256x8192
  broadcasts_S1x8192_S256x8192 : S1x8192.Broadcasts S256x8192
  natLt_1_32 : 1 < 32
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  shapeCasts_S8192x256_S1x8192x256 : S8192x256.ShapeCasts S1x8192x256
  reducesTo_S2x8192x256_S8192x256_d0 : S2x8192x256.ReducesTo [0] S8192x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  slices_S512x1_S256x1_0_0 : S512x1.Slices ![0, 0] S256x1
  slices_S512x1_S256x1_256_0 : S512x1.Slices ![256, 0] S256x1
  concatenates_S262144x1_S262144x1_S262144x2_d1 : Shape.Concatenates [S262144x1, S262144x1] S262144x2 1
  shapeCasts_S1_S_ : S1.ShapeCasts S_
  bcast_S3_S3x1_0 : S3.BroadcastsInDim S3x1 (![0] : Fin 1 → Fin S3x1.rank)
  bcast_S_S3x1 : S_.BroadcastsInDim S3x1 (![] : Fin 0 → Fin S3x1.rank)
  bcast_S262144_S1x262144_1 : S262144.BroadcastsInDim S1x262144 (![1] : Fin 1 → Fin S1x262144.rank)
  bcast_S_S1x262144 : S_.BroadcastsInDim S1x262144 (![] : Fin 0 → Fin S1x262144.rank)
  bcast_S3x1_S3x262144_0_1 : S3x1.BroadcastsInDim S3x262144 (![0, 1] : Fin 2 → Fin S3x262144.rank)
  bcast_S1x262144_S3x262144_0_1 : S1x262144.BroadcastsInDim S3x262144 (![0, 1] : Fin 2 → Fin S3x262144.rank)
  shapeCasts_S3x8192x8192_S201326592 : S3x8192x8192.ShapeCasts S201326592
  shapeCasts_S3x262144_S786432 : S3x262144.ShapeCasts S786432
  bcast_S_S786432 : S_.BroadcastsInDim S786432 (![] : Fin 0 → Fin S786432.rank)
  bcast_S786432_S786432x1_0 : S786432.BroadcastsInDim S786432x1 (![0] : Fin 1 → Fin S786432x1.rank)
  bcast_S_S786432x1 : S_.BroadcastsInDim S786432x1 (![] : Fin 0 → Fin S786432x1.rank)
  bcast_S1_S1x1_1 : S1.BroadcastsInDim S1x1 (![1] : Fin 1 → Fin S1x1.rank)
  bcast_S1x1_S786432x1_0_1 : S1x1.BroadcastsInDim S786432x1 (![0, 1] : Fin 2 → Fin S786432x1.rank)
  reducesTo_S786432x1_S786432_d1 : S786432x1.ReducesTo [1] S786432
  shapeCasts_S786432_S3x262144 : S786432.ShapeCasts S3x262144
  bcast_S_S3x262144 : S_.BroadcastsInDim S3x262144 (![] : Fin 0 → Fin S3x262144.rank)
  pads_S3x262144_S3x262144_000_000 : S3x262144.Pads (![0, 0] : Fin 2 → Nat) ![0, 0] ![0, 0] S3x262144
  shapeCasts_S262144_S1x262144 : S262144.ShapeCasts S1x262144
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x8192 : S512x1.Broadcasts S512x8192
  broadcasts_S1x8192_S512x8192 : S1x8192.Broadcasts S512x8192
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S3x512 : S1x512.Broadcasts S3x512
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  shapeCasts_S3x8192_S1x3x8192 : S3x8192.ShapeCasts S1x3x8192
  reducesTo_S2x3x8192_S3x8192_d0 : S2x3x8192.ReducesTo [0] S3x8192
  transposes_S3x8192_S8192x3_1_0 : S3x8192.Transposes [1, 0] S8192x3
  bcast_S_S8192x3 : S_.BroadcastsInDim S8192x3 (![] : Fin 0 → Fin S8192x3.rank)
  reducesTo_S8192x256_S256_d0 : S8192x256.ReducesTo [0] S256
  bcast_S_S256 : S_.BroadcastsInDim S256 (![] : Fin 0 → Fin S256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S8192x3_S8192x1_0_0 : S8192x3.Slices ![0, 0] S8192x1
  bcast_S_S8192x1 : S_.BroadcastsInDim S8192x1 (![] : Fin 0 → Fin S8192x1.rank)
  reducesTo_S8192x1_S_d0_1 : S8192x1.ReducesTo [0, 1] S_
  slices_S3x256x256_S1x256x256_1_0_0 : S3x256x256.Slices ![1, 0, 0] S1x256x256
  slices_S3x256_S1x256_1_0 : S3x256.Slices ![1, 0] S1x256
  slices_S8192x3_S8192x1_0_1 : S8192x3.Slices ![0, 1] S8192x1
  slices_S3x256x256_S1x256x256_2_0_0 : S3x256x256.Slices ![2, 0, 0] S1x256x256
  slices_S3x256_S1x256_2_0 : S3x256.Slices ![2, 0] S1x256
  slices_S8192x3_S8192x1_0_2 : S8192x3.Slices ![0, 2] S8192x1
  concatenates_S256_S256_S256_S256_S1024_d0 : Shape.Concatenates [S256, S256, S256, S256] S1024 0
  bcast_S1024_S1x1024_1 : S1024.BroadcastsInDim S1x1024 (![1] : Fin 1 → Fin S1x1024.rank)
  bcast_S2_S1x2_1 : S2.BroadcastsInDim S1x2 (![1] : Fin 1 → Fin S1x2.rank)
  scatter_S8192_S262144x1_S262144_n_0_0_1_wf : ScatterDims.WF S8192 S262144x1 S262144 [] [0] [0] 1
  dot_S8192x256_S256x256_S8192x256_1_0_0_1_n_n_wf : DotDims.WF S8192x256 S256x256 S8192x256 [1] [0] [0] [1] [] []
  dot_S256x8192_S8192x256_S256x256_1_0_0_1_n_n_wf : DotDims.WF S256x8192 S8192x256 S256x256 [1] [0] [0] [1] [] []
  dot_S256x8192_S256x256_S8192x256_0_0_1_1_n_n_wf : DotDims.WF S256x8192 S256x256 S8192x256 [0] [0] [1] [1] [] []
  dot_S8192x256_S256x1_S8192x1_1_0_0_1_n_n_wf : DotDims.WF S8192x256 S256x1 S8192x1 [1] [0] [0] [1] [] []
  gather_S8192x1_S262144x2_S262144_n_01_n_n_01_1_11_wf : GatherDims.WF S8192x1 S262144x2 S262144 [] [0, 1] [] [0, 1] [] 1 ![1, 1]
  gather_S201326592_S786432x1_S786432_n_0_n_n_0_1_1_wf : GatherDims.WF S201326592 S786432x1 S786432 [] [0] [] [0] [] 1 ![1]
  dot_S3x512_S512x8192_S3x8192_1_0_0_1_n_n_wf : DotDims.WF S3x512 S512x8192 S3x8192 [1] [0] [0] [1] [] []
  dot_S1x1024_S1024x2_S1x2_1_0_0_1_n_n_wf : DotDims.WF S1x1024 S1024x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S262144x1.size a
  hwx0_0 : ∀ i : grid0.Coords, EltTy.bits .i32 = 32 ∨ (Rect.block (s := S262144x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S262144x1.size a
  hwx0_1 : ∀ i : grid0.Coords, EltTy.bits .i32 = 32 ∨ (Rect.block (s := S262144x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x256.size a
  hwx0_3 : ∀ i : grid0.Coords, EltTy.bits .bf16 = 32 ∨ (Rect.block (s := S8192x256) S8192x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x256.size a ≤ S2x8192x256.size a
  hwx0_4 : ∀ i : grid0.Coords, EltTy.bits .f32 = 32 ∨ (Rect.block (s := S2x8192x256) S1x8192x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S262144x1.size a
  hwx1_0 : ∀ i : grid1.Coords, EltTy.bits .i32 = 32 ∨ (Rect.block (s := S262144x1) S512x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S262144x1.size a
  hwx1_1 : ∀ i : grid1.Coords, EltTy.bits .i32 = 32 ∨ (Rect.block (s := S262144x1) S512x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x262144.size a
  hwx1_2 : ∀ i : grid1.Coords, EltTy.bits .f32 = 32 ∨ (Rect.block (s := S1x262144) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x512.size a ≤ S3x262144.size a
  hwx1_3 : ∀ i : grid1.Coords, EltTy.bits .bf16 = 32 ∨ (Rect.block (s := S3x262144) S3x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x3x8192.size a ≤ S2x3x8192.size a
  hwx1_4 : ∀ i : grid1.Coords, EltTy.bits .f32 = 32 ∨ (Rect.block (s := S2x3x8192) S1x3x8192.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x3x8192.size a ≤ S2x3x8192.size a
  hwx1_5 : ∀ i : grid1.Coords, EltTy.bits .f32 = 32 ∨ (Rect.block (s := S2x3x8192) S1x3x8192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x3x8192.size a ≤ S2x3x8192.size a
  hwx1_6 : ∀ i : grid1.Coords, EltTy.bits .f32 = 32 ∨ (Rect.block (s := S2x3x8192) S1x3x8192.size (cc1_transform_6 i) (hinb1_6 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x8192_S256x256_S8192x256_0_0_1_1_n_n : DotDims S256x8192 S256x256 S8192x256 where
  lhsContracting := [0]
  rhsContracting := [0]
  lhsNonContracting := [1]
  rhsNonContracting := [1]
  lhsBatch := []
  rhsBatch := []
  wf := dot_S256x8192_S256x256_S8192x256_0_0_1_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def gather_S8192x1_S262144x2_S262144_n_01_n_n_01_1_11 : GatherDims S8192x1 S262144x2 S262144 where
  offsetDims := []
  collapsedSliceDims := [0, 1]
  operandBatchingDims := []
  startIndicesBatchingDims := []
  startIndexMap := [0, 1]
  indexVectorDim := 1
  sliceSizes := ![1, 1]
  wf := gather_S8192x1_S262144x2_S262144_n_01_n_n_01_1_11_wf
def gather_S201326592_S786432x1_S786432_n_0_n_n_0_1_1 : GatherDims S201326592 S786432x1 S786432 where
  offsetDims := []
  collapsedSliceDims := [0]
  operandBatchingDims := []
  startIndicesBatchingDims := []
  startIndexMap := [0]
  indexVectorDim := 1
  sliceSizes := ![1]
  wf := gather_S201326592_S786432x1_S786432_n_0_n_n_0_1_1_wf
def dot_S3x512_S512x8192_S3x8192_1_0_0_1_n_n : DotDims S3x512 S512x8192 S3x8192 where
  lhsContracting := [1]
  rhsContracting := [0]
  lhsNonContracting := [0]
  rhsNonContracting := [1]
  lhsBatch := []
  rhsBatch := []
  wf := dot_S3x512_S512x8192_S3x8192_1_0_0_1_n_n_wf
def dot_S1x1024_S1024x2_S1x2_1_0_0_1_n_n : DotDims S1x1024 S1024x2 S1x2 where
  lhsContracting := [1]
  rhsContracting := [0]
  lhsNonContracting := [0]
  rhsNonContracting := [1]
  lhsBatch := []
  rhsBatch := []
  wf := dot_S1x1024_S1024x2_S1x2_1_0_0_1_n_n_wf

abbrev win0_0 : Pipeline.Window sig grid0 :=
  Pipeline.Window.ofSpec (Memref.whole main_v22) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x8192x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v95) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v96) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v97) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v94) S3x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v98_0) S1x3x8192.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v98_1) S1x3x8192.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v98_2) S1x3x8192.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S3x8192x8192 : Shape := ⟨3, ![3, 8192, 8192]⟩
abbrev S256x256 : Shape := ⟨2, ![256, 256]⟩
abbrev S256 : Shape := ⟨1, ![256]⟩
abbrev S512x1 : Shape := ⟨2, ![512, 1]⟩
abbrev S1 : Shape := ⟨1, ![1]⟩
abbrev S3x256x256 : Shape := ⟨3, ![3, 256, 256]⟩
abbrev S3x256 : Shape := ⟨2, ![3, 256]⟩
abbrev S1024x2 : Shape := ⟨2, ![1024, 2]⟩
abbrev S2 : Shape := ⟨1, ![2]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S8192x1 : Shape := ⟨2, ![8192, 1]⟩
abbrev S1x256 : Shape := ⟨2, ![1, 256]⟩
abbrev S262144x1 : Shape := ⟨2, ![262144, 1]⟩
abbrev S262144x256 : Shape := ⟨2, ![262144, 256]⟩
abbrev S262144x512 : Shape := ⟨2, ![262144, 512]⟩
abbrev S1x1 : Shape := ⟨2, ![1, 1]⟩
abbrev S262144x2 : Shape := ⟨2, ![262144, 2]⟩
abbrev S3x262144 : Shape := ⟨2, ![3, 262144]⟩
abbrev S1x262144 : Shape := ⟨2, ![1, 262144]⟩
abbrev S1x256x256 : Shape := ⟨3, ![1, 256, 256]⟩
abbrev S1024 : Shape := ⟨1, ![1024]⟩
abbrev S1x1024 : Shape := ⟨2, ![1, 1024]⟩
abbrev S1x2 : Shape := ⟨2, ![1, 2]⟩

abbrev nBuf : Space → Nat
  | .hbm => 326
  | .vmem => 0
  | .smem => 0
  | _ => 0

abbrev hbmTy0_0 (i : Nat) : BufTy := match i % 128 with
  | 0 => ⟨S8192x256, .f32⟩
  | 1 => ⟨S3x8192x8192, .f32⟩
  | 2 => ⟨S256x256, .f32⟩
  | 3 => ⟨S256, .f32⟩
  | 4 => ⟨S256x256, .f32⟩
  | 5 => ⟨S256, .f32⟩
  | 6 => ⟨S512x1, .f32⟩
  | 7 => ⟨S1, .f32⟩
  | 8 => ⟨S3x256x256, .f32⟩
  | 9 => ⟨S3x256, .f32⟩
  | 10 => ⟨S1024x2, .f32⟩
  | 11 => ⟨S2, .f32⟩
  | 12 => ⟨S262144, .i32⟩
  | 13 => ⟨S262144, .i32⟩
  | 14 => ⟨S8192, .i32⟩
  | 15 => ⟨S270336, .i32⟩
  | 16 => ⟨S270336, .i32⟩
  | 17 => ⟨S_, .f32⟩
  | 18 => ⟨S270336, .f32⟩
  | 19 => ⟨S_, .f32⟩
  | 20 => ⟨S8192, .f32⟩
  | 21 => ⟨S270336x1, .i32⟩
  | 22 => ⟨S8192, .f32⟩
  | 23 => ⟨S_, .f32⟩
  | 24 => ⟨S8192, .f32⟩
  | 25 => ⟨S270336x1, .i32⟩
  | 26 => ⟨S8192, .f32⟩
  | 27 => ⟨S8192x256, .f32⟩
  | 28 => ⟨S_, .i32⟩
  | 29 => ⟨S270336, .i32⟩
  | 30 => ⟨S270336, .i1⟩
  | 31 => ⟨S_, .i32⟩
  | 32 => ⟨S270336, .i32⟩
  | 33 => ⟨S270336, .i32⟩
  | 34 => ⟨S270336, .i32⟩
  | 35 => ⟨S270336x1, .i32⟩
  | 36 => ⟨S270336x256, .f32⟩
  | 37 => ⟨S8192, .f32⟩
  | 38 => ⟨S_, .i32⟩
  | 39 => ⟨S270336, .i32⟩
  | 40 => ⟨S270336, .i1⟩
  | 41 => ⟨S_, .i32⟩
  | 42 => ⟨S270336, .i32⟩
  | 43 => ⟨S270336, .i32⟩
  | 44 => ⟨S270336, .i32⟩
  | 45 => ⟨S270336x1, .i32⟩
  | 46 => ⟨S270336, .f32⟩
  | 47 => ⟨S270336x1, .f32⟩
  | 48 => ⟨S270336x256, .f32⟩
  | 49 => ⟨S270336x256, .f32⟩
  | 50 => ⟨S_, .f32⟩
  | 51 => ⟨S8192x256, .f32⟩
  | 52 => ⟨S270336x1, .i32⟩
  | 53 => ⟨S8192x256, .f32⟩
  | 54 => ⟨S8192, .f32⟩
  | 55 => ⟨S8192x1, .f32⟩
  | 56 => ⟨S8192x256, .f32⟩
  | 57 => ⟨S8192x256, .f32⟩
  | 58 => ⟨S1x256, .f32⟩
  | 59 => ⟨S8192x256, .f32⟩
  | 60 => ⟨S8192x256, .f32⟩
  | 61 => ⟨S8192x256, .f32⟩
  | 62 => ⟨S1x256, .f32⟩
  | 63 => ⟨S8192x256, .f32⟩
  | 64 => ⟨S8192x256, .f32⟩
  | 65 => ⟨S_, .f32⟩
  | 66 => ⟨S256, .f32⟩
  | 67 => ⟨S_, .f32⟩
  | 68 => ⟨S256, .f32⟩
  | 69 => ⟨S256, .f32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S262144x256, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x256, .f32⟩
  | 88 => ⟨S262144x512, .f32⟩
  | 89 => ⟨S262144x1, .f32⟩
  | 90 => ⟨S1x1, .f32⟩
  | 91 => ⟨S262144x1, .f32⟩
  | 92 => ⟨S262144x1, .f32⟩
  | 93 => ⟨S262144, .f32⟩
  | 94 => ⟨S_, .f32⟩
  | 95 => ⟨S262144, .f32⟩
  | 96 => ⟨S262144, .i1⟩
  | 97 => ⟨S_, .f32⟩
  | 98 => ⟨S262144, .f32⟩
  | 99 => ⟨S262144, .f32⟩
  | 100 => ⟨S262144, .f32⟩
  | 101 => ⟨S262144, .f32⟩
  | 102 => ⟨S_, .i32⟩
  | 103 => ⟨S262144, .i32⟩
  | 104 => ⟨S262144, .i1⟩
  | 105 => ⟨S_, .i32⟩
  | 106 => ⟨S262144, .i32⟩
  | 107 => ⟨S262144, .i32⟩
  | 108 => ⟨S262144, .i32⟩
  | 109 => ⟨S_, .i32⟩
  | 110 => ⟨S262144, .i32⟩
  | 111 => ⟨S262144, .i1⟩
  | 112 => ⟨S_, .i32⟩
  | 113 => ⟨S262144, .i32⟩
  | 114 => ⟨S262144, .i32⟩
  | 115 => ⟨S262144, .i32⟩
  | 116 => ⟨S262144x1, .i32⟩
  | 117 => ⟨S262144x1, .i32⟩
  | 118 => ⟨S262144x2, .i32⟩
  | 119 => ⟨S3x262144, .f32⟩
  | 120 => ⟨S1x262144, .f32⟩
  | 121 => ⟨S262144, .f32⟩
  | 122 => ⟨S_, .f32⟩
  | 123 => ⟨S262144, .f32⟩
  | 124 => ⟨S262144, .i1⟩
  | 125 => ⟨S1x256x256, .f32⟩
  | 126 => ⟨S256x256, .f32⟩
  | 127 => ⟨S8192x256, .f32⟩
  | _ => ⟨S8192x256, .f32⟩

abbrev hbmTy0_1 (i : Nat) : BufTy := match i % 128 with
  | 0 => ⟨S1x256, .f32⟩
  | 1 => ⟨S256, .f32⟩
  | 2 => ⟨S1x256, .f32⟩
  | 3 => ⟨S8192x256, .f32⟩
  | 4 => ⟨S8192x256, .f32⟩
  | 5 => ⟨S_, .f32⟩
  | 6 => ⟨S_, .f32⟩
  | 7 => ⟨S262144, .f32⟩
  | 8 => ⟨S262144, .f32⟩
  | 9 => ⟨S_, .f32⟩
  | 10 => ⟨S8192, .f32⟩
  | 11 => ⟨S262144x1, .i32⟩
  | 12 => ⟨S8192, .f32⟩
  | 13 => ⟨S262144, .f32⟩
  | 14 => ⟨S_, .f32⟩
  | 15 => ⟨S8192, .f32⟩
  | 16 => ⟨S262144x1, .i32⟩
  | 17 => ⟨S8192, .f32⟩
  | 18 => ⟨S_, .f32⟩
  | 19 => ⟨S8192, .f32⟩
  | 20 => ⟨S8192, .f32⟩
  | 21 => ⟨S8192, .f32⟩
  | 22 => ⟨S8192x1, .f32⟩
  | 23 => ⟨S_, .f32⟩
  | 24 => ⟨S8192x1, .f32⟩
  | 25 => ⟨S8192x1, .i1⟩
  | 26 => ⟨S8192x1, .f32⟩
  | 27 => ⟨S8192x256, .f32⟩
  | 28 => ⟨S8192x256, .f32⟩
  | 29 => ⟨S8192x256, .i1⟩
  | 30 => ⟨S8192x256, .f32⟩
  | 31 => ⟨S262144, .f32⟩
  | 32 => ⟨S_, .f32⟩
  | 33 => ⟨S8192, .f32⟩
  | 34 => ⟨S262144x1, .i32⟩
  | 35 => ⟨S8192, .f32⟩
  | 36 => ⟨S8192, .f32⟩
  | 37 => ⟨S_, .f32⟩
  | 38 => ⟨S8192, .f32⟩
  | 39 => ⟨S8192, .i1⟩
  | 40 => ⟨S8192, .f32⟩
  | 41 => ⟨S_, .f32⟩
  | 42 => ⟨S_, .f32⟩
  | 43 => ⟨S_, .f32⟩
  | 44 => ⟨S_, .f32⟩
  | 45 => ⟨S8192x1, .f32⟩
  | 46 => ⟨S8192x256, .f32⟩
  | 47 => ⟨S8192x256, .f32⟩
  | 48 => ⟨S_, .f32⟩
  | 49 => ⟨S256, .f32⟩
  | 50 => ⟨S256, .f32⟩
  | 51 => ⟨S256, .f32⟩
  | 52 => ⟨S_, .f32⟩
  | 53 => ⟨S_, .f32⟩
  | 54 => ⟨S_, .f32⟩
  | 55 => ⟨S_, .i1⟩
  | 56 => ⟨S_, .f32⟩
  | 57 => ⟨S256, .f32⟩
  | 58 => ⟨S256, .f32⟩
  | 59 => ⟨S1x262144, .f32⟩
  | 60 => ⟨S262144, .f32⟩
  | 61 => ⟨S_, .f32⟩
  | 62 => ⟨S262144, .f32⟩
  | 63 => ⟨S262144, .i1⟩
  | 64 => ⟨S1x256x256, .f32⟩
  | 65 => ⟨S256x256, .f32⟩
  | 66 => ⟨S8192x256, .f32⟩
  | 67 => ⟨S1x256, .f32⟩
  | 68 => ⟨S256, .f32⟩
  | 69 => ⟨S1x256, .f32⟩
  | 70 => ⟨S8192x256, .f32⟩
  | 71 => ⟨S8192x256, .f32⟩
  | 72 => ⟨S_, .f32⟩
  | 73 => ⟨S_, .f32⟩
  | 74 => ⟨S262144, .f32⟩
  | 75 => ⟨S262144, .f32⟩
  | 76 => ⟨S_, .f32⟩
  | 77 => ⟨S8192, .f32⟩
  | 78 => ⟨S262144x1, .i32⟩
  | 79 => ⟨S8192, .f32⟩
  | 80 => ⟨S262144, .f32⟩
  | 81 => ⟨S_, .f32⟩
  | 82 => ⟨S8192, .f32⟩
  | 83 => ⟨S262144x1, .i32⟩
  | 84 => ⟨S8192, .f32⟩
  | 85 => ⟨S_, .f32⟩
  | 86 => ⟨S8192, .f32⟩
  | 87 => ⟨S8192, .f32⟩
  | 88 => ⟨S8192, .f32⟩
  | 89 => ⟨S8192x1, .f32⟩
  | 90 => ⟨S_, .f32⟩
  | 91 => ⟨S8192x1, .f32⟩
  | 92 => ⟨S8192x1, .i1⟩
  | 93 => ⟨S8192x1, .f32⟩
  | 94 => ⟨S8192x256, .f32⟩
  | 95 => ⟨S8192x256, .f32⟩
  | 96 => ⟨S8192x256, .i1⟩
  | 97 => ⟨S8192x256, .f32⟩
  | 98 => ⟨S262144, .f32⟩
  | 99 => ⟨S_, .f32⟩
  | 100 => ⟨S8192, .f32⟩
  | 101 => ⟨S262144x1, .i32⟩
  | 102 => ⟨S8192, .f32⟩
  | 103 => ⟨S8192, .f32⟩
  | 104 => ⟨S_, .f32⟩
  | 105 => ⟨S8192, .f32⟩
  | 106 => ⟨S8192, .i1⟩
  | 107 => ⟨S8192, .f32⟩
  | 108 => ⟨S_, .f32⟩
  | 109 => ⟨S_, .f32⟩
  | 110 => ⟨S_, .f32⟩
  | 111 => ⟨S_, .f32⟩
  | 112 => ⟨S8192x1, .f32⟩
  | 113 => ⟨S8192x256, .f32⟩
  | 114 => ⟨S8192x256, .f32⟩
  | 115 => ⟨S_, .f32⟩
  | 116 => ⟨S256, .f32⟩
  | 117 => ⟨S256, .f32⟩
  | 118 => ⟨S256, .f32⟩
  | 119 => ⟨S_, .f32⟩
  | 120 => ⟨S_, .f32⟩
  | 121 => ⟨S_, .f32⟩
  | 122 => ⟨S_, .i1⟩
  | 123 => ⟨S_, .f32⟩
  | 124 => ⟨S256, .f32⟩
  | 125 => ⟨S256, .f32⟩
  | 126 => ⟨S1x262144, .f32⟩
  | 127 => ⟨S262144, .f32⟩
  | _ => ⟨S8192x256, .f32⟩

abbrev hbmTy0_2 (i : Nat) : BufTy := match i % 128 with
  | 0 => ⟨S_, .f32⟩
  | 1 => ⟨S262144, .f32⟩
  | 2 => ⟨S262144, .i1⟩
  | 3 => ⟨S1x256x256, .f32⟩
  | 4 => ⟨S256x256, .f32⟩
  | 5 => ⟨S8192x256, .f32⟩
  | 6 => ⟨S1x256, .f32⟩
  | 7 => ⟨S256, .f32⟩
  | 8 => ⟨S1x256, .f32⟩
  | 9 => ⟨S8192x256, .f32⟩
  | 10 => ⟨S8192x256, .f32⟩
  | 11 => ⟨S_, .f32⟩
  | 12 => ⟨S_, .f32⟩
  | 13 => ⟨S262144, .f32⟩
  | 14 => ⟨S262144, .f32⟩
  | 15 => ⟨S_, .f32⟩
  | 16 => ⟨S8192, .f32⟩
  | 17 => ⟨S262144x1, .i32⟩
  | 18 => ⟨S8192, .f32⟩
  | 19 => ⟨S262144, .f32⟩
  | 20 => ⟨S_, .f32⟩
  | 21 => ⟨S8192, .f32⟩
  | 22 => ⟨S262144x1, .i32⟩
  | 23 => ⟨S8192, .f32⟩
  | 24 => ⟨S_, .f32⟩
  | 25 => ⟨S8192, .f32⟩
  | 26 => ⟨S8192, .f32⟩
  | 27 => ⟨S8192, .f32⟩
  | 28 => ⟨S8192x1, .f32⟩
  | 29 => ⟨S_, .f32⟩
  | 30 => ⟨S8192x1, .f32⟩
  | 31 => ⟨S8192x1, .i1⟩
  | 32 => ⟨S8192x1, .f32⟩
  | 33 => ⟨S8192x256, .f32⟩
  | 34 => ⟨S8192x256, .f32⟩
  | 35 => ⟨S8192x256, .i1⟩
  | 36 => ⟨S8192x256, .f32⟩
  | 37 => ⟨S262144, .f32⟩
  | 38 => ⟨S_, .f32⟩
  | 39 => ⟨S8192, .f32⟩
  | 40 => ⟨S262144x1, .i32⟩
  | 41 => ⟨S8192, .f32⟩
  | 42 => ⟨S8192, .f32⟩
  | 43 => ⟨S_, .f32⟩
  | 44 => ⟨S8192, .f32⟩
  | 45 => ⟨S8192, .i1⟩
  | 46 => ⟨S8192, .f32⟩
  | 47 => ⟨S_, .f32⟩
  | 48 => ⟨S_, .f32⟩
  | 49 => ⟨S_, .f32⟩
  | 50 => ⟨S_, .f32⟩
  | 51 => ⟨S8192x1, .f32⟩
  | 52 => ⟨S8192x256, .f32⟩
  | 53 => ⟨S8192x256, .f32⟩
  | 54 => ⟨S_, .f32⟩
  | 55 => ⟨S256, .f32⟩
  | 56 => ⟨S256, .f32⟩
  | 57 => ⟨S256, .f32⟩
  | 58 => ⟨S_, .f32⟩
  | 59 => ⟨S_, .f32⟩
  | 60 => ⟨S_, .f32⟩
  | 61 => ⟨S_, .i1⟩
  | 62 => ⟨S_, .f32⟩
  | 63 => ⟨S256, .f32⟩
  | 64 => ⟨S256, .f32⟩
  | 65 => ⟨S1024, .f32⟩
  | 66 => ⟨S1x1024, .f32⟩
  | 67 => ⟨S1x2, .f32⟩
  | 68 => ⟨S1x2, .f32⟩
  | 69 => ⟨S1x2, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_cst_0 : Ref sig .tc := ⟨.hbm, 97, rfl⟩
abbrev main_call0_v2 : Ref sig .tc := ⟨.hbm, 98, rfl⟩
abbrev main_call0_v3 : Ref sig .tc := ⟨.hbm, 99, rfl⟩
abbrev main_v66 : Ref sig .tc := ⟨.hbm, 100, rfl⟩
abbrev main_v67 : Ref sig .tc := ⟨.hbm, 101, rfl⟩
abbrev main_c_12 : Ref sig .tc := ⟨.hbm, 102, rfl⟩
abbrev main_v68 : Ref sig .tc := ⟨.hbm, 103, rfl⟩
abbrev main_v69 : Ref sig .tc := ⟨.hbm, 104, rfl⟩
abbrev main_c_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_14 : Ref sig .tc := ⟨.hbm, 109, rfl⟩
abbrev main_v73 : Ref sig .tc := ⟨.hbm, 110, rfl⟩
abbrev main_v74 : Ref sig .tc := ⟨.hbm, 111, rfl⟩
abbrev main_c_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_16 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_17 : Ref sig .tc := ⟨.hbm, 133, rfl⟩
abbrev main_call1_v0 : Ref sig .tc := ⟨.hbm, 134, rfl⟩
abbrev main_call1_v1 : Ref sig .tc := ⟨.hbm, 135, rfl⟩
abbrev main_v94 : Ref sig .tc := ⟨.hbm, 136, rfl⟩
abbrev main_cst_18 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_19 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_20 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_21 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_call2_v0 : Ref sig .tc := ⟨.hbm, 157, rfl⟩
abbrev main_v111 : Ref sig .tc := ⟨.hbm, 158, rfl⟩
abbrev main_v112 : Ref sig .tc := ⟨.hbm, 159, rfl⟩
abbrev main_cst_22 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_23 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_24 : Ref sig .tc := ⟨.hbm, 169, rfl⟩
abbrev main_v120 : Ref sig .tc := ⟨.hbm, 170, rfl⟩
abbrev main_cst_25 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_26 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_27 : Ref sig .tc := ⟨.hbm, 180, rfl⟩
abbrev main_v128 : Ref sig .tc := ⟨.hbm, 181, rfl⟩
abbrev main_cst_28 : Ref sig .tc := ⟨.hbm, 182, rfl⟩
abbrev main_v129 : Ref sig .tc := ⟨.hbm, 183, rfl⟩
abbrev main_cst_29 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_30 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_31 : Ref sig .tc := ⟨.hbm, 200, rfl⟩
abbrev main_call4_v0 : Ref sig .tc := ⟨.hbm, 201, rfl⟩
abbrev main_call4_v1 : Ref sig .tc := ⟨.hbm, 202, rfl⟩
abbrev main_v144 : Ref sig .tc := ⟨.hbm, 203, rfl⟩
abbrev main_cst_32 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_33 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_34 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_35 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_call5_v0 : Ref sig .tc := ⟨.hbm, 224, rfl⟩
abbrev main_v161 : Ref sig .tc := ⟨.hbm, 225, rfl⟩
abbrev main_v162 : Ref sig .tc := ⟨.hbm, 226, rfl⟩
abbrev main_cst_36 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_37 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_38 : Ref sig .tc := ⟨.hbm, 236, rfl⟩
abbrev main_v170 : Ref sig .tc := ⟨.hbm, 237, rfl⟩
abbrev main_cst_39 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_cst_40 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_41 : Ref sig .tc := ⟨.hbm, 247, rfl⟩
abbrev main_v178 : Ref sig .tc := ⟨.hbm, 248, rfl⟩
abbrev main_cst_42 : Ref sig .tc := ⟨.hbm, 249, rfl⟩
abbrev main_v179 : Ref sig .tc := ⟨.hbm, 250, rfl⟩
abbrev main_cst_43 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_cst_44 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_cst_45 : Ref sig .tc := ⟨.hbm, 267, rfl⟩
abbrev main_call7_v0 : Ref sig .tc := ⟨.hbm, 268, rfl⟩
abbrev main_call7_v1 : Ref sig .tc := ⟨.hbm, 269, rfl⟩
abbrev main_v194 : Ref sig .tc := ⟨.hbm, 270, rfl⟩
abbrev main_cst_46 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_cst_47 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_cst_48 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_cst_49 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_call8_v0 : Ref sig .tc := ⟨.hbm, 291, rfl⟩
abbrev main_v211 : Ref sig .tc := ⟨.hbm, 292, rfl⟩
abbrev main_v212 : Ref sig .tc := ⟨.hbm, 293, rfl⟩
abbrev main_cst_50 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_cst_51 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_cst_52 : Ref sig .tc := ⟨.hbm, 303, rfl⟩
abbrev main_v220 : Ref sig .tc := ⟨.hbm, 304, rfl⟩
abbrev main_cst_53 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_cst_54 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_cst_55 : Ref sig .tc := ⟨.hbm, 314, rfl⟩
abbrev main_v228 : Ref sig .tc := ⟨.hbm, 315, rfl⟩
abbrev main_cst_56 : Ref sig .tc := ⟨.hbm, 316, rfl⟩
abbrev main_v229 : Ref sig .tc := ⟨.hbm, 317, rfl⟩
abbrev main_cst_57 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩

abbrev nD : Nat := 1
abbrev τ : Topo := Topo.v7x

variable {F : FTy → Type} [FloatOps F]

class Facts₀ : Prop where
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S256_d0 : S8192x256.ReducesTo [0] S256
  h_S_ : 0 < S_.numel
  bcast_S_S256 : S_.BroadcastsInDim S256 (![] : Fin 0 → Fin S256.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S262144x512_d1 : Shape.Concatenates [S262144x256, S262144x256] S262144x512 1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  concatenates_S262144x1_S262144x1_S262144x2_d1 : Shape.Concatenates [S262144x1, S262144x1] S262144x2 1
  slices_S3x262144_S1x262144_0_0 : S3x262144.Slices ![0, 0] S1x262144
  shapeCasts_S1x262144_S262144 : S1x262144.ShapeCasts S262144
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S8192x1 : S_.BroadcastsInDim S8192x1 (![] : Fin 0 → Fin S8192x1.rank)
  reducesTo_S8192_S_d0 : S8192.ReducesTo [0] S_
  slices_S3x262144_S1x262144_1_0 : S3x262144.Slices ![1, 0] S1x262144
  slices_S3x256x256_S1x256x256_1_0_0 : S3x256x256.Slices ![1, 0, 0] S1x256x256
  slices_S3x256_S1x256_1_0 : S3x256.Slices ![1, 0] S1x256
  slices_S3x262144_S1x262144_2_0 : S3x262144.Slices ![2, 0] S1x262144
  slices_S3x256x256_S1x256x256_2_0_0 : S3x256x256.Slices ![2, 0, 0] S1x256x256
  slices_S3x256_S1x256_2_0 : S3x256.Slices ![2, 0] S1x256
  concatenates_S256_S256_S256_S256_S1024_d0 : Shape.Concatenates [S256, S256, S256, S256] S1024 0
  bcast_S1024_S1x1024_1 : S1024.BroadcastsInDim S1x1024 (![1] : Fin 1 → Fin S1x1024.rank)
  bcast_S2_S1x2_1 : S2.BroadcastsInDim S1x2 (![1] : Fin 1 → Fin S1x2.rank)
  scatter_S8192_S270336x1_S270336_n_0_0_1_wf : ScatterDims.WF S8192 S270336x1 S270336 [] [0] [0] 1
  dot_S8192x256_S256x256_S8192x256_1_0_0_1_n_n_wf : DotDims.WF S8192x256 S256x256 S8192x256 [1] [0] [0] [1] [] []
  gather_S8192x256_S270336x1_S270336x256_1_0_n_n_0_1_1256_wf : GatherDims.WF S8192x256 S270336x1 S270336x256 [1] [0] [] [0] [] 1 ![1, 256]
  gather_S8192_S270336x1_S270336_n_0_n_n_0_1_1_wf : GatherDims.WF S8192 S270336x1 S270336 [] [0] [] [0] [] 1 ![1]
  scatter_S8192x256_S270336x1_S270336x256_1_0_0_1_wf : ScatterDims.WF S8192x256 S270336x1 S270336x256 [1] [0] [0] 1
  gather_S8192x256_S262144x1_S262144x256_1_0_n_n_0_1_1256_wf : GatherDims.WF S8192x256 S262144x1 S262144x256 [1] [0] [] [0] [] 1 ![1, 256]
  dot_S262144x512_S512x1_S262144x1_1_0_0_1_n_n_wf : DotDims.WF S262144x512 S512x1 S262144x1 [1] [0] [0] [1] [] []
  gather_S3x8192x8192_S262144x2_S3x262144_0_12_n_n_12_1_311_wf : GatherDims.WF S3x8192x8192 S262144x2 S3x262144 [0] [1, 2] [] [1, 2] [] 1 ![3, 1, 1]
  scatter_S8192_S262144x1_S262144_n_0_0_1_wf : ScatterDims.WF S8192 S262144x1 S262144 [] [0] [0] 1
  dot_S1x1024_S1024x2_S1x2_1_0_0_1_n_n_wf : DotDims.WF S1x1024 S1024x2 S1x2 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf
def gather_S3x8192x8192_S262144x2_S3x262144_0_12_n_n_12_1_311 : GatherDims S3x8192x8192 S262144x2 S3x262144 where
  offsetDims := [0]
  collapsedSliceDims := [1, 2]
  operandBatchingDims := []
  startIndicesBatchingDims := []
  startIndexMap := [1, 2]
  indexVectorDim := 1
  sliceSizes := ![3, 1, 1]
  wf := gather_S3x8192x8192_S262144x2_S3x262144_0_12_n_n_12_1_311_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S1x1024_S1024x2_S1x2_1_0_0_1_n_n : DotDims S1x1024 S1024x2 S1x2 where
  lhsContracting := [1]
  rhsContracting := [0]
  lhsNonContracting := [0]
  rhsNonContracting := [1]
  lhsBatch := []
  rhsBatch := []
  wf := dot_S1x1024_S1024x2_S1x2_1_0_0_1_n_n_wf

class Facts : Prop extends Facts₀ where

variable [Facts]
-- ==== Proof.Reg0DefsW.lean ====
import proofs.«428349_j38809324486859_3_alg».proof.Proof.Gen.Kernel.Skeleton
import proofs.«428349_j38809324486859_3_alg».proof.Proof.Gen.Kernel.Launch
import proofs.«428349_j38809324486859_3_alg».proof.Proof.Gen.Kernel.Points
import Idealize.ShloMosaic.Lib.ValueIdx

noncomputable section

namespace Cert.Kernel.Hand

open Cert.Kernel Cert.Kernel.Gen
open Idealize.ShloMosaic Idealize.ShloMosaic.TcCoe Idealize.ShloMosaic.ValueIdx
open Idealize.SL.Sem

variable {F : FTy → Type} [FloatOps F]

-- Chunk `n` of the source-index column: its rows `[256 n, 256 n + 256)` (zero past the last chunk).
def ublk0 (us : Vec F S262144x1 .i32) (n : ℕ) : Vec F S256x1 .i32 :=
  if h : n < cfg0.N then ((cfg0.win 0).blk ⟨n, h⟩).view.read (Elt F) us else fun _ => (0 : BitVec 32)

-- Chunk `n` of the target-index column.
def vblk0 (vs : Vec F S262144x1 .i32) (n : ℕ) : Vec F S256x1 .i32 :=
  if h : n < cfg0.N then ((cfg0.win 1).blk ⟨n, h⟩).view.read (Elt F) vs else fun _ => (0 : BitVec 32)

-- One chunk added to the accumulator `s`: the product over `hi`, then the one over `lo`.
def step0 (u v : Vec F S256x1 .i32) (hi lo : Vec F S8192x256 .bf16) (s : Vec F S8192x256 .f32) : Vec F S8192x256 .f32 :=
  k0_pay1 (k0_pay6 u v lo) (k0_pay7 u v hi s)

variable (us vs : Vec F S262144x1 .i32) (hi lo : Vec F S8192x256 .bf16)

-- The accumulator after chunk `n`: reset to zero before the chunks `≡ 0 (mod 512)` are added.
def acc0 : ℕ → Vec F S8192x256 .f32
  | 0 => step0 (ublk0 us 0) (vblk0 vs 0) hi lo k0_pay3
  | n + 1 => step0 (ublk0 us (n + 1)) (vblk0 vs (n + 1)) hi lo
      (if (n + 1) % 512 = 0 then k0_pay3 else acc0 n)

theorem acc0_succ (n : ℕ) :
    acc0 us vs hi lo (n + 1) = step0 (ublk0 us (n + 1)) (vblk0 vs (n + 1)) hi lo
      (if (n + 1) % 512 = 0 then k0_pay3 else acc0 us vs hi lo n) := rfl

theorem acc0_of_first (n : ℕ) (h : n % 512 = 0) :
    acc0 us vs hi lo n = step0 (ublk0 us n) (vblk0 vs n) hi lo k0_pay3 := by
  cases n with
  | zero => rfl
  | succ n => rw [acc0_succ, if_pos h]

theorem acc0_of_later (n : ℕ) (h : n % 512 ≠ 0) :
    acc0 us vs hi lo n = step0 (ublk0 us n) (vblk0 vs n) hi lo (acc0 us vs hi lo (n - 1)) := by
  cases n with
  | zero => exact absurd (Nat.zero_mod _) h
  | succ n => rw [acc0_succ, if_neg h]; rfl

-- The result array: plane `a` is the accumulator after chunk `512 a + 511`.
def regOut0 (us vs : Vec F S262144x1 .i32) (hi lo : Vec F S8192x256 .bf16) : Vec F S2x8192x256 .f32 :=
  fun i => acc0 us vs hi lo (512 * (i 0).val + 511) (ix2 (i 1 : Fin 8192) (i 2 : Fin 256))

theorem regOut0_apply (a : Fin 2) (r : Fin 8192) (k : Fin 256) :
    regOut0 us vs hi lo (ix3 a r k) = acc0 us vs hi lo (512 * a.val + 511) (ix2 r k) := rfl

end Cert.Kernel.Hand

end
-- ==== Proof.Reg0RunsW.lean ====
import proofs.«428349_j38809324486859_3_alg».proof.Proof.Reg0DefsW
import Idealize.ShloMosaic.Lib.Pipeline.FrameBody
import Idealize.ShloMosaic.Lib.Pipeline.Value
import Idealize.ShloMosaic.Lib.Pipeline.TableIdle
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_1 (i : grid0.Coords) : Prop := (Scalar.cmpi .ne (Scalar.extui (Scalar.cmpi .eq (BitVec.ofNat 32 (i 1).val) 0#32)) 0#32) = 1#1
-- The reset condition holds exactly at the chunks that open a half of the sweep.
theorem hcond0_1 : ∀ t : Fin cfg0.N, cond0_1 (grid0.coords t) ↔ t.val % 512 = 0 :=
  (by decide +kernel : ∀ t : Fin grid0.N, cond0_1 (grid0.coords t) ↔ t.val % 512 = 0)

abbrev cond0_2 (i : grid0.Coords) : Prop := k0_cond2 i = 1#1
-- The copy-out condition holds exactly at the chunks that close a half.
theorem hcond0_2 : ∀ t : Fin cfg0.N, cond0_2 (grid0.coords t) ↔ t.val % 512 = 511 :=
  (by decide +kernel : ∀ t : Fin grid0.N, cond0_2 (grid0.coords t) ↔ t.val % 512 = 511)

theorem hz2 : (![0, 0] : Fin 2 → ℕ) = fun _ => 0 := by funext a; fin_cases a <;> rfl
theorem hz3 : (![0, 0, 0] : Fin 3 → ℕ) = fun _ => 0 := by funext a; fin_cases a <;> rfl

-- A load of the whole buffer, after stores the last of which filled it, reads that store's payload.
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

-- What a buffer holds after stores the last of which filled it: that store's payload.
theorem read_writes_cons_whole {Val : EltTy → Type} {S : Shape} {e : EltTy} {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  funext y
  exact View.read_writes_cons_unit_of_mem v f inb w L y y h (fun a => by rw [Nat.zero_add])

variable (c : Dev nD) (i : grid0.Coords)
  (arg2 : Memref sig .tc .vmem S256x1 .i32) (harg2 : arg2.IsWhole) (arg3 : Memref sig .tc .vmem S256x1 .i32) (harg3 : arg3.IsWhole)
  (arg4 : Memref sig .tc .vmem S8192x256 .bf16) (harg4 : arg4.IsWhole) (arg5 : Memref sig .tc .vmem S8192x256 .bf16) (harg5 : arg5.IsWhole)
  (arg6 : Memref sig .tc .vmem S1x8192x256 .f32) (harg6 : arg6.IsWhole) (arg7 : Memref sig .tc .vmem S8192x256 .f32) (harg7 : arg7.IsWhole)
  (u v : Vec F S256x1 .i32) (hi lo : Vec F S8192x256 .bf16)

-- The four input blocks, which the body only reads.
def ins0 : sProp 𝕄 :=
  iprop(owns (c : Thread nD τ) arg2 fullShare u ∗ owns (c : Thread nD τ) arg3 fullShare v
    ∗ owns (c : Thread nD τ) arg4 fullShare hi ∗ owns (c : Thread nD τ) arg5 fullShare lo)

set_option maxHeartbeats 3000000 in
-- One run of the body: the accumulator gains the chunk (from zero where a half opens); the result block takes it where a half closes.
theorem run0 (d : Vec F S1x8192x256 .f32) (s : Vec F S8192x256 .f32) (hx : cond0_1 i → ¬cond0_2 i) (E : Set ℕ) (K : PUnit → sProp 𝕄) :
    iprop(ins0 c arg2 arg3 arg4 arg5 u v hi lo ∗ owns (c : Thread nD τ) arg6 fullShare d ∗ owns (c : Thread nD τ) arg7 fullShare s
        ∗ (iprop(ins0 c arg2 arg3 arg4 arg5 u v hi lo
            ∗ owns (c : Thread nD τ) arg6 fullShare (if cond0_2 i then k0_pay2 (step0 u v hi lo (if cond0_1 i then k0_pay3 else s)) else d)
            ∗ owns (c : Thread nD τ) arg7 fullShare (step0 u v hi lo (if cond0_1 i then k0_pay3 else s))) -∗ K ⟨⟩))
      ⊢ wp frame (wpE (defs₀ (F := F)) Variants.none c none) E (cc0__graph_conv_kernel i arg2 harg2 arg3 harg3 arg4 harg4 arg5 harg5 arg6 harg6 arg7 harg7) K := by
  by_cases hc1 : cond0_1 i <;> by_cases hc2 : cond0_2 i
  · exact absurd hc2 (hx hc1)
  all_goals
    first | rw [if_pos hc1] | rw [if_neg hc1]
    first | rw [if_pos hc2] | rw [if_neg hc2]
    unfold ins0
    rw [owns_eq_rep (c : Thread nD τ) arg2, owns_eq_rep (c : Thread nD τ) arg3, owns_eq_rep (c : Thread nD τ) arg4,
      owns_eq_rep (c : Thread nD τ) arg5, owns_eq_rep (c : Thread nD τ) arg6 _ d, owns_eq_rep (c : Thread nD τ) arg7 _ s]
    simp only [cc0__graph_conv_kernel_eq_skeleton]; unfold cc0__graph_conv_kernel_skel
    simp only [k0_part1_eq_skeleton]
    iintro ⟨⟨H2, H3, H4, H5⟩, H6, H7, Hk⟩
    sl_exec (disch := first | exact hc1 | exact hc2)
    sl_step
    iapply Hk
    isplitl [H2 H3 H4 H5]
    · isplitl [H2]; · iexact H2
      isplitl [H3]; · iexact H3
      isplitl [H4]; · iexact H4
      iexact H5
    isplitl [H6]
    · first
      | iexact H6
      | unfold owns; iexists _; isplitr
        swap; · iexact H6
        ipureintro; sl_unfold_words
        rw [read_writes_cons_whole (S := S1x8192x256) _ _ hz3]
        simp only [View.readAt_eq_ld, View.read_rep, View.ld_unit_zero (S := S256x1) hz2, View.ld_unit_zero (S := S8192x256) hz2,
          readCov_cons_whole (S := S8192x256) _ hz2]
        rfl
    unfold owns; iexists _; isplitr
    swap; · iexact H7
    ipureintro; sl_unfold_words
    rw [read_writes_cons_whole (S := S8192x256) _ _ hz2]
    simp only [View.readAt_eq_ld, View.read_rep, View.ld_unit_zero (S := S256x1) hz2, View.ld_unit_zero (S := S8192x256) hz2,
      readCov_cons_whole (S := S8192x256) _ hz2]
    rfl

end Cert.Kernel.Hand

end
-- ==== Proof.Reg0W.lean ====
import proofs.«428349_j38809324486859_3_alg».proof.Proof.Reg0RunsW
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at chunk `t`, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable (c : Dev nD) (t : Fin cfg0.N)

abbrev ub : Vec F S256x1 .i32 := iblk0 V c 0 t
abbrev vb : Vec F S256x1 .i32 := iblk0 V c 1 t
abbrev hib : Vec F S8192x256 .bf16 := iblk0 V c 2 t
abbrev lob : Vec F S8192x256 .bf16 := iblk0 V c 3 t

abbrev usV : Vec F S262144x1 .i32 := V c main_v22
abbrev vsV : Vec F S262144x1 .i32 := V c main_v23
abbrev hiV : Vec F S8192x256 .bf16 := V c main_v16
abbrev loV : Vec F S8192x256 .bf16 := V c main_v19

theorem ub_eq : ub V c t = ublk0 (usV V c) t.val := by
  unfold ublk0; rw [dif_pos t.isLt]; rfl
theorem vb_eq : vb V c t = vblk0 (vsV V c) t.val := by
  unfold vblk0; rw [dif_pos t.isLt]; rfl

-- The one block of a window over a whole array is the array.
theorem hib_eq : hib V c t = hiV V c := by
  funext x
  show ((cfg0.win 2).blk t).view.read (Elt F) (V c main_v16) x = V c main_v16 x
  rw [View.read_apply]
  have hx : ((cfg0.win 2).blk t).view.emb x = x := funext fun a => Fin.ext (by
    show cc0_transform_2 (grid0.coords t) a * S8192x256.size a + 1 * (x a).val = (x a).val
    have h0 : cc0_transform_2 (grid0.coords t) a = 0 := by fin_cases a <;> rfl
    rw [h0, Nat.zero_mul, Nat.zero_add, Nat.one_mul])
  rw [hx]; rfl
theorem lob_eq : lob V c t = loV V c := by
  funext x
  show ((cfg0.win 3).blk t).view.read (Elt F) (V c main_v19) x = V c main_v19 x
  rw [View.read_apply]
  have hx : ((cfg0.win 3).blk t).view.emb x = x := funext fun a => Fin.ext (by
    show cc0_transform_3 (grid0.coords t) a * S8192x256.size a + 1 * (x a).val = (x a).val
    have h0 : cc0_transform_3 (grid0.coords t) a = 0 := by fin_cases a <;> rfl
    rw [h0, Nat.zero_mul, Nat.zero_add, Nat.one_mul])
  rw [hx]; rfl

-- The accumulator after chunk `n`, over the arrays as the region finds them on core `c`.
def accV (n : ℕ) : Vec F S8192x256 .f32 := acc0 (usV V c) (vsV V c) (hiV V c) (loV V c) n

-- One chunk added to what the chunk before left (to zero where the chunk opens a half) is the accumulator after the chunk.
theorem accV_step (s : Vec F S8192x256 .f32) (hs : t.val ≠ 0 → s = accV V c (t.val - 1)) :
    step0 (ub V c t) (vb V c t) (hib V c t) (lob V c t) (if cond0_1 (grid0.coords t) then k0_pay3 else s) = accV V c t.val := by
  unfold accV at hs ⊢
  by_cases h1 : t.val % 512 = 0
  · rw [if_pos ((hcond0_1 t).mpr h1), acc0_of_first _ _ _ _ _ h1, ub_eq, vb_eq, hib_eq, lob_eq]
  · rw [if_neg (fun h => h1 ((hcond0_1 t).mp h)), hs (fun e => h1 (by rw [e])), acc0_of_later _ _ _ _ _ h1, ub_eq, vb_eq, hib_eq, lob_eq]

-- The result is stored only at a chunk that closes a half.
theorem idleAt0_4 (h : ¬cond0_2 (grid0.coords t)) : cfg0.idle 4 (grid0.coords t) = true := by
  show (!(k0_cond2 (grid0.coords t) == 1#1)) = true
  rw [Bool.not_eq_true', beq_eq_false_iff_ne]; exact h
theorem noFlush0_4 (h : ¬cond0_2 (grid0.coords t)) : (cfg0.win 4).flush t = false := by
  cases hf : (cfg0.win 4).flush t
  · rfl
  · exact absurd ((hcond0_2 t).mpr ((flush0_4 t).mp hf)) h
theorem liveAt0_4 (h : cond0_2 (grid0.coords t)) : cfg0.idle 4 (grid0.coords t) = false := by
  show (!(k0_cond2 (grid0.coords t) == 1#1)) = false
  rw [show k0_cond2 (grid0.coords t) = 1#1 from h]; rfl

abbrev scM0 : Memref sig .tc .vmem S8192x256 .f32 := Memref.whole cc0_scratch0

def rest0 : sProp 𝕄 :=
  Pipeline.scopedRestBut (Ix := Unit) (Name := ℕ) (U := UR sig nD τ) (Lvl := ℕ) (Val := Elt F) spec0 c [cc0_scratch0]

-- The region's entry resources, with the accumulator's buffer set apart.
theorem PhiA0_eq :
    (Pipeline.ΦA spec0 c : sProp 𝕄)
      = iprop(((∃ d, owns (c : Thread nD τ) scM0 fullShare d) ∗ rest0 c) ∗ (∃ r, prngReg c r)) := by
  unfold Pipeline.ΦA rest0
  rw [Pipeline.scopedRest_split_of_list spec0 c [cc0_scratch0] (by decide) (by decide)]
  simp only [scM0, owns_whole, bigSepL_singleton]; try rfl

-- The invariant before chunk `n`: the accumulator holds what the chunks so far have added (anything before the first).
def PhiS : ℕ → sProp 𝕄
  | 0 => Pipeline.ΦA spec0 c
  | n + 1 => iprop((owns (c : Thread nD τ) scM0 fullShare (accV V c n) ∗ rest0 c) ∗ (∃ r, prngReg c r))

theorem PhiS_succ (n : ℕ) :
    PhiS V c (n + 1) = iprop((owns (c : Thread nD τ) scM0 fullShare (accV V c n) ∗ rest0 c) ∗ (∃ r, prngReg c r)) := rfl

-- Before any chunk the accumulator's buffer is held at some contents: those the chunk before left, if there was one.
theorem PhiS_open (n : ℕ) :
    PhiS V c n ⊢ iprop(∃ s, ⌜n ≠ 0 → s = accV V c (n - 1)⌝ ∗ (owns (c : Thread nD τ) scM0 fullShare s ∗ rest0 c) ∗ (∃ r, prngReg c r)) := by
  cases n with
  | zero =>
    show Pipeline.ΦA spec0 c ⊢ _
    rw [PhiA0_eq]
    iintro ⟨⟨⟨%d, HS⟩, HR⟩, Hg⟩
    iexists d
    isplitr; · ipureintro; exact fun h => absurd rfl h
    iframe HS HR Hg
  | succ n =>
    rw [PhiS_succ]
    iintro H
    iexists accV V c n
    isplitr; · ipureintro; exact fun _ => rfl
    iexact H

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (accV V c t.val)
  Φ t := PhiS V c t.val
  q _ := fullShare
  owed _ := 0

theorem A_eq0 (c : Dev nD) (w : Fin cfg0.W) : (dat0 V c).A w = V c (Pipeline.arrRef spec0 w) := by
  dsimp only [dat0]
theorem hrec0 (c : Dev nD) : (dat0 V c).recorded 0 = Set.univ := rfl
theorem hq0 (c : Dev nD) (w : Fin cfg0.W) : (dat0 V c).q w = fullShare := rfl
theorem howed0 (c : Dev nD) (t : Fin (cfg0.N + 1)) : (dat0 V c).owed t = 0 := rfl

theorem Phi_castSucc : (dat0 V c).Φ t.castSucc = PhiS V c t.val := by
  dsimp only [dat0]; simp only [Fin.coe_castSucc]

theorem after0_0 : (dat0 V c).after 0 t = ub V c t := by dsimp only [dat0]
theorem after0_1 : (dat0 V c).after 1 t = vb V c t := by dsimp only [dat0]
theorem after0_2 : (dat0 V c).after 2 t = hib V c t := by dsimp only [dat0]
theorem after0_3 : (dat0 V c).after 3 t = lob V c t := by dsimp only [dat0]
theorem after0_4 : (dat0 V c).after 4 t = k0_pay2 (accV V c t.val) := by dsimp only [dat0]

-- At every chunk the body finds each input's block
theorem before0 : ∀ w : Fin cfg0.W, w ≠ 4 → ∀ (t : Fin cfg0.N) d, (dat0 V c).before w t d = (dat0 V c).after w t
  | ⟨0, _⟩, _ | ⟨1, _⟩, _ | ⟨2, _⟩, _ | ⟨3, _⟩, _ => fun t d =>
    ((dat0 V c).before_in_eq_fetched _ rfl (fun _ => rfl) (fun _ _ _ => rfl) (fun _ => rfl) t d).trans rfl
  | ⟨4, _⟩, h => absurd rfl h

-- and leaves it there.
theorem leaves0 : ∀ w : Fin cfg0.W, w ≠ 4 →
    (dat0 V c).leavesExact w t = owns (c : Thread nD τ) ((cfg0.win w).stage (cfg0.slots t w)) fullShare ((dat0 V c).after w t)
  | ⟨0, _⟩, _ | ⟨1, _⟩, _ | ⟨2, _⟩, _ | ⟨3, _⟩, _ => rfl
  | ⟨4, _⟩, h => absurd rfl h

-- The result's buffer takes the accumulator at a chunk that closes a half and is left as found at any other.
theorem leaves4 (d) :
    owns (c : Thread nD τ) (st0_4 t) fullShare (if cond0_2 (grid0.coords t) then k0_pay2 (accV V c t.val) else (dat0 V c).before 4 t d)
      ⊢ (dat0 V c).leavesExact 4 t := by
  by_cases h : cond0_2 (grid0.coords t)
  · rw [if_pos h, show (dat0 V c).leavesExact 4 t = owns (c : Thread nD τ) (st0_4 t) fullShare ((dat0 V c).after 4 t) from by
      unfold Dat.leavesExact; rw [liveAt0_4 t h], after0_4]
  · rw [if_neg h, Dat.leavesExact_idle (dat0 V c) 4 t (idleAt0_4 t h) (noFlush0_4 t h)]
    iintro H; iexists d; iexact H

def bodyPre0 : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1600000 in
-- The body at any chunk: the invariant hands it the accumulator and takes it back with this chunk added.
theorem sound_body0 :
    bodyPre0 V c t ⊢ wp frame (wpE (defs₀ (F := F)) Variants.none c none) Set.univ (bodyAt0 t) (fun _ => bodyPost0 V c t) := by
  unfold bodyPre0 bodyPost0 bodyAt0
  simp only [before0 V c 0 (by decide), before0 V c 1 (by decide), before0 V c 2 (by decide), before0 V c 3 (by decide)]
  rw [show (dat0 V c).owesAt () t.succ = (dat0 V c).owesAt () t.castSucc from rfl,
    show (dat0 V c).Φ t.succ = PhiS V c (t.val + 1) from rfl, PhiS_succ, Phi_castSucc,
    leaves0 V c t 0 (by decide), leaves0 V c t 1 (by decide), leaves0 V c t 2 (by decide), leaves0 V c t 3 (by decide),
    after0_0, after0_1, after0_2, after0_3]
  iintro ⟨HΦ, Ho, ⟨%d0, H0⟩, ⟨%d1, H1⟩, ⟨%d2, H2⟩, ⟨%d3, H3⟩, ⟨%d4, H4⟩⟩
  ihave HΦ' := (PhiS_open V c t.val) $$ HΦ
  icases HΦ' with ⟨%s, %hs, ⟨HS, HR⟩, Hg⟩
  iapply (run0 c (grid0.coords t) _ _ _ _ _ _ _ _ _ _ _ _ (ub V c t) (vb V c t) (hib V c t) (lob V c t) ((dat0 V c).before 4 t d4) s
    (fun h1 h2 => by have := (hcond0_1 t).mp h1; have := (hcond0_2 t).mp h2; omega) Set.univ _)
  unfold ins0
  iframe H0 H1 H2 H3 H4 HS
  iintro ⟨⟨H0, H1, H2, H3⟩, H4, HS⟩
  rw [accV_step V c t s hs]
  iframe HS HR Hg Ho H0 H1 H2 H3
  iapply leaves4 V c t d4
  iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

-- After the last chunk the accumulator's contents are forgotten.
theorem hout0 (c : Dev nD) : (dat0 V c).Φ (Fin.last cfg0.N) ⊢ Pipeline.ΦA spec0 c := by
  rw [show (dat0 V c).Φ (Fin.last cfg0.N) = PhiS V c (1023 + 1) from rfl, PhiS_succ, PhiA0_eq]
  iintro ⟨⟨HS, HR⟩, Hg⟩
  iframe HR Hg
  iexists _; iexact HS

theorem hidx4 : ∀ t : Fin cfg0.N, t.val % 512 = 511 → 512 * cc0_transform_4 (grid0.coords t) 0 + 511 = t.val := by decide +kernel
-- The result window's block at a chunk that closes a half is plane `t / 512` of the result array.
theorem emb4 (h : t.val % 512 = 511) (x0 : Fin 1) (x1 : Fin 8192) (x2 : Fin 256) :
    ((cfg0.win 4).blk t).view.emb (ix3 x0 x1 x2)
      = (ix3 (⟨t.val / 512, by have := t.isLt; have : cfg0.N = 1024 := N_0; omega⟩ : Fin 2) x1 x2 : S2x8192x256.Idx) :=
  funext fun a => Fin.ext (by
    have := hidx4 t h
    have := x0.isLt
    match a with
    | ⟨0, _⟩ => show cc0_transform_4 (grid0.coords t) 0 * 1 + 1 * x0.val = t.val / 512; omega
    | ⟨1, _⟩ => show 0 * 8192 + 1 * x1.val = x1.val; rw [Nat.zero_mul, Nat.zero_add, Nat.one_mul]
    | ⟨2, _⟩ => show 0 * 256 + 1 * x2.val = x2.val; rw [Nat.zero_mul, Nat.zero_add, Nat.one_mul])

theorem k0_pay2_apply (A : Vec F S8192x256 .f32) (x0 : Fin 1) (x1 : Fin 8192) (x2 : Fin 256) :
    k0_pay2 A (ix3 x0 x1 x2) = A (ix2 x1 x2) :=
  shapeCast_ab_1ab_apply A shapeCasts_S8192x256_S1x8192x256 x0 x1 x2

-- What a chunk that closes a half writes back is its block of `regOut0`.
theorem flushed0_4 (hf : (cfg0.win 4).flush t = true) :
    (dat0 V c).flushed 4 t = ((cfg0.win 4).blk t).view.read (Elt F) (regOut0 (usV V c) (vsV V c) (hiV V c) (loV V c)) := by
  have h2 : t.val % 512 = 511 := (flush0_4 t).mp hf
  show (cfg0.win 4).cut (grid0.coords t) ((dat0 V c).after 4 t) = _
  rw [after0_4]
  funext x
  rw [View.read_apply]
  obtain ⟨x0, x1, x2, rfl⟩ : ∃ (x0 : Fin 1) (x1 : Fin 8192) (x2 : Fin 256), x = ix3 x0 x1 x2 := ⟨x 0, x 1, x 2, eq_ix3 x⟩
  show k0_pay2 (accV V c t.val) (ix3 x0 x1 x2)
    = regOut0 (usV V c) (vsV V c) (hiV V c) (loV V c) (((cfg0.win 4).blk t).view.emb (ix3 x0 x1 x2))
  rw [k0_pay2_apply, emb4 t h2, regOut0_apply]
  show acc0 _ _ _ _ t.val _ = acc0 _ _ _ _ (512 * (t.val / 512) + 511) _
  rw [show 512 * (t.val / 512) + 511 = t.val by omega]

-- The two closing chunks' blocks cover the result array.
theorem cover0_4 (i : S2x8192x256.Idx) :
    ∃ t : Fin cfg0.N, (cfg0.win 4).flush t = true ∧ i ∈ ((cfg0.win 4).blk t).view.set := by
  have hi0 : (i 0).val < 2 := (i 0).isLt
  obtain ⟨t, ht⟩ : ∃ t : Fin cfg0.N, t.val = 512 * (i 0).val + 511 := ⟨⟨_, by have : cfg0.N = 1024 := N_0; omega⟩, rfl⟩
  have hm : t.val % 512 = 511 := by omega
  refine ⟨t, (flush0_4 t).mpr hm, ?_⟩
  have e : ∀ h, (⟨t.val / 512, h⟩ : Fin 2) = i 0 := fun h => Fin.ext (by show t.val / 512 = (i 0).val; omega)
  have hx : ((cfg0.win 4).blk t).view.emb (ix3 (0 : Fin 1) (i 1 : Fin 8192) (i 2 : Fin 256)) = i :=
    (emb4 t hm 0 (i 1) (i 2)).trans (by rw [e]; exact (eq_ix3 i).symm)
  have hmem := View.emb_mem_set ((cfg0.win 4).blk t).view (ix3 (0 : Fin 1) (i 1 : Fin 8192) (i 2 : Fin 256))
  rw [hx] at hmem; exact hmem

theorem arrAt0_out (c : Dev nD) :
    (dat0 V c).arrAt 4 cfg0.N = regOut0 (usV V c) (vsV V c) (hiV V c) (loV V c) :=
  (dat0 V c).arrAt_eq_of_cover 4 (regOut0 (usV V c) (vsV V c) (hiV V c) (loV V c)) (flushed0_4 V c) cover0_4

end Cert.Kernel.Hand

end
-- ==== Proof.Reg1DefsW.lean ====
import proofs.«428349_j38809324486859_3_alg».proof.Proof.Gen.Kernel.Skeleton
import proofs.«428349_j38809324486859_3_alg».proof.Proof.Gen.Kernel.Launch
import proofs.«428349_j38809324486859_3_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe Idealize.SL.Sem

variable {F : FTy → Type} [FloatOps F]

abbrev payLo (mk : Vec F S3x512 .bf16) (tt : Vec F S1x512 .f32) : FVec F S3x512 .bf16 := k1_pay17 mk tt

abbrev payNumHi (vs : Vec F S512x1 .i32) (mk : Vec F S3x512 .bf16) (tt : Vec F S1x512 .f32) (s : Vec F S3x8192 .f32) :
    FVec F S3x8192 .f32 := k1_pay18 vs mk tt s

/-- Attention sums, in-counts and out-counts per motif and node, carried together. -/
abbrev Acc (F : FTy → Type) : Type := Vec F S3x8192 .f32 × Vec F S3x8192 .f32 × Vec F S3x8192 .f32

def zero1 : Acc F := (k1_pay8, k1_pay9, k1_pay10)

def stepNum (vs : Vec F S512x1 .i32) (tt : Vec F S1x512 .f32) (mk : Vec F S3x512 .bf16) (s : Vec F S3x8192 .f32) :
    Vec F S3x8192 .f32 :=
  k1_pay2 (k1_pay12 vs) (payLo mk tt) (k1_pay1 (payNumHi vs mk tt s))

def stepCnt (vs : Vec F S512x1 .i32) (mk : Vec F S3x512 .bf16) (s : Vec F S3x8192 .f32) : Vec F S3x8192 .f32 :=
  k1_pay3 (k1_pay12 vs) (k1_pay13 mk) s

def stepSrc (us : Vec F S512x1 .i32) (mk : Vec F S3x512 .bf16) (s : Vec F S3x8192 .f32) : Vec F S3x8192 .f32 :=
  k1_pay4 (k1_pay11 us) (k1_pay13 mk) s

/-- One chunk of 512 edges added to the three accumulators. -/
def step1 (us vs : Vec F S512x1 .i32) (tt : Vec F S1x512 .f32) (mk : Vec F S3x512 .bf16) (s : Acc F) : Acc F :=
  (stepNum vs tt mk s.1, stepCnt vs mk s.2.1, stepSrc us mk s.2.2)

def blkU (us : Vec F S262144x1 .i32) (t : Fin cfg1.N) : Vec F S512x1 .i32 := (win1_0.blk t).view.read (Elt F) us
def blkV (vs : Vec F S262144x1 .i32) (t : Fin cfg1.N) : Vec F S512x1 .i32 := (win1_1.blk t).view.read (Elt F) vs
def blkT (tt : Vec F S1x262144 .f32) (t : Fin cfg1.N) : Vec F S1x512 .f32 := (win1_2.blk t).view.read (Elt F) tt
def blkM (mk : Vec F S3x262144 .bf16) (t : Fin cfg1.N) : Vec F S3x512 .bf16 := (win1_3.blk t).view.read (Elt F) mk

section Sweep

variable (us vs : Vec F S262144x1 .i32) (tt : Vec F S1x262144 .f32) (mk : Vec F S3x262144 .bf16)

def stepAt (t : Fin cfg1.N) (s : Acc F) : Acc F :=
  step1 (blkU us t) (blkV vs t) (blkT tt t) (blkM mk t) s

/-- The accumulators after chunk `n`; they restart from zero at the first chunk of each half of the edge list. -/
def acc1 : (n : ℕ) → n < cfg1.N → Acc F
  | 0, hn => stepAt us vs tt mk ⟨0, hn⟩ zero1
  | n + 1, hn =>
    stepAt us vs tt mk ⟨n + 1, hn⟩ (if (n + 1) % 256 = 0 then zero1 else acc1 n (Nat.lt_of_succ_lt hn))

theorem acc1_succ (n : ℕ) (hn : n + 1 < cfg1.N) :
    acc1 us vs tt mk (n + 1) hn
      = stepAt us vs tt mk ⟨n + 1, hn⟩ (if (n + 1) % 256 = 0 then zero1 else acc1 us vs tt mk n (Nat.lt_of_succ_lt hn)) := rfl

theorem acc1_first (t : Fin cfg1.N) (h : t.val % 256 = 0) : acc1 us vs tt mk t.val t.isLt = stepAt us vs tt mk t zero1 := by
  obtain ⟨n, hn⟩ := t
  cases n with
  | zero => rfl
  | succ n => show stepAt us vs tt mk _ (if (n + 1) % 256 = 0 then _ else _) = _; rw [if_pos h]

theorem acc1_next (t : Fin cfg1.N) (h : t.val % 256 ≠ 0) :
    acc1 us vs tt mk t.val t.isLt
      = stepAt us vs tt mk t (acc1 us vs tt mk (t.val - 1) (Nat.lt_of_le_of_lt (Nat.sub_le _ _) t.isLt)) := by
  obtain ⟨n, hn⟩ := t
  cases n with
  | zero => exact absurd (Nat.zero_mod _) h
  | succ n => show stepAt us vs tt mk _ (if (n + 1) % 256 = 0 then _ else _) = _; rw [if_neg h]; rfl

theorem lastOf_lt (a : Fin 2) : 256 * a.val + 255 < cfg1.N := by
  have : cfg1.N = 512 := N_1
  have := a.isLt; omega

/-- Slice `a` of each result is its accumulator after the last chunk of half `a`. -/
def regOut1_0 : Vec F S2x3x8192 .f32 :=
  fun i => k1_pay5 (acc1 us vs tt mk (256 * (i 0).val + 255) (lastOf_lt (i 0))).1 (fun a => match a with | ⟨0, _⟩ => (0 : Fin 1) | ⟨1, _⟩ => i 1 | ⟨2, _⟩ => i 2)
def regOut1_1 : Vec F S2x3x8192 .f32 :=
  fun i => k1_pay6 (acc1 us vs tt mk (256 * (i 0).val + 255) (lastOf_lt (i 0))).2.1 (fun a => match a with | ⟨0, _⟩ => (0 : Fin 1) | ⟨1, _⟩ => i 1 | ⟨2, _⟩ => i 2)
def regOut1_2 : Vec F S2x3x8192 .f32 :=
  fun i => k1_pay7 (acc1 us vs tt mk (256 * (i 0).val + 255) (lastOf_lt (i 0))).2.2 (fun a => match a with | ⟨0, _⟩ => (0 : Fin 1) | ⟨1, _⟩ => i 1 | ⟨2, _⟩ => i 2)

end Sweep

end Cert.Kernel.Hand

end
-- ==== Proof.Reg1KitW.lean ====
import proofs.«428349_j38809324486859_3_alg».proof.Proof.Reg1DefsW
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 256 = 0 :=
  (by decide +kernel : ∀ t : Fin grid1.N, cond1_0 (grid1.coords t) ↔ t.val % 256 = 0)

abbrev cond1_1 (i : grid1.Coords) : Prop := k1_cond2 i = 1#1
theorem hcond1_1 : ∀ t : Fin cfg1.N, cond1_1 (grid1.coords t) ↔ t.val % 256 = 255 :=
  (by decide +kernel : ∀ t : Fin grid1.N, cond1_1 (grid1.coords t) ↔ t.val % 256 = 255)

/-- A result window is stored at the last chunk of a half, and neither stored nor written back at any other. -/
theorem outAt1 : ∀ (t : Fin cfg1.N) (w : Fin cfg1.W), 4 ≤ w.val →
    if cond1_1 (grid1.coords t) then cfg1.idle w (grid1.coords t) = false
    else cfg1.idle w (grid1.coords t) = true ∧ (cfg1.win w).flush t = false := by decide +kernel

abbrev scM1_0 : Memref sig .tc .vmem S3x8192 .f32 := Memref.whole cc1_scratch0
abbrev scM1_1 : Memref sig .tc .vmem S3x8192 .f32 := Memref.whole cc1_scratch1
abbrev scM1_2 : Memref sig .tc .vmem S3x8192 .f32 := Memref.whole cc1_scratch2

/-- What the pass holds between chunks: the three accumulators as `P0`, `P1`, `P2` say, every other scoped buffer
    at anything, the generator register at some state. -/
def keeps1 (c : Dev nD) (P0 P1 P2 : sProp 𝕄) : sProp 𝕄 :=
  iprop(((P0 ∗ P1 ∗ P2) ∗ Pipeline.scopedRestBut spec1 c [cc1_scratch0, cc1_scratch1, cc1_scratch2]) ∗ (∃ r, prngReg c r))

theorem PhiA1_eq (c : Dev nD) :
    (Pipeline.ΦA spec1 c : sProp 𝕄)
      = keeps1 c iprop(∃ d, owns (c : Thread nD τ) scM1_0 fullShare d) iprop(∃ d, owns (c : Thread nD τ) scM1_1 fullShare d)
          iprop(∃ d, owns (c : Thread nD τ) scM1_2 fullShare d) := by
  unfold Pipeline.ΦA keeps1
  rw [Pipeline.scopedRest_split_of_list spec1 c [cc1_scratch0, cc1_scratch1, cc1_scratch2] (by decide) (by decide)]
  simp only [scM1_0, scM1_1, scM1_2, owns_whole]; rfl

theorem keeps1_mono (c : Dev nD) {P0 P1 P2 Q0 Q1 Q2 : sProp 𝕄} (h0 : P0 ⊢ Q0) (h1 : P1 ⊢ Q1) (h2 : P2 ⊢ Q2) :
    keeps1 c P0 P1 P2 ⊢ keeps1 c Q0 Q1 Q2 := by
  unfold keeps1
  iintro ⟨⟨⟨H0, H1, H2⟩, HB⟩, HG⟩
  isplitr [HG]; swap; · iexact HG
  isplitr [HB]; swap; · iexact HB
  isplitl [H0]; · iapply h0; iexact H0
  isplitl [H1]; · iapply h1; iexact H1
  iapply h2; iexact H2

/-- The body at grid point `i` on whole buffers. `zs` picks the accumulators' start (zero, or what they held),
    `ps` what a result block is left at (as found, or its accumulator). -/
def Run1 (i : grid1.Coords) (zs : Vec F S3x8192 .f32 → Vec F S3x8192 .f32 → Vec F S3x8192 .f32) (ps : sProp 𝕄 → sProp 𝕄 → sProp 𝕄) : Prop :=
  ∀ (c : Dev nD) (E : Set ℕ)
    (arg2 : Memref sig .tc .vmem S512x1 .i32) (harg2 : arg2.IsWhole) (arg3 : Memref sig .tc .vmem S512x1 .i32) (harg3 : arg3.IsWhole)
    (arg4 : Memref sig .tc .vmem S1x512 .f32) (harg4 : arg4.IsWhole) (arg5 : Memref sig .tc .vmem S3x512 .bf16) (harg5 : arg5.IsWhole)
    (arg6 : Memref sig .tc .vmem S1x3x8192 .f32) (harg6 : arg6.IsWhole) (arg7 : Memref sig .tc .vmem S1x3x8192 .f32) (harg7 : arg7.IsWhole)
    (arg8 : Memref sig .tc .vmem S1x3x8192 .f32) (harg8 : arg8.IsWhole)
    (arg9 : Memref sig .tc .vmem S3x8192 .f32) (harg9 : arg9.IsWhole) (arg10 : Memref sig .tc .vmem S3x8192 .f32) (harg10 : arg10.IsWhole)
    (arg11 : Memref sig .tc .vmem S3x8192 .f32) (harg11 : arg11.IsWhole)
    (xu xv : Vec F S512x1 .i32) (xt : Vec F S1x512 .f32) (xm : Vec F S3x512 .bf16) (s0 s1 s2 : Vec F S3x8192 .f32)
    (D : Type) (w6 w7 w8 : D → Vec F S1x3x8192 .f32) (K : PUnit → sProp 𝕄),
    iprop(owns (c : Thread nD τ) arg2 fullShare xu ∗ owns (c : Thread nD τ) arg3 fullShare xv ∗ owns (c : Thread nD τ) arg4 fullShare xt
        ∗ owns (c : Thread nD τ) arg5 fullShare xm
        ∗ (∃ d, owns (c : Thread nD τ) arg6 fullShare (w6 d)) ∗ (∃ d, owns (c : Thread nD τ) arg7 fullShare (w7 d))
        ∗ (∃ d, owns (c : Thread nD τ) arg8 fullShare (w8 d))
        ∗ owns (c : Thread nD τ) arg9 fullShare s0 ∗ owns (c : Thread nD τ) arg10 fullShare s1 ∗ owns (c : Thread nD τ) arg11 fullShare s2
        ∗ (iprop(owns (c : Thread nD τ) arg2 fullShare xu ∗ owns (c : Thread nD τ) arg3 fullShare xv ∗ owns (c : Thread nD τ) arg4 fullShare xt
            ∗ owns (c : Thread nD τ) arg5 fullShare xm
            ∗ ps iprop(∃ d, owns (c : Thread nD τ) arg6 fullShare (w6 d))
                (owns (c : Thread nD τ) arg6 fullShare (k1_pay5 (stepNum xv xt xm (zs k1_pay8 s0))))
            ∗ ps iprop(∃ d, owns (c : Thread nD τ) arg7 fullShare (w7 d))
                (owns (c : Thread nD τ) arg7 fullShare (k1_pay6 (stepCnt xv xm (zs k1_pay9 s1))))
            ∗ ps iprop(∃ d, owns (c : Thread nD τ) arg8 fullShare (w8 d))
                (owns (c : Thread nD τ) arg8 fullShare (k1_pay7 (stepSrc xu xm (zs k1_pay10 s2))))
            ∗ owns (c : Thread nD τ) arg9 fullShare (stepNum xv xt xm (zs k1_pay8 s0))
            ∗ owns (c : Thread nD τ) arg10 fullShare (stepCnt xv xm (zs k1_pay9 s1))
            ∗ owns (c : Thread nD τ) arg11 fullShare (stepSrc xu xm (zs k1_pay10 s2))) -∗ K ⟨⟩))
      ⊢ wp frame (wpE (defs₀ (F := F)) Variants.none c none) E
          (cc1__attn_scatter_kernel i arg2 harg2 arg3 harg3 arg4 harg4 arg5 harg5 arg6 harg6 arg7 harg7 arg8 harg8 arg9 harg9 arg10 harg10 arg11 harg11) K

end Cert.Kernel.Hand

end
-- ==== Proof.Reg1RunAW.lean ====
import proofs.«428349_j38809324486859_3_alg».proof.Proof.Reg1KitW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run1_A (i : grid1.Coords) (hc0 : cond1_0 i) (hc1 : ¬cond1_1 i) :
    Run1 (F := F) i (fun a b => a) (fun a b => a) := by
  intro c E arg2 harg2 arg3 harg3 arg4 harg4 arg5 harg5 arg6 harg6 arg7 harg7 arg8 harg8 arg9 harg9 arg10 harg10 arg11 harg11
    xu xv xt xm s0 s1 s2 D w6 w7 w8 K
  unfold stepNum stepCnt stepSrc
  simp only [cc1__attn_scatter_kernel_eq_skeleton]; unfold cc1__attn_scatter_kernel_skel
  simp only [k1_part1_eq_skeleton]
  unfold owns
  iintro ⟨⟨%f2, %hf2, H2⟩, ⟨%f3, %hf3, H3⟩, ⟨%f4, %hf4, H4⟩, ⟨%f5, %hf5, H5⟩, H6, H7, H8, ⟨%f9, %hf9, H9⟩, ⟨%f10, %hf10, H10⟩, ⟨%f11, %hf11, H11⟩, Hk⟩
  subst hf2 hf3 hf4 hf5 hf9 hf10 hf11
  sl_exec (disch := first | exact hc0 | exact hc1)
  sl_step
  iapply Hk
  isplitl [H2]; swap; isplitl [H3]; swap; isplitl [H4]; swap; isplitl [H5]; swap; isplitl [H6]; swap
  isplitl [H7]; swap; isplitl [H8]; swap; isplitl [H9]; swap; isplitl [H10]; swap
  all_goals first
    | (iexists _; isplitr; swap
       · first | iexact H2 | iexact H3 | iexact H4 | iexact H5 | iexact H6 | iexact H7 | iexact H8 | iexact H9 | iexact H10 | iexact H11)
    | iexact H6 | iexact H7 | iexact H8
  all_goals ipureintro
  all_goals first
    | with_reducible rfl
    | (sl_unfold_words
       first
         | rw [View.read_writes_eq_canon _ _ _ (fun y => ⟨_, List.mem_cons_self, View.mem_set_unit_zero hz2 inb_S3x8192_S3x8192_0_0 y⟩),
             View.canon_cons_unit_zero hz2]
         | rw [View.read_writes_eq_canon _ _ _ (fun y => ⟨_, List.mem_cons_self, View.mem_set_unit_zero hz3 inb_S1x3x8192_S1x3x8192_0_0_0 y⟩),
             View.canon_cons_unit_zero hz3]
       simp only [View.readAt_eq_ld, View.ld_unit_zero (S := S3x8192) hz2, View.ld_unit_zero (S := S512x1) hz2,
         View.ld_unit_zero (S := S1x512) hz2, View.ld_unit_zero (S := S3x512) hz2, View.ld_unit_zero (S := S1x3x8192) hz3,
         View.readCov_cons_toLoadRect])

end Cert.Kernel.Hand

end
-- ==== Proof.Reg1RunBW.lean ====
import proofs.«428349_j38809324486859_3_alg».proof.Proof.Reg1KitW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run1_B (i : grid1.Coords) (hc0 : ¬cond1_0 i) (hc1 : ¬cond1_1 i) :
    Run1 (F := F) i (fun a b => b) (fun a b => a) := by
  intro c E arg2 harg2 arg3 harg3 arg4 harg4 arg5 harg5 arg6 harg6 arg7 harg7 arg8 harg8 arg9 harg9 arg10 harg10 arg11 harg11
    xu xv xt xm s0 s1 s2 D w6 w7 w8 K
  unfold stepNum stepCnt stepSrc
  simp only [cc1__attn_scatter_kernel_eq_skeleton]; unfold cc1__attn_scatter_kernel_skel
  simp only [k1_part1_eq_skeleton]
  unfold owns
  iintro ⟨⟨%f2, %hf2, H2⟩, ⟨%f3, %hf3, H3⟩, ⟨%f4, %hf4, H4⟩, ⟨%f5, %hf5, H5⟩, H6, H7, H8, ⟨%f9, %hf9, H9⟩, ⟨%f10, %hf10, H10⟩, ⟨%f11, %hf11, H11⟩, Hk⟩
  subst hf2 hf3 hf4 hf5 hf9 hf10 hf11
  sl_exec (disch := first | exact hc0 | exact hc1)
  sl_step
  iapply Hk
  isplitl [H2]; swap; isplitl [H3]; swap; isplitl [H4]; swap; isplitl [H5]; swap; isplitl [H6]; swap
  isplitl [H7]; swap; isplitl [H8]; swap; isplitl [H9]; swap; isplitl [H10]; swap
  all_goals first
    | (iexists _; isplitr; swap
       · first | iexact H2 | iexact H3 | iexact H4 | iexact H5 | iexact H6 | iexact H7 | iexact H8 | iexact H9 | iexact H10 | iexact H11)
    | iexact H6 | iexact H7 | iexact H8
  all_goals ipureintro
  all_goals first
    | with_reducible rfl
    | (sl_unfold_words
       first
         | rw [View.read_writes_eq_canon _ _ _ (fun y => ⟨_, List.mem_cons_self, View.mem_set_unit_zero hz2 inb_S3x8192_S3x8192_0_0 y⟩),
             View.canon_cons_unit_zero hz2]
         | rw [View.read_writes_eq_canon _ _ _ (fun y => ⟨_, List.mem_cons_self, View.mem_set_unit_zero hz3 inb_S1x3x8192_S1x3x8192_0_0_0 y⟩),
             View.canon_cons_unit_zero hz3]
       simp only [View.readAt_eq_ld, View.ld_unit_zero (S := S3x8192) hz2, View.ld_unit_zero (S := S512x1) hz2,
         View.ld_unit_zero (S := S1x512) hz2, View.ld_unit_zero (S := S3x512) hz2, View.ld_unit_zero (S := S1x3x8192) hz3,
         View.readCov_cons_toLoadRect])

end Cert.Kernel.Hand

end
-- ==== Proof.Reg1RunCW.lean ====
import proofs.«428349_j38809324486859_3_alg».proof.Proof.Reg1KitW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run1_C (i : grid1.Coords) (hc0 : ¬cond1_0 i) (hc1 : cond1_1 i) :
    Run1 (F := F) i (fun a b => b) (fun a b => b) := by
  intro c E arg2 harg2 arg3 harg3 arg4 harg4 arg5 harg5 arg6 harg6 arg7 harg7 arg8 harg8 arg9 harg9 arg10 harg10 arg11 harg11
    xu xv xt xm s0 s1 s2 D w6 w7 w8 K
  unfold stepNum stepCnt stepSrc
  simp only [cc1__attn_scatter_kernel_eq_skeleton]; unfold cc1__attn_scatter_kernel_skel
  simp only [k1_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩,
    ⟨%d8, %f8, -, H8⟩, ⟨%f9, %hf9, H9⟩, ⟨%f10, %hf10, H10⟩, ⟨%f11, %hf11, H11⟩, Hk⟩
  subst hf2 hf3 hf4 hf5 hf9 hf10 hf11
  sl_exec (disch := first | exact hc0 | exact hc1)
  sl_step
  iapply Hk
  isplitl [H2]; swap; isplitl [H3]; swap; isplitl [H4]; swap; isplitl [H5]; swap; isplitl [H6]; swap
  isplitl [H7]; swap; isplitl [H8]; swap; isplitl [H9]; swap; isplitl [H10]; swap
  all_goals first
    | (iexists _; isplitr; swap
       · first | iexact H2 | iexact H3 | iexact H4 | iexact H5 | iexact H6 | iexact H7 | iexact H8 | iexact H9 | iexact H10 | iexact H11)
    | iexact H6 | iexact H7 | iexact H8
  all_goals ipureintro
  all_goals first
    | with_reducible rfl
    | (sl_unfold_words
       first
         | rw [View.read_writes_eq_canon _ _ _ (fun y => ⟨_, List.mem_cons_self, View.mem_set_unit_zero hz2 inb_S3x8192_S3x8192_0_0 y⟩),
             View.canon_cons_unit_zero hz2]
         | rw [View.read_writes_eq_canon _ _ _ (fun y => ⟨_, List.mem_cons_self, View.mem_set_unit_zero hz3 inb_S1x3x8192_S1x3x8192_0_0_0 y⟩),
             View.canon_cons_unit_zero hz3]
       simp only [View.readAt_eq_ld, View.ld_unit_zero (S := S3x8192) hz2, View.ld_unit_zero (S := S512x1) hz2,
         View.ld_unit_zero (S := S1x512) hz2, View.ld_unit_zero (S := S3x512) hz2, View.ld_unit_zero (S := S1x3x8192) hz3,
         View.readCov_cons_toLoadRect])

end Cert.Kernel.Hand

end
-- ==== Proof.Reg1W.lean ====
import proofs.«428349_j38809324486859_3_alg».proof.Proof.Reg1RunAW
import proofs.«428349_j38809324486859_3_alg».proof.Proof.Reg1RunBW
import proofs.«428349_j38809324486859_3_alg».proof.Proof.Reg1RunCW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

abbrev aU (c : Dev nD) : Vec F S262144x1 .i32 := V c main_v95
abbrev aV (c : Dev nD) : Vec F S262144x1 .i32 := V c main_v96
abbrev aT (c : Dev nD) : Vec F S1x262144 .f32 := V c main_v97
abbrev aM (c : Dev nD) : Vec F S3x262144 .bf16 := V c main_v94

abbrev accAt1 (c : Dev nD) (n : ℕ) (hn : n < cfg1.N) : Acc F := acc1 (aU V c) (aV V c) (aT V c) (aM V c) n hn

abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)

/-- The invariant between chunks: at 0 the launch's own; after chunk `n` the accumulators hold `accAt1 n`. -/
def PhiS1 (c : Dev nD) : (n : ℕ) → n ≤ cfg1.N → sProp 𝕄
  | 0, _ => Pipeline.ΦA spec1 c
  | n + 1, hn => keeps1 c (owns (c : Thread nD τ) scM1_0 fullShare (accAt1 V c n hn).1)
      (owns (c : Thread nD τ) scM1_1 fullShare (accAt1 V c n hn).2.1) (owns (c : Thread nD τ) scM1_2 fullShare (accAt1 V c n hn).2.2)

theorem PhiS1_pos (c : Dev nD) (n : ℕ) (h : n ≤ cfg1.N) (hz : n ≠ 0) :
    PhiS1 V c n h = keeps1 c (owns (c : Thread nD τ) scM1_0 fullShare (accAt1 V c (n - 1) (by omega)).1)
      (owns (c : Thread nD τ) scM1_1 fullShare (accAt1 V c (n - 1) (by omega)).2.1)
      (owns (c : Thread nD τ) scM1_2 fullShare (accAt1 V c (n - 1) (by omega)).2.2) := by
  cases n with
  | zero => exact absurd rfl hz
  | succ n => rfl

/-- The invariant at any chunk implies the one with the accumulators at unknown contents. -/
theorem PhiS1_forget (c : Dev nD) (n : ℕ) (h : n ≤ cfg1.N) :
    PhiS1 V c n h ⊢ keeps1 c iprop(∃ d, owns (c : Thread nD τ) scM1_0 fullShare d) iprop(∃ d, owns (c : Thread nD τ) scM1_1 fullShare d)
      iprop(∃ d, owns (c : Thread nD τ) scM1_2 fullShare d) := by
  cases n with
  | zero => exact Entails.of_eq (PhiA1_eq c)
  | succ n => exact keeps1_mono c (by iintro H; iexists _; iexact H) (by iintro H; iexists _; iexact H) (by iintro H; iexists _; iexact H)

def dat1 (c : Dev nD) : Dat τ (Elt F) Unit ℕ (UR sig nD τ) ℕ cfg1 c where
  A w := V c (Pipeline.arrRef spec1 w)
  after w t := match w with
    | ⟨0, _⟩ => blkU (aU V c) t
    | ⟨1, _⟩ => blkV (aV V c) t
    | ⟨2, _⟩ => blkT (aT V c) t
    | ⟨3, _⟩ => blkM (aM V c) t
    | ⟨4, _⟩ => k1_pay5 (accAt1 V c t.val t.isLt).1
    | ⟨5, _⟩ => k1_pay6 (accAt1 V c t.val t.isLt).2.1
    | ⟨6, _⟩ => k1_pay7 (accAt1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem hrec1 (c : Dev nD) : (dat1 V c).recorded 0 = Set.univ := rfl
theorem hq1 (c : Dev nD) (w : Fin cfg1.W) : (dat1 V c).q w = fullShare := rfl
theorem howed1 (c : Dev nD) (t : Fin (cfg1.N + 1)) : (dat1 V c).owed t = 0 := rfl

/-- An input window is never idle and its block is never changed, so its buffer holds the chunk's block. -/
theorem before1_0 (c : Dev nD) (t : Fin cfg1.N) (d) : (dat1 V c).before 0 t d = blkU (aU V c) t :=
  (dat1 V c).before_in_eq_fetched 0 rfl (fun _ => rfl) (fun _ _ _ => rfl) (fun _ => rfl) t d
theorem before1_1 (c : Dev nD) (t : Fin cfg1.N) (d) : (dat1 V c).before 1 t d = blkV (aV V c) t :=
  (dat1 V c).before_in_eq_fetched 1 rfl (fun _ => rfl) (fun _ _ _ => rfl) (fun _ => rfl) t d
theorem before1_2 (c : Dev nD) (t : Fin cfg1.N) (d) : (dat1 V c).before 2 t d = blkT (aT V c) t :=
  (dat1 V c).before_in_eq_fetched 2 rfl (fun _ => rfl) (fun _ _ _ => rfl) (fun _ => rfl) t d
theorem before1_3 (c : Dev nD) (t : Fin cfg1.N) (d) : (dat1 V c).before 3 t d = blkM (aM V c) t :=
  (dat1 V c).before_in_eq_fetched 3 rfl (fun _ => rfl) (fun _ _ _ => rfl) (fun _ => rfl) t d

theorem after1_4 (c : Dev nD) (t : Fin cfg1.N) : (dat1 V c).after 4 t = k1_pay5 (accAt1 V c t.val t.isLt).1 := rfl
theorem after1_5 (c : Dev nD) (t : Fin cfg1.N) : (dat1 V c).after 5 t = k1_pay6 (accAt1 V c t.val t.isLt).2.1 := rfl
theorem after1_6 (c : Dev nD) (t : Fin cfg1.N) : (dat1 V c).after 6 t = k1_pay7 (accAt1 V c t.val t.isLt).2.2 := rfl

/-- A result window is left as found except at the last chunk of a half, where it holds its accumulator. -/
theorem leaves1_idle (c : Dev nD) (t : Fin cfg1.N) (h : ¬cond1_1 (grid1.coords t)) (w : Fin cfg1.W) (hw : 4 ≤ w.val) :
    (dat1 V c).leavesExact w t
      = iprop(∃ d, owns (c : Thread nD τ) ((cfg1.win w).stage (cfg1.slots t w)) fullShare ((dat1 V c).before w t d)) := by
  have := outAt1 t w hw; rw [if_neg h] at this; exact Dat.leavesExact_idle _ w t this.1 this.2
theorem leaves1_live (c : Dev nD) (t : Fin cfg1.N) (h : cond1_1 (grid1.coords t)) (w : Fin cfg1.W) (hw : 4 ≤ w.val) :
    (dat1 V c).leavesExact w t = owns (c : Thread nD τ) ((cfg1.win w).stage (cfg1.slots t w)) fullShare ((dat1 V c).after w t) := by
  have := outAt1 t w hw; rw [if_pos h] at this; unfold Dat.leavesExact; rw [this]

/-- The body obligation's two sides at chunk `t`, with the windows written out. -/
def bodyPre1 (c : Dev nD) (t : Fin cfg1.N) : sProp 𝕄 :=
  iprop(PhiS1 V c t.val (Nat.le_of_lt t.isLt) ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop(keeps1 c (owns (c : Thread nD τ) scM1_0 fullShare (accAt1 V c t.val t.isLt).1)
      (owns (c : Thread nD τ) scM1_1 fullShare (accAt1 V c t.val t.isLt).2.1) (owns (c : Thread nD τ) scM1_2 fullShare (accAt1 V c t.val t.isLt).2.2)
    ∗ (dat1 V c).owesAt () t.castSucc
    ∗ owns (c : Thread nD τ) (ms1_0 t) fullShare (blkU (aU V c) t) ∗ owns (c : Thread nD τ) (ms1_1 t) fullShare (blkV (aV V c) t)
    ∗ owns (c : Thread nD τ) (ms1_2 t) fullShare (blkT (aT V c) t) ∗ owns (c : Thread nD τ) (ms1_3 t) fullShare (blkM (aM V c) t)
    ∗ (dat1 V c).leavesExact 4 t ∗ (dat1 V c).leavesExact 5 t ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  have hN : t.val < 512 := lt_of_lt_of_eq t.isLt (show cfg1.N = 512 from N_1)
  by_cases h0 : t.val % 256 = 0
  · have hc0 : cond1_0 (grid1.coords t) := (hcond1_0 t).mpr h0
    have hc1 : ¬cond1_1 (grid1.coords t) := fun h => by have := (hcond1_1 t).mp h; omega
    rw [leaves1_idle V c t hc1 4 (by decide), leaves1_idle V c t hc1 5 (by decide), leaves1_idle V c t hc1 6 (by decide),
      show accAt1 V c t.val t.isLt = _ from acc1_first (aU V c) (aV V c) (aT V c) (aM V c) t h0]
    unfold stepAt step1 zero1; dsimp only
    iintro ⟨HΦ, Ho, ⟨%d0, H0⟩, ⟨%d1, H1⟩, ⟨%d2, H2⟩, ⟨%d3, H3⟩, H4, H5, H6⟩
    ihave HΦ := (PhiS1_forget V c t.val _) $$ HΦ
    unfold keeps1
    icases HΦ with ⟨⟨⟨⟨%s0, HS0⟩, ⟨%s1, HS1⟩, ⟨%s2, HS2⟩⟩, HB⟩, HG⟩
    iapply (run1_A (grid1.coords t) hc0 hc1 c Set.univ _ _ _ _ _ _ _ _ _ _ _ _ _ _ _ _ _ _ _ _ (blkU (aU V c) t) (blkV (aV V c) t) (blkT (aT V c) t) (blkM (aM V c) t) _ _ _ _ _ _ _ _)
    iframe H0 H1 H2 H3 H4 H5 H6 HS0 HS1 HS2
    iintro ⟨H0, H1, H2, H3, H4, H5, H6, HS0, HS1, HS2⟩
    iframe
  · have hc0 : ¬cond1_0 (grid1.coords t) := fun h => h0 ((hcond1_0 t).mp h)
    rw [PhiS1_pos V c _ _ (fun e => h0 (by rw [e]))]
    by_cases h1 : t.val % 256 = 255
    · have hc1 : cond1_1 (grid1.coords t) := (hcond1_1 t).mpr h1
      rw [leaves1_live V c t hc1 4 (by decide), leaves1_live V c t hc1 5 (by decide), leaves1_live V c t hc1 6 (by decide),
        after1_4, after1_5, after1_6]
      unfold accAt1 keeps1
      rw [acc1_next (aU V c) (aV V c) (aT V c) (aM V c) t h0]
      unfold stepAt step1; dsimp only
      iintro ⟨⟨⟨⟨HS0, HS1, HS2⟩, HB⟩, HG⟩, Ho, ⟨%d0, H0⟩, ⟨%d1, H1⟩, ⟨%d2, H2⟩, ⟨%d3, H3⟩, H4, H5, H6⟩
      iapply (run1_C (grid1.coords t) hc0 hc1 c Set.univ _ _ _ _ _ _ _ _ _ _ _ _ _ _ _ _ _ _ _ _ (blkU (aU V c) t) (blkV (aV V c) t) (blkT (aT V c) t) (blkM (aM V c) t) _ _ _ _ _ _ _ _)
      iframe H0 H1 H2 H3 H4 H5 H6 HS0 HS1 HS2
      iintro ⟨H0, H1, H2, H3, H4, H5, H6, HS0, HS1, HS2⟩
      iframe
    · have hc1 : ¬cond1_1 (grid1.coords t) := fun h => h1 ((hcond1_1 t).mp h)
      rw [leaves1_idle V c t hc1 4 (by decide), leaves1_idle V c t hc1 5 (by decide), leaves1_idle V c t hc1 6 (by decide)]
      unfold accAt1 keeps1
      rw [acc1_next (aU V c) (aV V c) (aT V c) (aM V c) t h0]
      unfold stepAt step1; dsimp only
      iintro ⟨⟨⟨⟨HS0, HS1, HS2⟩, HB⟩, HG⟩, Ho, ⟨%d0, H0⟩, ⟨%d1, H1⟩, ⟨%d2, H2⟩, ⟨%d3, H3⟩, H4, H5, H6⟩
      iapply (run1_B (grid1.coords t) hc0 hc1 c Set.univ _ _ _ _ _ _ _ _ _ _ _ _ _ _ _ _ _ _ _ _ (blkU (aU V c) t) (blkV (aV V c) t) (blkT (aT V c) t) (blkM (aM V c) t) _ _ _ _ _ _ _ _)
      iframe H0 H1 H2 H3 H4 H5 H6 HS0 HS1 HS2
      iintro ⟨H0, H1, H2, H3, H4, H5, H6, HS0, HS1, HS2⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.rfl

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_forget V c _ _

end Region

end Cert.Kernel.Hand

end
-- ==== Proof.RunKW.lean ====
import proofs.«428349_j38809324486859_3_alg».proof.Proof.RegionsKernel
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 1824

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

abbrev Entry (F : FTy → Type) : Type := (c : Dev nD) → (b : Ref sig .tc) → Buf (Elt F) ((c : Thread nD τ).loc b)

theorem owesAt_of_none {cfg : Pipeline.Cfg sig Λ₀} {c : Dev nD} (dat : Dat τ (Elt F) Unit ℕ (UR sig nD τ) ℕ cfg c)
    (t : Fin (cfg.N + 1)) (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound
  rw [h0, hr]
  iintro ⟨%W, HO⟩
  iexists W
  isplitr
  · ipureintro; exact fun _ _ => Or.inl trivial
  iexact HO

theorem none_of_owesAt {cfg : Pipeline.Cfg sig Λ₀} {c : Dev nD} (dat : Dat τ (Elt F) Unit ℕ (UR sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

section Run

variable
  (dat0 : Entry F → (c : Dev nD) → Dat τ (Elt F) Unit ℕ (UR sig nD τ) ℕ cfg0 c)
  (A_eq0 : ∀ V c (w : Fin cfg0.W), (dat0 V c).A w = V c (Pipeline.arrRef spec0 w))
  (body_obligation0 : ∀ V c, BodyObligation (dat0 V c) (defs₀ (F := F)) Variants.none () Set.univ)
  (hin0 : ∀ V c, Pipeline.ΦA spec0 c ⊢ (dat0 V c).Φ 0)
  (hout0 : ∀ V c, (dat0 V c).Φ (Fin.last cfg0.N) ⊢ Pipeline.ΦA spec0 c)
  (hq0 : ∀ V c w, (dat0 V c).q w = fullShare)
  (howed0 : ∀ V c t, (dat0 V c).owed t = 0)
  (hrec0 : ∀ V c, (dat0 V c).recorded 0 = Set.univ)
  (dat1 : Entry F → (c : Dev nD) → Dat τ (Elt F) Unit ℕ (UR sig nD τ) ℕ cfg1 c)
  (A_eq1 : ∀ V c (w : Fin cfg1.W), (dat1 V c).A w = V c (Pipeline.arrRef spec1 w))
  (body_obligation1 : ∀ V c, BodyObligation (dat1 V c) (defs₀ (F := F)) Variants.none () Set.univ)
  (hin1 : ∀ V c, Pipeline.ΦA spec1 c ⊢ (dat1 V c).Φ 0)
  (hout1 : ∀ V c, (dat1 V c).Φ (Fin.last cfg1.N) ⊢ Pipeline.ΦA spec1 c)
  (hq1 : ∀ V c w, (dat1 V c).q w = fullShare)
  (howed1 : ∀ V c t, (dat1 V c).owed t = 0)
  (hrec1 : ∀ V c, (dat1 V c).recorded 0 = Set.univ)

variable (m : (ℓ : Loc nD τ sig) → Buf (Elt F) ℓ)

abbrev entry0 : Entry F := fun c b => V5 m c b

def outsA : Outs (F := F) := fun _ r c =>
  Pipeline.withArrays spec0 c (V5 m c) (fun w => (dat0 (entry0 m) c).arrAt w cfg0.N) r

abbrev entry1 : Entry F := fun c b => V19 m (outsA dat0 m) c b

def outsOf : Outs (F := F) := fun J r c =>
  if J = 6 then outsA dat0 m J r c
  else Pipeline.withArrays spec1 c (V19 m (outsA dat0 m) c) (fun w => (dat1 (entry1 dat0 m) c).arrAt w cfg1.N) r

theorem V19_outsOf (c : Dev nD) : V19 m (outsOf dat0 dat1 m) c = V19 m (outsA dat0 m) c := rfl

theorem outsOf_main_v24 (c : Dev nD) :
    outsOf dat0 dat1 m 6 main_v24 c = (dat0 (entry0 m) c).arrAt 4 cfg0.N := by
  show Pipeline.withArrays spec0 c (V5 m c) (fun w => (dat0 (entry0 m) c).arrAt w cfg0.N) (Proc.devRef .tc (Pipeline.arrRef spec0 4)) = _
  exact Pipeline.withArrays_arr spec0 winFacts0.arr_inj c _ _ 4

theorem outsOf_arr1 (c : Dev nD) (w : Fin cfg1.W) :
    outsOf dat0 dat1 m 20 (Pipeline.arrRef spec1 w) c = (dat1 (entry1 dat0 m) c).arrAt w cfg1.N := by
  show Pipeline.withArrays spec1 c (V19 m (outsA dat0 m) c) (fun w => (dat1 (entry1 dat0 m) c).arrAt w cfg1.N) (Proc.devRef .tc (Pipeline.arrRef spec1 w)) = _
  exact Pipeline.withArrays_arr spec1 winFacts1.arr_inj c _ _ w

theorem outsOf_main_v98_0 (c : Dev nD) :
    outsOf dat0 dat1 m 20 main_v98_0 c = (dat1 (entry1 dat0 m) c).arrAt 4 cfg1.N := outsOf_arr1 dat0 dat1 m c 4
theorem outsOf_main_v98_1 (c : Dev nD) :
    outsOf dat0 dat1 m 20 main_v98_1 c = (dat1 (entry1 dat0 m) c).arrAt 5 cfg1.N := outsOf_arr1 dat0 dat1 m c 5
theorem outsOf_main_v98_2 (c : Dev nD) :
    outsOf dat0 dat1 m 20 main_v98_2 c = (dat1 (entry1 dat0 m) c).arrAt 6 cfg1.N := outsOf_arr1 dat0 dat1 m c 6

include A_eq0 in
theorem arrays_after0 (c : Dev nD) : ∀ w : Fin cfg0.W,
    (dat0 (entry0 m) c).arrAt w cfg0.N = V6 m (outsOf dat0 dat1 m) c (Pipeline.arrRef spec0 w)
  | 0 | 1 | 2 | 3 => ((dat0 (entry0 m) c).arrAt_in _ (by rfl) _).trans ((A_eq0 (entry0 m) c _).trans (V6_of m (outsOf dat0 dat1 m) c _ (by decide)).symm)
  | 4 => (outsOf_main_v24 dat0 dat1 m c).symm.trans (Function.update_self (β := fun b : DevRef τ sig => b.ty.Contents (Elt F)) (Proc.devRef .tc main_v24) _ (V5 m c)).symm
  | ⟨_ + 5, h⟩ => absurd h (Nat.not_lt.2 (Nat.le_add_left _ _))

theorem rest_after0 (c : Dev nD) (b : Ref sig .tc) (hb : b ∉ Finset.univ.image (Pipeline.arrRef spec0)) :
    V6 m (outsOf dat0 dat1 m) c b = V5 m c b :=
  V6_of m (outsOf dat0 dat1 m) c b fun h => hb (by
    rw [List.mem_singleton] at h; subst h
    exact Finset.mem_image.mpr ⟨4, Finset.mem_univ _, rfl⟩)

include A_eq1 in
theorem arrays_after1 (c : Dev nD) : ∀ w : Fin cfg1.W,
    (dat1 (entry1 dat0 m) c).arrAt w cfg1.N = V20 m (outsOf dat0 dat1 m) c (Pipeline.arrRef spec1 w)
  | 0 | 1 | 2 | 3 => ((dat1 (entry1 dat0 m) c).arrAt_in _ (by rfl) _).trans ((A_eq1 (entry1 dat0 m) c _).trans
      ((congrFun (V19_outsOf dat0 dat1 m c) _).symm.trans (V20_of m (outsOf dat0 dat1 m) c _ (by decide)).symm))
  | 4 => (outsOf_arr1 dat0 dat1 m c 4).symm.trans
      ((Function.update_of_ne (β := fun b : DevRef τ sig => b.ty.Contents (Elt F)) (StableHlo.devRef_ne_of_ne (by decide) : (Proc.devRef .tc main_v98_0 : DevRef τ sig) ≠ Proc.devRef .tc main_v98_2) _ _).trans
        ((Function.update_of_ne (β := fun b : DevRef τ sig => b.ty.Contents (Elt F)) (StableHlo.devRef_ne_of_ne (by decide) : (Proc.devRef .tc main_v98_0 : DevRef τ sig) ≠ Proc.devRef .tc main_v98_1) _ _).trans
          (Function.update_self (β := fun b : DevRef τ sig => b.ty.Contents (Elt F)) (Proc.devRef .tc main_v98_0) _ (V19 m (outsOf dat0 dat1 m) c)))).symm
  | 5 => (outsOf_arr1 dat0 dat1 m c 5).symm.trans
      ((Function.update_of_ne (β := fun b : DevRef τ sig => b.ty.Contents (Elt F)) (StableHlo.devRef_ne_of_ne (by decide) : (Proc.devRef .tc main_v98_1 : DevRef τ sig) ≠ Proc.devRef .tc main_v98_2) _ _).trans
        (Function.update_self (β := fun b : DevRef τ sig => b.ty.Contents (Elt F)) (Proc.devRef .tc main_v98_1) _ _)).symm
  | 6 => (outsOf_arr1 dat0 dat1 m c 6).symm.trans
      (Function.update_self (β := fun b : DevRef τ sig => b.ty.Contents (Elt F)) (Proc.devRef .tc main_v98_2) _ _).symm
  | ⟨_ + 7, h⟩ => absurd h (Nat.not_lt.2 (Nat.le_add_left _ _))

theorem rest_after1 (c : Dev nD) (b : Ref sig .tc) (hb : b ∉ Finset.univ.image (Pipeline.arrRef spec1)) :
    V20 m (outsOf dat0 dat1 m) c b = V19 m (outsA dat0 m) c b :=
  (V20_of m (outsOf dat0 dat1 m) c b fun h => hb (by
    simp only [List.mem_cons, List.not_mem_nil, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)).trans (congrFun (V19_outsOf dat0 dat1 m c) _)

def pdats : (p : Fin 2) → (c : Dev nD) → Dat τ (Elt F) Unit ℕ (UR sig nD τ) ℕ (cfgs p) c
  | ⟨0, _⟩ => fun c => dat0 (entry0 m) c
  | ⟨1, _⟩ => fun c => dat1 (entry1 dat0 m) c

abbrev L : GSem nD τ sig → Finset Unit := fun _ => ∅
abbrev lv : GSem nD τ sig → Unit → ℕ := fun _ _ => 0

abbrev riding (c : Dev nD) : sProp 𝕄 :=
  iprop((∃ r, prngReg c r) ∗ ∃ W, owes (c : Thread nD τ) (0 : CellTallies nD τ sig Unit) W)
abbrev ridings : Fin 3 → Dev nD → sProp 𝕄 := fun _ c => riding c

set_option backward.isDefEq.respectTransparency.types false in
include A_eq0 body_obligation0 hin0 hout0 hq0 howed0 hrec0 in
def reg0 : RegionSeg (pcfgs (F := F)) adm (pdats dat0 dat1 m) () defs₀ Variants.none L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun c t => howed0 (entry0 m) c t
  pre c := iprop(StableHlo.held (c : Thread nD τ) (Pipeline.ucRefs τ sig) (V5 m c) ∗ ridings 0 c)
  post c := iprop(StableHlo.held (c : Thread nD τ) (Pipeline.ucRefs τ sig) (V6 m (outsOf dat0 dat1 m) c) ∗ ridings 1 c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => hq0 (entry0 m) c w) (entry0 m c) fun w => A_eq0 (entry0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_none (pdats dat0 dat1 m 0 c) 0 (howed0 (entry0 m) c 0) (hrec0 (entry0 m) c))
      iexact HO
    isplitl [Hp]; · iexact Hp
    iexact Hrest
  hin c := by
    refine BIBase.Entails.trans ?_ (hin0 (entry0 m) c)
    unfold Pipeline.ΦA
    iintro ⟨Hp, -, Hr⟩
    isplitl [Hr]; · iexact Hr
    iexact Hp
  hout c := by
    rw [Pipeline.ownSems0_none]
    refine (hout0 (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => hq0 (entry0 m) c w)
      (entry0 m c) (fun b => V6 m (outsOf dat0 dat1 m) c b) ((pdats dat0 dat1 m 0 c).arrAt · cfg0.N)
      (arrays_after0 dat0 A_eq0 dat1 m c) (rest_after0 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (none_of_owesAt (pdats dat0 dat1 m 0 c) (Fin.last _) (howed0 (entry0 m) c _))
    iexact HO

set_option backward.isDefEq.respectTransparency.types false in
include A_eq1 body_obligation1 hin1 hout1 hq1 howed1 hrec1 in
def reg1 : RegionSeg (pcfgs (F := F)) adm (pdats dat0 dat1 m) () defs₀ Variants.none L lv 1 where
  win := launch1.win.to₀
  block_pos := launch1.block_pos
  stage_whole := launch1.stage_whole
  K := PEmpty
  osem k := k.elim
  ho := Pipeline.OwnSemFacts.none _
  hbody c := (body_obligation1 (entry1 dat0 m) c).loose
  hwaits := Pipeline.hwaits_of_owed_zero _ _ _ _ L lv 1 fun c t => howed1 (entry1 dat0 m) c t
  pre c := iprop(StableHlo.held (c : Thread nD τ) (Pipeline.ucRefs τ sig) (V19 m (outsOf dat0 dat1 m) c) ∗ ridings 1 c)
  post c := iprop(StableHlo.held (c : Thread nD τ) (Pipeline.ucRefs τ sig) (V20 m (outsOf dat0 dat1 m) c) ∗ ridings 2 c)
  X c := iprop(∃ r, prngReg c r)
  Y c := iprop(∃ r, prngReg c r)
  Z c := Pipeline.unscopedRest (Ix := Unit) (Name := ℕ) (U := UR sig nD τ) (Lvl := ℕ) spec1 c (entry1 dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => hq1 (entry1 dat0 m) c w) (entry1 dat0 m c) fun w => A_eq1 (entry1 dat0 m) c w
    rw [Pipeline.unscopedBufs_held, ← V19_outsOf dat0 dat1 m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_none (pdats dat0 dat1 m 1 c) 0 (howed1 (entry1 dat0 m) c 0) (hrec1 (entry1 dat0 m) c))
      iexact HO
    isplitl [Hp]; · iexact Hp
    iexact Hrest
  hin c := by
    refine BIBase.Entails.trans ?_ (hin1 (entry1 dat0 m) c)
    unfold Pipeline.ΦA
    iintro ⟨Hp, -, Hr⟩
    isplitl [Hr]; · iexact Hr
    iexact Hp
  hout c := by
    rw [Pipeline.ownSems0_none]
    refine (hout1 (entry1 dat0 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => hq1 (entry1 dat0 m) c w)
      (entry1 dat0 m c) (fun b => V20 m (outsOf dat0 dat1 m) c b) ((pdats dat0 dat1 m 1 c).arrAt · cfg1.N)
      (arrays_after1 dat0 dat1 A_eq1 m c) (rest_after1 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (none_of_owesAt (pdats dat0 dat1 m 1 c) (Fin.last _) (howed1 (entry1 dat0 m) c _))
    iexact HO

abbrev items (c : Dev nD) : List (Seg (pcfgs (F := F)) adm (pdats dat0 dat1 m) () defs₀ Variants.none L lv) :=
  segs m (outsOf dat0 dat1 m) Variants.none L lv ridings () (pdats dat0 dat1 m) (reg0 dat0 A_eq0 body_obligation0 hin0 hout0 hq0 howed0 hrec0 dat1 m) (reg1 dat0 dat1 A_eq1 body_obligation1 hin1 hout1 hq1 howed1 hrec1 m) c

include A_eq0 body_obligation0 hin0 hout0 hq0 howed0 hrec0 A_eq1 body_obligation1 hin1 hout1 hq1 howed1 hrec1 in
theorem main_run (c : Dev nD) : main (F := F) c = Seg.run (items dat0 A_eq0 body_obligation0 hin0 hout0 hq0 howed0 hrec0 dat1 A_eq1 body_obligation1 hin1 hout1 hq1 howed1 hrec1 m c) := by
  rw [main_chain c, Seg.run_eq_chain]
  exact congrArg Pipeline.chain rfl

theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const, ownU_emb₁]
  iintro Hu
  imodintro
  isplitl [Hu]; · iexact Hu
  iempintro

theorem riding_end (c : Dev nD) (H : sProp 𝕄) :
    iprop(H ∗ riding c) ⊢ iprop((H ∗ ∃ r, prngReg c r) ∗ ∃ W, owes (c : Thread nD τ) (0 : CellTallies nD τ sig Unit) W) := by
  iintro ⟨Hh, Hp, HO⟩
  isplitr [HO]
  · isplitl [Hh]; · iexact Hh
    iexact Hp
  iexact HO

theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
include A_eq0 body_obligation0 hin0 hout0 hq0 howed0 hrec0 A_eq1 body_obligation1 hin1 hout1 hq1 howed1 hrec1 in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V33 m (outsOf dat0 dat1 m) c b) :=
  Pipeline.θ_run_regions_kit_dev (pcfgs (F := F)) adm (pdats dat0 dat1 m) () cellOf_inj emb₁ defs₀ Variants.none L lv m ρ main
    (items dat0 A_eq0 body_obligation0 hin0 hout0 hq0 howed0 hrec0 dat1 A_eq1 body_obligation1 hin1 hout1 hq1 howed1 hrec1 m)
    (fun c Q => by rw [main_run dat0 A_eq0 body_obligation0 hin0 hout0 hq0 howed0 hrec0 dat1 A_eq1 body_obligation1 hin1 hout1 hq1 howed1 hrec1 m c])
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := launch_elem)
    (T₀ := fun c => iprop(StableHlo.held (c : Thread nD τ) (Pipeline.ucRefs τ sig) (V0 m c) ∗ ridings 0 c))
    (Tₙ := fun c => iprop(StableHlo.held (c : Thread nD τ) (Pipeline.ucRefs τ sig) (V33 m (outsOf dat0 dat1 m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, riding_end c _⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V33 m (outsOf dat0 dat1 m) c b)
    (hfin := fun c s' => by
      iintro ⟨⟨Hh, -⟩, HSI⟩
      unfold StableHlo.held
      imodintro
      iapply (pointsTo_read_all (Pipeline.ucRefs τ sig) (fun b => ((c : Thread nD τ).1, b)) (V33 m (outsOf dat0 dat1 m) c) s')
      isplitl [Hh] <;> iassumption)
    (hQ := fun s h c => h c)

include A_eq0 body_obligation0 hin0 hout0 hq0 howed0 hrec0 A_eq1 body_obligation1 hin1 hout1 hq1 howed1 hrec1 in
theorem value_all (ρ : Dev nD → PrngReg) :
    θ_run defs (onTc (τ := τ) (main (F := F))) ⟨m, fun _ => 0, ρ⟩ (fun r => ∀ c : Dev nD,
      r.2.mem ((c.tc : Thread nD τ).loc main_v200) = V33 m (outsOf dat0 dat1 m) c main_v200
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_ucRefs main_v200 (by decide)),
      (h c _ (mem_ucRefs main_arg0 (by decide))).trans (V33_main_arg0 m _ c),
      (h c _ (mem_ucRefs main_arg1 (by decide))).trans (V33_main_arg1 m _ c),
      (h c _ (mem_ucRefs main_arg2 (by decide))).trans (V33_main_arg2 m _ c),
      (h c _ (mem_ucRefs main_arg3 (by decide))).trans (V33_main_arg3 m _ c),
      (h c _ (mem_ucRefs main_arg4 (by decide))).trans (V33_main_arg4 m _ c),
      (h c _ (mem_ucRefs main_arg5 (by decide))).trans (V33_main_arg5 m _ c),
      (h c _ (mem_ucRefs main_arg6 (by decide))).trans (V33_main_arg6 m _ c),
      (h c _ (mem_ucRefs main_arg7 (by decide))).trans (V33_main_arg7 m _ c),
      (h c _ (mem_ucRefs main_arg8 (by decide))).trans (V33_main_arg8 m _ c),
      (h c _ (mem_ucRefs main_arg9 (by decide))).trans (V33_main_arg9 m _ c),
      (h c _ (mem_ucRefs main_arg10 (by decide))).trans (V33_main_arg10 m _ c),
      (h c _ (mem_ucRefs main_arg11 (by decide))).trans (V33_main_arg11 m _ c),
      (h c _ (mem_ucRefs main_arg12 (by decide))).trans (V33_main_arg12 m _ c),
      (h c _ (mem_ucRefs main_arg13 (by decide))).trans (V33_main_arg13 m _ c)⟩)
    (run_all dat0 A_eq0 body_obligation0 hin0 hout0 hq0 howed0 hrec0 dat1 A_eq1 body_obligation1 hin1 hout1 hq1 howed1 hrec1 m ρ)

include A_eq0 body_obligation0 hin0 hout0 hq0 howed0 hrec0 A_eq1 body_obligation1 hin1 hout1 hq1 howed1 hrec1 in
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (value_all dat0 A_eq0 body_obligation0 hin0 hout0 hq0 howed0 hrec0 dat1 A_eq1 body_obligation1 hin1 hout1 hq1 howed1 hrec1 m ρ)

end Run

end Cert.Kernel.Hand

end
-- ==== Proof.Reg0Defs.lean ====
import proofs.«428349_j38809324486859_3_alg».proof.Proof.Gen.KernelIdeal.Skeleton
import proofs.«428349_j38809324486859_3_alg».proof.Proof.Gen.KernelIdeal.Launch
import proofs.«428349_j38809324486859_3_alg».proof.Proof.Gen.KernelIdeal.Points
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

-- Chunk `n` of the source-index column: its rows `[256 n, 256 n + 256)` (zero past the last chunk).
def ublk0 (us : Vec F S262144x1 .i32) (n : ℕ) : Vec F S256x1 .i32 :=
  if h : n < cfg0.N then ((cfg0.win 0).blk ⟨n, h⟩).view.read (Elt F) us else fun _ => (0 : BitVec 32)

-- Chunk `n` of the target-index column.
def vblk0 (vs : Vec F S262144x1 .i32) (n : ℕ) : Vec F S256x1 .i32 :=
  if h : n < cfg0.N then ((cfg0.win 1).blk ⟨n, h⟩).view.read (Elt F) vs else fun _ => (0 : BitVec 32)

-- One chunk added to the accumulator `s`: the product over `hi`, then the one over `lo`.
def step0 (u v : Vec F S256x1 .i32) (hi lo : Vec F S8192x256 .bf16) (s : Vec F S8192x256 .f32) : Vec F S8192x256 .f32 :=
  k0_pay1 (k0_pay6 u v lo) (k0_pay7 u v hi s)

variable (us vs : Vec F S262144x1 .i32) (hi lo : Vec F S8192x256 .bf16)

-- The accumulator after chunk `n`: reset to zero before the chunks `≡ 0 (mod 512)` are added.
def acc0 : ℕ → Vec F S8192x256 .f32
  | 0 => step0 (ublk0 us 0) (vblk0 vs 0) hi lo k0_pay3
  | n + 1 => step0 (ublk0 us (n + 1)) (vblk0 vs (n + 1)) hi lo
      (if (n + 1) % 512 = 0 then k0_pay3 else acc0 n)

theorem acc0_succ (n : ℕ) :
    acc0 us vs hi lo (n + 1) = step0 (ublk0 us (n + 1)) (vblk0 vs (n + 1)) hi lo
      (if (n + 1) % 512 = 0 then k0_pay3 else acc0 us vs hi lo n) := rfl

theorem acc0_of_first (n : ℕ) (h : n % 512 = 0) :
    acc0 us vs hi lo n = step0 (ublk0 us n) (vblk0 vs n) hi lo k0_pay3 := by
  cases n with
  | zero => rfl
  | succ n => rw [acc0_succ, if_pos h]

theorem acc0_of_later (n : ℕ) (h : n % 512 ≠ 0) :
    acc0 us vs hi lo n = step0 (ublk0 us n) (vblk0 vs n) hi lo (acc0 us vs hi lo (n - 1)) := by
  cases n with
  | zero => exact absurd (Nat.zero_mod _) h
  | succ n => rw [acc0_succ, if_neg h]; rfl

-- The result array: plane `a` is the accumulator after chunk `512 a + 511`.
def regOut0 (us vs : Vec F S262144x1 .i32) (hi lo : Vec F S8192x256 .bf16) : Vec F S2x8192x256 .f32 :=
  fun i => acc0 us vs hi lo (512 * (i 0).val + 511) (ix2 (i 1 : Fin 8192) (i 2 : Fin 256))

theorem regOut0_apply (a : Fin 2) (r : Fin 8192) (k : Fin 256) :
    regOut0 us vs hi lo (ix3 a r k) = acc0 us vs hi lo (512 * a.val + 511) (ix2 r k) := rfl

end Cert.KernelIdeal.Hand

end
-- ==== Proof.Reg0Runs.lean ====
import proofs.«428349_j38809324486859_3_alg».proof.Proof.Reg0Defs
import Idealize.ShloMosaic.Lib.Pipeline.FrameBody
import Idealize.ShloMosaic.Lib.Pipeline.Value
import Idealize.ShloMosaic.Lib.Pipeline.TableIdle
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_1 (i : grid0.Coords) : Prop := (Scalar.cmpi .ne (Scalar.extui (Scalar.cmpi .eq (BitVec.ofNat 32 (i 1).val) 0#32)) 0#32) = 1#1
-- The reset condition holds exactly at the chunks that open a half of the sweep.
theorem hcond0_1 : ∀ t : Fin cfg0.N, cond0_1 (grid0.coords t) ↔ t.val % 512 = 0 :=
  (by decide +kernel : ∀ t : Fin grid0.N, cond0_1 (grid0.coords t) ↔ t.val % 512 = 0)

abbrev cond0_2 (i : grid0.Coords) : Prop := k0_cond2 i = 1#1
-- The copy-out condition holds exactly at the chunks that close a half.
theorem hcond0_2 : ∀ t : Fin cfg0.N, cond0_2 (grid0.coords t) ↔ t.val % 512 = 511 :=
  (by decide +kernel : ∀ t : Fin grid0.N, cond0_2 (grid0.coords t) ↔ t.val % 512 = 511)

theorem hz2 : (![0, 0] : Fin 2 → ℕ) = fun _ => 0 := by funext a; fin_cases a <;> rfl
theorem hz3 : (![0, 0, 0] : Fin 3 → ℕ) = fun _ => 0 := by funext a; fin_cases a <;> rfl

-- A load of the whole buffer, after stores the last of which filled it, reads that store's payload.
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

-- What a buffer holds after stores the last of which filled it: that store's payload.
theorem read_writes_cons_whole {Val : EltTy → Type} {S : Shape} {e : EltTy} {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  funext y
  exact View.read_writes_cons_unit_of_mem v f inb w L y y h (fun a => by rw [Nat.zero_add])

variable (c : Dev nD) (i : grid0.Coords)
  (arg2 : Memref sig .tc .vmem S256x1 .i32) (harg2 : arg2.IsWhole) (arg3 : Memref sig .tc .vmem S256x1 .i32) (harg3 : arg3.IsWhole)
  (arg4 : Memref sig .tc .vmem S8192x256 .bf16) (harg4 : arg4.IsWhole) (arg5 : Memref sig .tc .vmem S8192x256 .bf16) (harg5 : arg5.IsWhole)
  (arg6 : Memref sig .tc .vmem S1x8192x256 .f32) (harg6 : arg6.IsWhole) (arg7 : Memref sig .tc .vmem S8192x256 .f32) (harg7 : arg7.IsWhole)
  (u v : Vec F S256x1 .i32) (hi lo : Vec F S8192x256 .bf16)

-- The four input blocks, which the body only reads.
def ins0 : sProp 𝕄 :=
  iprop(owns (c : Thread nD τ) arg2 fullShare u ∗ owns (c : Thread nD τ) arg3 fullShare v
    ∗ owns (c : Thread nD τ) arg4 fullShare hi ∗ owns (c : Thread nD τ) arg5 fullShare lo)

set_option maxHeartbeats 3000000 in
-- One run of the body: the accumulator gains the chunk (from zero where a half opens); the result block takes it where a half closes.
theorem run0 (d : Vec F S1x8192x256 .f32) (s : Vec F S8192x256 .f32) (hx : cond0_1 i → ¬cond0_2 i) (E : Set ℕ) (K : PUnit → sProp 𝕄) :
    iprop(ins0 c arg2 arg3 arg4 arg5 u v hi lo ∗ owns (c : Thread nD τ) arg6 fullShare d ∗ owns (c : Thread nD τ) arg7 fullShare s
        ∗ (iprop(ins0 c arg2 arg3 arg4 arg5 u v hi lo
            ∗ owns (c : Thread nD τ) arg6 fullShare (if cond0_2 i then k0_pay2 (step0 u v hi lo (if cond0_1 i then k0_pay3 else s)) else d)
            ∗ owns (c : Thread nD τ) arg7 fullShare (step0 u v hi lo (if cond0_1 i then k0_pay3 else s))) -∗ K ⟨⟩))
      ⊢ wp frame (wpE (defs₀ (F := F)) Variants.none c none) E (cc0__graph_conv_kernel i arg2 harg2 arg3 harg3 arg4 harg4 arg5 harg5 arg6 harg6 arg7 harg7) K := by
  by_cases hc1 : cond0_1 i <;> by_cases hc2 : cond0_2 i
  · exact absurd hc2 (hx hc1)
  all_goals
    first | rw [if_pos hc1] | rw [if_neg hc1]
    first | rw [if_pos hc2] | rw [if_neg hc2]
    unfold ins0
    rw [owns_eq_rep (c : Thread nD τ) arg2, owns_eq_rep (c : Thread nD τ) arg3, owns_eq_rep (c : Thread nD τ) arg4,
      owns_eq_rep (c : Thread nD τ) arg5, owns_eq_rep (c : Thread nD τ) arg6 _ d, owns_eq_rep (c : Thread nD τ) arg7 _ s]
    simp only [cc0__graph_conv_kernel_eq_skeleton]; unfold cc0__graph_conv_kernel_skel
    simp only [k0_part1_eq_skeleton]
    iintro ⟨⟨H2, H3, H4, H5⟩, H6, H7, Hk⟩
    sl_exec (disch := first | exact hc1 | exact hc2)
    sl_step
    iapply Hk
    isplitl [H2 H3 H4 H5]
    · isplitl [H2]; · iexact H2
      isplitl [H3]; · iexact H3
      isplitl [H4]; · iexact H4
      iexact H5
    isplitl [H6]
    · first
      | iexact H6
      | unfold owns; iexists _; isplitr
        swap; · iexact H6
        ipureintro; sl_unfold_words
        rw [read_writes_cons_whole (S := S1x8192x256) _ _ hz3]
        simp only [View.readAt_eq_ld, View.read_rep, View.ld_unit_zero (S := S256x1) hz2, View.ld_unit_zero (S := S8192x256) hz2,
          readCov_cons_whole (S := S8192x256) _ hz2]
        rfl
    unfold owns; iexists _; isplitr
    swap; · iexact H7
    ipureintro; sl_unfold_words
    rw [read_writes_cons_whole (S := S8192x256) _ _ hz2]
    simp only [View.readAt_eq_ld, View.read_rep, View.ld_unit_zero (S := S256x1) hz2, View.ld_unit_zero (S := S8192x256) hz2,
      readCov_cons_whole (S := S8192x256) _ hz2]
    rfl

end Cert.KernelIdeal.Hand

end
-- ==== Proof.Reg0.lean ====
import proofs.«428349_j38809324486859_3_alg».proof.Proof.Reg0Runs
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at chunk `t`, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable (c : Dev nD) (t : Fin cfg0.N)

abbrev ub : Vec F S256x1 .i32 := iblk0 V c 0 t
abbrev vb : Vec F S256x1 .i32 := iblk0 V c 1 t
abbrev hib : Vec F S8192x256 .bf16 := iblk0 V c 2 t
abbrev lob : Vec F S8192x256 .bf16 := iblk0 V c 3 t

abbrev usV : Vec F S262144x1 .i32 := V c main_v22
abbrev vsV : Vec F S262144x1 .i32 := V c main_v23
abbrev hiV : Vec F S8192x256 .bf16 := V c main_v16
abbrev loV : Vec F S8192x256 .bf16 := V c main_v19

theorem ub_eq : ub V c t = ublk0 (usV V c) t.val := by
  unfold ublk0; rw [dif_pos t.isLt]; rfl
theorem vb_eq : vb V c t = vblk0 (vsV V c) t.val := by
  unfold vblk0; rw [dif_pos t.isLt]; rfl

-- The one block of a window over a whole array is the array.
theorem hib_eq : hib V c t = hiV V c := by
  funext x
  show ((cfg0.win 2).blk t).view.read (Elt F) (V c main_v16) x = V c main_v16 x
  rw [View.read_apply]
  have hx : ((cfg0.win 2).blk t).view.emb x = x := funext fun a => Fin.ext (by
    show cc0_transform_2 (grid0.coords t) a * S8192x256.size a + 1 * (x a).val = (x a).val
    have h0 : cc0_transform_2 (grid0.coords t) a = 0 := by fin_cases a <;> rfl
    rw [h0, Nat.zero_mul, Nat.zero_add, Nat.one_mul])
  rw [hx]; rfl
theorem lob_eq : lob V c t = loV V c := by
  funext x
  show ((cfg0.win 3).blk t).view.read (Elt F) (V c main_v19) x = V c main_v19 x
  rw [View.read_apply]
  have hx : ((cfg0.win 3).blk t).view.emb x = x := funext fun a => Fin.ext (by
    show cc0_transform_3 (grid0.coords t) a * S8192x256.size a + 1 * (x a).val = (x a).val
    have h0 : cc0_transform_3 (grid0.coords t) a = 0 := by fin_cases a <;> rfl
    rw [h0, Nat.zero_mul, Nat.zero_add, Nat.one_mul])
  rw [hx]; rfl

-- The accumulator after chunk `n`, over the arrays as the region finds them on core `c`.
def accV (n : ℕ) : Vec F S8192x256 .f32 := acc0 (usV V c) (vsV V c) (hiV V c) (loV V c) n

-- One chunk added to what the chunk before left (to zero where the chunk opens a half) is the accumulator after the chunk.
theorem accV_step (s : Vec F S8192x256 .f32) (hs : t.val ≠ 0 → s = accV V c (t.val - 1)) :
    step0 (ub V c t) (vb V c t) (hib V c t) (lob V c t) (if cond0_1 (grid0.coords t) then k0_pay3 else s) = accV V c t.val := by
  unfold accV at hs ⊢
  by_cases h1 : t.val % 512 = 0
  · rw [if_pos ((hcond0_1 t).mpr h1), acc0_of_first _ _ _ _ _ h1, ub_eq, vb_eq, hib_eq, lob_eq]
  · rw [if_neg (fun h => h1 ((hcond0_1 t).mp h)), hs (fun e => h1 (by rw [e])), acc0_of_later _ _ _ _ _ h1, ub_eq, vb_eq, hib_eq, lob_eq]

-- The result is stored only at a chunk that closes a half.
theorem idleAt0_4 (h : ¬cond0_2 (grid0.coords t)) : cfg0.idle 4 (grid0.coords t) = true := by
  show (!(k0_cond2 (grid0.coords t) == 1#1)) = true
  rw [Bool.not_eq_true', beq_eq_false_iff_ne]; exact h
theorem noFlush0_4 (h : ¬cond0_2 (grid0.coords t)) : (cfg0.win 4).flush t = false := by
  cases hf : (cfg0.win 4).flush t
  · rfl
  · exact absurd ((hcond0_2 t).mpr ((flush0_4 t).mp hf)) h
theorem liveAt0_4 (h : cond0_2 (grid0.coords t)) : cfg0.idle 4 (grid0.coords t) = false := by
  show (!(k0_cond2 (grid0.coords t) == 1#1)) = false
  rw [show k0_cond2 (grid0.coords t) = 1#1 from h]; rfl

abbrev scM0 : Memref sig .tc .vmem S8192x256 .f32 := Memref.whole cc0_scratch0

def rest0 : sProp 𝕄 :=
  Pipeline.scopedRestBut (Ix := Unit) (Name := ℕ) (U := UR sig nD τ) (Lvl := ℕ) (Val := Elt F) spec0 c [cc0_scratch0]

-- The region's entry resources, with the accumulator's buffer set apart.
theorem PhiA0_eq :
    (Pipeline.ΦA spec0 c : sProp 𝕄)
      = iprop(((∃ d, owns (c : Thread nD τ) scM0 fullShare d) ∗ rest0 c) ∗ (∃ r, prngReg c r)) := by
  unfold Pipeline.ΦA rest0
  rw [Pipeline.scopedRest_split_of_list spec0 c [cc0_scratch0] (by decide) (by decide)]
  simp only [scM0, owns_whole, bigSepL_singleton]; try rfl

-- The invariant before chunk `n`: the accumulator holds what the chunks so far have added (anything before the first).
def PhiS : ℕ → sProp 𝕄
  | 0 => Pipeline.ΦA spec0 c
  | n + 1 => iprop((owns (c : Thread nD τ) scM0 fullShare (accV V c n) ∗ rest0 c) ∗ (∃ r, prngReg c r))

theorem PhiS_succ (n : ℕ) :
    PhiS V c (n + 1) = iprop((owns (c : Thread nD τ) scM0 fullShare (accV V c n) ∗ rest0 c) ∗ (∃ r, prngReg c r)) := rfl

-- Before any chunk the accumulator's buffer is held at some contents: those the chunk before left, if there was one.
theorem PhiS_open (n : ℕ) :
    PhiS V c n ⊢ iprop(∃ s, ⌜n ≠ 0 → s = accV V c (n - 1)⌝ ∗ (owns (c : Thread nD τ) scM0 fullShare s ∗ rest0 c) ∗ (∃ r, prngReg c r)) := by
  cases n with
  | zero =>
    show Pipeline.ΦA spec0 c ⊢ _
    rw [PhiA0_eq]
    iintro ⟨⟨⟨%d, HS⟩, HR⟩, Hg⟩
    iexists d
    isplitr; · ipureintro; exact fun h => absurd rfl h
    iframe HS HR Hg
  | succ n =>
    rw [PhiS_succ]
    iintro H
    iexists accV V c n
    isplitr; · ipureintro; exact fun _ => rfl
    iexact H

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (accV V c t.val)
  Φ t := PhiS V c t.val
  q _ := fullShare
  owed _ := 0

theorem A_eq0 (c : Dev nD) (w : Fin cfg0.W) : (dat0 V c).A w = V c (Pipeline.arrRef spec0 w) := by
  dsimp only [dat0]
theorem hrec0 (c : Dev nD) : (dat0 V c).recorded 0 = Set.univ := rfl
theorem hq0 (c : Dev nD) (w : Fin cfg0.W) : (dat0 V c).q w = fullShare := rfl
theorem howed0 (c : Dev nD) (t : Fin (cfg0.N + 1)) : (dat0 V c).owed t = 0 := rfl

theorem Phi_castSucc : (dat0 V c).Φ t.castSucc = PhiS V c t.val := by
  dsimp only [dat0]; simp only [Fin.coe_castSucc]

theorem after0_0 : (dat0 V c).after 0 t = ub V c t := by dsimp only [dat0]
theorem after0_1 : (dat0 V c).after 1 t = vb V c t := by dsimp only [dat0]
theorem after0_2 : (dat0 V c).after 2 t = hib V c t := by dsimp only [dat0]
theorem after0_3 : (dat0 V c).after 3 t = lob V c t := by dsimp only [dat0]
theorem after0_4 : (dat0 V c).after 4 t = k0_pay2 (accV V c t.val) := by dsimp only [dat0]

-- At every chunk the body finds each input's block
theorem before0 : ∀ w : Fin cfg0.W, w ≠ 4 → ∀ (t : Fin cfg0.N) d, (dat0 V c).before w t d = (dat0 V c).after w t
  | ⟨0, _⟩, _ | ⟨1, _⟩, _ | ⟨2, _⟩, _ | ⟨3, _⟩, _ => fun t d =>
    ((dat0 V c).before_in_eq_fetched _ rfl (fun _ => rfl) (fun _ _ _ => rfl) (fun _ => rfl) t d).trans rfl
  | ⟨4, _⟩, h => absurd rfl h

-- and leaves it there.
theorem leaves0 : ∀ w : Fin cfg0.W, w ≠ 4 →
    (dat0 V c).leavesExact w t = owns (c : Thread nD τ) ((cfg0.win w).stage (cfg0.slots t w)) fullShare ((dat0 V c).after w t)
  | ⟨0, _⟩, _ | ⟨1, _⟩, _ | ⟨2, _⟩, _ | ⟨3, _⟩, _ => rfl
  | ⟨4, _⟩, h => absurd rfl h

-- The result's buffer takes the accumulator at a chunk that closes a half and is left as found at any other.
theorem leaves4 (d) :
    owns (c : Thread nD τ) (st0_4 t) fullShare (if cond0_2 (grid0.coords t) then k0_pay2 (accV V c t.val) else (dat0 V c).before 4 t d)
      ⊢ (dat0 V c).leavesExact 4 t := by
  by_cases h : cond0_2 (grid0.coords t)
  · rw [if_pos h, show (dat0 V c).leavesExact 4 t = owns (c : Thread nD τ) (st0_4 t) fullShare ((dat0 V c).after 4 t) from by
      unfold Dat.leavesExact; rw [liveAt0_4 t h], after0_4]
  · rw [if_neg h, Dat.leavesExact_idle (dat0 V c) 4 t (idleAt0_4 t h) (noFlush0_4 t h)]
    iintro H; iexists d; iexact H

def bodyPre0 : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1600000 in
-- The body at any chunk: the invariant hands it the accumulator and takes it back with this chunk added.
theorem sound_body0 :
    bodyPre0 V c t ⊢ wp frame (wpE (defs₀ (F := F)) Variants.none c none) Set.univ (bodyAt0 t) (fun _ => bodyPost0 V c t) := by
  unfold bodyPre0 bodyPost0 bodyAt0
  simp only [before0 V c 0 (by decide), before0 V c 1 (by decide), before0 V c 2 (by decide), before0 V c 3 (by decide)]
  rw [show (dat0 V c).owesAt () t.succ = (dat0 V c).owesAt () t.castSucc from rfl,
    show (dat0 V c).Φ t.succ = PhiS V c (t.val + 1) from rfl, PhiS_succ, Phi_castSucc,
    leaves0 V c t 0 (by decide), leaves0 V c t 1 (by decide), leaves0 V c t 2 (by decide), leaves0 V c t 3 (by decide),
    after0_0, after0_1, after0_2, after0_3]
  iintro ⟨HΦ, Ho, ⟨%d0, H0⟩, ⟨%d1, H1⟩, ⟨%d2, H2⟩, ⟨%d3, H3⟩, ⟨%d4, H4⟩⟩
  ihave HΦ' := (PhiS_open V c t.val) $$ HΦ
  icases HΦ' with ⟨%s, %hs, ⟨HS, HR⟩, Hg⟩
  iapply (run0 c (grid0.coords t) _ _ _ _ _ _ _ _ _ _ _ _ (ub V c t) (vb V c t) (hib V c t) (lob V c t) ((dat0 V c).before 4 t d4) s
    (fun h1 h2 => by have := (hcond0_1 t).mp h1; have := (hcond0_2 t).mp h2; omega) Set.univ _)
  unfold ins0
  iframe H0 H1 H2 H3 H4 HS
  iintro ⟨⟨H0, H1, H2, H3⟩, H4, HS⟩
  rw [accV_step V c t s hs]
  iframe HS HR Hg Ho H0 H1 H2 H3
  iapply leaves4 V c t d4
  iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

-- After the last chunk the accumulator's contents are forgotten.
theorem hout0 (c : Dev nD) : (dat0 V c).Φ (Fin.last cfg0.N) ⊢ Pipeline.ΦA spec0 c := by
  rw [show (dat0 V c).Φ (Fin.last cfg0.N) = PhiS V c (1023 + 1) from rfl, PhiS_succ, PhiA0_eq]
  iintro ⟨⟨HS, HR⟩, Hg⟩
  iframe HR Hg
  iexists _; iexact HS

theorem hidx4 : ∀ t : Fin cfg0.N, t.val % 512 = 511 → 512 * cc0_transform_4 (grid0.coords t) 0 + 511 = t.val := by decide +kernel
-- The result window's block at a chunk that closes a half is plane `t / 512` of the result array.
theorem emb4 (h : t.val % 512 = 511) (x0 : Fin 1) (x1 : Fin 8192) (x2 : Fin 256) :
    ((cfg0.win 4).blk t).view.emb (ix3 x0 x1 x2)
      = (ix3 (⟨t.val / 512, by have := t.isLt; have : cfg0.N = 1024 := N_0; omega⟩ : Fin 2) x1 x2 : S2x8192x256.Idx) :=
  funext fun a => Fin.ext (by
    have := hidx4 t h
    have := x0.isLt
    match a with
    | ⟨0, _⟩ => show cc0_transform_4 (grid0.coords t) 0 * 1 + 1 * x0.val = t.val / 512; omega
    | ⟨1, _⟩ => show 0 * 8192 + 1 * x1.val = x1.val; rw [Nat.zero_mul, Nat.zero_add, Nat.one_mul]
    | ⟨2, _⟩ => show 0 * 256 + 1 * x2.val = x2.val; rw [Nat.zero_mul, Nat.zero_add, Nat.one_mul])

theorem k0_pay2_apply (A : Vec F S8192x256 .f32) (x0 : Fin 1) (x1 : Fin 8192) (x2 : Fin 256) :
    k0_pay2 A (ix3 x0 x1 x2) = A (ix2 x1 x2) :=
  shapeCast_ab_1ab_apply A shapeCasts_S8192x256_S1x8192x256 x0 x1 x2

-- What a chunk that closes a half writes back is its block of `regOut0`.
theorem flushed0_4 (hf : (cfg0.win 4).flush t = true) :
    (dat0 V c).flushed 4 t = ((cfg0.win 4).blk t).view.read (Elt F) (regOut0 (usV V c) (vsV V c) (hiV V c) (loV V c)) := by
  have h2 : t.val % 512 = 511 := (flush0_4 t).mp hf
  show (cfg0.win 4).cut (grid0.coords t) ((dat0 V c).after 4 t) = _
  rw [after0_4]
  funext x
  rw [View.read_apply]
  obtain ⟨x0, x1, x2, rfl⟩ : ∃ (x0 : Fin 1) (x1 : Fin 8192) (x2 : Fin 256), x = ix3 x0 x1 x2 := ⟨x 0, x 1, x 2, eq_ix3 x⟩
  show k0_pay2 (accV V c t.val) (ix3 x0 x1 x2)
    = regOut0 (usV V c) (vsV V c) (hiV V c) (loV V c) (((cfg0.win 4).blk t).view.emb (ix3 x0 x1 x2))
  rw [k0_pay2_apply, emb4 t h2, regOut0_apply]
  show acc0 _ _ _ _ t.val _ = acc0 _ _ _ _ (512 * (t.val / 512) + 511) _
  rw [show 512 * (t.val / 512) + 511 = t.val by omega]

-- The two closing chunks' blocks cover the result array.
theorem cover0_4 (i : S2x8192x256.Idx) :
    ∃ t : Fin cfg0.N, (cfg0.win 4).flush t = true ∧ i ∈ ((cfg0.win 4).blk t).view.set := by
  have hi0 : (i 0).val < 2 := (i 0).isLt
  obtain ⟨t, ht⟩ : ∃ t : Fin cfg0.N, t.val = 512 * (i 0).val + 511 := ⟨⟨_, by have : cfg0.N = 1024 := N_0; omega⟩, rfl⟩
  have hm : t.val % 512 = 511 := by omega
  refine ⟨t, (flush0_4 t).mpr hm, ?_⟩
  have e : ∀ h, (⟨t.val / 512, h⟩ : Fin 2) = i 0 := fun h => Fin.ext (by show t.val / 512 = (i 0).val; omega)
  have hx : ((cfg0.win 4).blk t).view.emb (ix3 (0 : Fin 1) (i 1 : Fin 8192) (i 2 : Fin 256)) = i :=
    (emb4 t hm 0 (i 1) (i 2)).trans (by rw [e]; exact (eq_ix3 i).symm)
  have hmem := View.emb_mem_set ((cfg0.win 4).blk t).view (ix3 (0 : Fin 1) (i 1 : Fin 8192) (i 2 : Fin 256))
  rw [hx] at hmem; exact hmem

theorem arrAt0_out (c : Dev nD) :
    (dat0 V c).arrAt 4 cfg0.N = regOut0 (usV V c) (vsV V c) (hiV V c) (loV V c) :=
  (dat0 V c).arrAt_eq_of_cover 4 (regOut0 (usV V c) (vsV V c) (hiV V c) (loV V c)) (flushed0_4 V c) cover0_4

end Cert.KernelIdeal.Hand

end
-- ==== Proof.Reg1Defs.lean ====
import proofs.«428349_j38809324486859_3_alg».proof.Proof.Gen.KernelIdeal.Skeleton
import proofs.«428349_j38809324486859_3_alg».proof.Proof.Gen.KernelIdeal.Launch
import proofs.«428349_j38809324486859_3_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe Idealize.SL.Sem

variable {F : FTy → Type} [FloatOps F]

abbrev payLo (mk : Vec F S3x512 .bf16) (tt : Vec F S1x512 .f32) : FVec F S3x512 .bf16 := k1_pay16 mk tt

abbrev payNumHi (vs : Vec F S512x1 .i32) (mk : Vec F S3x512 .bf16) (tt : Vec F S1x512 .f32) (s : Vec F S3x8192 .f32) :
    FVec F S3x8192 .f32 := k1_pay17 vs mk tt s

/-- Attention sums, in-counts and out-counts per motif and node, carried together. -/
abbrev Acc (F : FTy → Type) : Type := Vec F S3x8192 .f32 × Vec F S3x8192 .f32 × Vec F S3x8192 .f32

def zero1 : Acc F := (k1_pay8, k1_pay9, k1_pay10)

def stepNum (vs : Vec F S512x1 .i32) (tt : Vec F S1x512 .f32) (mk : Vec F S3x512 .bf16) (s : Vec F S3x8192 .f32) :
    Vec F S3x8192 .f32 :=
  k1_pay2 (k1_pay12 vs) (payLo mk tt) (k1_pay1 (payNumHi vs mk tt s))

def stepCnt (vs : Vec F S512x1 .i32) (mk : Vec F S3x512 .bf16) (s : Vec F S3x8192 .f32) : Vec F S3x8192 .f32 :=
  k1_pay3 (k1_pay12 vs) (k1_pay13 mk) s

def stepSrc (us : Vec F S512x1 .i32) (mk : Vec F S3x512 .bf16) (s : Vec F S3x8192 .f32) : Vec F S3x8192 .f32 :=
  k1_pay4 (k1_pay11 us) (k1_pay13 mk) s

/-- One chunk of 512 edges added to the three accumulators. -/
def step1 (us vs : Vec F S512x1 .i32) (tt : Vec F S1x512 .f32) (mk : Vec F S3x512 .bf16) (s : Acc F) : Acc F :=
  (stepNum vs tt mk s.1, stepCnt vs mk s.2.1, stepSrc us mk s.2.2)

def blkU (us : Vec F S262144x1 .i32) (t : Fin cfg1.N) : Vec F S512x1 .i32 := (win1_0.blk t).view.read (Elt F) us
def blkV (vs : Vec F S262144x1 .i32) (t : Fin cfg1.N) : Vec F S512x1 .i32 := (win1_1.blk t).view.read (Elt F) vs
def blkT (tt : Vec F S1x262144 .f32) (t : Fin cfg1.N) : Vec F S1x512 .f32 := (win1_2.blk t).view.read (Elt F) tt
def blkM (mk : Vec F S3x262144 .bf16) (t : Fin cfg1.N) : Vec F S3x512 .bf16 := (win1_3.blk t).view.read (Elt F) mk

section Sweep

variable (us vs : Vec F S262144x1 .i32) (tt : Vec F S1x262144 .f32) (mk : Vec F S3x262144 .bf16)

def stepAt (t : Fin cfg1.N) (s : Acc F) : Acc F :=
  step1 (blkU us t) (blkV vs t) (blkT tt t) (blkM mk t) s

/-- The accumulators after chunk `n`; they restart from zero at the first chunk of each half of the edge list. -/
def acc1 : (n : ℕ) → n < cfg1.N → Acc F
  | 0, hn => stepAt us vs tt mk ⟨0, hn⟩ zero1
  | n + 1, hn =>
    stepAt us vs tt mk ⟨n + 1, hn⟩ (if (n + 1) % 256 = 0 then zero1 else acc1 n (Nat.lt_of_succ_lt hn))

theorem acc1_succ (n : ℕ) (hn : n + 1 < cfg1.N) :
    acc1 us vs tt mk (n + 1) hn
      = stepAt us vs tt mk ⟨n + 1, hn⟩ (if (n + 1) % 256 = 0 then zero1 else acc1 us vs tt mk n (Nat.lt_of_succ_lt hn)) := rfl

theorem acc1_first (t : Fin cfg1.N) (h : t.val % 256 = 0) : acc1 us vs tt mk t.val t.isLt = stepAt us vs tt mk t zero1 := by
  obtain ⟨n, hn⟩ := t
  cases n with
  | zero => rfl
  | succ n => show stepAt us vs tt mk _ (if (n + 1) % 256 = 0 then _ else _) = _; rw [if_pos h]

theorem acc1_next (t : Fin cfg1.N) (h : t.val % 256 ≠ 0) :
    acc1 us vs tt mk t.val t.isLt
      = stepAt us vs tt mk t (acc1 us vs tt mk (t.val - 1) (Nat.lt_of_le_of_lt (Nat.sub_le _ _) t.isLt)) := by
  obtain ⟨n, hn⟩ := t
  cases n with
  | zero => exact absurd (Nat.zero_mod _) h
  | succ n => show stepAt us vs tt mk _ (if (n + 1) % 256 = 0 then _ else _) = _; rw [if_neg h]; rfl

theorem lastOf_lt (a : Fin 2) : 256 * a.val + 255 < cfg1.N := by
  have : cfg1.N = 512 := N_1
  have := a.isLt; omega

/-- Slice `a` of each result is its accumulator after the last chunk of half `a`. -/
def regOut1_0 : Vec F S2x3x8192 .f32 :=
  fun i => k1_pay5 (acc1 us vs tt mk (256 * (i 0).val + 255) (lastOf_lt (i 0))).1 (fun a => match a with | ⟨0, _⟩ => (0 : Fin 1) | ⟨1, _⟩ => i 1 | ⟨2, _⟩ => i 2)
def regOut1_1 : Vec F S2x3x8192 .f32 :=
  fun i => k1_pay6 (acc1 us vs tt mk (256 * (i 0).val + 255) (lastOf_lt (i 0))).2.1 (fun a => match a with | ⟨0, _⟩ => (0 : Fin 1) | ⟨1, _⟩ => i 1 | ⟨2, _⟩ => i 2)
def regOut1_2 : Vec F S2x3x8192 .f32 :=
  fun i => k1_pay7 (acc1 us vs tt mk (256 * (i 0).val + 255) (lastOf_lt (i 0))).2.2 (fun a => match a with | ⟨0, _⟩ => (0 : Fin 1) | ⟨1, _⟩ => i 1 | ⟨2, _⟩ => i 2)

end Sweep

end Cert.KernelIdeal.Hand

end
-- ==== Proof.Reg1Kit.lean ====
import proofs.«428349_j38809324486859_3_alg».proof.Proof.Reg1Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 256 = 0 :=
  (by decide +kernel : ∀ t : Fin grid1.N, cond1_0 (grid1.coords t) ↔ t.val % 256 = 0)

abbrev cond1_1 (i : grid1.Coords) : Prop := k1_cond2 i = 1#1
theorem hcond1_1 : ∀ t : Fin cfg1.N, cond1_1 (grid1.coords t) ↔ t.val % 256 = 255 :=
  (by decide +kernel : ∀ t : Fin grid1.N, cond1_1 (grid1.coords t) ↔ t.val % 256 = 255)

/-- A result window is stored at the last chunk of a half, and neither stored nor written back at any other. -/
theorem outAt1 : ∀ (t : Fin cfg1.N) (w : Fin cfg1.W), 4 ≤ w.val →
    if cond1_1 (grid1.coords t) then cfg1.idle w (grid1.coords t) = false
    else cfg1.idle w (grid1.coords t) = true ∧ (cfg1.win w).flush t = false := by decide +kernel

abbrev scM1_0 : Memref sig .tc .vmem S3x8192 .f32 := Memref.whole cc1_scratch0
abbrev scM1_1 : Memref sig .tc .vmem S3x8192 .f32 := Memref.whole cc1_scratch1
abbrev scM1_2 : Memref sig .tc .vmem S3x8192 .f32 := Memref.whole cc1_scratch2

/-- What the pass holds between chunks: the three accumulators as `P0`, `P1`, `P2` say, every other scoped buffer
    at anything, the generator register at some state. -/
def keeps1 (c : Dev nD) (P0 P1 P2 : sProp 𝕄) : sProp 𝕄 :=
  iprop(((P0 ∗ P1 ∗ P2) ∗ Pipeline.scopedRestBut spec1 c [cc1_scratch0, cc1_scratch1, cc1_scratch2]) ∗ (∃ r, prngReg c r))

theorem PhiA1_eq (c : Dev nD) :
    (Pipeline.ΦA spec1 c : sProp 𝕄)
      = keeps1 c iprop(∃ d, owns (c : Thread nD τ) scM1_0 fullShare d) iprop(∃ d, owns (c : Thread nD τ) scM1_1 fullShare d)
          iprop(∃ d, owns (c : Thread nD τ) scM1_2 fullShare d) := by
  unfold Pipeline.ΦA keeps1
  rw [Pipeline.scopedRest_split_of_list spec1 c [cc1_scratch0, cc1_scratch1, cc1_scratch2] (by decide) (by decide)]
  simp only [scM1_0, scM1_1, scM1_2, owns_whole]; rfl

theorem keeps1_mono (c : Dev nD) {P0 P1 P2 Q0 Q1 Q2 : sProp 𝕄} (h0 : P0 ⊢ Q0) (h1 : P1 ⊢ Q1) (h2 : P2 ⊢ Q2) :
    keeps1 c P0 P1 P2 ⊢ keeps1 c Q0 Q1 Q2 := by
  unfold keeps1
  iintro ⟨⟨⟨H0, H1, H2⟩, HB⟩, HG⟩
  isplitr [HG]; swap; · iexact HG
  isplitr [HB]; swap; · iexact HB
  isplitl [H0]; · iapply h0; iexact H0
  isplitl [H1]; · iapply h1; iexact H1
  iapply h2; iexact H2

/-- The body at grid point `i` on whole buffers. `zs` picks the accumulators' start (zero, or what they held),
    `ps` what a result block is left at (as found, or its accumulator). -/
def Run1 (i : grid1.Coords) (zs : Vec F S3x8192 .f32 → Vec F S3x8192 .f32 → Vec F S3x8192 .f32) (ps : sProp 𝕄 → sProp 𝕄 → sProp 𝕄) : Prop :=
  ∀ (c : Dev nD) (E : Set ℕ)
    (arg2 : Memref sig .tc .vmem S512x1 .i32) (harg2 : arg2.IsWhole) (arg3 : Memref sig .tc .vmem S512x1 .i32) (harg3 : arg3.IsWhole)
    (arg4 : Memref sig .tc .vmem S1x512 .f32) (harg4 : arg4.IsWhole) (arg5 : Memref sig .tc .vmem S3x512 .bf16) (harg5 : arg5.IsWhole)
    (arg6 : Memref sig .tc .vmem S1x3x8192 .f32) (harg6 : arg6.IsWhole) (arg7 : Memref sig .tc .vmem S1x3x8192 .f32) (harg7 : arg7.IsWhole)
    (arg8 : Memref sig .tc .vmem S1x3x8192 .f32) (harg8 : arg8.IsWhole)
    (arg9 : Memref sig .tc .vmem S3x8192 .f32) (harg9 : arg9.IsWhole) (arg10 : Memref sig .tc .vmem S3x8192 .f32) (harg10 : arg10.IsWhole)
    (arg11 : Memref sig .tc .vmem S3x8192 .f32) (harg11 : arg11.IsWhole)
    (xu xv : Vec F S512x1 .i32) (xt : Vec F S1x512 .f32) (xm : Vec F S3x512 .bf16) (s0 s1 s2 : Vec F S3x8192 .f32)
    (D : Type) (w6 w7 w8 : D → Vec F S1x3x8192 .f32) (K : PUnit → sProp 𝕄),
    iprop(owns (c : Thread nD τ) arg2 fullShare xu ∗ owns (c : Thread nD τ) arg3 fullShare xv ∗ owns (c : Thread nD τ) arg4 fullShare xt
        ∗ owns (c : Thread nD τ) arg5 fullShare xm
        ∗ (∃ d, owns (c : Thread nD τ) arg6 fullShare (w6 d)) ∗ (∃ d, owns (c : Thread nD τ) arg7 fullShare (w7 d))
        ∗ (∃ d, owns (c : Thread nD τ) arg8 fullShare (w8 d))
        ∗ owns (c : Thread nD τ) arg9 fullShare s0 ∗ owns (c : Thread nD τ) arg10 fullShare s1 ∗ owns (c : Thread nD τ) arg11 fullShare s2
        ∗ (iprop(owns (c : Thread nD τ) arg2 fullShare xu ∗ owns (c : Thread nD τ) arg3 fullShare xv ∗ owns (c : Thread nD τ) arg4 fullShare xt
            ∗ owns (c : Thread nD τ) arg5 fullShare xm
            ∗ ps iprop(∃ d, owns (c : Thread nD τ) arg6 fullShare (w6 d))
                (owns (c : Thread nD τ) arg6 fullShare (k1_pay5 (stepNum xv xt xm (zs k1_pay8 s0))))
            ∗ ps iprop(∃ d, owns (c : Thread nD τ) arg7 fullShare (w7 d))
                (owns (c : Thread nD τ) arg7 fullShare (k1_pay6 (stepCnt xv xm (zs k1_pay9 s1))))
            ∗ ps iprop(∃ d, owns (c : Thread nD τ) arg8 fullShare (w8 d))
                (owns (c : Thread nD τ) arg8 fullShare (k1_pay7 (stepSrc xu xm (zs k1_pay10 s2))))
            ∗ owns (c : Thread nD τ) arg9 fullShare (stepNum xv xt xm (zs k1_pay8 s0))
            ∗ owns (c : Thread nD τ) arg10 fullShare (stepCnt xv xm (zs k1_pay9 s1))
            ∗ owns (c : Thread nD τ) arg11 fullShare (stepSrc xu xm (zs k1_pay10 s2))) -∗ K ⟨⟩))
      ⊢ wp frame (wpE (defs₀ (F := F)) Variants.none c none) E
          (cc1__attn_scatter_kernel i arg2 harg2 arg3 harg3 arg4 harg4 arg5 harg5 arg6 harg6 arg7 harg7 arg8 harg8 arg9 harg9 arg10 harg10 arg11 harg11) K

end Cert.KernelIdeal.Hand

end
-- ==== Proof.Reg1RunA.lean ====
import proofs.«428349_j38809324486859_3_alg».proof.Proof.Reg1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run1_A (i : grid1.Coords) (hc0 : cond1_0 i) (hc1 : ¬cond1_1 i) :
    Run1 (F := F) i (fun a b => a) (fun a b => a) := by
  intro c E arg2 harg2 arg3 harg3 arg4 harg4 arg5 harg5 arg6 harg6 arg7 harg7 arg8 harg8 arg9 harg9 arg10 harg10 arg11 harg11
    xu xv xt xm s0 s1 s2 D w6 w7 w8 K
  unfold stepNum stepCnt stepSrc
  simp only [cc1__attn_scatter_kernel_eq_skeleton]; unfold cc1__attn_scatter_kernel_skel
  simp only [k1_part1_eq_skeleton]
  unfold owns
  iintro ⟨⟨%f2, %hf2, H2⟩, ⟨%f3, %hf3, H3⟩, ⟨%f4, %hf4, H4⟩, ⟨%f5, %hf5, H5⟩, H6, H7, H8, ⟨%f9, %hf9, H9⟩, ⟨%f10, %hf10, H10⟩, ⟨%f11, %hf11, H11⟩, Hk⟩
  subst hf2 hf3 hf4 hf5 hf9 hf10 hf11
  sl_exec (disch := first | exact hc0 | exact hc1)
  sl_step
  iapply Hk
  isplitl [H2]; swap; isplitl [H3]; swap; isplitl [H4]; swap; isplitl [H5]; swap; isplitl [H6]; swap
  isplitl [H7]; swap; isplitl [H8]; swap; isplitl [H9]; swap; isplitl [H10]; swap
  all_goals first
    | (iexists _; isplitr; swap
       · first | iexact H2 | iexact H3 | iexact H4 | iexact H5 | iexact H6 | iexact H7 | iexact H8 | iexact H9 | iexact H10 | iexact H11)
    | iexact H6 | iexact H7 | iexact H8
  all_goals ipureintro
  all_goals first
    | with_reducible rfl
    | (sl_unfold_words
       first
         | rw [View.read_writes_eq_canon _ _ _ (fun y => ⟨_, List.mem_cons_self, View.mem_set_unit_zero hz2 inb_S3x8192_S3x8192_0_0 y⟩),
             View.canon_cons_unit_zero hz2]
         | rw [View.read_writes_eq_canon _ _ _ (fun y => ⟨_, List.mem_cons_self, View.mem_set_unit_zero hz3 inb_S1x3x8192_S1x3x8192_0_0_0 y⟩),
             View.canon_cons_unit_zero hz3]
       simp only [View.readAt_eq_ld, View.ld_unit_zero (S := S3x8192) hz2, View.ld_unit_zero (S := S512x1) hz2,
         View.ld_unit_zero (S := S1x512) hz2, View.ld_unit_zero (S := S3x512) hz2, View.ld_unit_zero (S := S1x3x8192) hz3,
         View.readCov_cons_toLoadRect])

end Cert.KernelIdeal.Hand

end
-- ==== Proof.Reg1RunB.lean ====
import proofs.«428349_j38809324486859_3_alg».proof.Proof.Reg1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run1_B (i : grid1.Coords) (hc0 : ¬cond1_0 i) (hc1 : ¬cond1_1 i) :
    Run1 (F := F) i (fun a b => b) (fun a b => a) := by
  intro c E arg2 harg2 arg3 harg3 arg4 harg4 arg5 harg5 arg6 harg6 arg7 harg7 arg8 harg8 arg9 harg9 arg10 harg10 arg11 harg11
    xu xv xt xm s0 s1 s2 D w6 w7 w8 K
  unfold stepNum stepCnt stepSrc
  simp only [cc1__attn_scatter_kernel_eq_skeleton]; unfold cc1__attn_scatter_kernel_skel
  simp only [k1_part1_eq_skeleton]
  unfold owns
  iintro ⟨⟨%f2, %hf2, H2⟩, ⟨%f3, %hf3, H3⟩, ⟨%f4, %hf4, H4⟩, ⟨%f5, %hf5, H5⟩, H6, H7, H8, ⟨%f9, %hf9, H9⟩, ⟨%f10, %hf10, H10⟩, ⟨%f11, %hf11, H11⟩, Hk⟩
  subst hf2 hf3 hf4 hf5 hf9 hf10 hf11
  sl_exec (disch := first | exact hc0 | exact hc1)
  sl_step
  iapply Hk
  isplitl [H2]; swap; isplitl [H3]; swap; isplitl [H4]; swap; isplitl [H5]; swap; isplitl [H6]; swap
  isplitl [H7]; swap; isplitl [H8]; swap; isplitl [H9]; swap; isplitl [H10]; swap
  all_goals first
    | (iexists _; isplitr; swap
       · first | iexact H2 | iexact H3 | iexact H4 | iexact H5 | iexact H6 | iexact H7 | iexact H8 | iexact H9 | iexact H10 | iexact H11)
    | iexact H6 | iexact H7 | iexact H8
  all_goals ipureintro
  all_goals first
    | with_reducible rfl
    | (sl_unfold_words
       first
         | rw [View.read_writes_eq_canon _ _ _ (fun y => ⟨_, List.mem_cons_self, View.mem_set_unit_zero hz2 inb_S3x8192_S3x8192_0_0 y⟩),
             View.canon_cons_unit_zero hz2]
         | rw [View.read_writes_eq_canon _ _ _ (fun y => ⟨_, List.mem_cons_self, View.mem_set_unit_zero hz3 inb_S1x3x8192_S1x3x8192_0_0_0 y⟩),
             View.canon_cons_unit_zero hz3]
       simp only [View.readAt_eq_ld, View.ld_unit_zero (S := S3x8192) hz2, View.ld_unit_zero (S := S512x1) hz2,
         View.ld_unit_zero (S := S1x512) hz2, View.ld_unit_zero (S := S3x512) hz2, View.ld_unit_zero (S := S1x3x8192) hz3,
         View.readCov_cons_toLoadRect])

end Cert.KernelIdeal.Hand

end
-- ==== Proof.Reg1RunC.lean ====
import proofs.«428349_j38809324486859_3_alg».proof.Proof.Reg1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run1_C (i : grid1.Coords) (hc0 : ¬cond1_0 i) (hc1 : cond1_1 i) :
    Run1 (F := F) i (fun a b => b) (fun a b => b) := by
  intro c E arg2 harg2 arg3 harg3 arg4 harg4 arg5 harg5 arg6 harg6 arg7 harg7 arg8 harg8 arg9 harg9 arg10 harg10 arg11 harg11
    xu xv xt xm s0 s1 s2 D w6 w7 w8 K
  unfold stepNum stepCnt stepSrc
  simp only [cc1__attn_scatter_kernel_eq_skeleton]; unfold cc1__attn_scatter_kernel_skel
  simp only [k1_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩,
    ⟨%d8, %f8, -, H8⟩, ⟨%f9, %hf9, H9⟩, ⟨%f10, %hf10, H10⟩, ⟨%f11, %hf11, H11⟩, Hk⟩
  subst hf2 hf3 hf4 hf5 hf9 hf10 hf11
  sl_exec (disch := first | exact hc0 | exact hc1)
  sl_step
  iapply Hk
  isplitl [H2]; swap; isplitl [H3]; swap; isplitl [H4]; swap; isplitl [H5]; swap; isplitl [H6]; swap
  isplitl [H7]; swap; isplitl [H8]; swap; isplitl [H9]; swap; isplitl [H10]; swap
  all_goals first
    | (iexists _; isplitr; swap
       · first | iexact H2 | iexact H3 | iexact H4 | iexact H5 | iexact H6 | iexact H7 | iexact H8 | iexact H9 | iexact H10 | iexact H11)
    | iexact H6 | iexact H7 | iexact H8
  all_goals ipureintro
  all_goals first
    | with_reducible rfl
    | (sl_unfold_words
       first
         | rw [View.read_writes_eq_canon _ _ _ (fun y => ⟨_, List.mem_cons_self, View.mem_set_unit_zero hz2 inb_S3x8192_S3x8192_0_0 y⟩),
             View.canon_cons_unit_zero hz2]
         | rw [View.read_writes_eq_canon _ _ _ (fun y => ⟨_, List.mem_cons_self, View.mem_set_unit_zero hz3 inb_S1x3x8192_S1x3x8192_0_0_0 y⟩),
             View.canon_cons_unit_zero hz3]
       simp only [View.readAt_eq_ld, View.ld_unit_zero (S := S3x8192) hz2, View.ld_unit_zero (S := S512x1) hz2,
         View.ld_unit_zero (S := S1x512) hz2, View.ld_unit_zero (S := S3x512) hz2, View.ld_unit_zero (S := S1x3x8192) hz3,
         View.readCov_cons_toLoadRect])

end Cert.KernelIdeal.Hand

end
-- ==== Proof.Reg1.lean ====
import proofs.«428349_j38809324486859_3_alg».proof.Proof.Reg1RunA
import proofs.«428349_j38809324486859_3_alg».proof.Proof.Reg1RunB
import proofs.«428349_j38809324486859_3_alg».proof.Proof.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

abbrev aU (c : Dev nD) : Vec F S262144x1 .i32 := V c main_v95
abbrev aV (c : Dev nD) : Vec F S262144x1 .i32 := V c main_v96
abbrev aT (c : Dev nD) : Vec F S1x262144 .f32 := V c main_v97
abbrev aM (c : Dev nD) : Vec F S3x262144 .bf16 := V c main_v94

abbrev accAt1 (c : Dev nD) (n : ℕ) (hn : n < cfg1.N) : Acc F := acc1 (aU V c) (aV V c) (aT V c) (aM V c) n hn

abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)

/-- The invariant between chunks: at 0 the launch's own; after chunk `n` the accumulators hold `accAt1 n`. -/
def PhiS1 (c : Dev nD) : (n : ℕ) → n ≤ cfg1.N → sProp 𝕄
  | 0, _ => Pipeline.ΦA spec1 c
  | n + 1, hn => keeps1 c (owns (c : Thread nD τ) scM1_0 fullShare (accAt1 V c n hn).1)
      (owns (c : Thread nD τ) scM1_1 fullShare (accAt1 V c n hn).2.1) (owns (c : Thread nD τ) scM1_2 fullShare (accAt1 V c n hn).2.2)

theorem PhiS1_pos (c : Dev nD) (n : ℕ) (h : n ≤ cfg1.N) (hz : n ≠ 0) :
    PhiS1 V c n h = keeps1 c (owns (c : Thread nD τ) scM1_0 fullShare (accAt1 V c (n - 1) (by omega)).1)
      (owns (c : Thread nD τ) scM1_1 fullShare (accAt1 V c (n - 1) (by omega)).2.1)
      (owns (c : Thread nD τ) scM1_2 fullShare (accAt1 V c (n - 1) (by omega)).2.2) := by
  cases n with
  | zero => exact absurd rfl hz
  | succ n => rfl

/-- The invariant at any chunk implies the one with the accumulators at unknown contents. -/
theorem PhiS1_forget (c : Dev nD) (n : ℕ) (h : n ≤ cfg1.N) :
    PhiS1 V c n h ⊢ keeps1 c iprop(∃ d, owns (c : Thread nD τ) scM1_0 fullShare d) iprop(∃ d, owns (c : Thread nD τ) scM1_1 fullShare d)
      iprop(∃ d, owns (c : Thread nD τ) scM1_2 fullShare d) := by
  cases n with
  | zero => exact Entails.of_eq (PhiA1_eq c)
  | succ n => exact keeps1_mono c (by iintro H; iexists _; iexact H) (by iintro H; iexists _; iexact H) (by iintro H; iexists _; iexact H)

def dat1 (c : Dev nD) : Dat τ (Elt F) Unit ℕ (UR sig nD τ) ℕ cfg1 c where
  A w := V c (Pipeline.arrRef spec1 w)
  after w t := match w with
    | ⟨0, _⟩ => blkU (aU V c) t
    | ⟨1, _⟩ => blkV (aV V c) t
    | ⟨2, _⟩ => blkT (aT V c) t
    | ⟨3, _⟩ => blkM (aM V c) t
    | ⟨4, _⟩ => k1_pay5 (accAt1 V c t.val t.isLt).1
    | ⟨5, _⟩ => k1_pay6 (accAt1 V c t.val t.isLt).2.1
    | ⟨6, _⟩ => k1_pay7 (accAt1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem hrec1 (c : Dev nD) : (dat1 V c).recorded 0 = Set.univ := rfl
theorem hq1 (c : Dev nD) (w : Fin cfg1.W) : (dat1 V c).q w = fullShare := rfl
theorem howed1 (c : Dev nD) (t : Fin (cfg1.N + 1)) : (dat1 V c).owed t = 0 := rfl

/-- An input window is never idle and its block is never changed, so its buffer holds the chunk's block. -/
theorem before1_0 (c : Dev nD) (t : Fin cfg1.N) (d) : (dat1 V c).before 0 t d = blkU (aU V c) t :=
  (dat1 V c).before_in_eq_fetched 0 rfl (fun _ => rfl) (fun _ _ _ => rfl) (fun _ => rfl) t d
theorem before1_1 (c : Dev nD) (t : Fin cfg1.N) (d) : (dat1 V c).before 1 t d = blkV (aV V c) t :=
  (dat1 V c).before_in_eq_fetched 1 rfl (fun _ => rfl) (fun _ _ _ => rfl) (fun _ => rfl) t d
theorem before1_2 (c : Dev nD) (t : Fin cfg1.N) (d) : (dat1 V c).before 2 t d = blkT (aT V c) t :=
  (dat1 V c).before_in_eq_fetched 2 rfl (fun _ => rfl) (fun _ _ _ => rfl) (fun _ => rfl) t d
theorem before1_3 (c : Dev nD) (t : Fin cfg1.N) (d) : (dat1 V c).before 3 t d = blkM (aM V c) t :=
  (dat1 V c).before_in_eq_fetched 3 rfl (fun _ => rfl) (fun _ _ _ => rfl) (fun _ => rfl) t d

theorem after1_4 (c : Dev nD) (t : Fin cfg1.N) : (dat1 V c).after 4 t = k1_pay5 (accAt1 V c t.val t.isLt).1 := rfl
theorem after1_5 (c : Dev nD) (t : Fin cfg1.N) : (dat1 V c).after 5 t = k1_pay6 (accAt1 V c t.val t.isLt).2.1 := rfl
theorem after1_6 (c : Dev nD) (t : Fin cfg1.N) : (dat1 V c).after 6 t = k1_pay7 (accAt1 V c t.val t.isLt).2.2 := rfl

/-- A result window is left as found except at the last chunk of a half, where it holds its accumulator. -/
theorem leaves1_idle (c : Dev nD) (t : Fin cfg1.N) (h : ¬cond1_1 (grid1.coords t)) (w : Fin cfg1.W) (hw : 4 ≤ w.val) :
    (dat1 V c).leavesExact w t
      = iprop(∃ d, owns (c : Thread nD τ) ((cfg1.win w).stage (cfg1.slots t w)) fullShare ((dat1 V c).before w t d)) := by
  have := outAt1 t w hw; rw [if_neg h] at this; exact Dat.leavesExact_idle _ w t this.1 this.2
theorem leaves1_live (c : Dev nD) (t : Fin cfg1.N) (h : cond1_1 (grid1.coords t)) (w : Fin cfg1.W) (hw : 4 ≤ w.val) :
    (dat1 V c).leavesExact w t = owns (c : Thread nD τ) ((cfg1.win w).stage (cfg1.slots t w)) fullShare ((dat1 V c).after w t) := by
  have := outAt1 t w hw; rw [if_pos h] at this; unfold Dat.leavesExact; rw [this]

/-- The body obligation's two sides at chunk `t`, with the windows written out. -/
def bodyPre1 (c : Dev nD) (t : Fin cfg1.N) : sProp 𝕄 :=
  iprop(PhiS1 V c t.val (Nat.le_of_lt t.isLt) ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop(keeps1 c (owns (c : Thread nD τ) scM1_0 fullShare (accAt1 V c t.val t.isLt).1)
      (owns (c : Thread nD τ) scM1_1 fullShare (accAt1 V c t.val t.isLt).2.1) (owns (c : Thread nD τ) scM1_2 fullShare (accAt1 V c t.val t.isLt).2.2)
    ∗ (dat1 V c).owesAt () t.castSucc
    ∗ owns (c : Thread nD τ) (ms1_0 t) fullShare (blkU (aU V c) t) ∗ owns (c : Thread nD τ) (ms1_1 t) fullShare (blkV (aV V c) t)
    ∗ owns (c : Thread nD τ) (ms1_2 t) fullShare (blkT (aT V c) t) ∗ owns (c : Thread nD τ) (ms1_3 t) fullShare (blkM (aM V c) t)
    ∗ (dat1 V c).leavesExact 4 t ∗ (dat1 V c).leavesExact 5 t ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  have hN : t.val < 512 := lt_of_lt_of_eq t.isLt (show cfg1.N = 512 from N_1)
  by_cases h0 : t.val % 256 = 0
  · have hc0 : cond1_0 (grid1.coords t) := (hcond1_0 t).mpr h0
    have hc1 : ¬cond1_1 (grid1.coords t) := fun h => by have := (hcond1_1 t).mp h; omega
    rw [leaves1_idle V c t hc1 4 (by decide), leaves1_idle V c t hc1 5 (by decide), leaves1_idle V c t hc1 6 (by decide),
      show accAt1 V c t.val t.isLt = _ from acc1_first (aU V c) (aV V c) (aT V c) (aM V c) t h0]
    unfold stepAt step1 zero1; dsimp only
    iintro ⟨HΦ, Ho, ⟨%d0, H0⟩, ⟨%d1, H1⟩, ⟨%d2, H2⟩, ⟨%d3, H3⟩, H4, H5, H6⟩
    ihave HΦ := (PhiS1_forget V c t.val _) $$ HΦ
    unfold keeps1
    icases HΦ with ⟨⟨⟨⟨%s0, HS0⟩, ⟨%s1, HS1⟩, ⟨%s2, HS2⟩⟩, HB⟩, HG⟩
    iapply (run1_A (grid1.coords t) hc0 hc1 c Set.univ _ _ _ _ _ _ _ _ _ _ _ _ _ _ _ _ _ _ _ _ (blkU (aU V c) t) (blkV (aV V c) t) (blkT (aT V c) t) (blkM (aM V c) t) _ _ _ _ _ _ _ _)
    iframe H0 H1 H2 H3 H4 H5 H6 HS0 HS1 HS2
    iintro ⟨H0, H1, H2, H3, H4, H5, H6, HS0, HS1, HS2⟩
    iframe
  · have hc0 : ¬cond1_0 (grid1.coords t) := fun h => h0 ((hcond1_0 t).mp h)
    rw [PhiS1_pos V c _ _ (fun e => h0 (by rw [e]))]
    by_cases h1 : t.val % 256 = 255
    · have hc1 : cond1_1 (grid1.coords t) := (hcond1_1 t).mpr h1
      rw [leaves1_live V c t hc1 4 (by decide), leaves1_live V c t hc1 5 (by decide), leaves1_live V c t hc1 6 (by decide),
        after1_4, after1_5, after1_6]
      unfold accAt1 keeps1
      rw [acc1_next (aU V c) (aV V c) (aT V c) (aM V c) t h0]
      unfold stepAt step1; dsimp only
      iintro ⟨⟨⟨⟨HS0, HS1, HS2⟩, HB⟩, HG⟩, Ho, ⟨%d0, H0⟩, ⟨%d1, H1⟩, ⟨%d2, H2⟩, ⟨%d3, H3⟩, H4, H5, H6⟩
      iapply (run1_C (grid1.coords t) hc0 hc1 c Set.univ _ _ _ _ _ _ _ _ _ _ _ _ _ _ _ _ _ _ _ _ (blkU (aU V c) t) (blkV (aV V c) t) (blkT (aT V c) t) (blkM (aM V c) t) _ _ _ _ _ _ _ _)
      iframe H0 H1 H2 H3 H4 H5 H6 HS0 HS1 HS2
      iintro ⟨H0, H1, H2, H3, H4, H5, H6, HS0, HS1, HS2⟩
      iframe
    · have hc1 : ¬cond1_1 (grid1.coords t) := fun h => h1 ((hcond1_1 t).mp h)
      rw [leaves1_idle V c t hc1 4 (by decide), leaves1_idle V c t hc1 5 (by decide), leaves1_idle V c t hc1 6 (by decide)]
      unfold accAt1 keeps1
      rw [acc1_next (aU V c) (aV V c) (aT V c) (aM V c) t h0]
      unfold stepAt step1; dsimp only
      iintro ⟨⟨⟨⟨HS0, HS1, HS2⟩, HB⟩, HG⟩, Ho, ⟨%d0, H0⟩, ⟨%d1, H1⟩, ⟨%d2, H2⟩, ⟨%d3, H3⟩, H4, H5, H6⟩
      iapply (run1_B (grid1.coords t) hc0 hc1 c Set.univ _ _ _ _ _ _ _ _ _ _ _ _ _ _ _ _ _ _ _ _ (blkU (aU V c) t) (blkV (aV V c) t) (blkT (aT V c) t) (blkM (aM V c) t) _ _ _ _ _ _ _ _)
      iframe H0 H1 H2 H3 H4 H5 H6 HS0 HS1 HS2
      iintro ⟨H0, H1, H2, H3, H4, H5, H6, HS0, HS1, HS2⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.rfl

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_forget V c _ _

end Region

end Cert.KernelIdeal.Hand

end
-- ==== Proof.RunK.lean ====
import proofs.«428349_j38809324486859_3_alg».proof.Proof.RegionsKernelIdeal
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 1824

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

abbrev Entry (F : FTy → Type) : Type := (c : Dev nD) → (b : Ref sig .tc) → Buf (Elt F) ((c : Thread nD τ).loc b)

theorem owesAt_of_none {cfg : Pipeline.Cfg sig Λ₀} {c : Dev nD} (dat : Dat τ (Elt F) Unit ℕ (UR sig nD τ) ℕ cfg c)
    (t : Fin (cfg.N + 1)) (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound
  rw [h0, hr]
  iintro ⟨%W, HO⟩
  iexists W
  isplitr
  · ipureintro; exact fun _ _ => Or.inl trivial
  iexact HO

theorem none_of_owesAt {cfg : Pipeline.Cfg sig Λ₀} {c : Dev nD} (dat : Dat τ (Elt F) Unit ℕ (UR sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

section Run

variable
  (dat0 : Entry F → (c : Dev nD) → Dat τ (Elt F) Unit ℕ (UR sig nD τ) ℕ cfg0 c)
  (A_eq0 : ∀ V c (w : Fin cfg0.W), (dat0 V c).A w = V c (Pipeline.arrRef spec0 w))
  (body_obligation0 : ∀ V c, BodyObligation (dat0 V c) (defs₀ (F := F)) Variants.none () Set.univ)
  (hin0 : ∀ V c, Pipeline.ΦA spec0 c ⊢ (dat0 V c).Φ 0)
  (hout0 : ∀ V c, (dat0 V c).Φ (Fin.last cfg0.N) ⊢ Pipeline.ΦA spec0 c)
  (hq0 : ∀ V c w, (dat0 V c).q w = fullShare)
  (howed0 : ∀ V c t, (dat0 V c).owed t = 0)
  (hrec0 : ∀ V c, (dat0 V c).recorded 0 = Set.univ)
  (dat1 : Entry F → (c : Dev nD) → Dat τ (Elt F) Unit ℕ (UR sig nD τ) ℕ cfg1 c)
  (A_eq1 : ∀ V c (w : Fin cfg1.W), (dat1 V c).A w = V c (Pipeline.arrRef spec1 w))
  (body_obligation1 : ∀ V c, BodyObligation (dat1 V c) (defs₀ (F := F)) Variants.none () Set.univ)
  (hin1 : ∀ V c, Pipeline.ΦA spec1 c ⊢ (dat1 V c).Φ 0)
  (hout1 : ∀ V c, (dat1 V c).Φ (Fin.last cfg1.N) ⊢ Pipeline.ΦA spec1 c)
  (hq1 : ∀ V c w, (dat1 V c).q w = fullShare)
  (howed1 : ∀ V c t, (dat1 V c).owed t = 0)
  (hrec1 : ∀ V c, (dat1 V c).recorded 0 = Set.univ)

variable (m : (ℓ : Loc nD τ sig) → Buf (Elt F) ℓ)

abbrev entry0 : Entry F := fun c b => V5 m c b

def outsA : Outs (F := F) := fun _ r c =>
  Pipeline.withArrays spec0 c (V5 m c) (fun w => (dat0 (entry0 m) c).arrAt w cfg0.N) r

abbrev entry1 : Entry F := fun c b => V19 m (outsA dat0 m) c b

def outsOf : Outs (F := F) := fun J r c =>
  if J = 6 then outsA dat0 m J r c
  else Pipeline.withArrays spec1 c (V19 m (outsA dat0 m) c) (fun w => (dat1 (entry1 dat0 m) c).arrAt w cfg1.N) r

theorem V19_outsOf (c : Dev nD) : V19 m (outsOf dat0 dat1 m) c = V19 m (outsA dat0 m) c := rfl

theorem outsOf_main_v24 (c : Dev nD) :
    outsOf dat0 dat1 m 6 main_v24 c = (dat0 (entry0 m) c).arrAt 4 cfg0.N := by
  show Pipeline.withArrays spec0 c (V5 m c) (fun w => (dat0 (entry0 m) c).arrAt w cfg0.N) (Proc.devRef .tc (Pipeline.arrRef spec0 4)) = _
  exact Pipeline.withArrays_arr spec0 winFacts0.arr_inj c _ _ 4

theorem outsOf_arr1 (c : Dev nD) (w : Fin cfg1.W) :
    outsOf dat0 dat1 m 20 (Pipeline.arrRef spec1 w) c = (dat1 (entry1 dat0 m) c).arrAt w cfg1.N := by
  show Pipeline.withArrays spec1 c (V19 m (outsA dat0 m) c) (fun w => (dat1 (entry1 dat0 m) c).arrAt w cfg1.N) (Proc.devRef .tc (Pipeline.arrRef spec1 w)) = _
  exact Pipeline.withArrays_arr spec1 winFacts1.arr_inj c _ _ w

theorem outsOf_main_v98_0 (c : Dev nD) :
    outsOf dat0 dat1 m 20 main_v98_0 c = (dat1 (entry1 dat0 m) c).arrAt 4 cfg1.N := outsOf_arr1 dat0 dat1 m c 4
theorem outsOf_main_v98_1 (c : Dev nD) :
    outsOf dat0 dat1 m 20 main_v98_1 c = (dat1 (entry1 dat0 m) c).arrAt 5 cfg1.N := outsOf_arr1 dat0 dat1 m c 5
theorem outsOf_main_v98_2 (c : Dev nD) :
    outsOf dat0 dat1 m 20 main_v98_2 c = (dat1 (entry1 dat0 m) c).arrAt 6 cfg1.N := outsOf_arr1 dat0 dat1 m c 6

include A_eq0 in
theorem arrays_after0 (c : Dev nD) : ∀ w : Fin cfg0.W,
    (dat0 (entry0 m) c).arrAt w cfg0.N = V6 m (outsOf dat0 dat1 m) c (Pipeline.arrRef spec0 w)
  | 0 | 1 | 2 | 3 => ((dat0 (entry0 m) c).arrAt_in _ (by rfl) _).trans ((A_eq0 (entry0 m) c _).trans (V6_of m (outsOf dat0 dat1 m) c _ (by decide)).symm)
  | 4 => (outsOf_main_v24 dat0 dat1 m c).symm.trans (Function.update_self (β := fun b : DevRef τ sig => b.ty.Contents (Elt F)) (Proc.devRef .tc main_v24) _ (V5 m c)).symm
  | ⟨_ + 5, h⟩ => absurd h (Nat.not_lt.2 (Nat.le_add_left _ _))

theorem rest_after0 (c : Dev nD) (b : Ref sig .tc) (hb : b ∉ Finset.univ.image (Pipeline.arrRef spec0)) :
    V6 m (outsOf dat0 dat1 m) c b = V5 m c b :=
  V6_of m (outsOf dat0 dat1 m) c b fun h => hb (by
    rw [List.mem_singleton] at h; subst h
    exact Finset.mem_image.mpr ⟨4, Finset.mem_univ _, rfl⟩)

include A_eq1 in
theorem arrays_after1 (c : Dev nD) : ∀ w : Fin cfg1.W,
    (dat1 (entry1 dat0 m) c).arrAt w cfg1.N = V20 m (outsOf dat0 dat1 m) c (Pipeline.arrRef spec1 w)
  | 0 | 1 | 2 | 3 => ((dat1 (entry1 dat0 m) c).arrAt_in _ (by rfl) _).trans ((A_eq1 (entry1 dat0 m) c _).trans
      ((congrFun (V19_outsOf dat0 dat1 m c) _).symm.trans (V20_of m (outsOf dat0 dat1 m) c _ (by decide)).symm))
  | 4 => (outsOf_arr1 dat0 dat1 m c 4).symm.trans
      ((Function.update_of_ne (β := fun b : DevRef τ sig => b.ty.Contents (Elt F)) (StableHlo.devRef_ne_of_ne (by decide) : (Proc.devRef .tc main_v98_0 : DevRef τ sig) ≠ Proc.devRef .tc main_v98_2) _ _).trans
        ((Function.update_of_ne (β := fun b : DevRef τ sig => b.ty.Contents (Elt F)) (StableHlo.devRef_ne_of_ne (by decide) : (Proc.devRef .tc main_v98_0 : DevRef τ sig) ≠ Proc.devRef .tc main_v98_1) _ _).trans
          (Function.update_self (β := fun b : DevRef τ sig => b.ty.Contents (Elt F)) (Proc.devRef .tc main_v98_0) _ (V19 m (outsOf dat0 dat1 m) c)))).symm
  | 5 => (outsOf_arr1 dat0 dat1 m c 5).symm.trans
      ((Function.update_of_ne (β := fun b : DevRef τ sig => b.ty.Contents (Elt F)) (StableHlo.devRef_ne_of_ne (by decide) : (Proc.devRef .tc main_v98_1 : DevRef τ sig) ≠ Proc.devRef .tc main_v98_2) _ _).trans
        (Function.update_self (β := fun b : DevRef τ sig => b.ty.Contents (Elt F)) (Proc.devRef .tc main_v98_1) _ _)).symm
  | 6 => (outsOf_arr1 dat0 dat1 m c 6).symm.trans
      (Function.update_self (β := fun b : DevRef τ sig => b.ty.Contents (Elt F)) (Proc.devRef .tc main_v98_2) _ _).symm
  | ⟨_ + 7, h⟩ => absurd h (Nat.not_lt.2 (Nat.le_add_left _ _))

theorem rest_after1 (c : Dev nD) (b : Ref sig .tc) (hb : b ∉ Finset.univ.image (Pipeline.arrRef spec1)) :
    V20 m (outsOf dat0 dat1 m) c b = V19 m (outsA dat0 m) c b :=
  (V20_of m (outsOf dat0 dat1 m) c b fun h => hb (by
    simp only [List.mem_cons, List.not_mem_nil, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)).trans (congrFun (V19_outsOf dat0 dat1 m c) _)

def pdats : (p : Fin 2) → (c : Dev nD) → Dat τ (Elt F) Unit ℕ (UR sig nD τ) ℕ (cfgs p) c
  | ⟨0, _⟩ => fun c => dat0 (entry0 m) c
  | ⟨1, _⟩ => fun c => dat1 (entry1 dat0 m) c

abbrev L : GSem nD τ sig → Finset Unit := fun _ => ∅
abbrev lv : GSem nD τ sig → Unit → ℕ := fun _ _ => 0

abbrev riding (c : Dev nD) : sProp 𝕄 :=
  iprop((∃ r, prngReg c r) ∗ ∃ W, owes (c : Thread nD τ) (0 : CellTallies nD τ sig Unit) W)
abbrev ridings : Fin 3 → Dev nD → sProp 𝕄 := fun _ c => riding c

set_option backward.isDefEq.respectTransparency.types false in
include A_eq0 body_obligation0 hin0 hout0 hq0 howed0 hrec0 in
def reg0 : RegionSeg (pcfgs (F := F)) adm (pdats dat0 dat1 m) () defs₀ Variants.none L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun c t => howed0 (entry0 m) c t
  pre c := iprop(StableHlo.held (c : Thread nD τ) (Pipeline.ucRefs τ sig) (V5 m c) ∗ ridings 0 c)
  post c := iprop(StableHlo.held (c : Thread nD τ) (Pipeline.ucRefs τ sig) (V6 m (outsOf dat0 dat1 m) c) ∗ ridings 1 c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => hq0 (entry0 m) c w) (entry0 m c) fun w => A_eq0 (entry0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_none (pdats dat0 dat1 m 0 c) 0 (howed0 (entry0 m) c 0) (hrec0 (entry0 m) c))
      iexact HO
    isplitl [Hp]; · iexact Hp
    iexact Hrest
  hin c := by
    refine BIBase.Entails.trans ?_ (hin0 (entry0 m) c)
    unfold Pipeline.ΦA
    iintro ⟨Hp, -, Hr⟩
    isplitl [Hr]; · iexact Hr
    iexact Hp
  hout c := by
    rw [Pipeline.ownSems0_none]
    refine (hout0 (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => hq0 (entry0 m) c w)
      (entry0 m c) (fun b => V6 m (outsOf dat0 dat1 m) c b) ((pdats dat0 dat1 m 0 c).arrAt · cfg0.N)
      (arrays_after0 dat0 A_eq0 dat1 m c) (rest_after0 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (none_of_owesAt (pdats dat0 dat1 m 0 c) (Fin.last _) (howed0 (entry0 m) c _))
    iexact HO

set_option backward.isDefEq.respectTransparency.types false in
include A_eq1 body_obligation1 hin1 hout1 hq1 howed1 hrec1 in
def reg1 : RegionSeg (pcfgs (F := F)) adm (pdats dat0 dat1 m) () defs₀ Variants.none L lv 1 where
  win := launch1.win.to₀
  block_pos := launch1.block_pos
  stage_whole := launch1.stage_whole
  K := PEmpty
  osem k := k.elim
  ho := Pipeline.OwnSemFacts.none _
  hbody c := (body_obligation1 (entry1 dat0 m) c).loose
  hwaits := Pipeline.hwaits_of_owed_zero _ _ _ _ L lv 1 fun c t => howed1 (entry1 dat0 m) c t
  pre c := iprop(StableHlo.held (c : Thread nD τ) (Pipeline.ucRefs τ sig) (V19 m (outsOf dat0 dat1 m) c) ∗ ridings 1 c)
  post c := iprop(StableHlo.held (c : Thread nD τ) (Pipeline.ucRefs τ sig) (V20 m (outsOf dat0 dat1 m) c) ∗ ridings 2 c)
  X c := iprop(∃ r, prngReg c r)
  Y c := iprop(∃ r, prngReg c r)
  Z c := Pipeline.unscopedRest (Ix := Unit) (Name := ℕ) (U := UR sig nD τ) (Lvl := ℕ) spec1 c (entry1 dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => hq1 (entry1 dat0 m) c w) (entry1 dat0 m c) fun w => A_eq1 (entry1 dat0 m) c w
    rw [Pipeline.unscopedBufs_held, ← V19_outsOf dat0 dat1 m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_none (pdats dat0 dat1 m 1 c) 0 (howed1 (entry1 dat0 m) c 0) (hrec1 (entry1 dat0 m) c))
      iexact HO
    isplitl [Hp]; · iexact Hp
    iexact Hrest
  hin c := by
    refine BIBase.Entails.trans ?_ (hin1 (entry1 dat0 m) c)
    unfold Pipeline.ΦA
    iintro ⟨Hp, -, Hr⟩
    isplitl [Hr]; · iexact Hr
    iexact Hp
  hout c := by
    rw [Pipeline.ownSems0_none]
    refine (hout1 (entry1 dat0 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => hq1 (entry1 dat0 m) c w)
      (entry1 dat0 m c) (fun b => V20 m (outsOf dat0 dat1 m) c b) ((pdats dat0 dat1 m 1 c).arrAt · cfg1.N)
      (arrays_after1 dat0 dat1 A_eq1 m c) (rest_after1 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (none_of_owesAt (pdats dat0 dat1 m 1 c) (Fin.last _) (howed1 (entry1 dat0 m) c _))
    iexact HO

abbrev items (c : Dev nD) : List (Seg (pcfgs (F := F)) adm (pdats dat0 dat1 m) () defs₀ Variants.none L lv) :=
  segs m (outsOf dat0 dat1 m) Variants.none L lv ridings () (pdats dat0 dat1 m) (reg0 dat0 A_eq0 body_obligation0 hin0 hout0 hq0 howed0 hrec0 dat1 m) (reg1 dat0 dat1 A_eq1 body_obligation1 hin1 hout1 hq1 howed1 hrec1 m) c

include A_eq0 body_obligation0 hin0 hout0 hq0 howed0 hrec0 A_eq1 body_obligation1 hin1 hout1 hq1 howed1 hrec1 in
theorem main_run (c : Dev nD) : main (F := F) c = Seg.run (items dat0 A_eq0 body_obligation0 hin0 hout0 hq0 howed0 hrec0 dat1 A_eq1 body_obligation1 hin1 hout1 hq1 howed1 hrec1 m c) := by
  rw [main_chain c, Seg.run_eq_chain]
  exact congrArg Pipeline.chain rfl

theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const, ownU_emb₁]
  iintro Hu
  imodintro
  isplitl [Hu]; · iexact Hu
  iempintro

theorem riding_end (c : Dev nD) (H : sProp 𝕄) :
    iprop(H ∗ riding c) ⊢ iprop((H ∗ ∃ r, prngReg c r) ∗ ∃ W, owes (c : Thread nD τ) (0 : CellTallies nD τ sig Unit) W) := by
  iintro ⟨Hh, Hp, HO⟩
  isplitr [HO]
  · isplitl [Hh]; · iexact Hh
    iexact Hp
  iexact HO

theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
include A_eq0 body_obligation0 hin0 hout0 hq0 howed0 hrec0 A_eq1 body_obligation1 hin1 hout1 hq1 howed1 hrec1 in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V33 m (outsOf dat0 dat1 m) c b) :=
  Pipeline.θ_run_regions_kit_dev (pcfgs (F := F)) adm (pdats dat0 dat1 m) () cellOf_inj emb₁ defs₀ Variants.none L lv m ρ main
    (items dat0 A_eq0 body_obligation0 hin0 hout0 hq0 howed0 hrec0 dat1 A_eq1 body_obligation1 hin1 hout1 hq1 howed1 hrec1 m)
    (fun c Q => by rw [main_run dat0 A_eq0 body_obligation0 hin0 hout0 hq0 howed0 hrec0 dat1 A_eq1 body_obligation1 hin1 hout1 hq1 howed1 hrec1 m c])
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := launch_elem)
    (T₀ := fun c => iprop(StableHlo.held (c : Thread nD τ) (Pipeline.ucRefs τ sig) (V0 m c) ∗ ridings 0 c))
    (Tₙ := fun c => iprop(StableHlo.held (c : Thread nD τ) (Pipeline.ucRefs τ sig) (V33 m (outsOf dat0 dat1 m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, riding_end c _⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V33 m (outsOf dat0 dat1 m) c b)
    (hfin := fun c s' => by
      iintro ⟨⟨Hh, -⟩, HSI⟩
      unfold StableHlo.held
      imodintro
      iapply (pointsTo_read_all (Pipeline.ucRefs τ sig) (fun b => ((c : Thread nD τ).1, b)) (V33 m (outsOf dat0 dat1 m) c) s')
      isplitl [Hh] <;> iassumption)
    (hQ := fun s h c => h c)

include A_eq0 body_obligation0 hin0 hout0 hq0 howed0 hrec0 A_eq1 body_obligation1 hin1 hout1 hq1 howed1 hrec1 in
theorem value_all (ρ : Dev nD → PrngReg) :
    θ_run defs (onTc (τ := τ) (main (F := F))) ⟨m, fun _ => 0, ρ⟩ (fun r => ∀ c : Dev nD,
      r.2.mem ((c.tc : Thread nD τ).loc main_v200) = V33 m (outsOf dat0 dat1 m) c main_v200
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_ucRefs main_v200 (by decide)),
      (h c _ (mem_ucRefs main_arg0 (by decide))).trans (V33_main_arg0 m _ c),
      (h c _ (mem_ucRefs main_arg1 (by decide))).trans (V33_main_arg1 m _ c),
      (h c _ (mem_ucRefs main_arg2 (by decide))).trans (V33_main_arg2 m _ c),
      (h c _ (mem_ucRefs main_arg3 (by decide))).trans (V33_main_arg3 m _ c),
      (h c _ (mem_ucRefs main_arg4 (by decide))).trans (V33_main_arg4 m _ c),
      (h c _ (mem_ucRefs main_arg5 (by decide))).trans (V33_main_arg5 m _ c),
      (h c _ (mem_ucRefs main_arg6 (by decide))).trans (V33_main_arg6 m _ c),
      (h c _ (mem_ucRefs main_arg7 (by decide))).trans (V33_main_arg7 m _ c),
      (h c _ (mem_ucRefs main_arg8 (by decide))).trans (V33_main_arg8 m _ c),
      (h c _ (mem_ucRefs main_arg9 (by decide))).trans (V33_main_arg9 m _ c),
      (h c _ (mem_ucRefs main_arg10 (by decide))).trans (V33_main_arg10 m _ c),
      (h c _ (mem_ucRefs main_arg11 (by decide))).trans (V33_main_arg11 m _ c),
      (h c _ (mem_ucRefs main_arg12 (by decide))).trans (V33_main_arg12 m _ c),
      (h c _ (mem_ucRefs main_arg13 (by decide))).trans (V33_main_arg13 m _ c)⟩)
    (run_all dat0 A_eq0 body_obligation0 hin0 hout0 hq0 howed0 hrec0 dat1 A_eq1 body_obligation1 hin1 hout1 hq1 howed1 hrec1 m ρ)

include A_eq0 body_obligation0 hin0 hout0 hq0 howed0 hrec0 A_eq1 body_obligation1 hin1 hout1 hq1 howed1 hrec1 in
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (value_all dat0 A_eq0 body_obligation0 hin0 hout0 hq0 howed0 hrec0 dat1 A_eq1 body_obligation1 hin1 hout1 hq1 howed1 hrec1 m ρ)

end Run

end Cert.KernelIdeal.Hand

end
-- ==== Proof.RefOps.lean ====
import proofs.«428349_j38809324486859_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

abbrev rops0 : List (HloOp τ sig (Elt F)) :=
  [ StableHlo.nullary main_v0 (iotaInDim S8192 32 0),
    StableHlo.binary main_arg12 main_v0 main_v1 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.binary main_arg13 main_v0 main_v2 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.nullary main_cst (constant S_ .f32 0x3F800000#32),
    StableHlo.unary main_cst main_v3 (broadcastInDim S270336 ![] bcast_S_S270336 : (⟨S_, .f32⟩ : BufTy).Contents (Elt F) → (⟨S270336, .f32⟩ : BufTy).Contents (Elt F)),
    StableHlo.nullary main_cst_0 (constant S_ .f32 0x00000000#32),
    StableHlo.unary main_cst_0 main_v4 (broadcastInDim S8192 ![] bcast_S_S8192 : (⟨S_, .f32⟩ : BufTy).Contents (Elt F) → (⟨S8192, .f32⟩ : BufTy).Contents (Elt F)),
    StableHlo.unary main_v1 main_v5 (broadcastInDim S270336x1 ![0] bcast_S270336_S270336x1_0 : (⟨S270336, .i32⟩ : BufTy).Contents (Elt F) → (⟨S270336x1, .i32⟩ : BufTy).Contents (Elt F)),
    StableHlo.ternary main_v4 main_v5 main_v3 main_v6 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.nullary main_cst_1 (constant S_ .f32 0x00000000#32),
    StableHlo.unary main_cst_1 main_v7 (broadcastInDim S8192 ![] bcast_S_S8192 : (⟨S_, .f32⟩ : BufTy).Contents (Elt F) → (⟨S8192, .f32⟩ : BufTy).Contents (Elt F)),
    StableHlo.unary main_v2 main_v8 (broadcastInDim S270336x1 ![0] bcast_S270336_S270336x1_0 : (⟨S270336, .i32⟩ : BufTy).Contents (Elt F) → (⟨S270336x1, .i32⟩ : BufTy).Contents (Elt F)),
    StableHlo.ternary main_v7 main_v8 main_v3 main_v9 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.binary main_arg0 main_arg2 main_v10 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.nullary main_c (constantI S_ 32 0#32),
    StableHlo.unary main_c main_v11 (broadcastInDim S270336 ![] bcast_S_S270336 : (⟨S_, .i32⟩ : BufTy).Contents (Elt F) → (⟨S270336, .i32⟩ : BufTy).Contents (Elt F)),
    StableHlo.binary main_v1 main_v11 main_v12 (cmpi .slt : (⟨S270336, .i32⟩ : BufTy).Contents (Elt F) → (⟨S270336, .i32⟩ : BufTy).Contents (Elt F) → (⟨S270336, .i1⟩ : BufTy).Contents (Elt F)),
    StableHlo.nullary main_c_2 (constantI S_ 32 8192#32),
    StableHlo.unary main_c_2 main_v13 (broadcastInDim S270336 ![] bcast_S_S270336 : (⟨S_, .i32⟩ : BufTy).Contents (Elt F) → (⟨S270336, .i32⟩ : BufTy).Contents (Elt F)),
    StableHlo.binary main_v1 main_v13 main_v14 (addi : (⟨S270336, .i32⟩ : BufTy).Contents (Elt F) → (⟨S270336, .i32⟩ : BufTy).Contents (Elt F) → (⟨S270336, .i32⟩ : BufTy).Contents (Elt F)),
    StableHlo.ternary main_v12 main_v14 main_v1 main_v15 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v15 main_v16 (broadcastInDim S270336x1 ![0] bcast_S270336_S270336x1_0 : (⟨S270336, .i32⟩ : BufTy).Contents (Elt F) → (⟨S270336x1, .i32⟩ : BufTy).Contents (Elt F)),
    StableHlo.binary main_v10 main_v16 main_v17 ((fun x i => Host.gather gather_S8192x256_S270336x1_S270336x256_1_0_n_n_0_1_1256 x i) : (⟨S8192x256, .f32⟩ : BufTy).Contents (Elt F) → (⟨S270336x1, .i32⟩ : BufTy).Contents (Elt F) → (⟨S270336x256, .f32⟩ : BufTy).Contents (Elt F)),
    StableHlo.unary main_v6 main_v18 (Host.rsqrt : (⟨S8192, .f32⟩ : BufTy).Contents (Elt F) → (⟨S8192, .f32⟩ : BufTy).Contents (Elt F)),
    StableHlo.nullary main_c_3 (constantI S_ 32 0#32),
    StableHlo.unary main_c_3 main_v19 (broadcastInDim S270336 ![] bcast_S_S270336 : (⟨S_, .i32⟩ : BufTy).Contents (Elt F) → (⟨S270336, .i32⟩ : BufTy).Contents (Elt F)),
    StableHlo.binary main_v1 main_v19 main_v20 (cmpi .slt : (⟨S270336, .i32⟩ : BufTy).Contents (Elt F) → (⟨S270336, .i32⟩ : BufTy).Contents (Elt F) → (⟨S270336, .i1⟩ : BufTy).Contents (Elt F)),
    StableHlo.nullary main_c_4 (constantI S_ 32 8192#32),
    StableHlo.unary main_c_4 main_v21 (broadcastInDim S270336 ![] bcast_S_S270336 : (⟨S_, .i32⟩ : BufTy).Contents (Elt F) → (⟨S270336, .i32⟩ : BufTy).Contents (Elt F)),
    StableHlo.binary main_v1 main_v21 main_v22 (addi : (⟨S270336, .i32⟩ : BufTy).Contents (Elt F) → (⟨S270336, .i32⟩ : BufTy).Contents (Elt F) → (⟨S270336, .i32⟩ : BufTy).Contents (Elt F)),
    StableHlo.ternary main_v20 main_v22 main_v1 main_v23 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v23 main_v24 (broadcastInDim S270336x1 ![0] bcast_S270336_S270336x1_0 : (⟨S270336, .i32⟩ : BufTy).Contents (Elt F) → (⟨S270336x1, .i32⟩ : BufTy).Contents (Elt F)),
    StableHlo.binary main_v18 main_v24 main_v25 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.unary main_v25 main_v26 (broadcastInDim S270336x1 ![0] bcast_S270336_S270336x1_0 : (⟨S270336, .f32⟩ : BufTy).Contents (Elt F) → (⟨S270336x1, .f32⟩ : BufTy).Contents (Elt F)),
    StableHlo.unary main_v26 main_v27 (broadcastInDim S270336x256 ![0, 1] bcast_S270336x1_S270336x256_0_1 : (⟨S270336x1, .f32⟩ : BufTy).Contents (Elt F) → (⟨S270336x256, .f32⟩ : BufTy).Contents (Elt F)),
    StableHlo.binary main_v17 main_v27 main_v28 (mulf : (⟨S270336x256, .f32⟩ : BufTy).Contents (Elt F) → (⟨S270336x256, .f32⟩ : BufTy).Contents (Elt F) → (⟨S270336x256, .f32⟩ : BufTy).Contents (Elt F)),
    StableHlo.nullary main_cst_5 (constant S_ .f32 0x00000000#32),
    StableHlo.unary main_cst_5 main_v29 (broadcastInDim S8192x256 ![] bcast_S_S8192x256 : (⟨S_, .f32⟩ : BufTy).Contents (Elt F) → (⟨S8192x256, .f32⟩ : BufTy).Contents (Elt F)),
    StableHlo.unary main_v2 main_v30 (broadcastInDim S270336x1 ![0] bcast_S270336_S270336x1_0 : (⟨S270336, .i32⟩ : BufTy).Contents (Elt F) → (⟨S270336x1, .i32⟩ : BufTy).Contents (Elt F)),
    StableHlo.ternary main_v29 main_v30 main_v28 main_v31 ((fun x i u => Host.scatterAdd scatter_S8192x256_S270336x1_S270336x256_1_0_0_1 x i u) : (⟨S8192x256, .f32⟩ : BufTy).Contents (Elt F) → (⟨S270336x1, .i32⟩ : BufTy).Contents (Elt F) → (⟨S270336x256, .f32⟩ : BufTy).Contents (Elt F) → (⟨S8192x256, .f32⟩ : BufTy).Contents (Elt F)),
    StableHlo.unary main_v9 main_v32 (Host.rsqrt : (⟨S8192, .f32⟩ : BufTy).Contents (Elt F) → (⟨S8192, .f32⟩ : BufTy).Contents (Elt F)),
    StableHlo.unary main_v32 main_v33 (broadcastInDim S8192x1 ![0] bcast_S8192_S8192x1_0 : (⟨S8192, .f32⟩ : BufTy).Contents (Elt F) → (⟨S8192x1, .f32⟩ : BufTy).Contents (Elt F)),
    StableHlo.unary main_v33 main_v34 (broadcastInDim S8192x256 ![0, 1] bcast_S8192x1_S8192x256_0_1 : (⟨S8192x1, .f32⟩ : BufTy).Contents (Elt F) → (⟨S8192x256, .f32⟩ : BufTy).Contents (Elt F)),
    StableHlo.binary main_v31 main_v34 main_v35 (mulf : (⟨S8192x256, .f32⟩ : BufTy).Contents (Elt F) → (⟨S8192x256, .f32⟩ : BufTy).Contents (Elt F) → (⟨S8192x256, .f32⟩ : BufTy).Contents (Elt F)),
    StableHlo.unary main_arg3 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S8192x256 ![0, 1] bcast_S1x256_S8192x256_0_1 : (⟨S1x256, .f32⟩ : BufTy).Contents (Elt F) → (⟨S8192x256, .f32⟩ : BufTy).Contents (Elt F)),
    StableHlo.binary main_v35 main_v37 main_v38 (addf : (⟨S8192x256, .f32⟩ : BufTy).Contents (Elt F) → (⟨S8192x256, .f32⟩ : BufTy).Contents (Elt F) → (⟨S8192x256, .f32⟩ : BufTy).Contents (Elt F)),
    StableHlo.binary main_v38 main_arg4 main_v39 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg5 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S8192x256 ![0, 1] bcast_S1x256_S8192x256_0_1 : (⟨S1x256, .f32⟩ : BufTy).Contents (Elt F) → (⟨S8192x256, .f32⟩ : BufTy).Contents (Elt F)),
    StableHlo.binary main_v39 main_v41 main_v42 (addf : (⟨S8192x256, .f32⟩ : BufTy).Contents (Elt F) → (⟨S8192x256, .f32⟩ : BufTy).Contents (Elt F) → (⟨S8192x256, .f32⟩ : BufTy).Contents (Elt F)) ]

abbrev rops1 : List (HloOp τ sig (Elt F)) :=
  [ StableHlo.nullary main_cst_6 (constant S_ .f32 0x00000000#32),
    StableHlo.binary main_v42 main_cst_6 main_v43 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_7 (constant S_ .f32 0x46000000#32),
    StableHlo.unary main_cst_7 main_v44 (broadcastInDim S256 ![] bcast_S_S256 : (⟨S_, .f32⟩ : BufTy).Contents (Elt F) → (⟨S256, .f32⟩ : BufTy).Contents (Elt F)),
    StableHlo.binary main_v43 main_v44 main_v45 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32),
    StableHlo.unary main_c_8 main_v46 (broadcastInDim S262144 ![] bcast_S_S262144 : (⟨S_, .i32⟩ : BufTy).Contents (Elt F) → (⟨S262144, .i32⟩ : BufTy).Contents (Elt F)),
    StableHlo.binary main_arg12 main_v46 main_v47 (cmpi .slt : (⟨S262144, .i32⟩ : BufTy).Contents (Elt F) → (⟨S262144, .i32⟩ : BufTy).Contents (Elt F) → (⟨S262144, .i1⟩ : BufTy).Contents (Elt F)),
    StableHlo.nullary main_c_9 (constantI S_ 32 8192#32),
    StableHlo.unary main_c_9 main_v48 (broadcastInDim S262144 ![] bcast_S_S262144 : (⟨S_, .i32⟩ : BufTy).Contents (Elt F) → (⟨S262144, .i32⟩ : BufTy).Contents (Elt F)),
    StableHlo.binary main_arg12 main_v48 main_v49 (addi : (⟨S262144, .i32⟩ : BufTy).Contents (Elt F) → (⟨S262144, .i32⟩ : BufTy).Contents (Elt F) → (⟨S262144, .i32⟩ : BufTy).Contents (Elt F)),
    StableHlo.ternary main_v47 main_v49 main_arg12 main_v50 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v50 main_v51 (broadcastInDim S262144x1 ![0] bcast_S262144_S262144x1_0 : (⟨S262144, .i32⟩ : BufTy).Contents (Elt F) → (⟨S262144x1, .i32⟩ : BufTy).Contents (Elt F)),
    StableHlo.binary main_v42 main_v51 main_v52 ((fun x i => Host.gather gather_S8192x256_S262144x1_S262144x256_1_0_n_n_0_1_1256 x i) : (⟨S8192x256, .f32⟩ : BufTy).Contents (Elt F) → (⟨S262144x1, .i32⟩ : BufTy).Contents (Elt F) → (⟨S262144x256, .f32⟩ : BufTy).Contents (Elt F)),
    StableHlo.nullary main_c_10 (constantI S_ 32 0#32),
    StableHlo.unary main_c_10 main_v53 (broadcastInDim S262144 ![] bcast_S_S262144 : (⟨S_, .i32⟩ : BufTy).Contents (Elt F) → (⟨S262144, .i32⟩ : BufTy).Contents (Elt F)),
    StableHlo.binary main_arg13 main_v53 main_v54 (cmpi .slt : (⟨S262144, .i32⟩ : BufTy).Contents (Elt F) → (⟨S262144, .i32⟩ : BufTy).Contents (Elt F) → (⟨S262144, .i1⟩ : BufTy).Contents (Elt F)),
    StableHlo.nullary main_c_11 (constantI S_ 32 8192#32),
    StableHlo.unary main_c_11 main_v55 (broadcastInDim S262144 ![] bcast_S_S262144 : (⟨S_, .i32⟩ : BufTy).Contents (Elt F) → (⟨S262144, .i32⟩ : BufTy).Contents (Elt F)),
    StableHlo.binary main_arg13 main_v55 main_v56 (addi : (⟨S262144, .i32⟩ : BufTy).Contents (Elt F) → (⟨S262144, .i32⟩ : BufTy).Contents (Elt F) → (⟨S262144, .i32⟩ : BufTy).Contents (Elt F)),
    StableHlo.ternary main_v54 main_v56 main_arg13 main_v57 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v57 main_v58 (broadcastInDim S262144x1 ![0] bcast_S262144_S262144x1_0 : (⟨S262144, .i32⟩ : BufTy).Contents (Elt F) → (⟨S262144x1, .i32⟩ : BufTy).Contents (Elt F)),
    StableHlo.binary main_v42 main_v58 main_v59 ((fun x i => Host.gather gather_S8192x256_S262144x1_S262144x256_1_0_n_n_0_1_1256 x i) : (⟨S8192x256, .f32⟩ : BufTy).Contents (Elt F) → (⟨S262144x1, .i32⟩ : BufTy).Contents (Elt F) → (⟨S262144x256, .f32⟩ : BufTy).Contents (Elt F)),
    StableHlo.binary main_v52 main_v59 main_v60 ((fun a b => concatenate S262144x512 1 [⟨S262144x256, a⟩, ⟨S262144x256, b⟩] concatenates_S262144x256_S262144x256_S262144x512_d1) : (⟨S262144x256, .f32⟩ : BufTy).Contents (Elt F) → (⟨S262144x256, .f32⟩ : BufTy).Contents (Elt F) → (⟨S262144x512, .f32⟩ : BufTy).Contents (Elt F)),
    StableHlo.binary main_v60 main_arg6 main_v61 ((fun l r => Host.dotGeneral dot_S262144x512_S512x1_S262144x1_1_0_0_1_n_n none l r) : (⟨S262144x512, .f32⟩ : BufTy).Contents (Elt F) → (⟨S512x1, .f32⟩ : BufTy).Contents (Elt F) → (⟨S262144x1, .f32⟩ : BufTy).Contents (Elt F)),
    StableHlo.unary main_arg7 main_v62 (broadcastInDim S1x1 ![1] bcast_S1_S1x1_1 : (⟨S1, .f32⟩ : BufTy).Contents (Elt F) → (⟨S1x1, .f32⟩ : BufTy).Contents (Elt F)),
    StableHlo.unary main_v62 main_v63 (broadcastInDim S262144x1 ![0, 1] bcast_S1x1_S262144x1_0_1 : (⟨S1x1, .f32⟩ : BufTy).Contents (Elt F) → (⟨S262144x1, .f32⟩ : BufTy).Contents (Elt F)),
    StableHlo.binary main_v61 main_v63 main_v64 (addf : (⟨S262144x1, .f32⟩ : BufTy).Contents (Elt F) → (⟨S262144x1, .f32⟩ : BufTy).Contents (Elt F) → (⟨S262144x1, .f32⟩ : BufTy).Contents (Elt F)),
    StableHlo.reshape main_v64 main_v65 rfl shapeCasts_S262144x1_S262144,
    StableHlo.TRef.nullary main_call0.cst (constant S_ .f32 0x00000000#32),
    StableHlo.TRef.unary main_call0.cst main_call0.v0 (broadcastInDim S262144 ![] bcast_S_S262144),
    StableHlo.TRef.binary (.of main_v65 : StableHlo.TRef sig ⟨S262144, .f32⟩) main_call0.v0 main_call0.v1 (cmpf .oge),
    StableHlo.TRef.nullary main_call0.cst_0 (constant S_ .f32 0x3C23D70A#32),
    StableHlo.TRef.unary main_call0.cst_0 main_call0.v2 (broadcastInDim S262144 ![] bcast_S_S262144),
    StableHlo.TRef.binary main_call0.v2 (.of main_v65 : StableHlo.TRef sig ⟨S262144, .f32⟩) main_call0.v3 mulf,
    StableHlo.TRef.ternary main_call0.v1 (.of main_v65 : StableHlo.TRef sig ⟨S262144, .f32⟩) main_call0.v3 main_call0.call0.v0 select,
    StableHlo.unary main_v66 main_v67 (Host.tanh : (⟨S262144, .f32⟩ : BufTy).Contents (Elt F) → (⟨S262144, .f32⟩ : BufTy).Contents (Elt F)) ]

abbrev rops2 : List (HloOp τ sig (Elt F)) :=
  [ StableHlo.nullary main_c_12 (constantI S_ 32 0#32),
    StableHlo.unary main_c_12 main_v68 (broadcastInDim S262144 ![] bcast_S_S262144 : (⟨S_, .i32⟩ : BufTy).Contents (Elt F) → (⟨S262144, .i32⟩ : BufTy).Contents (Elt F)),
    StableHlo.binary main_arg12 main_v68 main_v69 (cmpi .slt : (⟨S262144, .i32⟩ : BufTy).Contents (Elt F) → (⟨S262144, .i32⟩ : BufTy).Contents (Elt F) → (⟨S262144, .i1⟩ : BufTy).Contents (Elt F)),
    StableHlo.nullary main_c_13 (constantI S_ 32 8192#32),
    StableHlo.unary main_c_13 main_v70 (broadcastInDim S262144 ![] bcast_S_S262144 : (⟨S_, .i32⟩ : BufTy).Contents (Elt F) → (⟨S262144, .i32⟩ : BufTy).Contents (Elt F)),
    StableHlo.binary main_arg12 main_v70 main_v71 (addi : (⟨S262144, .i32⟩ : BufTy).Contents (Elt F) → (⟨S262144, .i32⟩ : BufTy).Contents (Elt F) → (⟨S262144, .i32⟩ : BufTy).Contents (Elt F)),
    StableHlo.ternary main_v69 main_v71 main_arg12 main_v72 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_14 (constantI S_ 32 0#32),
    StableHlo.unary main_c_14 main_v73 (broadcastInDim S262144 ![] bcast_S_S262144 : (⟨S_, .i32⟩ : BufTy).Contents (Elt F) → (⟨S262144, .i32⟩ : BufTy).Contents (Elt F)),
    StableHlo.binary main_arg13 main_v73 main_v74 (cmpi .slt : (⟨S262144, .i32⟩ : BufTy).Contents (Elt F) → (⟨S262144, .i32⟩ : BufTy).Contents (Elt F) → (⟨S262144, .i1⟩ : BufTy).Contents (Elt F)),
    StableHlo.nullary main_c_15 (constantI S_ 32 8192#32),
    StableHlo.unary main_c_15 main_v75 (broadcastInDim S262144 ![] bcast_S_S262144 : (⟨S_, .i32⟩ : BufTy).Contents (Elt F) → (⟨S262144, .i32⟩ : BufTy).Contents (Elt F)),
    StableHlo.binary main_arg13 main_v75 main_v76 (addi : (⟨S262144, .i32⟩ : BufTy).Contents (Elt F) → (⟨S262144, .i32⟩ : BufTy).Contents (Elt F) → (⟨S262144, .i32⟩ : BufTy).Contents (Elt F)),
    StableHlo.ternary main_v74 main_v76 main_arg13 main_v77 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v72 main_v78 (broadcastInDim S262144x1 ![0] bcast_S262144_S262144x1_0 : (⟨S262144, .i32⟩ : BufTy).Contents (Elt F) → (⟨S262144x1, .i32⟩ : BufTy).Contents (Elt F)),
    StableHlo.unary main_v77 main_v79 (broadcastInDim S262144x1 ![0] bcast_S262144_S262144x1_0 : (⟨S262144, .i32⟩ : BufTy).Contents (Elt F) → (⟨S262144x1, .i32⟩ : BufTy).Contents (Elt F)),
    StableHlo.binary main_v78 main_v79 main_v80 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    StableHlo.binary main_arg1 main_v80 main_v81 ((fun x i => Host.gather gather_S3x8192x8192_S262144x2_S3x262144_0_12_n_n_12_1_311 x i) : (⟨S3x8192x8192, .f32⟩ : BufTy).Contents (Elt F) → (⟨S262144x2, .i32⟩ : BufTy).Contents (Elt F) → (⟨S3x262144, .f32⟩ : BufTy).Contents (Elt F)) ]

abbrev rops3 : List (HloOp τ sig (Elt F)) :=
  [ StableHlo.unary main_v81 main_v82 ((extractStridedSlice S1x262144 ![0, 0] · slices_S3x262144_S1x262144_0_0) : (⟨S3x262144, .f32⟩ : BufTy).Contents (Elt F) → (⟨S1x262144, .f32⟩ : BufTy).Contents (Elt F)),
    StableHlo.reshape main_v82 main_v83 rfl shapeCasts_S1x262144_S262144,
    StableHlo.nullary main_cst_16 (constant S_ .f32 0x00000000#32),
    StableHlo.unary main_cst_16 main_v84 (broadcastInDim S262144 ![] bcast_S_S262144 : (⟨S_, .f32⟩ : BufTy).Contents (Elt F) → (⟨S262144, .f32⟩ : BufTy).Contents (Elt F)),
    StableHlo.binary main_v83 main_v84 main_v85 (cmpf .ogt : (⟨S262144, .f32⟩ : BufTy).Contents (Elt F) → (⟨S262144, .f32⟩ : BufTy).Contents (Elt F) → (⟨S262144, .i1⟩ : BufTy).Contents (Elt F)),
    StableHlo.unary main_arg8 main_v86 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v86 main_v87 rfl shapeCasts_S1x256x256_S256x256,
    StableHlo.binary main_v42 main_v87 main_v88 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg9 main_v89 ((extractStridedSlice S1x256 ![0, 0] · slices_S3x256_S1x256_0_0) : (⟨S3x256, .f32⟩ : BufTy).Contents (Elt F) → (⟨S1x256, .f32⟩ : BufTy).Contents (Elt F)),
    StableHlo.reshape main_v89 main_v90 rfl shapeCasts_S1x256_S256,
    StableHlo.unary main_v90 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S8192x256 ![0, 1] bcast_S1x256_S8192x256_0_1 : (⟨S1x256, .f32⟩ : BufTy).Contents (Elt F) → (⟨S8192x256, .f32⟩ : BufTy).Contents (Elt F)),
    StableHlo.binary main_v88 main_v92 main_v93 (addf : (⟨S8192x256, .f32⟩ : BufTy).Contents (Elt F) → (⟨S8192x256, .f32⟩ : BufTy).Contents (Elt F) → (⟨S8192x256, .f32⟩ : BufTy).Contents (Elt F)),
    StableHlo.nullary main_cst_17 (constant S_ .f32 0x00000000#32),
    StableHlo.TRef.unary (.of main_cst_17 : StableHlo.TRef sig ⟨S_, .f32⟩) main_call1.v0 id,
    StableHlo.TRef.unary main_call1.v0 main_call1.v1 (broadcastInDim S262144 ![] bcast_S_S262144),
    StableHlo.TRef.ternary (.of main_v85 : StableHlo.TRef sig ⟨S262144, .i1⟩) (.of main_v67 : StableHlo.TRef sig ⟨S262144, .f32⟩) main_call1.v1 main_call1.v2 select,
    StableHlo.nullary main_cst_18 (constant S_ .f32 0x00000000#32),
    StableHlo.unary main_cst_18 main_v95 (broadcastInDim S8192 ![] bcast_S_S8192 : (⟨S_, .f32⟩ : BufTy).Contents (Elt F) → (⟨S8192, .f32⟩ : BufTy).Contents (Elt F)),
    StableHlo.unary main_arg13 main_v96 (broadcastInDim S262144x1 ![0] bcast_S262144_S262144x1_0 : (⟨S262144, .i32⟩ : BufTy).Contents (Elt F) → (⟨S262144x1, .i32⟩ : BufTy).Contents (Elt F)),
    StableHlo.ternary main_v95 main_v96 main_v94 main_v97 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.unary main_v85 main_v98 (uitofp .f32 : (⟨S262144, .i1⟩ : BufTy).Contents (Elt F) → (⟨S262144, .f32⟩ : BufTy).Contents (Elt F)),
    StableHlo.nullary main_cst_19 (constant S_ .f32 0x00000000#32),
    StableHlo.unary main_cst_19 main_v99 (broadcastInDim S8192 ![] bcast_S_S8192 : (⟨S_, .f32⟩ : BufTy).Contents (Elt F) → (⟨S8192, .f32⟩ : BufTy).Contents (Elt F)),
    StableHlo.unary main_arg13 main_v100 (broadcastInDim S262144x1 ![0] bcast_S262144_S262144x1_0 : (⟨S262144, .i32⟩ : BufTy).Contents (Elt F) → (⟨S262144x1, .i32⟩ : BufTy).Contents (Elt F)),
    StableHlo.ternary main_v99 main_v100 main_v98 main_v101 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.nullary main_cst_20 (constant S_ .f32 0x3F800000#32),
    StableHlo.unary main_cst_20 main_v102 (broadcastInDim S8192 ![] bcast_S_S8192 : (⟨S_, .f32⟩ : BufTy).Contents (Elt F) → (⟨S8192, .f32⟩ : BufTy).Contents (Elt F)),
    StableHlo.binary main_v101 main_v102 main_v103 (maximumf : (⟨S8192, .f32⟩ : BufTy).Contents (Elt F) → (⟨S8192, .f32⟩ : BufTy).Contents (Elt F) → (⟨S8192, .f32⟩ : BufTy).Contents (Elt F)),
    StableHlo.binary main_v97 main_v103 main_v104 (Host.divf : (⟨S8192, .f32⟩ : BufTy).Contents (Elt F) → (⟨S8192, .f32⟩ : BufTy).Contents (Elt F) → (⟨S8192, .f32⟩ : BufTy).Contents (Elt F)),
    StableHlo.unary main_v101 main_v105 (broadcastInDim S8192x1 ![0] bcast_S8192_S8192x1_0 : (⟨S8192, .f32⟩ : BufTy).Contents (Elt F) → (⟨S8192x1, .f32⟩ : BufTy).Contents (Elt F)),
    StableHlo.nullary main_cst_21 (constant S_ .f32 0x00000000#32),
    StableHlo.unary main_cst_21 main_v106 (broadcastInDim S8192x1 ![] bcast_S_S8192x1 : (⟨S_, .f32⟩ : BufTy).Contents (Elt F) → (⟨S8192x1, .f32⟩ : BufTy).Contents (Elt F)),
    StableHlo.binary main_v105 main_v106 main_v107 (cmpf .ogt : (⟨S8192x1, .f32⟩ : BufTy).Contents (Elt F) → (⟨S8192x1, .f32⟩ : BufTy).Contents (Elt F) → (⟨S8192x1, .i1⟩ : BufTy).Contents (Elt F)),
    StableHlo.unary main_v104 main_v108 (broadcastInDim S8192x1 ![0] bcast_S8192_S8192x1_0 : (⟨S8192, .f32⟩ : BufTy).Contents (Elt F) → (⟨S8192x1, .f32⟩ : BufTy).Contents (Elt F)),
    StableHlo.unary main_v108 main_v109 (broadcastInDim S8192x256 ![0, 1] bcast_S8192x1_S8192x256_0_1 : (⟨S8192x1, .f32⟩ : BufTy).Contents (Elt F) → (⟨S8192x256, .f32⟩ : BufTy).Contents (Elt F)),
    StableHlo.binary main_v93 main_v109 main_v110 (mulf : (⟨S8192x256, .f32⟩ : BufTy).Contents (Elt F) → (⟨S8192x256, .f32⟩ : BufTy).Contents (Elt F) → (⟨S8192x256, .f32⟩ : BufTy).Contents (Elt F)),
    StableHlo.TRef.unary (.of main_v107 : StableHlo.TRef sig ⟨S8192x1, .i1⟩) main_call2.v0 (broadcastInDim S8192x256 ![0, 1] bcast_S8192x1_S8192x256_0_1),
    StableHlo.TRef.ternary main_call2.v0 (.of main_v110 : StableHlo.TRef sig ⟨S8192x256, .f32⟩) (.of main_v42 : StableHlo.TRef sig ⟨S8192x256, .f32⟩) main_call2.v1 select,
    StableHlo.unary main_v85 main_v112 (uitofp .f32 : (⟨S262144, .i1⟩ : BufTy).Contents (Elt F) → (⟨S262144, .f32⟩ : BufTy).Contents (Elt F)),
    StableHlo.nullary main_cst_22 (constant S_ .f32 0x00000000#32),
    StableHlo.unary main_cst_22 main_v113 (broadcastInDim S8192 ![] bcast_S_S8192 : (⟨S_, .f32⟩ : BufTy).Contents (Elt F) → (⟨S8192, .f32⟩ : BufTy).Contents (Elt F)),
    StableHlo.unary main_arg12 main_v114 (broadcastInDim S262144x1 ![0] bcast_S262144_S262144x1_0 : (⟨S262144, .i32⟩ : BufTy).Contents (Elt F) → (⟨S262144x1, .i32⟩ : BufTy).Contents (Elt F)),
    StableHlo.ternary main_v113 main_v114 main_v112 main_v115 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.binary main_v101 main_v115 main_v116 (addf : (⟨S8192, .f32⟩ : BufTy).Contents (Elt F) → (⟨S8192, .f32⟩ : BufTy).Contents (Elt F) → (⟨S8192, .f32⟩ : BufTy).Contents (Elt F)),
    StableHlo.nullary main_cst_23 (constant S_ .f32 0x00000000#32),
    StableHlo.unary main_cst_23 main_v117 (broadcastInDim S8192 ![] bcast_S_S8192 : (⟨S_, .f32⟩ : BufTy).Contents (Elt F) → (⟨S8192, .f32⟩ : BufTy).Contents (Elt F)),
    StableHlo.binary main_v116 main_v117 main_v118 (cmpf .ogt : (⟨S8192, .f32⟩ : BufTy).Contents (Elt F) → (⟨S8192, .f32⟩ : BufTy).Contents (Elt F) → (⟨S8192, .i1⟩ : BufTy).Contents (Elt F)),
    StableHlo.unary main_v118 main_v119 (uitofp .f32 : (⟨S8192, .i1⟩ : BufTy).Contents (Elt F) → (⟨S8192, .f32⟩ : BufTy).Contents (Elt F)),
    StableHlo.nullary main_cst_24 (constant S_ .f32 0x00000000#32),
    StableHlo.binary main_v119 main_cst_24 main_v120 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_25 (constant S_ .f32 0x3F800000#32),
    StableHlo.binary main_v120 main_cst_25 main_v121 (maximumf : (⟨S_, .f32⟩ : BufTy).Contents (Elt F) → (⟨S_, .f32⟩ : BufTy).Contents (Elt F) → (⟨S_, .f32⟩ : BufTy).Contents (Elt F)),
    StableHlo.unary main_v119 main_v122 (broadcastInDim S8192x1 ![0] bcast_S8192_S8192x1_0 : (⟨S8192, .f32⟩ : BufTy).Contents (Elt F) → (⟨S8192x1, .f32⟩ : BufTy).Contents (Elt F)),
    StableHlo.unary main_v122 main_v123 (broadcastInDim S8192x256 ![0, 1] bcast_S8192x1_S8192x256_0_1 : (⟨S8192x1, .f32⟩ : BufTy).Contents (Elt F) → (⟨S8192x256, .f32⟩ : BufTy).Contents (Elt F)),
    StableHlo.binary main_v111 main_v123 main_v124 (mulf : (⟨S8192x256, .f32⟩ : BufTy).Contents (Elt F) → (⟨S8192x256, .f32⟩ : BufTy).Contents (Elt F) → (⟨S8192x256, .f32⟩ : BufTy).Contents (Elt F)),
    StableHlo.nullary main_cst_26 (constant S_ .f32 0x00000000#32),
    StableHlo.binary main_v124 main_cst_26 main_v125 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.unary main_v121 main_v126 (broadcastInDim S256 ![] bcast_S_S256 : (⟨S_, .f32⟩ : BufTy).Contents (Elt F) → (⟨S256, .f32⟩ : BufTy).Contents (Elt F)),
    StableHlo.binary main_v125 main_v126 main_v127 (Host.divf : (⟨S256, .f32⟩ : BufTy).Contents (Elt F) → (⟨S256, .f32⟩ : BufTy).Contents (Elt F) → (⟨S256, .f32⟩ : BufTy).Contents (Elt F)),
    StableHlo.nullary main_cst_27 (constant S_ .f32 0x00000000#32),
    StableHlo.binary main_v119 main_cst_27 main_v128 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_28 (constant S_ .f32 0x00000000#32),
    StableHlo.binary main_v128 main_cst_28 main_v129 (cmpf .ogt : (⟨S_, .f32⟩ : BufTy).Contents (Elt F) → (⟨S_, .f32⟩ : BufTy).Contents (Elt F) → (⟨S_, .i1⟩ : BufTy).Contents (Elt F)),
    StableHlo.nullary main_cst_29 (constant S_ .f32 0x00000000#32),
    StableHlo.unary main_cst_29 main_v130 (broadcastInDim S256 ![] bcast_S_S256 : (⟨S_, .f32⟩ : BufTy).Contents (Elt F) → (⟨S256, .f32⟩ : BufTy).Contents (Elt F)),
    StableHlo.TRef.ternary (.of main_v129 : StableHlo.TRef sig ⟨S_, .i1⟩) (.of main_v127 : StableHlo.TRef sig ⟨S256, .f32⟩) (.of main_v130 : StableHlo.TRef sig ⟨S256, .f32⟩) main_call3.v0 (fun p a b => select (broadcastInDim S256 ![] bcast_S_S256 p) a b) ]

abbrev rops4 : List (HloOp τ sig (Elt F)) :=
  [ StableHlo.unary main_v81 main_v132 ((extractStridedSlice S1x262144 ![1, 0] · slices_S3x262144_S1x262144_1_0) : (⟨S3x262144, .f32⟩ : BufTy).Contents (Elt F) → (⟨S1x262144, .f32⟩ : BufTy).Contents (Elt F)),
    StableHlo.reshape main_v132 main_v133 rfl shapeCasts_S1x262144_S262144,
    StableHlo.nullary main_cst_30 (constant S_ .f32 0x00000000#32),
    StableHlo.unary main_cst_30 main_v134 (broadcastInDim S262144 ![] bcast_S_S262144 : (⟨S_, .f32⟩ : BufTy).Contents (Elt F) → (⟨S262144, .f32⟩ : BufTy).Contents (Elt F)),
    StableHlo.binary main_v133 main_v134 main_v135 (cmpf .ogt : (⟨S262144, .f32⟩ : BufTy).Contents (Elt F) → (⟨S262144, .f32⟩ : BufTy).Contents (Elt F) → (⟨S262144, .i1⟩ : BufTy).Contents (Elt F)),
    StableHlo.unary main_arg8 main_v136 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v136 main_v137 rfl shapeCasts_S1x256x256_S256x256,
    StableHlo.binary main_v42 main_v137 main_v138 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg9 main_v139 ((extractStridedSlice S1x256 ![1, 0] · slices_S3x256_S1x256_1_0) : (⟨S3x256, .f32⟩ : BufTy).Contents (Elt F) → (⟨S1x256, .f32⟩ : BufTy).Contents (Elt F)),
    StableHlo.reshape main_v139 main_v140 rfl shapeCasts_S1x256_S256,
    StableHlo.unary main_v140 main_v141 (broadcastInDim S1x256 ![1] bcast_S256_S1x256_1 : (⟨S256, .f32⟩ : BufTy).Contents (Elt F) → (⟨S1x256, .f32⟩ : BufTy).Contents (Elt F)),
    StableHlo.unary main_v141 main_v142 (broadcastInDim S8192x256 ![0, 1] bcast_S1x256_S8192x256_0_1 : (⟨S1x256, .f32⟩ : BufTy).Contents (Elt F) → (⟨S8192x256, .f32⟩ : BufTy).Contents (Elt F)),
    StableHlo.binary main_v138 main_v142 main_v143 (addf : (⟨S8192x256, .f32⟩ : BufTy).Contents (Elt F) → (⟨S8192x256, .f32⟩ : BufTy).Contents (Elt F) → (⟨S8192x256, .f32⟩ : BufTy).Contents (Elt F)),
    StableHlo.nullary main_cst_31 (constant S_ .f32 0x00000000#32),
    StableHlo.TRef.unary (.of main_cst_31 : StableHlo.TRef sig ⟨S_, .f32⟩) main_call4.v0 id,
    StableHlo.TRef.unary main_call4.v0 main_call4.v1 (broadcastInDim S262144 ![] bcast_S_S262144),
    StableHlo.TRef.ternary (.of main_v135 : StableHlo.TRef sig ⟨S262144, .i1⟩) (.of main_v67 : StableHlo.TRef sig ⟨S262144, .f32⟩) main_call4.v1 main_call4.v2 select,
    StableHlo.nullary main_cst_32 (constant S_ .f32 0x00000000#32),
    StableHlo.unary main_cst_32 main_v145 (broadcastInDim S8192 ![] bcast_S_S8192 : (⟨S_, .f32⟩ : BufTy).Contents (Elt F) → (⟨S8192, .f32⟩ : BufTy).Contents (Elt F)),
    StableHlo.unary main_arg13 main_v146 (broadcastInDim S262144x1 ![0] bcast_S262144_S262144x1_0 : (⟨S262144, .i32⟩ : BufTy).Contents (Elt F) → (⟨S262144x1, .i32⟩ : BufTy).Contents (Elt F)),
    StableHlo.ternary main_v145 main_v146 main_v144 main_v147 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.unary main_v135 main_v148 (uitofp .f32 : (⟨S262144, .i1⟩ : BufTy).Contents (Elt F) → (⟨S262144, .f32⟩ : BufTy).Contents (Elt F)),
    StableHlo.nullary main_cst_33 (constant S_ .f32 0x00000000#32),
    StableHlo.unary main_cst_33 main_v149 (broadcastInDim S8192 ![] bcast_S_S8192 : (⟨S_, .f32⟩ : BufTy).Contents (Elt F) → (⟨S8192, .f32⟩ : BufTy).Contents (Elt F)),
    StableHlo.unary main_arg13 main_v150 (broadcastInDim S262144x1 ![0] bcast_S262144_S262144x1_0 : (⟨S262144, .i32⟩ : BufTy).Contents (Elt F) → (⟨S262144x1, .i32⟩ : BufTy).Contents (Elt F)),
    StableHlo.ternary main_v149 main_v150 main_v148 main_v151 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.nullary main_cst_34 (constant S_ .f32 0x3F800000#32),
    StableHlo.unary main_cst_34 main_v152 (broadcastInDim S8192 ![] bcast_S_S8192 : (⟨S_, .f32⟩ : BufTy).Contents (Elt F) → (⟨S8192, .f32⟩ : BufTy).Contents (Elt F)),
    StableHlo.binary main_v151 main_v152 main_v153 (maximumf : (⟨S8192, .f32⟩ : BufTy).Contents (Elt F) → (⟨S8192, .f32⟩ : BufTy).Contents (Elt F) → (⟨S8192, .f32⟩ : BufTy).Contents (Elt F)),
    StableHlo.binary main_v147 main_v153 main_v154 (Host.divf : (⟨S8192, .f32⟩ : BufTy).Contents (Elt F) → (⟨S8192, .f32⟩ : BufTy).Contents (Elt F) → (⟨S8192, .f32⟩ : BufTy).Contents (Elt F)),
    StableHlo.unary main_v151 main_v155 (broadcastInDim S8192x1 ![0] bcast_S8192_S8192x1_0 : (⟨S8192, .f32⟩ : BufTy).Contents (Elt F) → (⟨S8192x1, .f32⟩ : BufTy).Contents (Elt F)),
    StableHlo.nullary main_cst_35 (constant S_ .f32 0x00000000#32),
    StableHlo.unary main_cst_35 main_v156 (broadcastInDim S8192x1 ![] bcast_S_S8192x1 : (⟨S_, .f32⟩ : BufTy).Contents (Elt F) → (⟨S8192x1, .f32⟩ : BufTy).Contents (Elt F)),
    StableHlo.binary main_v155 main_v156 main_v157 (cmpf .ogt : (⟨S8192x1, .f32⟩ : BufTy).Contents (Elt F) → (⟨S8192x1, .f32⟩ : BufTy).Contents (Elt F) → (⟨S8192x1, .i1⟩ : BufTy).Contents (Elt F)),
    StableHlo.unary main_v154 main_v158 (broadcastInDim S8192x1 ![0] bcast_S8192_S8192x1_0 : (⟨S8192, .f32⟩ : BufTy).Contents (Elt F) → (⟨S8192x1, .f32⟩ : BufTy).Contents (Elt F)),
    StableHlo.unary main_v158 main_v159 (broadcastInDim S8192x256 ![0, 1] bcast_S8192x1_S8192x256_0_1 : (⟨S8192x1, .f32⟩ : BufTy).Contents (Elt F) → (⟨S8192x256, .f32⟩ : BufTy).Contents (Elt F)),
    StableHlo.binary main_v143 main_v159 main_v160 (mulf : (⟨S8192x256, .f32⟩ : BufTy).Contents (Elt F) → (⟨S8192x256, .f32⟩ : BufTy).Contents (Elt F) → (⟨S8192x256, .f32⟩ : BufTy).Contents (Elt F)),
    StableHlo.TRef.unary (.of main_v157 : StableHlo.TRef sig ⟨S8192x1, .i1⟩) main_call5.v0 (broadcastInDim S8192x256 ![0, 1] bcast_S8192x1_S8192x256_0_1),
    StableHlo.TRef.ternary main_call5.v0 (.of main_v160 : StableHlo.TRef sig ⟨S8192x256, .f32⟩) (.of main_v42 : StableHlo.TRef sig ⟨S8192x256, .f32⟩) main_call5.v1 select,
    StableHlo.unary main_v135 main_v162 (uitofp .f32 : (⟨S262144, .i1⟩ : BufTy).Contents (Elt F) → (⟨S262144, .f32⟩ : BufTy).Contents (Elt F)),
    StableHlo.nullary main_cst_36 (constant S_ .f32 0x00000000#32),
    StableHlo.unary main_cst_36 main_v163 (broadcastInDim S8192 ![] bcast_S_S8192 : (⟨S_, .f32⟩ : BufTy).Contents (Elt F) → (⟨S8192, .f32⟩ : BufTy).Contents (Elt F)),
    StableHlo.unary main_arg12 main_v164 (broadcastInDim S262144x1 ![0] bcast_S262144_S262144x1_0 : (⟨S262144, .i32⟩ : BufTy).Contents (Elt F) → (⟨S262144x1, .i32⟩ : BufTy).Contents (Elt F)),
    StableHlo.ternary main_v163 main_v164 main_v162 main_v165 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.binary main_v151 main_v165 main_v166 (addf : (⟨S8192, .f32⟩ : BufTy).Contents (Elt F) → (⟨S8192, .f32⟩ : BufTy).Contents (Elt F) → (⟨S8192, .f32⟩ : BufTy).Contents (Elt F)),
    StableHlo.nullary main_cst_37 (constant S_ .f32 0x00000000#32),
    StableHlo.unary main_cst_37 main_v167 (broadcastInDim S8192 ![] bcast_S_S8192 : (⟨S_, .f32⟩ : BufTy).Contents (Elt F) → (⟨S8192, .f32⟩ : BufTy).Contents (Elt F)),
    StableHlo.binary main_v166 main_v167 main_v168 (cmpf .ogt : (⟨S8192, .f32⟩ : BufTy).Contents (Elt F) → (⟨S8192, .f32⟩ : BufTy).Contents (Elt F) → (⟨S8192, .i1⟩ : BufTy).Contents (Elt F)),
    StableHlo.unary main_v168 main_v169 (uitofp .f32 : (⟨S8192, .i1⟩ : BufTy).Contents (Elt F) → (⟨S8192, .f32⟩ : BufTy).Contents (Elt F)),
    StableHlo.nullary main_cst_38 (constant S_ .f32 0x00000000#32),
    StableHlo.binary main_v169 main_cst_38 main_v170 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_39 (constant S_ .f32 0x3F800000#32),
    StableHlo.binary main_v170 main_cst_39 main_v171 (maximumf : (⟨S_, .f32⟩ : BufTy).Contents (Elt F) → (⟨S_, .f32⟩ : BufTy).Contents (Elt F) → (⟨S_, .f32⟩ : BufTy).Contents (Elt F)),
    StableHlo.unary main_v169 main_v172 (broadcastInDim S8192x1 ![0] bcast_S8192_S8192x1_0 : (⟨S8192, .f32⟩ : BufTy).Contents (Elt F) → (⟨S8192x1, .f32⟩ : BufTy).Contents (Elt F)),
    StableHlo.unary main_v172 main_v173 (broadcastInDim S8192x256 ![0, 1] bcast_S8192x1_S8192x256_0_1 : (⟨S8192x1, .f32⟩ : BufTy).Contents (Elt F) → (⟨S8192x256, .f32⟩ : BufTy).Contents (Elt F)),
    StableHlo.binary main_v161 main_v173 main_v174 (mulf : (⟨S8192x256, .f32⟩ : BufTy).Contents (Elt F) → (⟨S8192x256, .f32⟩ : BufTy).Contents (Elt F) → (⟨S8192x256, .f32⟩ : BufTy).Contents (Elt F)),
    StableHlo.nullary main_cst_40 (constant S_ .f32 0x00000000#32),
    StableHlo.binary main_v174 main_cst_40 main_v175 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.unary main_v171 main_v176 (broadcastInDim S256 ![] bcast_S_S256 : (⟨S_, .f32⟩ : BufTy).Contents (Elt F) → (⟨S256, .f32⟩ : BufTy).Contents (Elt F)),
    StableHlo.binary main_v175 main_v176 main_v177 (Host.divf : (⟨S256, .f32⟩ : BufTy).Contents (Elt F) → (⟨S256, .f32⟩ : BufTy).Contents (Elt F) → (⟨S256, .f32⟩ : BufTy).Contents (Elt F)),
    StableHlo.nullary main_cst_41 (constant S_ .f32 0x00000000#32),
    StableHlo.binary main_v169 main_cst_41 main_v178 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_42 (constant S_ .f32 0x00000000#32),
    StableHlo.binary main_v178 main_cst_42 main_v179 (cmpf .ogt : (⟨S_, .f32⟩ : BufTy).Contents (Elt F) → (⟨S_, .f32⟩ : BufTy).Contents (Elt F) → (⟨S_, .i1⟩ : BufTy).Contents (Elt F)),
    StableHlo.nullary main_cst_43 (constant S_ .f32 0x00000000#32),
    StableHlo.unary main_cst_43 main_v180 (broadcastInDim S256 ![] bcast_S_S256 : (⟨S_, .f32⟩ : BufTy).Contents (Elt F) → (⟨S256, .f32⟩ : BufTy).Contents (Elt F)),
    StableHlo.TRef.ternary (.of main_v179 : StableHlo.TRef sig ⟨S_, .i1⟩) (.of main_v177 : StableHlo.TRef sig ⟨S256, .f32⟩) (.of main_v180 : StableHlo.TRef sig ⟨S256, .f32⟩) main_call6.v0 (fun p a b => select (broadcastInDim S256 ![] bcast_S_S256 p) a b) ]

abbrev rops5 : List (HloOp τ sig (Elt F)) :=
  [ StableHlo.unary main_v81 main_v182 ((extractStridedSlice S1x262144 ![2, 0] · slices_S3x262144_S1x262144_2_0) : (⟨S3x262144, .f32⟩ : BufTy).Contents (Elt F) → (⟨S1x262144, .f32⟩ : BufTy).Contents (Elt F)),
    StableHlo.reshape main_v182 main_v183 rfl shapeCasts_S1x262144_S262144,
    StableHlo.nullary main_cst_44 (constant S_ .f32 0x00000000#32),
    StableHlo.unary main_cst_44 main_v184 (broadcastInDim S262144 ![] bcast_S_S262144 : (⟨S_, .f32⟩ : BufTy).Contents (Elt F) → (⟨S262144, .f32⟩ : BufTy).Contents (Elt F)),
    StableHlo.binary main_v183 main_v184 main_v185 (cmpf .ogt : (⟨S262144, .f32⟩ : BufTy).Contents (Elt F) → (⟨S262144, .f32⟩ : BufTy).Contents (Elt F) → (⟨S262144, .i1⟩ : BufTy).Contents (Elt F)),
    StableHlo.unary main_arg8 main_v186 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v186 main_v187 rfl shapeCasts_S1x256x256_S256x256,
    StableHlo.binary main_v42 main_v187 main_v188 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg9 main_v189 ((extractStridedSlice S1x256 ![2, 0] · slices_S3x256_S1x256_2_0) : (⟨S3x256, .f32⟩ : BufTy).Contents (Elt F) → (⟨S1x256, .f32⟩ : BufTy).Contents (Elt F)),
    StableHlo.reshape main_v189 main_v190 rfl shapeCasts_S1x256_S256,
    StableHlo.unary main_v190 main_v191 (broadcastInDim S1x256 ![1] bcast_S256_S1x256_1 : (⟨S256, .f32⟩ : BufTy).Contents (Elt F) → (⟨S1x256, .f32⟩ : BufTy).Contents (Elt F)),
    StableHlo.unary main_v191 main_v192 (broadcastInDim S8192x256 ![0, 1] bcast_S1x256_S8192x256_0_1 : (⟨S1x256, .f32⟩ : BufTy).Contents (Elt F) → (⟨S8192x256, .f32⟩ : BufTy).Contents (Elt F)),
    StableHlo.binary main_v188 main_v192 main_v193 (addf : (⟨S8192x256, .f32⟩ : BufTy).Contents (Elt F) → (⟨S8192x256, .f32⟩ : BufTy).Contents (Elt F) → (⟨S8192x256, .f32⟩ : BufTy).Contents (Elt F)),
    StableHlo.nullary main_cst_45 (constant S_ .f32 0x00000000#32),
    StableHlo.TRef.unary (.of main_cst_45 : StableHlo.TRef sig ⟨S_, .f32⟩) main_call7.v0 id,
    StableHlo.TRef.unary main_call7.v0 main_call7.v1 (broadcastInDim S262144 ![] bcast_S_S262144),
    StableHlo.TRef.ternary (.of main_v185 : StableHlo.TRef sig ⟨S262144, .i1⟩) (.of main_v67 : StableHlo.TRef sig ⟨S262144, .f32⟩) main_call7.v1 main_call7.v2 select,
    StableHlo.nullary main_cst_46 (constant S_ .f32 0x00000000#32),
    StableHlo.unary main_cst_46 main_v195 (broadcastInDim S8192 ![] bcast_S_S8192 : (⟨S_, .f32⟩ : BufTy).Contents (Elt F) → (⟨S8192, .f32⟩ : BufTy).Contents (Elt F)),
    StableHlo.unary main_arg13 main_v196 (broadcastInDim S262144x1 ![0] bcast_S262144_S262144x1_0 : (⟨S262144, .i32⟩ : BufTy).Contents (Elt F) → (⟨S262144x1, .i32⟩ : BufTy).Contents (Elt F)),
    StableHlo.ternary main_v195 main_v196 main_v194 main_v197 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.unary main_v185 main_v198 (uitofp .f32 : (⟨S262144, .i1⟩ : BufTy).Contents (Elt F) → (⟨S262144, .f32⟩ : BufTy).Contents (Elt F)),
    StableHlo.nullary main_cst_47 (constant S_ .f32 0x00000000#32),
    StableHlo.unary main_cst_47 main_v199 (broadcastInDim S8192 ![] bcast_S_S8192 : (⟨S_, .f32⟩ : BufTy).Contents (Elt F) → (⟨S8192, .f32⟩ : BufTy).Contents (Elt F)),
    StableHlo.unary main_arg13 main_v200 (broadcastInDim S262144x1 ![0] bcast_S262144_S262144x1_0 : (⟨S262144, .i32⟩ : BufTy).Contents (Elt F) → (⟨S262144x1, .i32⟩ : BufTy).Contents (Elt F)),
    StableHlo.ternary main_v199 main_v200 main_v198 main_v201 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.nullary main_cst_48 (constant S_ .f32 0x3F800000#32),
    StableHlo.unary main_cst_48 main_v202 (broadcastInDim S8192 ![] bcast_S_S8192 : (⟨S_, .f32⟩ : BufTy).Contents (Elt F) → (⟨S8192, .f32⟩ : BufTy).Contents (Elt F)),
    StableHlo.binary main_v201 main_v202 main_v203 (maximumf : (⟨S8192, .f32⟩ : BufTy).Contents (Elt F) → (⟨S8192, .f32⟩ : BufTy).Contents (Elt F) → (⟨S8192, .f32⟩ : BufTy).Contents (Elt F)),
    StableHlo.binary main_v197 main_v203 main_v204 (Host.divf : (⟨S8192, .f32⟩ : BufTy).Contents (Elt F) → (⟨S8192, .f32⟩ : BufTy).Contents (Elt F) → (⟨S8192, .f32⟩ : BufTy).Contents (Elt F)),
    StableHlo.unary main_v201 main_v205 (broadcastInDim S8192x1 ![0] bcast_S8192_S8192x1_0 : (⟨S8192, .f32⟩ : BufTy).Contents (Elt F) → (⟨S8192x1, .f32⟩ : BufTy).Contents (Elt F)),
    StableHlo.nullary main_cst_49 (constant S_ .f32 0x00000000#32),
    StableHlo.unary main_cst_49 main_v206 (broadcastInDim S8192x1 ![] bcast_S_S8192x1 : (⟨S_, .f32⟩ : BufTy).Contents (Elt F) → (⟨S8192x1, .f32⟩ : BufTy).Contents (Elt F)),
    StableHlo.binary main_v205 main_v206 main_v207 (cmpf .ogt : (⟨S8192x1, .f32⟩ : BufTy).Contents (Elt F) → (⟨S8192x1, .f32⟩ : BufTy).Contents (Elt F) → (⟨S8192x1, .i1⟩ : BufTy).Contents (Elt F)),
    StableHlo.unary main_v204 main_v208 (broadcastInDim S8192x1 ![0] bcast_S8192_S8192x1_0 : (⟨S8192, .f32⟩ : BufTy).Contents (Elt F) → (⟨S8192x1, .f32⟩ : BufTy).Contents (Elt F)),
    StableHlo.unary main_v208 main_v209 (broadcastInDim S8192x256 ![0, 1] bcast_S8192x1_S8192x256_0_1 : (⟨S8192x1, .f32⟩ : BufTy).Contents (Elt F) → (⟨S8192x256, .f32⟩ : BufTy).Contents (Elt F)),
    StableHlo.binary main_v193 main_v209 main_v210 (mulf : (⟨S8192x256, .f32⟩ : BufTy).Contents (Elt F) → (⟨S8192x256, .f32⟩ : BufTy).Contents (Elt F) → (⟨S8192x256, .f32⟩ : BufTy).Contents (Elt F)),
    StableHlo.TRef.unary (.of main_v207 : StableHlo.TRef sig ⟨S8192x1, .i1⟩) main_call8.v0 (broadcastInDim S8192x256 ![0, 1] bcast_S8192x1_S8192x256_0_1),
    StableHlo.TRef.ternary main_call8.v0 (.of main_v210 : StableHlo.TRef sig ⟨S8192x256, .f32⟩) (.of main_v42 : StableHlo.TRef sig ⟨S8192x256, .f32⟩) main_call8.v1 select,
    StableHlo.unary main_v185 main_v212 (uitofp .f32 : (⟨S262144, .i1⟩ : BufTy).Contents (Elt F) → (⟨S262144, .f32⟩ : BufTy).Contents (Elt F)),
    StableHlo.nullary main_cst_50 (constant S_ .f32 0x00000000#32),
    StableHlo.unary main_cst_50 main_v213 (broadcastInDim S8192 ![] bcast_S_S8192 : (⟨S_, .f32⟩ : BufTy).Contents (Elt F) → (⟨S8192, .f32⟩ : BufTy).Contents (Elt F)),
    StableHlo.unary main_arg12 main_v214 (broadcastInDim S262144x1 ![0] bcast_S262144_S262144x1_0 : (⟨S262144, .i32⟩ : BufTy).Contents (Elt F) → (⟨S262144x1, .i32⟩ : BufTy).Contents (Elt F)),
    StableHlo.ternary main_v213 main_v214 main_v212 main_v215 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.binary main_v201 main_v215 main_v216 (addf : (⟨S8192, .f32⟩ : BufTy).Contents (Elt F) → (⟨S8192, .f32⟩ : BufTy).Contents (Elt F) → (⟨S8192, .f32⟩ : BufTy).Contents (Elt F)),
    StableHlo.nullary main_cst_51 (constant S_ .f32 0x00000000#32),
    StableHlo.unary main_cst_51 main_v217 (broadcastInDim S8192 ![] bcast_S_S8192 : (⟨S_, .f32⟩ : BufTy).Contents (Elt F) → (⟨S8192, .f32⟩ : BufTy).Contents (Elt F)),
    StableHlo.binary main_v216 main_v217 main_v218 (cmpf .ogt : (⟨S8192, .f32⟩ : BufTy).Contents (Elt F) → (⟨S8192, .f32⟩ : BufTy).Contents (Elt F) → (⟨S8192, .i1⟩ : BufTy).Contents (Elt F)),
    StableHlo.unary main_v218 main_v219 (uitofp .f32 : (⟨S8192, .i1⟩ : BufTy).Contents (Elt F) → (⟨S8192, .f32⟩ : BufTy).Contents (Elt F)),
    StableHlo.nullary main_cst_52 (constant S_ .f32 0x00000000#32),
    StableHlo.binary main_v219 main_cst_52 main_v220 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_53 (constant S_ .f32 0x3F800000#32),
    StableHlo.binary main_v220 main_cst_53 main_v221 (maximumf : (⟨S_, .f32⟩ : BufTy).Contents (Elt F) → (⟨S_, .f32⟩ : BufTy).Contents (Elt F) → (⟨S_, .f32⟩ : BufTy).Contents (Elt F)),
    StableHlo.unary main_v219 main_v222 (broadcastInDim S8192x1 ![0] bcast_S8192_S8192x1_0 : (⟨S8192, .f32⟩ : BufTy).Contents (Elt F) → (⟨S8192x1, .f32⟩ : BufTy).Contents (Elt F)),
    StableHlo.unary main_v222 main_v223 (broadcastInDim S8192x256 ![0, 1] bcast_S8192x1_S8192x256_0_1 : (⟨S8192x1, .f32⟩ : BufTy).Contents (Elt F) → (⟨S8192x256, .f32⟩ : BufTy).Contents (Elt F)),
    StableHlo.binary main_v211 main_v223 main_v224 (mulf : (⟨S8192x256, .f32⟩ : BufTy).Contents (Elt F) → (⟨S8192x256, .f32⟩ : BufTy).Contents (Elt F) → (⟨S8192x256, .f32⟩ : BufTy).Contents (Elt F)),
    StableHlo.nullary main_cst_54 (constant S_ .f32 0x00000000#32),
    StableHlo.binary main_v224 main_cst_54 main_v225 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.unary main_v221 main_v226 (broadcastInDim S256 ![] bcast_S_S256 : (⟨S_, .f32⟩ : BufTy).Contents (Elt F) → (⟨S256, .f32⟩ : BufTy).Contents (Elt F)),
    StableHlo.binary main_v225 main_v226 main_v227 (Host.divf : (⟨S256, .f32⟩ : BufTy).Contents (Elt F) → (⟨S256, .f32⟩ : BufTy).Contents (Elt F) → (⟨S256, .f32⟩ : BufTy).Contents (Elt F)),
    StableHlo.nullary main_cst_55 (constant S_ .f32 0x00000000#32),
    StableHlo.binary main_v219 main_cst_55 main_v228 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_56 (constant S_ .f32 0x00000000#32),
    StableHlo.binary main_v228 main_cst_56 main_v229 (cmpf .ogt : (⟨S_, .f32⟩ : BufTy).Contents (Elt F) → (⟨S_, .f32⟩ : BufTy).Contents (Elt F) → (⟨S_, .i1⟩ : BufTy).Contents (Elt F)),
    StableHlo.nullary main_cst_57 (constant S_ .f32 0x00000000#32),
    StableHlo.unary main_cst_57 main_v230 (broadcastInDim S256 ![] bcast_S_S256 : (⟨S_, .f32⟩ : BufTy).Contents (Elt F) → (⟨S256, .f32⟩ : BufTy).Contents (Elt F)),
    StableHlo.TRef.ternary (.of main_v229 : StableHlo.TRef sig ⟨S_, .i1⟩) (.of main_v227 : StableHlo.TRef sig ⟨S256, .f32⟩) (.of main_v230 : StableHlo.TRef sig ⟨S256, .f32⟩) main_call9.v0 (fun p a b => select (broadcastInDim S256 ![] bcast_S_S256 p) a b) ]

abbrev rops6 : List (HloOp τ sig (Elt F)) :=
  [ StableHlo.nary ![main_v45, main_v131, main_v181, main_v231] main_v232 (fun u => concatenate S1024 0 [⟨S256, u 0⟩, ⟨S256, u 1⟩, ⟨S256, u 2⟩, ⟨S256, u 3⟩] concatenates_S256_S256_S256_S256_S1024_d0),
    StableHlo.unary main_v232 main_v233 (broadcastInDim S1x1024 ![1] bcast_S1024_S1x1024_1 : (⟨S1024, .f32⟩ : BufTy).Contents (Elt F) → (⟨S1x1024, .f32⟩ : BufTy).Contents (Elt F)),
    StableHlo.binary main_v233 main_arg10 main_v234 ((fun l r => Host.dotGeneral dot_S1x1024_S1024x2_S1x2_1_0_0_1_n_n none l r) : (⟨S1x1024, .f32⟩ : BufTy).Contents (Elt F) → (⟨S1024x2, .f32⟩ : BufTy).Contents (Elt F) → (⟨S1x2, .f32⟩ : BufTy).Contents (Elt F)),
    StableHlo.unary main_arg11 main_v235 (broadcastInDim S1x2 ![1] bcast_S2_S1x2_1 : (⟨S2, .f32⟩ : BufTy).Contents (Elt F) → (⟨S1x2, .f32⟩ : BufTy).Contents (Elt F)),
    StableHlo.binary main_v234 main_v235 main_v236 (addf : (⟨S1x2, .f32⟩ : BufTy).Contents (Elt F) → (⟨S1x2, .f32⟩ : BufTy).Contents (Elt F) → (⟨S1x2, .f32⟩ : BufTy).Contents (Elt F)) ]

variable (m : (ℓ : Loc nD τ sig) → Buf (Elt F) ℓ)

abbrev RW0 (c : Dev nD) : Valuation τ sig (Elt F) := fun b => m (c, b)

abbrev RW1 (c : Dev nD) : Valuation τ sig (Elt F) := StableHlo.after rops0 (RW0 m c)

abbrev RW2 (c : Dev nD) : Valuation τ sig (Elt F) := StableHlo.after rops1 (RW1 m c)

abbrev RW3 (c : Dev nD) : Valuation τ sig (Elt F) := StableHlo.after rops2 (RW2 m c)

abbrev RW4 (c : Dev nD) : Valuation τ sig (Elt F) := StableHlo.after rops3 (RW3 m c)

abbrev RW5 (c : Dev nD) : Valuation τ sig (Elt F) := StableHlo.after rops4 (RW4 m c)

abbrev RW6 (c : Dev nD) : Valuation τ sig (Elt F) := StableHlo.after rops5 (RW5 m c)

abbrev RW7 (c : Dev nD) : Valuation τ sig (Elt F) := StableHlo.after rops6 (RW6 m c)

end Cert.ReferenceIdeal.Hand

end
-- ==== Proof.RefChain.lean ====
import proofs.«428349_j38809324486859_3_alg».proof.Proof.RefOps
import Idealize.ShloMosaic.Lib.Pipeline.Regions

set_option maxRecDepth 1824

noncomputable section

namespace Cert.ReferenceIdeal.Hand

open Cert.ReferenceIdeal Cert.ReferenceIdeal.Gen Idealize.ShloMosaic Idealize.ShloMosaic.TcCoe Idealize.SL.Sem

variable {F : FTy → Type} [FloatOps F]

abbrev ropsAll : List (HloOp τ sig (Elt F)) := rops0 ++ (rops1 ++ (rops2 ++ (rops3 ++ (rops4 ++ (rops5 ++ rops6)))))

/-- Operations a, …, b - 1 of the 312 in order, run as a straight line. -/
abbrev stretch (a b : ℕ) : Prog (TpuEff nD τ sig (Elt F) (Pipeline.Sig Λ₀ (Fin 0) fun p => (pcfgs (F := F) p).Adm) .tc) PUnit :=
  StableHlo.seq ((ropsAll.drop a).take (b - a))

theorem main_part0_chain (c : Dev nD) : main_part0 (F := F) c = Pipeline.chainK [] (stretch 0 60) := by
  chain_rfl

theorem main_part1_chain (c : Dev nD) : main_part1 (F := F) c =
    Pipeline.chainK [stretch 60 80, stretch 80 87, stretch 87 120, stretch 120 123] (stretch 123 128) := by
  chain_rfl

theorem main_part2_chain (c : Dev nD) : main_part2 (F := F) c =
    Pipeline.chainK [stretch 128 143, stretch 143 145, stretch 145 172, stretch 172 173, stretch 173 187, stretch 187 190] (stretch 190 191) := by
  chain_rfl

theorem main_part3_chain (c : Dev nD) : main_part3 (F := F) c =
    Pipeline.chainK [stretch 191 210, stretch 210 212, stretch 212 239, stretch 239 240] (stretch 240 252) := by
  chain_rfl

theorem main_part4_chain (c : Dev nD) : main_part4 (F := F) c =
    Pipeline.chain [stretch 252 254, stretch 254 257, stretch 257 277, stretch 277 279, stretch 279 306, stretch 306 307, stretch 307 312] := by
  chain_rfl

/-- The cut points of @main's 312 operations: where a printed window or an outlined function begins or ends. -/
abbrev cuts : List ℕ := [0, 60, 80, 87, 120, 123, 128, 143, 145, 172, 173, 187, 190, 191, 210, 212, 239, 240, 252, 254, 257, 277,
  279, 306, 307, 312]

/-- @main is the chain of the stretches between consecutive cut points. -/
theorem main_chain (c : Dev nD) : main (F := F) c = Pipeline.chain ((cuts.zip cuts.tail).map fun ab => stretch (F := F) ab.1 ab.2) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

/-- A chain of straight lines is the straight line of their concatenation. -/
theorem chain_seq {Λ : Labels} (ls : List (List (HloOp τ sig (Elt F)))) :
    Pipeline.chain (ls.map fun l => (StableHlo.seq l : Prog (TpuEff nD τ sig (Elt F) Λ .tc) PUnit)) = StableHlo.seq ls.flatten := by
  induction ls with
  | nil => rfl
  | cons l ls ih => rw [List.map_cons, Pipeline.chain_cons, List.flatten_cons, StableHlo.seq_append, ih]

/-- @main is the straight line of the seven lists: the stretches between the cut points, end to end, are all 312 operations. -/
theorem main_eq (c : Dev nD) : main (F := F) c = StableHlo.seq ropsAll := by
  rw [main_chain]
  refine (chain_seq ((cuts.zip cuts.tail).map fun ab => ((ropsAll (F := F)).drop ab.1).take (ab.2 - ab.1))).symm.symm.trans ?_ |>.symm.symm
  all_goals chain_rfl

end Cert.ReferenceIdeal.Hand

end
-- ==== Proof.RefTables.lean ====
import proofs.«428349_j38809324486859_3_alg».proof.Proof.RefOps

set_option maxRecDepth 1824

noncomputable section

namespace Cert.ReferenceIdeal.Hand

open Cert.ReferenceIdeal Cert.ReferenceIdeal.Gen Idealize.ShloMosaic Idealize.ShloMosaic.TcCoe Idealize.SL.Sem

variable {F : FTy → Type} [FloatOps F]

macro "writes_step" : tactic =>
  `(tactic| (simp only [StableHlo.nullary_writes, StableHlo.unary_writes, StableHlo.binary_writes, StableHlo.ternary_writes,
      StableHlo.reshape_writes, StableHlo.nary_writes, Finset.singleton_subset_iff, List.mem_toFinset]
             exact List.mem_map_of_mem (by decide)))

theorem rops0_sub : (rops0 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

theorem rops0_fresh : (rops0 : List (HloOp τ sig (Elt F))).Forall fun op => op.fresh = ∅ := by
  simp only [List.Forall]; repeat' constructor

abbrev rops0_W : List (Ref sig .tc) := [main_v0, main_v1, main_v2, main_cst, main_v3, main_cst_0, main_v4, main_v5, main_v6, main_cst_1, main_v7, main_v8, main_v9, main_v10, main_c, main_v11, main_v12, main_c_2, main_v13, main_v14, main_v15, main_v16, main_v17, main_v18, main_c_3, main_v19, main_v20, main_c_4, main_v21, main_v22, main_v23, main_v24, main_v25, main_v26, main_v27, main_v28, main_cst_5, main_v29, main_v30, main_v31, main_v32, main_v33, main_v34, main_v35, main_v36, main_v37, main_v38, main_v39, main_v40, main_v41, main_v42]
theorem rops0_writes : (rops0 : List (HloOp τ sig (Elt F))).Forall fun op => op.writes ⊆ (rops0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_step

theorem rops1_sub : (rops1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩

theorem rops1_fresh : (rops1 : List (HloOp τ sig (Elt F))).Forall fun op => op.fresh = ∅ := by
  simp only [List.Forall]; repeat' constructor

abbrev rops1_W : List (Ref sig .tc) := [main_cst_6, main_v43, main_cst_7, main_v44, main_v45, main_c_8, main_v46, main_v47, main_c_9, main_v48, main_v49, main_v50, main_v51, main_v52, main_c_10, main_v53, main_v54, main_c_11, main_v55, main_v56, main_v57, main_v58, main_v59, main_v60, main_v61, main_v62, main_v63, main_v64, main_v65, main_call0_cst, main_call0_v0, main_call0_v1, main_call0_cst_0, main_call0_v2, main_call0_v3, main_v66, main_v67]
theorem rops1_writes : (rops1 : List (HloOp τ sig (Elt F))).Forall fun op => op.writes ⊆ (rops1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_step

theorem rops2_sub : (rops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩

theorem rops2_fresh : (rops2 : List (HloOp τ sig (Elt F))).Forall fun op => op.fresh = ∅ := by
  simp only [List.Forall]; repeat' constructor

abbrev rops2_W : List (Ref sig .tc) := [main_c_12, main_v68, main_v69, main_c_13, main_v70, main_v71, main_v72, main_c_14, main_v73, main_v74, main_c_15, main_v75, main_v76, main_v77, main_v78, main_v79, main_v80, main_v81]
theorem rops2_writes : (rops2 : List (HloOp τ sig (Elt F))).Forall fun op => op.writes ⊆ (rops2_W.map (Proc.devRef (τ := τ) .tc)).toFinset := by
  simp only [List.Forall]; refine ⟨?_, ?_, ?_, ?_, ?_, ?_, ?_, ?_, ?_, ?_, ?_, ?_, ?_, ?_, ?_, ?_, ?_, ?_⟩ <;> writes_step

theorem rops3_sub : (rops3 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.ternary_bufs_sub ..⟩

theorem rops3_fresh : (rops3 : List (HloOp τ sig (Elt F))).Forall fun op => op.fresh = ∅ := by
  simp only [List.Forall]; repeat' constructor

abbrev rops3_W : List (Ref sig .tc) := [main_v82, main_v83, main_cst_16, main_v84, main_v85, main_v86, main_v87, main_v88, main_v89, main_v90, main_v91, main_v92, main_v93, main_cst_17, main_call1_v0, main_call1_v1, main_v94, main_cst_18, main_v95, main_v96, main_v97, main_v98, main_cst_19, main_v99, main_v100, main_v101, main_cst_20, main_v102, main_v103, main_v104, main_v105, main_cst_21, main_v106, main_v107, main_v108, main_v109, main_v110, main_call2_v0, main_v111, main_v112, main_cst_22, main_v113, main_v114, main_v115, main_v116, main_cst_23, main_v117, main_v118, main_v119, main_cst_24, main_v120, main_cst_25, main_v121, main_v122, main_v123, main_v124, main_cst_26, main_v125, main_v126, main_v127, main_cst_27, main_v128, main_cst_28, main_v129, main_cst_29, main_v130, main_v131]
theorem rops3_writes : (rops3 : List (HloOp τ sig (Elt F))).Forall fun op => op.writes ⊆ (rops3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_step

theorem rops4_sub : (rops4 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.ternary_bufs_sub ..⟩

theorem rops4_fresh : (rops4 : List (HloOp τ sig (Elt F))).Forall fun op => op.fresh = ∅ := by
  simp only [List.Forall]; repeat' constructor

abbrev rops4_W : List (Ref sig .tc) := [main_v132, main_v133, main_cst_30, main_v134, main_v135, main_v136, main_v137, main_v138, main_v139, main_v140, main_v141, main_v142, main_v143, main_cst_31, main_call4_v0, main_call4_v1, main_v144, main_cst_32, main_v145, main_v146, main_v147, main_v148, main_cst_33, main_v149, main_v150, main_v151, main_cst_34, main_v152, main_v153, main_v154, main_v155, main_cst_35, main_v156, main_v157, main_v158, main_v159, main_v160, main_call5_v0, main_v161, main_v162, main_cst_36, main_v163, main_v164, main_v165, main_v166, main_cst_37, main_v167, main_v168, main_v169, main_cst_38, main_v170, main_cst_39, main_v171, main_v172, main_v173, main_v174, main_cst_40, main_v175, main_v176, main_v177, main_cst_41, main_v178, main_cst_42, main_v179, main_cst_43, main_v180, main_v181]
theorem rops4_writes : (rops4 : List (HloOp τ sig (Elt F))).Forall fun op => op.writes ⊆ (rops4_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_step

theorem rops5_sub : (rops5 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.ternary_bufs_sub ..⟩

theorem rops5_fresh : (rops5 : List (HloOp τ sig (Elt F))).Forall fun op => op.fresh = ∅ := by
  simp only [List.Forall]; repeat' constructor

abbrev rops5_W : List (Ref sig .tc) := [main_v182, main_v183, main_cst_44, main_v184, main_v185, main_v186, main_v187, main_v188, main_v189, main_v190, main_v191, main_v192, main_v193, main_cst_45, main_call7_v0, main_call7_v1, main_v194, main_cst_46, main_v195, main_v196, main_v197, main_v198, main_cst_47, main_v199, main_v200, main_v201, main_cst_48, main_v202, main_v203, main_v204, main_v205, main_cst_49, main_v206, main_v207, main_v208, main_v209, main_v210, main_call8_v0, main_v211, main_v212, main_cst_50, main_v213, main_v214, main_v215, main_v216, main_cst_51, main_v217, main_v218, main_v219, main_cst_52, main_v220, main_cst_53, main_v221, main_v222, main_v223, main_v224, main_cst_54, main_v225, main_v226, main_v227, main_cst_55, main_v228, main_cst_56, main_v229, main_cst_57, main_v230, main_v231]
theorem rops5_writes : (rops5 : List (HloOp τ sig (Elt F))).Forall fun op => op.writes ⊆ (rops5_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_step

theorem rops6_sub : (rops6 : List (HloOp τ sig (Elt F))).Forall fun op => op.bufs ⊆ StableHlo.tcRefs τ sig :=
  ⟨StableHlo.nary_bufs_sub .., StableHlo.unary_bufs_sub .., StableHlo.binary_bufs_sub .., StableHlo.unary_bufs_sub .., StableHlo.binary_bufs_sub ..⟩

theorem rops6_fresh : (rops6 : List (HloOp τ sig (Elt F))).Forall fun op => op.fresh = ∅ := by
  simp only [List.Forall]; repeat' constructor

abbrev rops6_W : List (Ref sig .tc) := [main_v232, main_v233, main_v234, main_v235, main_v236]
theorem rops6_writes : (rops6 : List (HloOp τ sig (Elt F))).Forall fun op => op.writes ⊆ (rops6_W.map (Proc.devRef (τ := τ) .tc)).toFinset := by
  simp only [List.Forall]; refine ⟨?_, ?_, ?_, ?_, ?_⟩ <;> writes_step

end Cert.ReferenceIdeal.Hand

end
-- ==== Proof.RefRun.lean ====
import proofs.«428349_j38809324486859_3_alg».proof.Proof.RefChain
import proofs.«428349_j38809324486859_3_alg».proof.Proof.RefTables
import proofs.«428349_j38809324486859_3_alg».proof.Proof.Gen.Pre_finite_inputs
import proofs.«428349_j38809324486859_3_alg».proof.Defs
import Idealize.ShloMosaic.Lib.Pipeline.Frame

set_option maxRecDepth 1824

noncomputable section

namespace Cert.ReferenceIdeal.Hand

open Cert.ReferenceIdeal Cert.ReferenceIdeal.Gen Idealize.ShloMosaic Idealize.ShloMosaic.TcCoe Idealize.SL.Sem

variable {F : FTy → Type} [FloatOps F]

theorem ropsAll_mem {p : HloOp τ sig (Elt F) → Prop} (h0 : rops0.Forall p) (h1 : rops1.Forall p) (h2 : rops2.Forall p)
    (h3 : rops3.Forall p) (h4 : rops4.Forall p) (h5 : rops5.Forall p) (h6 : rops6.Forall p) : ∀ op ∈ (ropsAll : List (HloOp τ sig (Elt F))), p op :=
  List.forall_mem_append.mpr ⟨List.forall_iff_forall_mem.mp h0, List.forall_mem_append.mpr ⟨List.forall_iff_forall_mem.mp h1,
    List.forall_mem_append.mpr ⟨List.forall_iff_forall_mem.mp h2, List.forall_mem_append.mpr ⟨List.forall_iff_forall_mem.mp h3,
    List.forall_mem_append.mpr ⟨List.forall_iff_forall_mem.mp h4, List.forall_mem_append.mpr ⟨List.forall_iff_forall_mem.mp h5,
    List.forall_iff_forall_mem.mp h6⟩⟩⟩⟩⟩⟩

theorem ropsAll_sub : (ropsAll : List (HloOp τ sig (Elt F))).Forall fun op => op.bufs ⊆ StableHlo.tcRefs τ sig :=
  List.forall_iff_forall_mem.mpr (ropsAll_mem rops0_sub rops1_sub rops2_sub rops3_sub rops4_sub rops5_sub rops6_sub)

theorem ropsAll_fresh : ∀ op ∈ (ropsAll : List (HloOp τ sig (Elt F))), op.fresh = ∅ :=
  ropsAll_mem rops0_fresh rops1_fresh rops2_fresh rops3_fresh rops4_fresh rops5_fresh rops6_fresh

variable (m : (ℓ : Loc nD τ sig) → Buf (Elt F) ℓ)

theorem after_all (c : Dev nD) : StableHlo.after ropsAll (StableHlo.launchContents m c) = RW7 m c := by
  simp only [ropsAll, StableHlo.after_append]

theorem RW7_keep (c : Dev nD) (r : Ref sig .tc)
    (h : r ∉ rops0_W ∧ r ∉ rops1_W ∧ r ∉ rops2_W ∧ r ∉ rops3_W ∧ r ∉ rops4_W ∧ r ∉ rops5_W ∧ r ∉ rops6_W) :
    RW7 m c r = RW0 m c r :=
  (StableHlo.after_of_writes_sub rops6 _ rops6_writes h.2.2.2.2.2.2).trans <|
  (StableHlo.after_of_writes_sub rops5 _ rops5_writes h.2.2.2.2.2.1).trans <|
  (StableHlo.after_of_writes_sub rops4 _ rops4_writes h.2.2.2.2.1).trans <|
  (StableHlo.after_of_writes_sub rops3 _ rops3_writes h.2.2.2.1).trans <|
  (StableHlo.after_of_writes_sub rops2 _ rops2_writes h.2.2.1).trans <|
  (StableHlo.after_of_writes_sub rops1 _ rops1_writes h.2.1).trans <|
  StableHlo.after_of_writes_sub rops0 _ rops0_writes h.1

theorem scopedRefs_eq : (Finset.univ.filter fun b : Ref sig .tc => b.isScoped) = ∅ := by decide
theorem scopedSems_eq : (Finset.univ.filter fun sm : SemLoc sig => sm.isScoped .tc) = ∅ := by decide

theorem run (ρ : Dev nD → PrngReg) :
    θ_run defs (onTc (τ := τ) (main (F := F))) ⟨m, fun _ => 0, ρ⟩ (fun r => ∀ c : Dev nD,
      r.2.mem ((c.tc : Thread nD τ).loc main_v236) = RW7 m c main_v236
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v236).trans (congrFun (after_all m c) _),
      (h c main_arg0).trans ((congrFun (after_all m c) _).trans (RW7_keep m c main_arg0 (by decide))),
      (h c main_arg1).trans ((congrFun (after_all m c) _).trans (RW7_keep m c main_arg1 (by decide))),
      (h c main_arg2).trans ((congrFun (after_all m c) _).trans (RW7_keep m c main_arg2 (by decide))),
      (h c main_arg3).trans ((congrFun (after_all m c) _).trans (RW7_keep m c main_arg3 (by decide))),
      (h c main_arg4).trans ((congrFun (after_all m c) _).trans (RW7_keep m c main_arg4 (by decide))),
      (h c main_arg5).trans ((congrFun (after_all m c) _).trans (RW7_keep m c main_arg5 (by decide))),
      (h c main_arg6).trans ((congrFun (after_all m c) _).trans (RW7_keep m c main_arg6 (by decide))),
      (h c main_arg7).trans ((congrFun (after_all m c) _).trans (RW7_keep m c main_arg7 (by decide))),
      (h c main_arg8).trans ((congrFun (after_all m c) _).trans (RW7_keep m c main_arg8 (by decide))),
      (h c main_arg9).trans ((congrFun (after_all m c) _).trans (RW7_keep m c main_arg9 (by decide))),
      (h c main_arg10).trans ((congrFun (after_all m c) _).trans (RW7_keep m c main_arg10 (by decide))),
      (h c main_arg11).trans ((congrFun (after_all m c) _).trans (RW7_keep m c main_arg11 (by decide))),
      (h c main_arg12).trans ((congrFun (after_all m c) _).trans (RW7_keep m c main_arg12 (by decide))),
      (h c main_arg13).trans ((congrFun (after_all m c) _).trans (RW7_keep m c main_arg13 (by decide)))⟩)
    (StableHlo.run_seq scopedRefs_eq scopedSems_eq defs main (fun _ => ropsAll) main_eq (fun _ => ropsAll_sub) m ρ (fun _ => ropsAll_fresh))

end Cert.ReferenceIdeal.Hand

namespace Cert.ReferenceIdeal.Hand

open Cert.ReferenceIdeal Idealize.ShloMosaic Idealize.SL.Sem

theorem frame : Cert.frame_ReferenceIdeal := fun m g _ =>
  (θ_run (defs (F := Ideal)) _ _).mono (fun _ h c => (h c).2) (run (F := Ideal) m g)

end Cert.ReferenceIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Finset

abbrev slope : EReal := Ideal.ofBits .f32 0x3C23D70A#32
abbrev nNodes : EReal := Ideal.ofBits .f32 0x46000000#32

variable (h : Fin 8192 → Fin 256 → EReal) (A : Fin 3 → Fin 8192 → Fin 8192 → EReal)
  (wc : Fin 256 → Fin 256 → EReal) (bc : Fin 256 → EReal)
  (wW : Fin 256 → Fin 256 → EReal) (bW : Fin 256 → EReal)
  (wa : Fin 512 → EReal) (ba : EReal)
  (wk : Fin 3 → Fin 256 → Fin 256 → EReal) (bk : Fin 3 → Fin 256 → EReal)
  (wl : Fin 1024 → Fin 2 → EReal) (bl : Fin 2 → EReal)
  (u v : Fin 262144 → Fin 8192)

def degOut (n : Fin 8192) : EReal := (∑ _e ∈ univ.filter (fun e => u e = n), (1 : EReal)) + 1
def degIn (n : Fin 8192) : EReal := (∑ _e ∈ univ.filter (fun e => v e = n), (1 : EReal)) + 1

def hw (n : Fin 8192) (d : Fin 256) : EReal := ∑ k : Fin 256, h n k * wc k d
def hs (n : Fin 8192) (d : Fin 256) : EReal := hw h wc n d * Ideal.rsqrt (degOut u n)

def agg (n : Fin 8192) (d : Fin 256) : EReal :=
  (∑ e ∈ univ.filter (fun e => v e = n), hs h wc u (u e) d) + hs h wc u n d

def conv (n : Fin 8192) (d : Fin 256) : EReal := agg h wc u v n d * Ideal.rsqrt (degIn v n) + bc d

def Z (n : Fin 8192) (j : Fin 256) : EReal := (∑ d : Fin 256, conv h wc bc u v n d * wW d j) + bW j

def esc (e : Fin 262144) : EReal :=
  ((∑ k : Fin 256, Z h wc bc wW bW u v (u e) k * wa ⟨k.val, by omega⟩)
    + (∑ k : Fin 256, Z h wc bc wW bW u v (v e) k * wa ⟨256 + k.val, by omega⟩)) + ba

def leaky (x : EReal) : EReal := if Ideal.cmp .oge x 0 = 1#1 then x else slope * x

def t (e : Fin 262144) : EReal := Ideal.tanh (leaky (esc h wc bc wW bW wa ba u v e))

def counted (k : Fin 3) (e : Fin 262144) : Prop := Ideal.cmp .ogt (A k (u e) (v e)) 0 = 1#1
instance (k : Fin 3) (e : Fin 262144) : Decidable (counted A u v k e) := by unfold counted; infer_instance
def ind (k : Fin 3) (e : Fin 262144) : EReal := if counted A u v k e then 1 else 0

def num (k : Fin 3) (n : Fin 8192) : EReal :=
  ∑ e ∈ univ.filter (fun e => v e = n), (if counted A u v k e then t h wc bc wW bW wa ba u v e else 0)
def cnt (k : Fin 3) (n : Fin 8192) : EReal := ∑ e ∈ univ.filter (fun e => v e = n), ind A u v k e
def src (k : Fin 3) (n : Fin 8192) : EReal := ∑ e ∈ univ.filter (fun e => u e = n), ind A u v k e

def meanAttn (k : Fin 3) (n : Fin 8192) : EReal :=
  Ideal.div (num h A wc bc wW bW wa ba u v k n) (max (cnt A u v k n) 1)

def az (k : Fin 3) (n : Fin 8192) (j : Fin 256) : EReal :=
  (∑ d : Fin 256, Z h wc bc wW bW u v n d * wk k d j) + bk k j

def hk (k : Fin 3) (n : Fin 8192) (j : Fin 256) : EReal :=
  if Ideal.cmp .ogt (cnt A u v k n) 0 = 1#1 then az h wc bc wW bW wk bk u v k n j * meanAttn h A wc bc wW bW wa ba u v k n
  else Z h wc bc wW bW u v n j

def insub (k : Fin 3) (n : Fin 8192) : EReal :=
  if Ideal.cmp .ogt (cnt A u v k n + src A u v k n) 0 = 1#1 then 1 else 0

def nsub (k : Fin 3) : EReal := ∑ n : Fin 8192, insub A u v k n

def pool0 (j : Fin 256) : EReal := Ideal.div (∑ n : Fin 8192, Z h wc bc wW bW u v n j) nNodes

def poolk (k : Fin 3) (j : Fin 256) : EReal :=
  if Ideal.cmp .ogt (nsub A u v k) 0 = 1#1 then
    Ideal.div (∑ n : Fin 8192, hk h A wc bc wW bW wa ba wk bk u v k n j * insub A u v k n) (max (nsub A u v k) 1)
  else 0

def feat (q : Fin 1024) : EReal :=
  if hq : q.val < 256 then pool0 h wc bc wW bW u v ⟨q.val, hq⟩
  else poolk h A wc bc wW bW wa ba wk bk u v ⟨q.val / 256 - 1, by omega⟩ ⟨q.val % 256, Nat.mod_lt _ (by norm_num)⟩

def out (o : Fin 2) : EReal := (∑ q : Fin 1024, feat h A wc bc wW bW wa ba wk bk u v q * wl q o) + bl o

end Cert.Spec

end
-- ==== Proof.SpecArgs.lean ====
import proofs.«428349_j38809324486859_3_alg».proof.Proof.Spec

noncomputable section

namespace Cert.Spec

open Idealize.ShloMosaic Idealize.ShloMosaic.ValueIdx

def vec1 {a : ℕ} (x : (⟨1, ![a]⟩ : Shape).Idx → EReal) : Fin a → EReal := fun i => x (ix1 i)
def mat2 {a b : ℕ} (x : (⟨2, ![a, b]⟩ : Shape).Idx → EReal) : Fin a → Fin b → EReal := fun i j => x (ix2 i j)
def ten3 {a b c : ℕ} (x : (⟨3, ![a, b, c]⟩ : Shape).Idx → EReal) : Fin a → Fin b → Fin c → EReal :=
  fun i j k => x (ix3 i j k)

def col1 {a : ℕ} (x : (⟨2, ![a, 1]⟩ : Shape).Idx → EReal) : Fin a → EReal := fun i => x (ix2 i (0 : Fin 1))

def the1 (x : (⟨1, ![1]⟩ : Shape).Idx → EReal) : EReal := x (ix1 (0 : Fin 1))

def node (idx : (⟨1, ![262144]⟩ : Shape).Idx → BitVec 32) (hlt : ∀ e : Fin 262144, (idx (ix1 e)).toNat < 8192) :
    Fin 262144 → Fin 8192 := fun e => ⟨(idx (ix1 e)).toNat, hlt e⟩

section Of

variable (a0 : (⟨2, ![8192, 256]⟩ : Shape).Idx → EReal) (a1 : (⟨3, ![3, 8192, 8192]⟩ : Shape).Idx → EReal)
  (a2 : (⟨2, ![256, 256]⟩ : Shape).Idx → EReal) (a3 : (⟨1, ![256]⟩ : Shape).Idx → EReal)
  (a4 : (⟨2, ![256, 256]⟩ : Shape).Idx → EReal) (a5 : (⟨1, ![256]⟩ : Shape).Idx → EReal)
  (a6 : (⟨2, ![512, 1]⟩ : Shape).Idx → EReal) (a7 : (⟨1, ![1]⟩ : Shape).Idx → EReal)
  (a8 : (⟨3, ![3, 256, 256]⟩ : Shape).Idx → EReal) (a9 : (⟨2, ![3, 256]⟩ : Shape).Idx → EReal)
  (a10 : (⟨2, ![1024, 2]⟩ : Shape).Idx → EReal) (a11 : (⟨1, ![2]⟩ : Shape).Idx → EReal)
  (a12 a13 : (⟨1, ![262144]⟩ : Shape).Idx → BitVec 32)
  (hus : ∀ e : Fin 262144, (a12 (ix1 e)).toNat < 8192) (hvs : ∀ e : Fin 262144, (a13 (ix1 e)).toNat < 8192)

def degOutOf := degOut (node a12 hus)
def degInOf := degIn (node a13 hvs)
def hsOf := hs (mat2 a0) (mat2 a2) (node a12 hus)
def convOf := conv (mat2 a0) (mat2 a2) (vec1 a3) (node a12 hus) (node a13 hvs)
def ZOf := Z (mat2 a0) (mat2 a2) (vec1 a3) (mat2 a4) (vec1 a5) (node a12 hus) (node a13 hvs)
def tOf := t (mat2 a0) (mat2 a2) (vec1 a3) (mat2 a4) (vec1 a5) (col1 a6) (the1 a7) (node a12 hus) (node a13 hvs)
def countedOf := counted (ten3 a1) (node a12 hus) (node a13 hvs)
def indOf := ind (ten3 a1) (node a12 hus) (node a13 hvs)
def numOf := num (mat2 a0) (ten3 a1) (mat2 a2) (vec1 a3) (mat2 a4) (vec1 a5) (col1 a6) (the1 a7) (node a12 hus) (node a13 hvs)
def cntOf := cnt (ten3 a1) (node a12 hus) (node a13 hvs)
def srcOf := src (ten3 a1) (node a12 hus) (node a13 hvs)
def pool0Of := pool0 (mat2 a0) (mat2 a2) (vec1 a3) (mat2 a4) (vec1 a5) (node a12 hus) (node a13 hvs)
def poolkOf := poolk (mat2 a0) (ten3 a1) (mat2 a2) (vec1 a3) (mat2 a4) (vec1 a5) (col1 a6) (the1 a7) (ten3 a8) (mat2 a9)
  (node a12 hus) (node a13 hvs)
def outOf := out (mat2 a0) (ten3 a1) (mat2 a2) (vec1 a3) (mat2 a4) (vec1 a5) (col1 a6) (the1 a7) (ten3 a8) (mat2 a9)
  (mat2 a10) (vec1 a11) (node a12 hus) (node a13 hvs)

end Of

end Cert.Spec

end
-- ==== Proof.PreFacts.lean ====
import proofs.«428349_j38809324486859_3_alg».proof.Pre_finite_inputs
import proofs.«428349_j38809324486859_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx Cert.Pre_finite_inputs

instance subsingleton_scalar_idx : Subsingleton S_.Idx := ⟨fun a b => funext fun d => d.elim0⟩

theorem inf_bits : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem real_of_all {s : Shape} {axes : List (Fin s.rank)} (bc : S_.BroadcastsInDim s (![] : Fin 0 → Fin s.rank))
    (rt : s.ReducesTo axes S_) (hu : 0 < S_.numel) (x : FVec Ideal s .f32) (init : IVec S_ 1)
    (e : Host.reduce IntOp.andi
          (cmpf .olt (Host.absf x) (broadcastInDim s ![] bc (constant (F := Ideal) S_ .f32 0x7F800000#32))) init rt hu ix0
        = 1#1) (i : s.Idx) : ∃ r : ℝ, x i = (r : EReal) := by
  have hi := Host.reduce_andi_all _ init rt hu ix0 e i
  rw [cmpf_apply, StableHlo.Predicate.bcast_scalar bc hu, constant_apply, inf_bits] at hi
  change Ideal.cmp .olt (max (x i) (-(x i))) ⊤ = 1#1 at hi
  simp only [Ideal.cmp, StableHlo.Predicate.ofBool_eq_one_iff, decide_eq_true_eq] at hi
  exact real_of_abs_lt_top (x i) hi

theorem lt_of_all (bc : S_.BroadcastsInDim S262144 (![] : Fin 0 → Fin S262144.rank))
    (rt : S262144.ReducesTo [0] S_) (hu : 0 < S_.numel) (x : IVec S262144 32) (init : IVec S_ 1)
    (e : Host.reduce IntOp.andi
          (andi (cmpi .sge x (broadcastInDim S262144 ![] bc (constantI S_ 32 0#32)))
                (cmpi .slt x (broadcastInDim S262144 ![] bc (constantI S_ 32 8192#32)))) init rt hu ix0
        = 1#1) (n : Fin 262144) : (x (ix1 n)).toNat < 8192 := by
  have hi := Host.reduce_andi_all _ init rt hu ix0 e (ix1 n)
  change IntOp.andi (IntOp.cmpi .sge (x (ix1 n)) (broadcastInDim S262144 ![] bc (constantI S_ 32 0#32) (ix1 n)))
      (IntOp.cmpi .slt (x (ix1 n)) (broadcastInDim S262144 ![] bc (constantI S_ 32 8192#32) (ix1 n))) = 1#1 at hi
  rw [StableHlo.Predicate.bcast_scalar bc hu, StableHlo.Predicate.bcast_scalar bc hu, IntOp.andi_eq_one,
    IntOp.cmpi_sge, IntOp.cmpi_slt] at hi
  obtain ⟨h0, h1⟩ := hi
  change (0#32).toInt ≤ (x (ix1 n)).toInt at h0
  change (x (ix1 n)).toInt < (8192#32).toInt at h1
  have e0 : (0#32 : BitVec 32).toInt = 0 := by decide
  have e1 : (8192#32 : BitVec 32).toInt = 8192 := by decide
  rw [e0] at h0
  rw [e1] at h1
  have hlt := (x (ix1 n)).isLt
  rw [BitVec.toInt_eq_toNat_cond] at h0 h1
  split at h0 <;> omega

variable [Cert.Pre_finite_inputs.Facts]

theorem andi_scalar (x y : IVec S_ 1) : andi x y ix0 = IntOp.andi (x ix0) (y ix0) := rfl

variable (a0 : FVec Ideal S8192x256 .f32) (a1 : FVec Ideal S3x8192x8192 .f32) (a2 : FVec Ideal S256x256 .f32) (a3 : FVec Ideal S256 .f32) (a4 : FVec Ideal S256x256 .f32) (a5 : FVec Ideal S256 .f32) (a6 : FVec Ideal S512x1 .f32) (a7 : FVec Ideal S1 .f32) (a8 : FVec Ideal S3x256x256 .f32) (a9 : FVec Ideal S3x256 .f32) (a10 : FVec Ideal S1024x2 .f32) (a11 : FVec Ideal S2 .f32) (a12 a13 : IVec S262144 32)

theorem decode (h : Cert.Pre_finite_inputs.fn (F := Ideal) a0 a1 a2 a3 a4 a5 a6 a7 a8 a9 a10 a11 a12 a13 = fun _ => 1#1) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ n : Fin 262144, (a12 (ix1 n)).toNat < 8192) ∧ (∀ n : Fin 262144, (a13 (ix1 n)).toNat < 8192) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi_scalar, IntOp.andi_eq_one] at h0
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := h0
  exact ⟨real_of_all _ _ _ a0 _ h0, real_of_all _ _ _ a1 _ h1, real_of_all _ _ _ a2 _ h2, real_of_all _ _ _ a3 _ h3,
    real_of_all _ _ _ a4 _ h4, real_of_all _ _ _ a5 _ h5, real_of_all _ _ _ a6 _ h6, real_of_all _ _ _ a7 _ h7,
    real_of_all _ _ _ a8 _ h8, real_of_all _ _ _ a9 _ h9, real_of_all _ _ _ a10 _ h10, real_of_all _ _ _ a11 _ h11,
    lt_of_all _ _ _ a12 _ h12, lt_of_all _ _ _ a13 _ h13⟩

theorem finite_0 (h : Cert.Pre_finite_inputs.fn (F := Ideal) a0 a1 a2 a3 a4 a5 a6 a7 a8 a9 a10 a11 a12 a13 = fun _ => 1#1) :
    ∀ i, ∃ r : ℝ, a0 i = (r : EReal) := (decode a0 a1 a2 a3 a4 a5 a6 a7 a8 a9 a10 a11 a12 a13 h).1

theorem finite_1 (h : Cert.Pre_finite_inputs.fn (F := Ideal) a0 a1 a2 a3 a4 a5 a6 a7 a8 a9 a10 a11 a12 a13 = fun _ => 1#1) :
    ∀ i, ∃ r : ℝ, a1 i = (r : EReal) := (decode a0 a1 a2 a3 a4 a5 a6 a7 a8 a9 a10 a11 a12 a13 h).2.1

theorem finite_2 (h : Cert.Pre_finite_inputs.fn (F := Ideal) a0 a1 a2 a3 a4 a5 a6 a7 a8 a9 a10 a11 a12 a13 = fun _ => 1#1) :
    ∀ i, ∃ r : ℝ, a2 i = (r : EReal) := (decode a0 a1 a2 a3 a4 a5 a6 a7 a8 a9 a10 a11 a12 a13 h).2.2.1

theorem finite_3 (h : Cert.Pre_finite_inputs.fn (F := Ideal) a0 a1 a2 a3 a4 a5 a6 a7 a8 a9 a10 a11 a12 a13 = fun _ => 1#1) :
    ∀ i, ∃ r : ℝ, a3 i = (r : EReal) := (decode a0 a1 a2 a3 a4 a5 a6 a7 a8 a9 a10 a11 a12 a13 h).2.2.2.1

theorem finite_4 (h : Cert.Pre_finite_inputs.fn (F := Ideal) a0 a1 a2 a3 a4 a5 a6 a7 a8 a9 a10 a11 a12 a13 = fun _ => 1#1) :
    ∀ i, ∃ r : ℝ, a4 i = (r : EReal) := (decode a0 a1 a2 a3 a4 a5 a6 a7 a8 a9 a10 a11 a12 a13 h).2.2.2.2.1

theorem finite_5 (h : Cert.Pre_finite_inputs.fn (F := Ideal) a0 a1 a2 a3 a4 a5 a6 a7 a8 a9 a10 a11 a12 a13 = fun _ => 1#1) :
    ∀ i, ∃ r : ℝ, a5 i = (r : EReal) := (decode a0 a1 a2 a3 a4 a5 a6 a7 a8 a9 a10 a11 a12 a13 h).2.2.2.2.2.1

theorem finite_6 (h : Cert.Pre_finite_inputs.fn (F := Ideal) a0 a1 a2 a3 a4 a5 a6 a7 a8 a9 a10 a11 a12 a13 = fun _ => 1#1) :
    ∀ i, ∃ r : ℝ, a6 i = (r : EReal) := (decode a0 a1 a2 a3 a4 a5 a6 a7 a8 a9 a10 a11 a12 a13 h).2.2.2.2.2.2.1

theorem finite_7 (h : Cert.Pre_finite_inputs.fn (F := Ideal) a0 a1 a2 a3 a4 a5 a6 a7 a8 a9 a10 a11 a12 a13 = fun _ => 1#1) :
    ∀ i, ∃ r : ℝ, a7 i = (r : EReal) := (decode a0 a1 a2 a3 a4 a5 a6 a7 a8 a9 a10 a11 a12 a13 h).2.2.2.2.2.2.2.1

theorem finite_8 (h : Cert.Pre_finite_inputs.fn (F := Ideal) a0 a1 a2 a3 a4 a5 a6 a7 a8 a9 a10 a11 a12 a13 = fun _ => 1#1) :
    ∀ i, ∃ r : ℝ, a8 i = (r : EReal) := (decode a0 a1 a2 a3 a4 a5 a6 a7 a8 a9 a10 a11 a12 a13 h).2.2.2.2.2.2.2.2.1

theorem finite_9 (h : Cert.Pre_finite_inputs.fn (F := Ideal) a0 a1 a2 a3 a4 a5 a6 a7 a8 a9 a10 a11 a12 a13 = fun _ => 1#1) :
    ∀ i, ∃ r : ℝ, a9 i = (r : EReal) := (decode a0 a1 a2 a3 a4 a5 a6 a7 a8 a9 a10 a11 a12 a13 h).2.2.2.2.2.2.2.2.2.1

theorem finite_10 (h : Cert.Pre_finite_inputs.fn (F := Ideal) a0 a1 a2 a3 a4 a5 a6 a7 a8 a9 a10 a11 a12 a13 = fun _ => 1#1) :
    ∀ i, ∃ r : ℝ, a10 i = (r : EReal) := (decode a0 a1 a2 a3 a4 a5 a6 a7 a8 a9 a10 a11 a12 a13 h).2.2.2.2.2.2.2.2.2.2.1

theorem finite_11 (h : Cert.Pre_finite_inputs.fn (F := Ideal) a0 a1 a2 a3 a4 a5 a6 a7 a8 a9 a10 a11 a12 a13 = fun _ => 1#1) :
    ∀ i, ∃ r : ℝ, a11 i = (r : EReal) := (decode a0 a1 a2 a3 a4 a5 a6 a7 a8 a9 a10 a11 a12 a13 h).2.2.2.2.2.2.2.2.2.2.2.1

theorem us_lt (h : Cert.Pre_finite_inputs.fn (F := Ideal) a0 a1 a2 a3 a4 a5 a6 a7 a8 a9 a10 a11 a12 a13 = fun _ => 1#1) :
    ∀ n : Fin 262144, (a12 (ix1 n)).toNat < 8192 := (decode a0 a1 a2 a3 a4 a5 a6 a7 a8 a9 a10 a11 a12 a13 h).2.2.2.2.2.2.2.2.2.2.2.2.1

theorem vs_lt (h : Cert.Pre_finite_inputs.fn (F := Ideal) a0 a1 a2 a3 a4 a5 a6 a7 a8 a9 a10 a11 a12 a13 = fun _ => 1#1) :
    ∀ n : Fin 262144, (a13 (ix1 n)).toNat < 8192 := (decode a0 a1 a2 a3 a4 a5 a6 a7 a8 a9 a10 a11 a12 a13 h).2.2.2.2.2.2.2.2.2.2.2.2.2

end Cert.PreFacts

end
-- ==== Proof.LibCoe.lean ====
import Idealize.ShloMosaic.PureOps.Ideal
import Idealize.ShloMosaic.PureOps.Ideal.Laws
import Idealize.ShloMosaic.Lib.ValueIdx

noncomputable section

namespace Gnn

def epsR : ℝ := 10995116 / 2 ^ 40

theorem epsR_pos : 0 < epsR := by
  unfold epsR
  positivity

namespace Coe

open Idealize.ShloMosaic

theorem coe_sum {ι : Type*} (s : Finset ι) (f : ι → ℝ) :
    ∑ i ∈ s, ((f i : ℝ) : EReal) = ((∑ i ∈ s, f i : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

theorem coe_sum_univ {ι : Type*} [Fintype ι] (f : ι → ℝ) :
    ∑ i, ((f i : ℝ) : EReal) = ((∑ i, f i : ℝ) : EReal) :=
  coe_sum Finset.univ f

theorem sum_eq_coe {ι : Type*} (s : Finset ι) (F : ι → EReal) (f : ι → ℝ) (h : ∀ i ∈ s, F i = ((f i : ℝ) : EReal)) :
    ∑ i ∈ s, F i = ((∑ i ∈ s, f i : ℝ) : EReal) := by
  rw [Finset.sum_congr rfl h, coe_sum]

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

theorem mul_coe (a b : ℝ) : (a : EReal) * (b : EReal) = ((a * b : ℝ) : EReal) := (EReal.coe_mul a b).symm

theorem neg_coe (a : ℝ) : -(a : EReal) = ((-a : ℝ) : EReal) := (EReal.coe_neg a).symm

theorem div_coe' (a c : ℝ) (hc : c ≠ 0) : Ideal.div (a : EReal) (c : EReal) = ((a / c : ℝ) : EReal) := by
  rw [Ideal.div_coe hc, ← EReal.coe_mul, mul_one_div]

theorem rsqrt_coe (r : ℝ) (hr : 0 < r) : Ideal.rsqrt (r : EReal) = (((Real.sqrt r)⁻¹ : ℝ) : EReal) := by
  rw [Ideal.rsqrt_coe, if_neg (not_lt.mpr hr.le), if_neg hr.ne']

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

theorem mul_coe_one (x : EReal) : x * ((1 : ℝ) : EReal) = x := by rw [EReal.coe_one, mul_one]

theorem mul_coe_zero (x : EReal) : x * ((0 : ℝ) : EReal) = 0 := by rw [EReal.coe_zero, mul_zero]

theorem coe_one_mul (x : EReal) : ((1 : ℝ) : EReal) * x = x := by rw [EReal.coe_one, one_mul]

theorem coe_zero_mul (x : EReal) : ((0 : ℝ) : EReal) * x = 0 := by rw [EReal.coe_zero, zero_mul]

theorem zero_eq_coe : (0 : EReal) = ((0 : ℝ) : EReal) := EReal.coe_zero.symm

theorem one_eq_coe : (1 : EReal) = ((1 : ℝ) : EReal) := EReal.coe_one.symm

theorem ofBits_zero : Ideal.ofBits .f32 0x00000000#32 = 0 := Ideal.ofBits_zero_f32

theorem ofBits_zero_coe : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_100000 : Ideal.ofBits .f32 0x47C35000#32 = ((100000 : ℝ) : EReal) := by
  simp [Ideal.ofBits, Ideal.ieee, -EReal.coe_mul]; norm_num

theorem ofBits_eps : Ideal.ofBits .f32 0x3727C5AC#32 = ((Gnn.epsR : ℝ) : EReal) := by
  simp [Ideal.ofBits, Ideal.ieee, -EReal.coe_mul, Gnn.epsR]; norm_num

theorem epsR_pos : 0 < Gnn.epsR := Gnn.epsR_pos

theorem uitofp_eq {w : Nat} (b : BitVec w) : FloatOps.uitofp (F := Ideal) .f32 b = ((b.toNat : ℝ) : EReal) := rfl

theorem uitofp_bit (b : BitVec 1) :
    FloatOps.uitofp (F := Ideal) .f32 b = if b = 1#1 then ((1 : ℝ) : EReal) else ((0 : ℝ) : EReal) := by
  rw [uitofp_eq]
  rcases (by decide : ∀ c : BitVec 1, c = 0#1 ∨ c = 1#1) b with h | h <;> subst h <;> simp

theorem uitofp_one : FloatOps.uitofp (F := Ideal) .f32 1#1 = ((1 : ℝ) : EReal) := by
  rw [uitofp_bit, if_pos rfl]

theorem uitofp_zero : FloatOps.uitofp (F := Ideal) .f32 0#1 = ((0 : ℝ) : EReal) := by
  rw [uitofp_bit, if_neg (by decide)]

end Coe

end Gnn

end
-- ==== Proof.SpecReal.lean ====
import proofs.«428349_j38809324486859_3_alg».proof.Proof.SpecArgs
import proofs.«428349_j38809324486859_3_alg».proof.Proof.LibCoe

noncomputable section

namespace Cert.Spec

open Idealize.ShloMosaic Idealize.ShloMosaic.ValueIdx Finset Gnn.Coe

theorem count_add_one_real_pos {ι : Type*} (s : Finset ι) :
    ∃ r : ℝ, 0 < r ∧ (∑ _e ∈ s, (1 : EReal)) + 1 = (r : EReal) := by
  refine ⟨(∑ _e ∈ s, (1 : ℝ)) + 1, ?_, ?_⟩
  · have h0 : (0 : ℝ) ≤ ∑ _e ∈ s, (1 : ℝ) := Finset.sum_nonneg fun _ _ => zero_le_one
    linarith
  · rw [sum_eq_coe s (fun _ => (1 : EReal)) (fun _ => (1 : ℝ)) (fun _ _ => one_eq_coe), one_eq_coe, add_coe]

theorem degOut_real_pos (u : Fin 262144 → Fin 8192) (n : Fin 8192) :
    ∃ r : ℝ, 0 < r ∧ Cert.Spec.degOut u n = (r : EReal) :=
  count_add_one_real_pos _

theorem degIn_real_pos (v : Fin 262144 → Fin 8192) (n : Fin 8192) :
    ∃ r : ℝ, 0 < r ∧ Cert.Spec.degIn v n = (r : EReal) :=
  count_add_one_real_pos _

theorem hw_real (h : Fin 8192 → Fin 256 → EReal) (wc : Fin 256 → Fin 256 → EReal)
    (hh : ∀ n k, ∃ r : ℝ, h n k = (r : EReal)) (hw : ∀ k d, ∃ r : ℝ, wc k d = (r : EReal))
    (n : Fin 8192) (d : Fin 256) : ∃ r : ℝ, Cert.Spec.hw h wc n d = (r : EReal) := by
  choose hr hhr using hh
  choose wr hwr using hw
  refine ⟨∑ k : Fin 256, hr n k * wr k d, ?_⟩
  unfold Cert.Spec.hw
  exact sum_eq_coe _ _ _ fun k _ => by rw [hhr, hwr, mul_coe]

theorem hs_real (h : Fin 8192 → Fin 256 → EReal) (wc : Fin 256 → Fin 256 → EReal) (u : Fin 262144 → Fin 8192)
    (hh : ∀ n k, ∃ r : ℝ, h n k = (r : EReal)) (hw : ∀ k d, ∃ r : ℝ, wc k d = (r : EReal))
    (n : Fin 8192) (d : Fin 256) : ∃ r : ℝ, Cert.Spec.hs h wc u n d = (r : EReal) := by
  obtain ⟨x, hx⟩ := hw_real h wc hh hw n d
  obtain ⟨g, hg, hge⟩ := degOut_real_pos u n
  refine ⟨x * (Real.sqrt g)⁻¹, ?_⟩
  unfold Cert.Spec.hs
  rw [hx, hge, rsqrt_coe g hg, mul_coe]

theorem hsOf_real (a0 : (⟨2, ![8192, 256]⟩ : Shape).Idx → EReal) (a2 : (⟨2, ![256, 256]⟩ : Shape).Idx → EReal)
    (a12 : (⟨1, ![262144]⟩ : Shape).Idx → BitVec 32) (hus : ∀ e : Fin 262144, (a12 (ix1 e)).toNat < 8192)
    (h0 : ∀ i, ∃ r : ℝ, a0 i = (r : EReal)) (h2 : ∀ i, ∃ r : ℝ, a2 i = (r : EReal))
    (n : Fin 8192) (d : Fin 256) : ∃ r : ℝ, Cert.Spec.hsOf a0 a2 a12 hus n d = (r : EReal) :=
  hs_real (mat2 a0) (mat2 a2) (node a12 hus) (fun n k => h0 _) (fun k d => h2 _) n d

theorem sub_self_real {x : EReal} (hx : ∃ r : ℝ, x = (r : EReal)) : x - x = 0 := by
  obtain ⟨r, rfl⟩ := hx
  rw [sub_coe, sub_self, EReal.coe_zero]

end Cert.Spec

end
-- ==== Proof.KValCols.lean ====
import proofs.«428349_j38809324486859_3_alg».proof.Proof.RegionsKernelIdeal
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.PureOps.Ideal.Laws

set_option maxRecDepth 1824

noncomputable section

namespace Cert.KernelIdeal.Val

open Cert.KernelIdeal Cert.KernelIdeal.Gen Cert.KernelIdeal.GenP
open Idealize.ShloMosaic Idealize.ShloMosaic.TcCoe Idealize.ShloMosaic.ValueIdx

theorem colOfVec_apply {α : Type} (x : S262144.Idx → α) (h : S262144.ShapeCasts S262144x1) (e : Fin 262144) :
    shapeCast S262144x1 x h (ix2 e (0 : Fin 1)) = x (ix1 e) :=
  shapeCast_apply x h _ _ (by
    rw [Shape.rowMajor_val_two, Shape.rowMajor_val_one]
    show e.val = e.val * 1 + 0
    omega)

theorem padNone_apply {α : Type} (x : S262144.Idx → α) {u : Shape} (v : u.Idx → α)
    (h : S262144.Pads ![0] ![0] ![0] S262144) (hu : 0 < u.numel) (e : Fin 262144) :
    pad S262144 ![0] ![0] ![0] x v h hu (ix1 e) = x (ix1 e) :=
  pad_apply_of_inside _ _ _ x v h hu _ (ix1 e) (by
    intro a
    have ha : a = 0 := Subsingleton.elim _ _
    subst ha
    show e.val = 0 + e.val * (0 + 1)
    omega)

section Stretch
variable (W : Valuation τ sig (Elt Ideal))

theorem usCol_W (e : Fin 262144) :
    (StableHlo.after (hostOps0_4 (F := Ideal)) W (Proc.devRef .tc main_v22) : S262144x1.Idx → BitVec 32) (ix2 e (0 : Fin 1))
      = (W (Proc.devRef .tc main_v20) : S262144.Idx → BitVec 32) (ix1 e) := by
  after_results
  exact colOfVec_apply (W (Proc.devRef .tc main_v20) : S262144.Idx → BitVec 32) shapeCasts_S262144_S262144x1 e

theorem vsCol_W (e : Fin 262144) :
    (StableHlo.after (hostOps0_4 (F := Ideal)) W (Proc.devRef .tc main_v23) : S262144x1.Idx → BitVec 32) (ix2 e (0 : Fin 1))
      = (W (Proc.devRef .tc main_v21) : S262144.Idx → BitVec 32) (ix1 e) := by
  after_results
  exact colOfVec_apply (W (Proc.devRef .tc main_v21) : S262144.Idx → BitVec 32) shapeCasts_S262144_S262144x1 e

theorem usPad_W (e : Fin 262144) :
    (StableHlo.after (hostOps0_1 (F := Ideal)) W (Proc.devRef .tc main_v20) : S262144.Idx → BitVec 32) (ix1 e)
      = (W (Proc.devRef .tc main_arg12) : S262144.Idx → BitVec 32) (ix1 e) := by
  after_results
  simp only [StableHlo.TRef.ofBuf, StableHlo.TRef.toBuf, cast_eq]
  exact padNone_apply (W (Proc.devRef .tc main_arg12) : S262144.Idx → BitVec 32) _ pads_S262144_S262144_000 h_S_ e

theorem vsPad_W (e : Fin 262144) :
    (StableHlo.after (hostOps0_3 (F := Ideal)) W (Proc.devRef .tc main_v21) : S262144.Idx → BitVec 32) (ix1 e)
      = (W (Proc.devRef .tc main_arg13) : S262144.Idx → BitVec 32) (ix1 e) := by
  after_results
  simp only [StableHlo.TRef.ofBuf, StableHlo.TRef.toBuf, cast_eq]
  exact padNone_apply (W (Proc.devRef .tc main_arg13) : S262144.Idx → BitVec 32) _ pads_S262144_S262144_000 h_S_ e

end Stretch

section Entry
variable (m : (ℓ : Loc nD τ sig) → Buf (Elt Ideal) ℓ) (c : Dev nD)

theorem kUsCol0 (e : Fin 262144) :
    (GenP.V5 m c main_v22 : S262144x1.Idx → BitVec 32) (ix2 e (0 : Fin 1))
      = (m ((c.tc : Thread nD τ).loc main_arg12) : S262144.Idx → BitVec 32) (ix1 e) := by
  refine (usCol_W (GenP.V4 m c) e).trans ?_
  rw [V4_of m c main_v20 (by decide), V3_of m c main_v20 (by decide)]
  refine (usPad_W (GenP.V1 m c) e).trans ?_
  rw [V1_of m c main_arg12 (by decide)]

theorem kVsCol0 (e : Fin 262144) :
    (GenP.V5 m c main_v23 : S262144x1.Idx → BitVec 32) (ix2 e (0 : Fin 1))
      = (m ((c.tc : Thread nD τ).loc main_arg13) : S262144.Idx → BitVec 32) (ix1 e) := by
  refine (vsCol_W (GenP.V4 m c) e).trans ?_
  refine (vsPad_W (GenP.V3 m c) e).trans ?_
  rw [V3_of m c main_arg13 (by decide), V2_of m c main_arg13 (by decide), V1_of m c main_arg13 (by decide)]

end Entry

end Cert.KernelIdeal.Val

end
-- ==== Proof.LibScatter.lean ====
import Idealize.ShloMosaic.PureOps.Ideal
import Idealize.ShloMosaic.PureOps.Ideal.Laws
import Idealize.ShloMosaic.Lib.ValueIdx

noncomputable section

namespace Gnn.Scatter

open Idealize.ShloMosaic Idealize.ShloMosaic.ValueIdx Finset

abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev rowScatter (M E C : Nat) (wf : ScatterDims.WF ⟨2, ![M, C]⟩ ⟨2, ![E, 1]⟩ ⟨2, ![E, C]⟩ [1] [0] [0] 1) :
    ScatterDims ⟨2, ![M, C]⟩ ⟨2, ![E, 1]⟩ ⟨2, ![E, C]⟩ where
  updateWindowDims := [1]
  insertedWindowDims := [0]
  scatterDimsToOperandDims := [0]
  indexVectorDim := 1
  wf := wf

abbrev vecScatter (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e ⟨0, Nat.one_pos⟩)).toInt.toNat (N - 1), by omega⟩ k) := by
  unfold Host.gather
  congr 1
  funext a
  refine Fin.ext ?_
  show (rowGather N E C wf).start (ix2 e k) idx a + (rowGather N E C wf).batchCoord (ix2 e k) a
      + (rowGather N E C wf).offCoord (ix2 e k) a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin 2) ∈ (rowGather N E C wf).startIndexMap from List.mem_singleton.mpr rfl)]
    have hsi : (rowGather N E C wf).siIdx (ix2 e k) ⟨List.idxOf (⟨0, h0⟩ : Fin 2) (rowGather N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hn : (⟨1, h1⟩ : Fin 2) ∉ (rowGather N E C wf).startIndexMap := fun h =>
      absurd (congrArg Fin.val (List.mem_singleton.mp h)) Nat.one_ne_zero
    have hk : (⟨1, h1⟩ : Fin 2) ∈ (rowGather N E C wf).sKept :=
      (GatherDims.mem_sKept _ _).mpr ⟨fun h => absurd (congrArg Fin.val (List.mem_singleton.mp h)) Nat.one_ne_zero,
        List.not_mem_nil⟩
    unfold GatherDims.start GatherDims.offCoord
    rw [dif_neg hn, dif_pos hk, Nat.zero_add]
    rfl

section Row
variable {M E C w : Nat} (wf : ScatterDims.WF ⟨2, ![M, C]⟩ ⟨2, ![E, 1]⟩ ⟨2, ![E, C]⟩ [1] [0] [0] 1)
  (idx : IVec ⟨2, ![E, 1]⟩ w) (e : Fin E) (k' : Fin C)

private theorem row_land0 (h0 : 0 < 2) :
    (rowScatter M E C wf).start (ix2 e k') idx ⟨0, h0⟩ + ((rowScatter M E C wf).window (ix2 e k') ⟨0, h0⟩ : ℤ)
      = (idx (ix2 e ⟨0, Nat.one_pos⟩)).toInt := by
  have hm : (⟨0, h0⟩ : Fin 2) ∈ (rowScatter M E C wf).scatterDimsToOperandDims := List.mem_singleton.mpr rfl
  have hk : (⟨0, h0⟩ : Fin 2) ∉ (rowScatter M E C wf).sKept := fun h =>
    (List.mem_filter.mp h).2 |> fun h' => by simp at h'
  unfold ScatterDims.start ScatterDims.window
  rw [dif_pos hm, dif_neg hk]
  have hsi : (rowScatter M E C wf).siIdx (ix2 e k')
      ⟨List.idxOf (⟨0, h0⟩ : Fin 2) (rowScatter M E C wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

private theorem row_land1 (h1 : 1 < 2) :
    (rowScatter M E C wf).start (ix2 e k') idx ⟨1, h1⟩ + ((rowScatter M E C wf).window (ix2 e k') ⟨1, h1⟩ : ℤ)
      = (k'.val : ℤ) := by
  have hm : (⟨1, h1⟩ : Fin 2) ∉ (rowScatter M E C wf).scatterDimsToOperandDims := fun h =>
    absurd (congrArg Fin.val (List.mem_singleton.mp h)) Nat.one_ne_zero
  have hk : (⟨1, h1⟩ : Fin 2) ∈ (rowScatter M E C wf).sKept :=
    List.mem_filter.mpr ⟨List.mem_finRange _, by simp⟩
  unfold ScatterDims.start ScatterDims.window
  rw [dif_neg hm, dif_pos hk, Int.zero_add]
  rfl

private theorem row_resultIdx_iff (q : Fin M) (k : Fin C) :
    (rowScatter M E C wf).resultIdx? (ix2 e k') idx = some (ix2 q k)
      ↔ (idx (ix2 e ⟨0, Nat.one_pos⟩)).toInt = (q.val : ℤ) ∧ k' = k := by
  unfold ScatterDims.resultIdx?
  constructor
  · intro h
    split at h
    · rename_i hall
      have hf := Option.some.inj h
      have e0 : ((rowScatter M E C wf).start (ix2 e k') idx ⟨0, Nat.zero_lt_two⟩
          + ((rowScatter M E C wf).window (ix2 e k') ⟨0, Nat.zero_lt_two⟩ : ℤ)).toNat = q.val :=
        congrArg Fin.val (congrFun hf ⟨0, Nat.zero_lt_two⟩)
      have e1 : ((rowScatter M E C wf).start (ix2 e k') idx ⟨1, Nat.one_lt_two⟩
          + ((rowScatter M E C wf).window (ix2 e k') ⟨1, Nat.one_lt_two⟩ : ℤ)).toNat = k.val :=
        congrArg Fin.val (congrFun hf ⟨1, Nat.one_lt_two⟩)
      have a0 := (hall ⟨0, Nat.zero_lt_two⟩).1
      rw [row_land0] at e0 a0
      rw [row_land1] at e1
      exact ⟨by omega, Fin.ext (by omega)⟩
    · exact absurd h (by simp)
  · rintro ⟨hq, rfl⟩
    have hall : ∀ a, 0 ≤ (rowScatter M E C wf).start (ix2 e k') idx a + ((rowScatter M E C wf).window (ix2 e k') a : ℤ)
        ∧ (rowScatter M E C wf).start (ix2 e k') idx a + ((rowScatter M E C wf).window (ix2 e k') a : ℤ)
          < (((⟨2, ![M, C]⟩ : Shape).size a : ℕ) : ℤ) := by
      intro a
      match a with
      | ⟨0, h0⟩ =>
        rw [row_land0, hq]
        have := q.isLt
        exact ⟨by omega, show (q.val : ℤ) < ((M : ℕ) : ℤ) by omega⟩
      | ⟨1, h1⟩ =>
        rw [row_land1]
        have := k'.isLt
        exact ⟨by omega, show (k'.val : ℤ) < ((C : ℕ) : ℤ) by omega⟩
    rw [dif_pos hall]
    congr 1
    funext a
    refine Fin.ext ?_
    match a with
    | ⟨0, h0⟩ =>
      show ((rowScatter M E C wf).start (ix2 e k') idx ⟨0, h0⟩
        + ((rowScatter M E C wf).window (ix2 e k') ⟨0, h0⟩ : ℤ)).toNat = q.val
      rw [row_land0, hq]; omega
    | ⟨1, h1⟩ =>
      show ((rowScatter M E C wf).start (ix2 e k') idx ⟨1, h1⟩
        + ((rowScatter M E C wf).window (ix2 e k') ⟨1, h1⟩ : ℤ)).toNat = k'.val
      rw [row_land1]; omega

end Row

theorem scatterAdd_row_apply {M E C w : Nat}
    (wf : ScatterDims.WF ⟨2, ![M, C]⟩ ⟨2, ![E, 1]⟩ ⟨2, ![E, C]⟩ [1] [0] [0] 1)
    (x : (⟨2, ![M, C]⟩ : Shape).Idx → EReal) (idx : IVec ⟨2, ![E, 1]⟩ w) (upd : (⟨2, ![E, C]⟩ : Shape).Idx → EReal)
    (q : Fin M) (k : Fin C) :
    Ideal.hostScatterAdd (rowScatter M E C wf) x idx upd (ix2 q k)
      = x (ix2 q k) + ∑ e ∈ univ.filter (fun e : Fin E => (idx (ix2 e ⟨0, Nat.one_pos⟩)).toInt = (q.val : ℤ)), upd (ix2 e k) := by
  unfold Ideal.hostScatterAdd
  congr 1
  refine Finset.sum_nbij' (fun j => (⟨(j ⟨0, Nat.zero_lt_two⟩).val, idx2_lt0 j⟩ : Fin E)) (fun e => ix2 e k) ?_ ?_ ?_ ?_ ?_
  · intro j hj
    have hj' := (Finset.mem_filter.mp hj).2
    rw [eq_ix2 j] at hj'
    exact Finset.mem_filter.mpr ⟨Finset.mem_univ _, ((row_resultIdx_iff wf idx _ _ q k).mp hj').1⟩
  · intro e he
    exact Finset.mem_filter.mpr ⟨Finset.mem_univ _,
      (row_resultIdx_iff wf idx e k q k).mpr ⟨(Finset.mem_filter.mp he).2, rfl⟩⟩
  · intro j hj
    have hj' := (Finset.mem_filter.mp hj).2
    rw [eq_ix2 j] at hj'
    have hk := ((row_resultIdx_iff wf idx _ _ q k).mp hj').2
    conv_rhs => rw [eq_ix2 j]
    rw [← hk]
    rfl
  · intro e _
    rfl
  · intro j hj
    have hj' := (Finset.mem_filter.mp hj).2
    rw [eq_ix2 j] at hj'
    have hk := ((row_resultIdx_iff wf idx _ _ q k).mp hj').2
    conv_lhs => rw [eq_ix2 j]
    rw [← hk]
    rfl

section Vec
variable {M E w : Nat} (wf : ScatterDims.WF ⟨1, ![M]⟩ ⟨2, ![E, 1]⟩ ⟨1, ![E]⟩ [] [0] [0] 1)
  (idx : IVec ⟨2, ![E, 1]⟩ w) (e : Fin E)

private theorem vec_land0 (h0 : 0 < 1) :
    (vecScatter M E wf).start (ix1 e) idx ⟨0, h0⟩ + ((vecScatter M E wf).window (ix1 e) ⟨0, h0⟩ : ℤ)
      = (idx (ix2 e ⟨0, Nat.one_pos⟩)).toInt := by
  have hm : (⟨0, h0⟩ : Fin 1) ∈ (vecScatter M E wf).scatterDimsToOperandDims := List.mem_singleton.mpr rfl
  have hk : (⟨0, h0⟩ : Fin 1) ∉ (vecScatter M E wf).sKept := fun h =>
    (List.mem_filter.mp h).2 |> fun h' => by simp at h'
  unfold ScatterDims.start ScatterDims.window
  rw [dif_pos hm, dif_neg hk]
  have hsi : (vecScatter M E wf).siIdx (ix1 e)
      ⟨List.idxOf (⟨0, h0⟩ : Fin 1) (vecScatter M E wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

private theorem vec_resultIdx_iff (q : Fin M) :
    (vecScatter M E wf).resultIdx? (ix1 e) idx = some (ix1 q)
      ↔ (idx (ix2 e ⟨0, Nat.one_pos⟩)).toInt = (q.val : ℤ) := by
  unfold ScatterDims.resultIdx?
  constructor
  · intro h
    split at h
    · rename_i hall
      have hf := Option.some.inj h
      have e0 : ((vecScatter M E wf).start (ix1 e) idx ⟨0, Nat.one_pos⟩
          + ((vecScatter M E wf).window (ix1 e) ⟨0, Nat.one_pos⟩ : ℤ)).toNat = q.val :=
        congrArg Fin.val (congrFun hf ⟨0, Nat.one_pos⟩)
      have a0 := (hall ⟨0, Nat.one_pos⟩).1
      rw [vec_land0] at e0 a0
      omega
    · exact absurd h (by simp)
  · intro hq
    have hall : ∀ a, 0 ≤ (vecScatter M E wf).start (ix1 e) idx a + ((vecScatter M E wf).window (ix1 e) a : ℤ)
        ∧ (vecScatter M E wf).start (ix1 e) idx a + ((vecScatter M E wf).window (ix1 e) a : ℤ)
          < (((⟨1, ![M]⟩ : Shape).size a : ℕ) : ℤ) := by
      intro a
      match a with
      | ⟨0, h0⟩ =>
        rw [vec_land0, hq]
        have := q.isLt
        exact ⟨by omega, show (q.val : ℤ) < ((M : ℕ) : ℤ) by omega⟩
    rw [dif_pos hall]
    congr 1
    funext a
    refine Fin.ext ?_
    match a with
    | ⟨0, h0⟩ =>
      show ((vecScatter M E wf).start (ix1 e) idx ⟨0, h0⟩
        + ((vecScatter M E wf).window (ix1 e) ⟨0, h0⟩ : ℤ)).toNat = q.val
      rw [vec_land0, hq]; omega

end Vec

theorem scatterAdd_vec_apply {M E w : Nat}
    (wf : ScatterDims.WF ⟨1, ![M]⟩ ⟨2, ![E, 1]⟩ ⟨1, ![E]⟩ [] [0] [0] 1)
    (x : (⟨1, ![M]⟩ : Shape).Idx → EReal) (idx : IVec ⟨2, ![E, 1]⟩ w) (upd : (⟨1, ![E]⟩ : Shape).Idx → EReal) (q : Fin M) :
    Ideal.hostScatterAdd (vecScatter M E wf) x idx upd (ix1 q)
      = x (ix1 q) + ∑ e ∈ univ.filter (fun e : Fin E => (idx (ix2 e ⟨0, Nat.one_pos⟩)).toInt = (q.val : ℤ)), upd (ix1 e) := by
  unfold Ideal.hostScatterAdd
  congr 1
  refine Finset.sum_nbij' (fun j => (⟨(j ⟨0, Nat.one_pos⟩).val, (j ⟨0, Nat.one_pos⟩).isLt⟩ : Fin E)) (fun e => ix1 e)
    ?_ ?_ ?_ ?_ ?_
  · intro j hj
    have hj' := (Finset.mem_filter.mp hj).2
    rw [eq_ix1 j] at hj'
    exact Finset.mem_filter.mpr ⟨Finset.mem_univ _, (vec_resultIdx_iff wf idx _ q).mp hj'⟩
  · intro e he
    exact Finset.mem_filter.mpr ⟨Finset.mem_univ _, (vec_resultIdx_iff wf idx e q).mpr (Finset.mem_filter.mp he).2⟩
  · intro j _
    exact (eq_ix1 j).symm
  · intro e _
    rfl
  · intro j _
    exact congrArg upd (eq_ix1 j)

end Gnn.Scatter

end
-- ==== Proof.LibGather.lean ====
import Idealize.ShloMosaic.Lib.ValueIdx
import Idealize.ShloMosaic.Lib.Pipeline.Value
import Idealize.ShloMosaic.Lib.Affine
import Idealize.ShloMosaic.Lib.StableHlo.Predicate

noncomputable section

open Idealize.ShloMosaic Idealize.ShloMosaic.ValueIdx
open Idealize.ShloMosaic.StableHlo.Predicate

namespace Cert.LibGather

theorem toNat_of_range (v : BitVec 32) (h0 : 0 ≤ v.toInt) (h1 : v.toInt < 100000) :
    v.toNat < 100000 ∧ v.toInt = v.toNat := by
  have hlt := v.isLt
  rw [BitVec.toInt_eq_toNat_cond] at h0 h1 ⊢
  split at h0 <;> split <;> omega

theorem toNat_ofNat_small (c : Nat) (hc : c < 2 ^ 31) : (BitVec.ofNat 32 c).toNat = c := by
  rw [BitVec.toNat_ofNat]; exact Nat.mod_eq_of_lt (by omega)

theorem sge_const (v : BitVec 32) (hv : v.toNat < 2 ^ 31) (c : Nat) (hc : c < 2 ^ 31) :
    IntOp.cmpi .sge v (BitVec.ofNat 32 c) = 1#1 ↔ c ≤ v.toNat := by
  rw [sge_iff_toNat hv (by rw [toNat_ofNat_small c hc]; exact hc), toNat_ofNat_small c hc]

theorem slt_const (v : BitVec 32) (hv : v.toNat < 2 ^ 31) (c : Nat) (hc : c < 2 ^ 31) :
    IntOp.cmpi .slt v (BitVec.ofNat 32 c) = 1#1 ↔ v.toNat < c := by
  rw [slt_iff_toNat hv (by rw [toNat_ofNat_small c hc]; exact hc), toNat_ofNat_small c hc]

theorem sle_const (v : BitVec 32) (hv : v.toNat < 2 ^ 31) (c : Nat) (hc : c < 2 ^ 31) :
    IntOp.cmpi .sle v (BitVec.ofNat 32 c) = 1#1 ↔ v.toNat ≤ c := by
  rw [sle_iff_toNat hv (by rw [toNat_ofNat_small c hc]; exact hc), toNat_ofNat_small c hc]

theorem toInt_maxsi (a y : BitVec 32) : (IntOp.maxsi a y).toInt = max a.toInt y.toInt := by
  unfold IntOp.maxsi
  split <;> rename_i hc <;> simp only [BitVec.slt, decide_eq_true_eq] at hc <;> omega

theorem toInt_minsi (a y : BitVec 32) : (IntOp.minsi a y).toInt = min a.toInt y.toInt := by
  unfold IntOp.minsi
  split <;> rename_i hc <;> simp only [BitVec.slt, decide_eq_true_eq] at hc <;> omega

theorem toInt_subi_const (v : BitVec 32) (lo : Nat) (hv : v.toNat < 100000) (hlo : lo ≤ 100000) :
    (IntOp.subi v (BitVec.ofNat 32 lo)).toInt = (v.toNat : Int) - lo := by
  unfold IntOp.subi
  have hln : (BitVec.ofNat 32 lo).toNat = lo := toNat_ofNat_small lo (by omega)
  rw [BitVec.toInt_eq_toNat_cond, BitVec.toNat_sub, hln]
  have e : (2 : Nat) ^ 32 = 4294967296 := by norm_num
  rw [e]
  split <;> rename_i hc <;> omega

def clipW (v : BitVec 32) (lo hi1 : Nat) : BitVec 32 :=
  IntOp.minsi (BitVec.ofNat 32 hi1) (IntOp.maxsi (BitVec.ofNat 32 0) (IntOp.subi v (BitVec.ofNat 32 lo)))

theorem toInt_clipW (v : BitVec 32) (lo hi1 : Nat) (hv : v.toNat < 100000) (hlo : lo ≤ 100000) (hhi : hi1 < 100000) :
    (clipW v lo hi1).toInt = min (hi1 : Int) (max 0 ((v.toNat : Int) - lo)) := by
  unfold clipW
  rw [toInt_minsi, toInt_maxsi, toInt_subi_const v lo hv hlo, toInt_ofNat_small hi1 (by omega), toInt_ofNat_small 0 (by omega)]
  rfl

theorem clipW_spec (v : BitVec 32) (lo hi1 : Nat) (hv : v.toNat < 100000) (hlo : lo ≤ 100000) (hhi : hi1 < 100000) :
    (clipW v lo hi1).toNat ≤ hi1 ∧ (lo ≤ v.toNat → v.toNat ≤ lo + hi1 → (clipW v lo hi1).toNat = v.toNat - lo) := by
  have h := toInt_clipW v lo hi1 hv hlo hhi
  have hlt := (clipW v lo hi1).isLt
  rw [BitVec.toInt_eq_toNat_cond] at h
  have e : (2 : Nat) ^ 32 = 4294967296 := by norm_num
  rw [e] at h
  split at h <;> constructor <;> omega

section Reads
variable {α : Type}

theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

end Reads

section Reads2
variable {α : Type}

abbrev rowTakeDims (B N C : Nat)
    (wf : GatherDims.WF ⟨2, ![B, N]⟩ ⟨3, ![B, C, 1]⟩ ⟨2, ![B, C]⟩ [] [1] [0] [1] [0] 2 ![1, 1]) :
    GatherDims ⟨2, ![B, N]⟩ ⟨3, ![B, C, 1]⟩ ⟨2, ![B, C]⟩ where
  offsetDims := []
  collapsedSliceDims := [1]
  operandBatchingDims := [0]
  startIndicesBatchingDims := [0]
  startIndexMap := [1]
  indexVectorDim := 2
  sliceSizes := ![1, 1]
  wf := wf

theorem gather_rowTake_apply {B N C w : Nat} (hN : 0 < N)
    (wf : GatherDims.WF ⟨2, ![B, N]⟩ ⟨3, ![B, C, 1]⟩ ⟨2, ![B, C]⟩ [] [1] [0] [1] [0] 2 ![1, 1])
    (x : (⟨2, ![B, N]⟩ : Shape).Idx → α) (idx : IVec ⟨3, ![B, C, 1]⟩ w) (b : Fin B) (c : Fin C) :
    Host.gather (rowTakeDims B N C wf) x idx (ix2 b c)
      = x (ix2 b ⟨min (idx (ix3 b c (0 : Fin 1))).toInt.toNat (N - 1), by omega⟩) := by
  unfold Host.gather
  congr 1
  funext a
  refine Fin.ext ?_
  match a with
  | ⟨0, _⟩ =>
    show (rowTakeDims B N C wf).start (ix2 b c) idx 0 + (rowTakeDims B N C wf).batchCoord (ix2 b c) 0
      + (rowTakeDims B N C wf).offCoord (ix2 b c) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (rowTakeDims B N C wf).start (ix2 b c) idx 1 + (rowTakeDims B N C wf).batchCoord (ix2 b c) 1
      + (rowTakeDims B N C wf).offCoord (ix2 b c) 1 = min (idx (ix3 b c (0 : Fin 1))).toInt.toNat (N - 1)
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims B N C wf).startIndexMap from List.mem_singleton.mpr rfl)]
    have hsi : (rowTakeDims B N C wf).siIdx (ix2 b c) ⟨List.idxOf (1 : Fin 2) (rowTakeDims B N C wf).startIndexMap,
        List.idxOf_lt_length_iff.2 (List.mem_singleton.mpr rfl)⟩ = ix3 b c (0 : Fin 1) := by
      funext e; refine Fin.ext ?_
      match e with
      | ⟨0, _⟩ => rfl
      | ⟨1, _⟩ => rfl
      | ⟨2, _⟩ => rfl
    rw [hsi]
    rfl

end Reads2

theorem reduces_unit_last (B C : Nat) : (⟨3, ![B, C, 1]⟩ : Shape).Reduces [2] ⟨2, ![B, C]⟩ :=
  ⟨rfl, Nat.zero_lt_two, fun b => match b with | ⟨0, _⟩ => rfl | ⟨1, _⟩ => rfl⟩

theorem reduce_andi_unit_apply {B C : Nat} {u : Shape} (x : IVec ⟨3, ![B, C, 1]⟩ 1) (init : IVec u 1)
    (h' : (⟨3, ![B, C, 1]⟩ : Shape).ReducesTo [2] ⟨2, ![B, C]⟩) (hu : 0 < u.numel) (b : Fin B) (c : Fin C) :
    Host.reduce IntOp.andi x init h' hu (ix2 b c) = IntOp.andi (x (ix3 b c (0 : Fin 1))) (init (Shape.Idx.first hu)) := by
  have h := reduces_unit_last B C
  rw [Host.reduce_eq_fold_single IntOp.andi x init h' h hu (ix2 b c)]
  have key : ∀ (n : Nat) (hn : n = 1) (g : Fin n → BitVec 1) (i0 : BitVec 1),
      (Finset.univ : Finset (Fin n)).fold IntOp.andi i0 g = IntOp.andi (g ⟨0, by omega⟩) i0 := by
    intro n hn g i0; subst hn; rw [Finset.univ_unique, Finset.fold_singleton]; rfl
  refine (key _ rfl _ _).trans ?_
  show IntOp.andi (x (h.lift (ix2 b c) ⟨0, _⟩)) _ = _
  congr 2
  funext e; refine Fin.ext ?_
  match e with
  | ⟨0, _⟩ => rfl
  | ⟨1, _⟩ => rfl
  | ⟨2, _⟩ => rfl

section TakeAlong
variable {α : Type}

theorem wrap_nonneg_apply {B C : Nat} (x z nn : IVec ⟨2, ![B, C]⟩ 32)
    (h : (⟨2, ![B, C]⟩ : Shape).ShapeCasts ⟨3, ![B, C, 1]⟩) (b : Fin B) (c : Fin C) (u : Fin 1)
    (hz : z (ix2 b c) = BitVec.ofNat 32 0) (hx : (x (ix2 b c)).toNat < 2 ^ 31) :
    shapeCast ⟨3, ![B, C, 1]⟩ (select (cmpi .slt x z) (addi x nn) x) h (ix3 b c u) = x (ix2 b c) := by
  rw [shapeCast_ab_ab1_apply _ _ b c u, select_apply]
  have h0 : cmpi .slt x z (ix2 b c) = 0#1 := eq_zero_of_ne_one (fun hh => by
    have hh' : IntOp.cmpi .slt (x (ix2 b c)) (BitVec.ofNat 32 0) = 1#1 := by rw [← hz]; exact hh
    have := (slt_const _ hx 0 (by norm_num)).mp hh'; omega)
  rw [h0, select_zero]

theorem inb_unit_apply {B C : Nat} {u : Shape} (k : Nat) (hk : k < 2 ^ 31) (y z0 zk : IVec ⟨3, ![B, C, 1]⟩ 32)
    (init : IVec u 1) (h' : (⟨3, ![B, C, 1]⟩ : Shape).ReducesTo [2] ⟨2, ![B, C]⟩) (hu : 0 < u.numel) (b : Fin B)
    (c : Fin C) (hz0 : z0 (ix3 b c (0 : Fin 1)) = BitVec.ofNat 32 0) (hzk : zk (ix3 b c (0 : Fin 1)) = BitVec.ofNat 32 k)
    (hinit : init (Shape.Idx.first hu) = 1#1) (hy : (y (ix3 b c (0 : Fin 1))).toNat ≤ k) :
    Host.reduce IntOp.andi (andi (cmpi .sge y z0) (cmpi .sle y zk)) init h' hu (ix2 b c) = 1#1 := by
  have hy' : (y (ix3 b c (0 : Fin 1))).toNat < 2 ^ 31 := by omega
  rw [reduce_andi_unit_apply, IntOp.andi_eq_one]
  refine ⟨?_, hinit⟩
  show IntOp.andi (IntOp.cmpi .sge (y (ix3 b c (0 : Fin 1))) (z0 (ix3 b c (0 : Fin 1))))
    (IntOp.cmpi .sle (y (ix3 b c (0 : Fin 1))) (zk (ix3 b c (0 : Fin 1)))) = 1#1
  rw [hz0, hzk, IntOp.andi_eq_one, sge_const _ hy' 0 (by norm_num), sle_const _ hy' k hk]
  exact ⟨Nat.zero_le _, hy⟩

theorem select_gather_rowTake_apply {B N C : Nat} (hN : N ≤ 2 ^ 31)
    (wf : GatherDims.WF ⟨2, ![B, N]⟩ ⟨3, ![B, C, 1]⟩ ⟨2, ![B, C]⟩ [] [1] [0] [1] [0] 2 ![1, 1])
    (A : (⟨2, ![B, N]⟩ : Shape).Idx → α) (idx : IVec ⟨3, ![B, C, 1]⟩ 32) (mask : IVec ⟨2, ![B, C]⟩ 1)
    (filler : (⟨2, ![B, C]⟩ : Shape).Idx → α) (b : Fin B) (c : Fin C) (hm : mask (ix2 b c) = 1#1)
    (hlt : (idx (ix3 b c (0 : Fin 1))).toNat < N) :
    select mask (Host.gather (rowTakeDims B N C wf) A idx) filler (ix2 b c)
      = A (ix2 b ⟨(idx (ix3 b c (0 : Fin 1))).toNat, hlt⟩) := by
  rw [select_apply, hm, select_one, gather_rowTake_apply (B := B) (N := N) (C := C) (by omega) wf A idx b c]
  exact congrArg (fun q => A (ix2 b q)) (Fin.ext (by
    show min (idx (ix3 b c (0 : Fin 1))).toInt.toNat (N - 1) = (idx (ix3 b c (0 : Fin 1))).toNat
    rw [toInt_eq_toNat_of_lt (by omega)]; omega))

end TakeAlong

end Cert.LibGather

end
-- ==== Proof.RefRead.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«428349_j38809324486859_3_alg».proof.Proof.LibScatter

noncomputable section

namespace Cert.RefRead

open Idealize.ShloMosaic Idealize.ShloMosaic.ValueIdx Finset

section Bcast
variable {α : Type}

theorem bcast_col_apply {E : Nat} (dims : Fin 1 → Fin 2) (hd : dims 0 = 0)
    (h : (⟨1, ![E]⟩ : Shape).BroadcastsInDim ⟨2, ![E, 1]⟩ dims)
    (x : (⟨1, ![E]⟩ : Shape).Idx → α) (e : Fin E) (z : Fin 1) :
    broadcastInDim ⟨2, ![E, 1]⟩ dims h x (ix2 e z) = x (ix1 e) := by
  refine broadcastInDim_apply (s := ⟨1, ![E]⟩) (t := ⟨2, ![E, 1]⟩) dims h x _ _ ?_
  intro a
  match a with
  | ⟨0, _⟩ =>
    show e.val = if E = 1 then 0 else ((ix2 e z : (⟨2, ![E, 1]⟩ : Shape).Idx) (dims 0)).val
    rw [hd]
    split
    · have := e.isLt; omega
    · rfl

theorem bcast_rep_apply {E C : Nat} (dims : Fin 2 → Fin 2) (hd0 : dims 0 = 0) (hd1 : dims 1 = 1)
    (h : (⟨2, ![E, 1]⟩ : Shape).BroadcastsInDim ⟨2, ![E, C]⟩ dims)
    (x : (⟨2, ![E, 1]⟩ : Shape).Idx → α) (e : Fin E) (k : Fin C) :
    broadcastInDim ⟨2, ![E, C]⟩ dims h x (ix2 e k) = x (ix2 e (0 : Fin 1)) := by
  refine broadcastInDim_apply (s := ⟨2, ![E, 1]⟩) (t := ⟨2, ![E, C]⟩) dims h x _ _ ?_
  intro a
  match a with
  | ⟨0, _⟩ =>
    show e.val = if E = 1 then 0 else ((ix2 e k : (⟨2, ![E, C]⟩ : Shape).Idx) (dims 0)).val
    rw [hd0]
    split
    · have := e.isLt; omega
    · rfl
  | ⟨1, _⟩ =>
    show (0 : Nat) = if (1 : Nat) = 1 then 0 else _
    rw [if_pos rfl]

theorem bcast_row_apply {C : Nat} (dims : Fin 1 → Fin 2) (hd : dims 0 = 1)
    (h : (⟨1, ![C]⟩ : Shape).BroadcastsInDim ⟨2, ![1, C]⟩ dims)
    (x : (⟨1, ![C]⟩ : Shape).Idx → α) (z : Fin 1) (k : Fin C) :
    broadcastInDim ⟨2, ![1, C]⟩ dims h x (ix2 z k) = x (ix1 k) := by
  refine broadcastInDim_apply (s := ⟨1, ![C]⟩) (t := ⟨2, ![1, C]⟩) dims h x _ _ ?_
  intro a
  match a with
  | ⟨0, _⟩ =>
    show k.val = if C = 1 then 0 else ((ix2 z k : (⟨2, ![1, C]⟩ : Shape).Idx) (dims 0)).val
    rw [hd]
    split
    · have := k.isLt; omega
    · rfl

theorem bcast_down_apply {N C : Nat} (dims : Fin 2 → Fin 2) (hd0 : dims 0 = 0) (hd1 : dims 1 = 1)
    (h : (⟨2, ![1, C]⟩ : Shape).BroadcastsInDim ⟨2, ![N, C]⟩ dims)
    (x : (⟨2, ![1, C]⟩ : Shape).Idx → α) (n : Fin N) (k : Fin C) :
    broadcastInDim ⟨2, ![N, C]⟩ dims h x (ix2 n k) = x (ix2 (0 : Fin 1) k) := by
  refine broadcastInDim_apply (s := ⟨2, ![1, C]⟩) (t := ⟨2, ![N, C]⟩) dims h x _ _ ?_
  intro a
  match a with
  | ⟨0, _⟩ =>
    show (0 : Nat) = if (1 : Nat) = 1 then 0 else _
    rw [if_pos rfl]
  | ⟨1, _⟩ =>
    show k.val = if C = 1 then 0 else ((ix2 n k : (⟨2, ![N, C]⟩ : Shape).Idx) (dims 1)).val
    rw [hd1]
    split
    · have := k.isLt; omega
    · rfl

end Bcast

theorem toInt_of_small (x : BitVec 32) (hx : x.toNat < 2 ^ 31) : x.toInt = (x.toNat : ℤ) := by
  rw [BitVec.toInt_eq_toNat_cond, if_pos (by omega)]

theorem norm_index (x n : BitVec 32) (hx : x.toNat < 2 ^ 31) :
    Scalar.select (IntOp.cmpi .slt x 0#32) (IntOp.addi x n) x = x := by
  have h0 : IntOp.cmpi .slt x 0#32 = 0#1 := by
    show BitVec.ofBool (x.slt 0#32) = 0#1
    have : x.slt 0#32 = false := by
      rw [BitVec.slt, toInt_of_small x hx]
      simp
    rw [this]; rfl
  rw [h0]
  exact select_zero _ _

theorem clamp_small (x : BitVec 32) (N : Nat) (hN : N ≤ 2 ^ 31) (hx : x.toNat < N) :
    min x.toInt.toNat (N - 1) = x.toNat := by
  rw [toInt_of_small x (by omega)]
  simp only [Int.toNat_natCast]
  omega

abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e ⟨0, Nat.one_pos⟩)).toInt.toNat (N - 1), by omega⟩) := by
  unfold Host.gather
  congr 1
  funext a
  refine Fin.ext ?_
  show (vecGather N E wf).start (ix1 e) idx a + (vecGather N E wf).batchCoord (ix1 e) a
      + (vecGather N E wf).offCoord (ix1 e) a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin 1) ∈ (vecGather N E wf).startIndexMap from List.mem_singleton.mpr rfl)]
    have hsi : (vecGather N E wf).siIdx (ix1 e) ⟨List.idxOf (⟨0, h0⟩ : Fin 1) (vecGather N E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl

theorem cast_col_vec_apply {α : Type} {E : Nat} (h : (⟨2, ![E, 1]⟩ : Shape).ShapeCasts ⟨1, ![E]⟩)
    (x : (⟨2, ![E, 1]⟩ : Shape).Idx → α) (e : Fin E) :
    shapeCast ⟨1, ![E]⟩ x h (ix1 e) = x (ix2 e (0 : Fin 1)) := by
  refine shapeCast_apply x h _ _ ?_
  rw [Shape.rowMajor_val_two, Shape.rowMajor_val_one]
  show e.val * 1 + 0 = e.val
  omega

section Cat
variable {α : Type}

theorem cat_vec_left {A B T : Nat} (h : Shape.Concatenates [(⟨1, ![A]⟩ : Shape), ⟨1, ![B]⟩] ⟨1, ![T]⟩ 0)
    (x : (⟨1, ![A]⟩ : Shape).Idx → α) (y : (⟨1, ![B]⟩ : Shape).Idx → α) (i : Fin T) (hi : i.val < A) :
    concatenate ⟨1, ![T]⟩ 0 [⟨⟨1, ![A]⟩, x⟩, ⟨⟨1, ![B]⟩, y⟩] h (ix1 i) = x (ix1 ⟨i.val, hi⟩) := by
  refine concatenate_pair_apply_left (t := ⟨1, ![T]⟩) 0 x y h (ix1 i) rfl (ix1 ⟨i.val, hi⟩) ?_
  intro b
  match b with
  | ⟨0, _⟩ => rfl

theorem cat_vec_right {A B T : Nat} (h : Shape.Concatenates [(⟨1, ![A]⟩ : Shape), ⟨1, ![B]⟩] ⟨1, ![T]⟩ 0)
    (x : (⟨1, ![A]⟩ : Shape).Idx → α) (y : (⟨1, ![B]⟩ : Shape).Idx → α) (i : Fin T) (n : Fin B) (hi : A + n.val = i.val) :
    concatenate ⟨1, ![T]⟩ 0 [⟨⟨1, ![A]⟩, x⟩, ⟨⟨1, ![B]⟩, y⟩] h (ix1 i) = y (ix1 n) := by
  refine concatenate_pair_apply_right (t := ⟨1, ![T]⟩) 0 x y h (ix1 i) rfl rfl (ix1 n) ?_ ?_
  · intro b hb
    match b with
    | ⟨0, _⟩ => exact absurd rfl hb
  · show n.val + A = i.val
    omega

theorem cat_col_left {E A B T : Nat} (h : Shape.Concatenates [(⟨2, ![E, A]⟩ : Shape), ⟨2, ![E, B]⟩] ⟨2, ![E, T]⟩ 1)
    (x : (⟨2, ![E, A]⟩ : Shape).Idx → α) (y : (⟨2, ![E, B]⟩ : Shape).Idx → α) (e : Fin E) (k : Fin T) (hk : k.val < A) :
    concatenate ⟨2, ![E, T]⟩ 1 [⟨⟨2, ![E, A]⟩, x⟩, ⟨⟨2, ![E, B]⟩, y⟩] h (ix2 e k) = x (ix2 e ⟨k.val, hk⟩) := by
  refine concatenate_pair_apply_left (t := ⟨2, ![E, T]⟩) 1 x y h (ix2 e k) rfl (ix2 e ⟨k.val, hk⟩) ?_
  intro b
  match b with
  | ⟨0, _⟩ => rfl
  | ⟨1, _⟩ => rfl

theorem cat_col_right {E A B T : Nat} (h : Shape.Concatenates [(⟨2, ![E, A]⟩ : Shape), ⟨2, ![E, B]⟩] ⟨2, ![E, T]⟩ 1)
    (x : (⟨2, ![E, A]⟩ : Shape).Idx → α) (y : (⟨2, ![E, B]⟩ : Shape).Idx → α) (e : Fin E) (k : Fin T) (n : Fin B)
    (hk : A + n.val = k.val) :
    concatenate ⟨2, ![E, T]⟩ 1 [⟨⟨2, ![E, A]⟩, x⟩, ⟨⟨2, ![E, B]⟩, y⟩] h (ix2 e k) = y (ix2 e n) := by
  refine concatenate_pair_apply_right (t := ⟨2, ![E, T]⟩) 1 x y h (ix2 e k) rfl rfl (ix2 e n) ?_ ?_
  · intro b hb
    match b with
    | ⟨0, _⟩ => rfl
    | ⟨1, _⟩ => exact absurd rfl hb
  · show n.val + A = k.val
    omega

end Cat

theorem sum_filter_split {A B T : Nat} (hT : T = A + B) (p : Fin T → Prop) [DecidablePred p] (g : Fin T → EReal) :
    ∑ i ∈ univ.filter p, g i
      = (∑ e ∈ univ.filter (fun e : Fin A => p ⟨e.val, by omega⟩), g ⟨e.val, by omega⟩)
        + ∑ n ∈ univ.filter (fun n : Fin B => p ⟨A + n.val, by omega⟩), g ⟨A + n.val, by omega⟩ := by
  subst hT
  rw [Finset.sum_filter, Fin.sum_univ_add, ← Finset.sum_filter, ← Finset.sum_filter]
  rfl

theorem sum_edges_loops {A B T : Nat} (hT : T = A + B) (w : Fin T → ℤ) (u : Fin A → Fin B)
    (hwe : ∀ e : Fin A, w ⟨e.val, by omega⟩ = ((u e).val : ℤ))
    (hwn : ∀ n : Fin B, w ⟨A + n.val, by omega⟩ = (n.val : ℤ)) (g : Fin T → EReal) (q : Fin B) :
    ∑ i ∈ univ.filter (fun i : Fin T => w i = (q.val : ℤ)), g i
      = (∑ e ∈ univ.filter (fun e : Fin A => u e = q), g ⟨e.val, by omega⟩) + g ⟨A + q.val, by omega⟩ := by
  rw [sum_filter_split hT]
  congr 1
  · refine Finset.sum_congr (Finset.filter_congr fun e _ => ?_) fun _ _ => rfl
    rw [hwe e]
    constructor
    · intro h; exact Fin.ext (by exact_mod_cast h)
    · intro h; rw [h]
  · have hf : (univ.filter fun n : Fin B => w ⟨A + n.val, by omega⟩ = (q.val : ℤ)) = {q} := by
      ext n
      rw [Finset.mem_filter, Finset.mem_singleton, hwn n]
      constructor
      · intro h; exact Fin.ext (by exact_mod_cast h.2)
      · intro h; exact ⟨Finset.mem_univ _, by rw [h]⟩
    rw [hf, Finset.sum_singleton]

theorem norm_vec_apply {s : Shape} (x : IVec s 32) (n : BitVec 32)
    (hz hz' : (⟨0, ![]⟩ : Shape).BroadcastsInDim s ![]) (i : s.Idx) (hx : (x i).toNat < 2 ^ 31) :
    select (cmpi .slt x (broadcastInDim s ![] hz (constantI ⟨0, ![]⟩ 32 0#32)))
        (addi x (broadcastInDim s ![] hz' (constantI ⟨0, ![]⟩ 32 n))) x i = x i := by
  show Scalar.select (IntOp.cmpi .slt (x i) (broadcastInDim s ![] hz (constantI ⟨0, ![]⟩ 32 0#32) i))
      (IntOp.addi (x i) (broadcastInDim s ![] hz' (constantI ⟨0, ![]⟩ 32 n) i)) (x i) = x i
  rw [broadcastInDim_scalar_apply, broadcastInDim_scalar_apply, constantI_apply, constantI_apply]
  exact norm_index (x i) n hx

theorem gather_row_at {α : Type} {N E C : Nat} (hN : N ≤ 2 ^ 31)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (k : Fin C) (q : Fin N)
    (hq : (idx (ix2 e ⟨0, Nat.one_pos⟩)).toNat = q.val) :
    Host.gather (Gnn.Scatter.rowGather N E C wf) x idx (ix2 e k) = x (ix2 q k) := by
  rw [Gnn.Scatter.gather_row_apply (Nat.lt_of_le_of_lt (Nat.zero_le _) q.isLt)]
  congr 2
  refine Fin.ext ?_
  show min (idx (ix2 e ⟨0, Nat.one_pos⟩)).toInt.toNat (N - 1) = q.val
  rw [clamp_small _ N hN (by rw [hq]; exact q.isLt), hq]

theorem gather_vec_at {α : Type} {N E : Nat} (hN : N ≤ 2 ^ 31)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) (q : Fin N)
    (hq : (idx (ix2 e ⟨0, Nat.one_pos⟩)).toNat = q.val) :
    Host.gather (vecGather N E wf) x idx (ix1 e) = x (ix1 q) := by
  rw [gather_vec_apply (Nat.lt_of_le_of_lt (Nat.zero_le _) q.isLt)]
  congr 2
  refine Fin.ext ?_
  show min (idx (ix2 e ⟨0, Nat.one_pos⟩)).toInt.toNat (N - 1) = q.val
  rw [clamp_small _ N hN (by rw [hq]; exact q.isLt), hq]

theorem toNat_ofNat32 (n : Nat) (hn : n < 2 ^ 32) : (BitVec.ofNat 32 n).toNat = n := by
  rw [BitVec.toNat_ofNat]; exact Nat.mod_eq_of_lt hn

end Cert.RefRead

end
-- ==== Proof.KValZ.lean ====
import proofs.«428349_j38809324486859_3_alg».proof.Proof.RegionsKernelIdeal
import proofs.«428349_j38809324486859_3_alg».proof.Proof.SpecArgs
import proofs.«428349_j38809324486859_3_alg».proof.Proof.LibScatter
import proofs.«428349_j38809324486859_3_alg».proof.Proof.LibCoe
import proofs.«428349_j38809324486859_3_alg».proof.Proof.LibGather
import proofs.«428349_j38809324486859_3_alg».proof.Proof.RefRead
import Idealize.ShloMosaic.Lib.StackMember
import Idealize.ShloMosaic.Lib.StableHlo.Predicate

set_option maxRecDepth 1824

noncomputable section

namespace Cert.KernelIdeal.Val

open Cert.KernelIdeal Cert.KernelIdeal.Gen Cert.KernelIdeal.GenP
open Idealize.ShloMosaic Idealize.ShloMosaic.TcCoe Idealize.ShloMosaic.ValueIdx Idealize.ShloMosaic.StableHlo Finset Cert.RefRead Cert.LibGather

variable (m : (ℓ : Loc nD τ sig) → Buf (Elt Ideal) ℓ) (c : Dev nD)

theorem ofBits_one' : Ideal.ofBits .f32 0x3F800000#32 = (1 : EReal) := by
  rw [Gnn.Coe.ofBits_one, EReal.coe_one]

theorem col_apply (idx : S262144.Idx → BitVec 32) (e : Fin 262144) :
    broadcastInDim S262144x1 ![0] bcast_S262144_S262144x1_0 idx (ix2 e ⟨0, Nat.one_pos⟩) = idx (ix1 e) :=
  bcast_col_apply _ rfl _ idx e _

theorem host_scat {s si u : Shape} {w : ℕ} (d : ScatterDims s si u) (x : s.Idx → EReal) (idx : IVec si w) (upd : u.Idx → EReal) :
    Host.scatterAdd (F := Ideal) (φ := .f32) d x idx upd = Ideal.hostScatterAdd d x idx upd := rfl

theorem scat_dims : scatter_S8192_S262144x1_S262144_n_0_0_1
    = Gnn.Scatter.vecScatter 8192 262144 scatter_S8192_S262144x1_S262144_n_0_0_1_wf := rfl

/-- A scatter of ones into zeros, plus one, counts the edges whose endpoint word is `n` and adds the self loop. -/
theorem deg_apply (idx : S262144.Idx → BitVec 32) (hlt : ∀ e : Fin 262144, (idx (ix1 e)).toNat < 8192)
    (z p : S8192.Idx → EReal) (o : S262144.Idx → EReal) (ic : S262144x1.Idx → BitVec 32)
    (hz : ∀ n : Fin 8192, z (ix1 n) = 0) (hp : ∀ n : Fin 8192, p (ix1 n) = 1) (ho : ∀ e : Fin 262144, o (ix1 e) = 1)
    (hic : ∀ e : Fin 262144, ic (ix2 e ⟨0, Nat.one_pos⟩) = idx (ix1 e)) (n : Fin 8192) :
    (addf (Host.scatterAdd (F := Ideal) (φ := .f32) scatter_S8192_S262144x1_S262144_n_0_0_1 z ic o) p : S8192.Idx → EReal) (ix1 n)
      = Spec.degOut (Spec.node idx hlt) n := by
  rw [addf_apply, host_scat, scat_dims, Gnn.Scatter.scatterAdd_vec_apply, hz, hp, zero_add]
  unfold Spec.degOut
  refine congrArg (· + (1 : EReal)) (Finset.sum_congr (Finset.filter_congr fun e _ => ?_) fun e _ => ho e)
  have := hlt e
  rw [hic, StableHlo.Predicate.toInt_eq_toNat_of_lt (by omega), Fin.ext_iff]
  show _ ↔ (idx (ix1 e)).toNat = n.val
  omega

abbrev degTerm (idx : S262144.Idx → BitVec 32) : S8192.Idx → EReal :=
  addf (Host.scatterAdd (F := Ideal) (φ := .f32) scatter_S8192_S262144x1_S262144_n_0_0_1
      (broadcastInDim S8192 ![] bcast_S_S8192 (constant (F := Ideal) S_ .f32 0x00000000#32))
      (broadcastInDim S262144x1 ![0] bcast_S262144_S262144x1_0 idx)
      (broadcastInDim S262144 ![] bcast_S_S262144 (constant (F := Ideal) S_ .f32 0x3F800000#32)))
    (broadcastInDim S8192 ![] bcast_S_S8192 (constant (F := Ideal) S_ .f32 0x3F800000#32))

theorem degTerm_apply (idx : S262144.Idx → BitVec 32) (hlt : ∀ e : Fin 262144, (idx (ix1 e)).toNat < 8192) (n : Fin 8192) :
    degTerm idx (ix1 n) = Spec.degOut (Spec.node idx hlt) n :=
  deg_apply idx hlt _ _ _ _ (fun _ => Ideal.ofBits_zero_f32) (fun _ => ofBits_one') (fun _ => ofBits_one') (col_apply idx) n

theorem V1_v5 : (GenP.V1 m c main_v5 : S8192.Idx → EReal) = degTerm (GenP.V0 m c main_arg12) := by
  dsimp only [GenP.V1, hostOps0]
  generalize GenP.V0 m c = W
  after_results_simp

theorem V1_v10 : (GenP.V1 m c main_v10 : S8192.Idx → EReal) = degTerm (GenP.V0 m c main_arg13) := by
  dsimp only [GenP.V1, hostOps0]
  generalize GenP.V0 m c = W
  after_results_simp

theorem host_rsqrt_apply {s : Shape} (x : s.Idx → EReal) (i : s.Idx) :
    (Host.rsqrt (F := Ideal) (φ := .f32) x : s.Idx → EReal) i = Ideal.rsqrt (x i) := rfl

theorem dot_apply (l : S8192x256.Idx → EReal) (r : S256x256.Idx → EReal) (n : Fin 8192) (d : Fin 256) :
    (Host.dotGeneral (F := Ideal) (φ₁ := .f32) (φ₂ := .f32) dot_S8192x256_S256x256_S8192x256_1_0_0_1_n_n none l r : S8192x256.Idx → EReal) (ix2 n d)
      = ∑ k : Fin 256, l (ix2 n k) * r (ix2 k d) :=
  StackMember.dotGeneral_plain_apply (m := 8192) (k := 256) (n := 256) none l r n d

abbrev hsTerm (a0 : S8192x256.Idx → EReal) (a2 : S256x256.Idx → EReal) (idx : S262144.Idx → BitVec 32) : S8192x256.Idx → EReal :=
  mulf (Host.dotGeneral (F := Ideal) (φ₁ := .f32) (φ₂ := .f32) dot_S8192x256_S256x256_S8192x256_1_0_0_1_n_n none a0 a2)
    (broadcastInDim S8192x256 ![0, 1] bcast_S8192x1_S8192x256_0_1
      (broadcastInDim S8192x1 ![0] bcast_S8192_S8192x1_0 (Host.rsqrt (F := Ideal) (φ := .f32) (degTerm idx))))

theorem hsTerm_apply (a0 : S8192x256.Idx → EReal) (a2 : S256x256.Idx → EReal) (idx : S262144.Idx → BitVec 32)
    (hlt : ∀ e : Fin 262144, (idx (ix1 e)).toNat < 8192) (n : Fin 8192) (d : Fin 256) :
    hsTerm a0 a2 idx (ix2 n d) = Spec.hsOf a0 a2 idx hlt n d := by
  unfold hsTerm
  rw [mulf_apply, dot_apply, bcast_rep_apply _ rfl rfl, bcast_col_apply _ rfl, host_rsqrt_apply, degTerm_apply idx hlt]
  rfl

/-- The scaled features over the launch contents. -/
abbrev hs0 : S8192x256.Idx → EReal := hsTerm (GenP.V0 m c main_arg0) (GenP.V0 m c main_arg2) (GenP.V0 m c main_arg12)

theorem V1_v15 : (GenP.V1 m c main_v15 : S8192x256.Idx → EReal) = hs0 m c := by
  dsimp only [GenP.V1, hostOps0, hs0]
  generalize GenP.V0 m c = W
  after_results_simp

/-- Over the extended reals a change of float format is the identity, so the 16-bit part of `hs` is `hs`. -/
theorem V1_v16_apply (n : Fin 8192) (d : Fin 256) :
    (GenP.V1 m c main_v16 : S8192x256.Idx → EReal) (ix2 n d) = hs0 m c (ix2 n d) := by
  have e : (GenP.V1 m c main_v16 : S8192x256.Idx → EReal) = truncf (F := Ideal) (φ := .f32) .bf16 (hs0 m c) bitsLt_bf16_f32 := by
    dsimp only [GenP.V1, hostOps0, hs0]
    generalize GenP.V0 m c = W
    after_results_simp
  rw [e]
  rfl

theorem V1_v19_apply (n : Fin 8192) (d : Fin 256) :
    (GenP.V1 m c main_v19 : S8192x256.Idx → EReal) (ix2 n d) = hs0 m c (ix2 n d) - hs0 m c (ix2 n d) := by
  have e : (GenP.V1 m c main_v19 : S8192x256.Idx → EReal)
      = truncf (F := Ideal) (φ := .f32) .bf16
          (subf (hs0 m c) (extf (F := Ideal) (φ := .bf16) .f32 (truncf (F := Ideal) (φ := .f32) .bf16 (hs0 m c) bitsLt_bf16_f32) bitsLt_bf16_f32))
          bitsLt_bf16_f32 := by
    dsimp only [GenP.V1, hostOps0, hs0]
    generalize GenP.V0 m c = W
    after_results_simp
  rw [e]
  rfl

/-- The stretches between the first one and the region write none of `r`. -/
theorem V5_of_V1 (r : Ref sig .tc) (h : r ∉ hostOps0_1_W ++ (hostOps0_2_W ++ (hostOps0_3_W ++ hostOps0_4_W))) :
    GenP.V5 m c r = GenP.V1 m c r := by
  simp only [List.mem_append, not_or] at h
  rw [GenP.V5_of m c r h.2.2.2, GenP.V4_of m c r h.2.2.1, GenP.V3_of m c r h.2.1, GenP.V2_of m c r h.1]

theorem kHi (hus : ∀ e : Fin 262144, ((m ((c : Thread nD τ).loc main_arg12) : S262144.Idx → BitVec 32) (ix1 e)).toNat < 8192)
    (n : Fin 8192) (d : Fin 256) :
    (GenP.V5 m c main_v16 : S8192x256.Idx → EReal) (ix2 n d)
      = Spec.hsOf (m ((c : Thread nD τ).loc main_arg0)) (m ((c : Thread nD τ).loc main_arg2))
          (m ((c : Thread nD τ).loc main_arg12)) hus n d := by
  rw [V5_of_V1 m c main_v16 (by decide), V1_v16_apply]
  exact hsTerm_apply _ _ _ hus n d

/-- For a real `x`, `x − x = 0`; at an infinite value it is not, hence the hypothesis. -/
theorem kLo (hus : ∀ e : Fin 262144, ((m ((c : Thread nD τ).loc main_arg12) : S262144.Idx → BitVec 32) (ix1 e)).toNat < 8192)
    (n : Fin 8192) (d : Fin 256)
    (hreal : ∃ r : ℝ, Spec.hsOf (m ((c : Thread nD τ).loc main_arg0)) (m ((c : Thread nD τ).loc main_arg2))
          (m ((c : Thread nD τ).loc main_arg12)) hus n d = (r : EReal)) :
    (GenP.V5 m c main_v19 : S8192x256.Idx → EReal) (ix2 n d) = (0 : EReal) := by
  rw [V5_of_V1 m c main_v19 (by decide), V1_v19_apply]
  obtain ⟨r, hr⟩ := hreal
  have e : hs0 m c (ix2 n d) = (r : EReal) := (hsTerm_apply _ _ _ hus n d).trans hr
  rw [e, ← EReal.coe_sub, sub_self, EReal.coe_zero]

theorem planes_sum_apply (p : S2x8192x256.Idx → EReal) (z : S_.Idx → EReal) (n : Fin 8192) (d : Fin 256) :
    (Host.reduceAdd (F := Ideal) (φ := .f32) p z reducesTo_S2x8192x256_S8192x256_d0 h_S_ : S8192x256.Idx → EReal) (ix2 n d)
      = z (Shape.Idx.first h_S_) + ∑ a : Fin 2, p (ix3 a n d) := by
  simp only [Host.reduceAdd, Ideal.hostReduceAdd_def]
  rw [Ideal.hostReduceAdd_single reducesTo_S2x8192x256_S8192x256_d0 (by decide)]
  refine congrArg (_ + ·) (Finset.sum_congr rfl fun k _ => ?_)
  exact congrArg p (funext fun a => Fin.ext (by match a with | ⟨0, _⟩ => rfl | ⟨1, _⟩ => rfl | ⟨2, _⟩ => rfl))

abbrev convTerm (p : S2x8192x256.Idx → EReal) (hs : S8192x256.Idx → EReal) (dg : S8192.Idx → EReal) (b3 : S256.Idx → EReal) :
    S8192x256.Idx → EReal :=
  addf (mulf (addf (Host.reduceAdd (F := Ideal) (φ := .f32) p (constant (F := Ideal) S_ .f32 0x00000000#32)
          reducesTo_S2x8192x256_S8192x256_d0 h_S_) hs)
        (broadcastInDim S8192x256 ![0, 1] bcast_S8192x1_S8192x256_0_1
          (broadcastInDim S8192x1 ![0] bcast_S8192_S8192x1_0 (Host.rsqrt (F := Ideal) (φ := .f32) dg))))
    (broadcastInDim S8192x256 ![0, 1] bcast_S1x256_S8192x256_0_1 (broadcastInDim S1x256 ![1] bcast_S256_S1x256_1 b3))

theorem convTerm_apply (p : S2x8192x256.Idx → EReal) (hs : S8192x256.Idx → EReal) (dg : S8192.Idx → EReal) (b3 : S256.Idx → EReal)
    (n : Fin 8192) (d : Fin 256) :
    convTerm p hs dg b3 (ix2 n d)
      = ((∑ a : Fin 2, p (ix3 a n d)) + hs (ix2 n d)) * Ideal.rsqrt (dg (ix1 n)) + b3 (ix1 d) := by
  unfold convTerm
  rw [addf_apply, mulf_apply, addf_apply, planes_sum_apply, bcast_rep_apply _ rfl rfl, bcast_col_apply _ rfl, bcast_down_apply _ rfl rfl,
    bcast_row_apply _ rfl, host_rsqrt_apply, constant_apply, Ideal.ofBits_zero_f32, zero_add]

abbrev linTerm (x : S8192x256.Idx → EReal) (w : S256x256.Idx → EReal) (b : S256.Idx → EReal) : S8192x256.Idx → EReal :=
  addf (Host.dotGeneral (F := Ideal) (φ₁ := .f32) (φ₂ := .f32) dot_S8192x256_S256x256_S8192x256_1_0_0_1_n_n none x w)
    (broadcastInDim S8192x256 ![0, 1] bcast_S1x256_S8192x256_0_1 (broadcastInDim S1x256 ![1] bcast_S256_S1x256_1 b))

theorem linTerm_apply (x : S8192x256.Idx → EReal) (w : S256x256.Idx → EReal) (b : S256.Idx → EReal) (n : Fin 8192) (j : Fin 256) :
    linTerm x w b (ix2 n j) = (∑ d : Fin 256, x (ix2 n d) * w (ix2 d j)) + b (ix1 j) := by
  unfold linTerm
  rw [addf_apply, dot_apply, bcast_down_apply _ rfl rfl, bcast_row_apply _ rfl]

variable (outs : GenP.Outs (F := Ideal))

theorem V7_v37 : (GenP.V7 m outs c main_v37 : S8192x256.Idx → EReal)
    = linTerm (convTerm (GenP.V6 m outs c main_v24) (GenP.V6 m outs c main_v15) (GenP.V6 m outs c main_v10) (GenP.V6 m outs c main_arg3))
        (GenP.V6 m outs c main_arg4) (GenP.V6 m outs c main_arg5) := by
  dsimp only [GenP.V7, hostOps1]
  generalize GenP.V6 m outs c = W
  after_results_simp

/-- Summing fibre by fibre over the half `e / 131072` that an edge belongs to. -/
theorem planes_edges (v : Fin 262144 → Fin 8192) (f : Fin 262144 → EReal) (n : Fin 8192) :
    ∑ a : Fin 2, ∑ e ∈ univ.filter (fun e : Fin 262144 => e.val / 131072 = a.val ∧ v e = n), f e
      = ∑ e ∈ univ.filter (fun e : Fin 262144 => v e = n), f e := by
  rw [← Finset.sum_fiberwise (univ.filter (fun e : Fin 262144 => v e = n))
    (fun e : Fin 262144 => (⟨e.val / 131072, by have := e.isLt; omega⟩ : Fin 2)) f]
  refine Finset.sum_congr rfl fun a _ => Finset.sum_congr ?_ fun _ _ => rfl
  ext e
  simp only [Finset.mem_filter, Finset.mem_univ, true_and, Fin.ext_iff]
  exact and_comm

theorem V6_v24 : (GenP.V6 m outs c main_v24 : S2x8192x256.Idx → EReal) = outs 6 main_v24 c := by
  simp only [GenP.V6, Function.update_self]

/-- The region changes `%24` only. -/
theorem V6_of_V1 (r : Ref sig .tc) (h : r ∉ main_v24 :: (hostOps0_1_W ++ (hostOps0_2_W ++ (hostOps0_3_W ++ hostOps0_4_W)))) :
    GenP.V6 m outs c r = GenP.V1 m c r :=
  (GenP.V6_of m outs c r fun h' => h (List.mem_cons.2 (.inl (List.mem_singleton.1 h')))).trans
    (V5_of_V1 m c r fun h' => h (List.mem_cons_of_mem _ h'))

theorem V6_of_V0 (r : Ref sig .tc) (h : r ∉ main_v24 :: (hostOps0_1_W ++ (hostOps0_2_W ++ (hostOps0_3_W ++ hostOps0_4_W))))
    (h1 : r ∉ hostOps0_W) : GenP.V6 m outs c r = m ((c : Thread nD τ).loc r) :=
  (V6_of_V1 m c outs r h).trans (GenP.V1_of m c r h1)

theorem kZ (hus : ∀ e : Fin 262144, ((m ((c : Thread nD τ).loc main_arg12) : S262144.Idx → BitVec 32) (ix1 e)).toNat < 8192)
    (hvs : ∀ e : Fin 262144, ((m ((c : Thread nD τ).loc main_arg13) : S262144.Idx → BitVec 32) (ix1 e)).toNat < 8192)
    (h24 : ∀ (a : Fin 2) (n : Fin 8192) (d : Fin 256), (outs 6 main_v24 c : S2x8192x256.Idx → EReal) (ix3 a n d)
      = ∑ e ∈ (Finset.univ.filter fun e : Fin 262144 => e.val / 131072 = a.val
            ∧ Spec.node (m ((c : Thread nD τ).loc main_arg13)) hvs e = n),
          Spec.hsOf (m ((c : Thread nD τ).loc main_arg0)) (m ((c : Thread nD τ).loc main_arg2))
            (m ((c : Thread nD τ).loc main_arg12)) hus
            (Spec.node (m ((c : Thread nD τ).loc main_arg12)) hus e) d)
    (n : Fin 8192) (j : Fin 256) :
    (GenP.V7 m outs c main_v37 : S8192x256.Idx → EReal) (ix2 n j)
      = Spec.ZOf (m ((c : Thread nD τ).loc main_arg0)) (m ((c : Thread nD τ).loc main_arg2))
          (m ((c : Thread nD τ).loc main_arg3)) (m ((c : Thread nD τ).loc main_arg4))
          (m ((c : Thread nD τ).loc main_arg5))
          (m ((c : Thread nD τ).loc main_arg12)) (m ((c : Thread nD τ).loc main_arg13))
          hus hvs n j := by
  rw [V7_v37, linTerm_apply, V6_of_V0 m c outs main_arg4 (by decide) (by decide), V6_of_V0 m c outs main_arg5 (by decide) (by decide)]
  unfold Spec.ZOf Spec.Z
  refine congrArg₂ (· + ·) (Finset.sum_congr rfl fun d _ => congrArg₂ (· * ·) ?_ rfl) rfl
  rw [convTerm_apply, V6_v24, V6_of_V0 m c outs main_arg3 (by decide) (by decide), V6_of_V1 m c outs main_v15 (by decide),
    V6_of_V1 m c outs main_v10 (by decide), V1_v15, V1_v10]
  unfold hs0
  simp only [h24]
  rw [planes_edges, hsTerm_apply _ _ _ hus, degTerm_apply _ hvs]
  rfl

end Cert.KernelIdeal.Val

end
-- ==== Proof.Reg0Val.lean ====
import proofs.«428349_j38809324486859_3_alg».proof.Proof.Reg0Defs
import Idealize.ShloMosaic.PureOps.Ideal.Laws
import Idealize.ShloMosaic.Lib.ValueIdx
import Idealize.ShloMosaic.Lib.Pipeline.Value

noncomputable section

namespace Cert.KernelIdeal.Val0

open Cert.KernelIdeal Cert.KernelIdeal.Gen Cert.KernelIdeal.Hand
open Idealize.ShloMosaic Idealize.ShloMosaic.ValueIdx
open scoped BigOperators

theorem sitofp_one : (FloatOps.sitofp (F := Ideal) .f32 (1#32 : BitVec 32) : EReal) = 1 := by
  show (((1#32 : BitVec 32).toInt : ℝ) : EReal) = 1
  rw [show (1#32 : BitVec 32).toInt = 1 by decide]; simp

theorem sitofp_zero : (FloatOps.sitofp (F := Ideal) .f32 (0#32 : BitVec 32) : EReal) = 0 := by
  show (((0#32 : BitVec 32).toInt : ℝ) : EReal) = 0
  rw [show (0#32 : BitVec 32).toInt = 0 by decide]; simp

-- The comparison bit of a word against the lane number, widened and converted, is the indicator of equality.
theorem onehot_word (w : BitVec 32) (n : ℕ) (hn : n < 8192) :
    (FloatOps.sitofp (F := Ideal) .f32 ((IntOp.cmpi .eq w (BitVec.ofNat 32 n)).setWidth 32) : EReal)
      = if w.toNat = n then 1 else 0 := by
  have hn' : (BitVec.ofNat 32 n).toNat = n := by rw [BitVec.toNat_ofNat]; omega
  show FloatOps.sitofp (F := Ideal) .f32 ((BitVec.ofBool (w == BitVec.ofNat 32 n)).setWidth 32) = _
  by_cases h : w = BitVec.ofNat 32 n
  · rw [beq_iff_eq.mpr h, if_pos (by rw [h, hn'])]; exact sitofp_one
  · rw [beq_eq_false_iff_ne.mpr h, if_neg (fun e => h (BitVec.eq_of_toNat_eq (e.trans hn'.symm)))]; exact sitofp_zero

-- Row `p` of a one-hot matrix: `1` at the lane that is the chunk's `p`-th node, `0` elsewhere.
theorem pay4_apply (u : Vec Ideal S256x1 .i32) (p : Fin 256) (n : Fin 8192) :
    k0_pay4 (F := Ideal) u (ix2 p n) = if (u (ix2 p (0 : Fin 1))).toNat = n.val then 1 else 0 := by
  unfold k0_pay4
  rw [shapeCast_self]
  rw [truncf_apply, sitofp_apply, extui_apply]
  show FloatOps.sitofp (F := Ideal) .f32 ((IntOp.cmpi .eq _ _).setWidth 32) = _
  rw [broadcastTo_apply _ _ (ix2 p n) (ix2 p (0 : Fin 1)) (fun | ⟨0, _⟩ | ⟨1, _⟩ => rfl),
      broadcastTo_apply _ _ (ix2 p n) (ix2 (0 : Fin 1) n) (fun | ⟨0, _⟩ | ⟨1, _⟩ => rfl),
      iota_single_apply]
  exact onehot_word _ _ n.isLt

theorem pay5_apply (v : Vec Ideal S256x1 .i32) (p : Fin 256) (n : Fin 8192) :
    k0_pay5 (F := Ideal) v (ix2 p n) = if (v (ix2 p (0 : Fin 1))).toNat = n.val then 1 else 0 := pay4_apply v p n

theorem matmulG_apply (L : FVec Ideal S256x8192 .bf16) (x : FVec Ideal S8192x256 .bf16) (p : Fin 256) (d : Fin 256) :
    matmul dot_S256x8192_S8192x256_S256x256_1_0_0_1_n_n none L x (constant S256x256 .f32 0x00000000#32) (ix2 p d)
      = ∑ k : Fin 8192, L (ix2 p k) * x (ix2 k d) := by
  simp only [matmul]
  rw [Ideal.matmul_constant_zero_apply, ← Equiv.sum_comp (contrEquiv1 dot_S256x8192_S8192x256_S256x256_1_0_0_1_n_n 8192 rfl rfl).symm]
  refine Finset.sum_congr rfl fun k _ => ?_
  have hk := contrEquiv1_symm_val dot_S256x8192_S8192x256_S256x256_1_0_0_1_n_n 8192 rfl rfl k
  exact congrArg₂ (fun a b => L a * x b)
    (funext fun a => Fin.ext (by
      match a with
      | ⟨0, _⟩ => rfl
      | ⟨1, _⟩ => exact hk))
    (funext fun a => Fin.ext (by
      match a with
      | ⟨0, _⟩ => exact hk
      | ⟨1, _⟩ => rfl))

theorem matmulS_apply (L : FVec Ideal S256x8192 .bf16) (y : FVec Ideal S256x256 .bf16) (n : Fin 8192) (d : Fin 256) :
    matmul dot_S256x8192_S256x256_S8192x256_0_0_1_1_n_n none L y (constant S8192x256 .f32 0x00000000#32) (ix2 n d)
      = ∑ p : Fin 256, L (ix2 p n) * y (ix2 p d) := by
  simp only [matmul]
  rw [Ideal.matmul_constant_zero_apply, ← Equiv.sum_comp (contrEquiv1 dot_S256x8192_S256x256_S8192x256_0_0_1_1_n_n 256 rfl rfl).symm]
  refine Finset.sum_congr rfl fun k _ => ?_
  have hk := contrEquiv1_symm_val dot_S256x8192_S256x256_S8192x256_0_0_1_1_n_n 256 rfl rfl k
  exact congrArg₂ (fun a b => L a * y b)
    (funext fun a => Fin.ext (by
      match a with
      | ⟨0, _⟩ => exact hk
      | ⟨1, _⟩ => rfl))
    (funext fun a => Fin.ext (by
      match a with
      | ⟨0, _⟩ => exact hk
      | ⟨1, _⟩ => rfl))

def rowAt (x : S8192x256.Idx → EReal) (w : ℕ) (d : Fin 256) : EReal :=
  if h : w < 8192 then x (ix2 (⟨w, h⟩ : Fin 8192) d) else 0

theorem rowAt_of_lt (x : S8192x256.Idx → EReal) (w : ℕ) (d : Fin 256) (h : w < 8192) :
    rowAt x w d = x (ix2 (⟨w, h⟩ : Fin 8192) d) := dif_pos h

theorem gather_apply (u : Vec Ideal S256x1 .i32) (x : FVec Ideal S8192x256 .bf16) (p : Fin 256) (d : Fin 256) :
    matmul dot_S256x8192_S8192x256_S256x256_1_0_0_1_n_n none (k0_pay4 u) x (constant S256x256 .f32 0x00000000#32) (ix2 p d)
      = rowAt x (u (ix2 p (0 : Fin 1))).toNat d := by
  rw [matmulG_apply]
  by_cases hu : (u (ix2 p (0 : Fin 1))).toNat < 8192
  · rw [rowAt_of_lt x _ d hu, Finset.sum_eq_single (⟨(u (ix2 p (0 : Fin 1))).toNat, hu⟩ : Fin 8192)]
    · rw [pay4_apply, if_pos rfl, one_mul]
    · intro k _ hk
      rw [pay4_apply, if_neg (fun h => hk (Fin.ext h.symm)), zero_mul]
    · intro h; exact absurd (Finset.mem_univ _) h
  · rw [rowAt, dif_neg hu]
    refine Finset.sum_eq_zero fun k _ => ?_
    rw [pay4_apply, if_neg (fun h => hu (lt_of_eq_of_lt h k.isLt)), zero_mul]

def chunkSum (u v : Vec Ideal S256x1 .i32) (x : S8192x256.Idx → EReal) (n : Fin 8192) (d : Fin 256) : EReal :=
  ∑ p : Fin 256, (if (v (ix2 p (0 : Fin 1))).toNat = n.val then 1 else 0) * rowAt x (u (ix2 p (0 : Fin 1))).toNat d

theorem chunkSum_zero (u v : Vec Ideal S256x1 .i32) (x : S8192x256.Idx → EReal) (hx : ∀ i, x i = 0) (n : Fin 8192) (d : Fin 256) :
    chunkSum u v x n d = 0 := by
  unfold chunkSum
  refine Finset.sum_eq_zero fun p _ => ?_
  have : rowAt x (u (ix2 p (0 : Fin 1))).toNat d = 0 := by
    unfold rowAt; split
    · exact hx _
    · rfl
  rw [this, mul_zero]

theorem pay6_apply (u v : Vec Ideal S256x1 .i32) (lo : Vec Ideal S8192x256 .bf16) (n : Fin 8192) (d : Fin 256) :
    k0_pay6 (F := Ideal) u v lo (ix2 n d) = chunkSum u v lo n d := by
  unfold k0_pay6
  rw [shapeCast_self, matmulS_apply]
  unfold chunkSum
  refine Finset.sum_congr rfl fun p _ => ?_
  rw [pay5_apply, truncf_apply, gather_apply]

theorem pay7_apply (u v : Vec Ideal S256x1 .i32) (hi : Vec Ideal S8192x256 .bf16) (s : Vec Ideal S8192x256 .f32) (n : Fin 8192) (d : Fin 256) :
    k0_pay7 (F := Ideal) u v hi s (ix2 n d) = s (ix2 n d) + chunkSum u v hi n d := by
  unfold k0_pay7
  rw [shapeCast_self, shapeCast_self, addf_apply, matmulS_apply]
  unfold chunkSum
  refine congrArg (s (ix2 n d) + ·) (Finset.sum_congr rfl fun p _ => ?_)
  rw [pay5_apply, truncf_apply, gather_apply]

theorem pay1_apply (a : FVec Ideal S8192x256 .f32) (b : Vec Ideal S8192x256 .f32) (n : Fin 8192) (d : Fin 256) :
    k0_pay1 (F := Ideal) a b (ix2 n d) = b (ix2 n d) + a (ix2 n d) := by
  unfold k0_pay1
  rw [shapeCast_self, addf_apply]

theorem pay3_apply (n : Fin 8192) (d : Fin 256) : k0_pay3 (F := Ideal) (ix2 n d) = 0 := by
  unfold k0_pay3
  rw [shapeCast_self, broadcast_apply]
  exact Ideal.ofBits_zero_f32

theorem step0_apply (u v : Vec Ideal S256x1 .i32) (hi lo : Vec Ideal S8192x256 .bf16) (hlo : ∀ i, lo i = 0)
    (s : Vec Ideal S8192x256 .f32) (n : Fin 8192) (d : Fin 256) :
    step0 u v hi lo s (ix2 n d) = s (ix2 n d) + chunkSum u v hi n d := by
  unfold step0
  rw [pay1_apply, pay6_apply, pay7_apply, chunkSum_zero u v lo hlo, add_zero]

theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem cfg0_N : cfg0.N = 1024 := by decide

theorem ublk0_apply (us : Vec Ideal S262144x1 .i32) (t : ℕ) (ht : t < 1024) (p : Fin 256) :
    ublk0 us t (ix2 p (0 : Fin 1)) = us (ix2 (⟨256 * t + p.val, by omega⟩ : Fin 262144) (0 : Fin 1)) := by
  have hN : t < cfg0.N := by rw [cfg0_N]; exact ht
  unfold ublk0
  rw [dif_pos hN]
  obtain ⟨e0, e1, e2, e3⟩ := idx_facts0 ⟨t, hN⟩
  show us (((cfg0.win 0).blk ⟨t, hN⟩).view.emb (ix2 p (0 : Fin 1))) = _
  refine congrArg us (funext fun a => Fin.ext ?_)
  match a with
  | ⟨0, _⟩ =>
    show win0_0.index ⟨t, hN⟩ (0 : Fin 2) * 256 + 1 * p.val = 256 * t + p.val
    rw [e0]; show t * 256 + 1 * p.val = _; omega
  | ⟨1, _⟩ =>
    show win0_0.index ⟨t, hN⟩ (1 : Fin 2) * 1 + 1 * 0 = 0
    rw [e1]

theorem vblk0_apply (vs : Vec Ideal S262144x1 .i32) (t : ℕ) (ht : t < 1024) (p : Fin 256) :
    vblk0 vs t (ix2 p (0 : Fin 1)) = vs (ix2 (⟨256 * t + p.val, by omega⟩ : Fin 262144) (0 : Fin 1)) := by
  have hN : t < cfg0.N := by rw [cfg0_N]; exact ht
  unfold vblk0
  rw [dif_pos hN]
  obtain ⟨e0, e1, e2, e3⟩ := idx_facts0 ⟨t, hN⟩
  show vs (((cfg0.win 1).blk ⟨t, hN⟩).view.emb (ix2 p (0 : Fin 1))) = _
  refine congrArg vs (funext fun a => Fin.ext ?_)
  match a with
  | ⟨0, _⟩ =>
    show win0_1.index ⟨t, hN⟩ (0 : Fin 2) * 256 + 1 * p.val = 256 * t + p.val
    rw [e2]; show t * 256 + 1 * p.val = _; omega
  | ⟨1, _⟩ =>
    show win0_1.index ⟨t, hN⟩ (1 : Fin 2) * 1 + 1 * 0 = 0
    rw [e3]

def edgeTerm (us vs : Vec Ideal S262144x1 .i32) (hi : S8192x256.Idx → EReal) (n : Fin 8192) (d : Fin 256) (k : ℕ) : EReal :=
  if h : k < 262144 then
    (if (vs (ix2 (⟨k, h⟩ : Fin 262144) (0 : Fin 1))).toNat = n.val
      then rowAt hi (us (ix2 (⟨k, h⟩ : Fin 262144) (0 : Fin 1))).toNat d else 0)
  else 0

theorem chunkSum_blk (us vs : Vec Ideal S262144x1 .i32) (hi : S8192x256.Idx → EReal) (n : Fin 8192) (d : Fin 256)
    (t : ℕ) (ht : t < 1024) :
    chunkSum (ublk0 us t) (vblk0 vs t) hi n d = ∑ k ∈ Finset.Ico (256 * t) (256 * t + 256), edgeTerm us vs hi n d k := by
  rw [Finset.sum_Ico_eq_sum_range, Nat.add_sub_cancel_left, ← Fin.sum_univ_eq_sum_range (fun k => edgeTerm us vs hi n d (256 * t + k)) 256]
  unfold chunkSum
  refine Finset.sum_congr rfl fun p _ => ?_
  have hk : 256 * t + p.val < 262144 := by have := p.isLt; omega
  rw [ublk0_apply us t ht p, vblk0_apply vs t ht p]
  unfold edgeTerm
  rw [dif_pos hk, ite_mul, one_mul, zero_mul]

theorem acc0_val (us vs : Vec Ideal S262144x1 .i32) (hi lo : Vec Ideal S8192x256 .bf16) (hlo : ∀ i, lo i = 0)
    (n : Fin 8192) (d : Fin 256) (a : ℕ) (ha : a < 2) :
    ∀ j : ℕ, j < 512 → acc0 us vs hi lo (512 * a + j) (ix2 n d)
      = ∑ k ∈ Finset.Ico (256 * (512 * a)) (256 * (512 * a + j) + 256), edgeTerm us vs hi n d k := by
  intro j
  induction j with
  | zero =>
    intro _
    rw [Nat.add_zero, acc0_of_first us vs hi lo (512 * a) (by omega), step0_apply _ _ _ _ hlo, pay3_apply, zero_add,
      chunkSum_blk us vs hi n d (512 * a) (by omega)]
  | succ j ih =>
    intro hj
    have hne : (512 * a + (j + 1)) % 512 ≠ 0 := by omega
    rw [acc0_of_later us vs hi lo (512 * a + (j + 1)) hne, step0_apply _ _ _ _ hlo,
      show 512 * a + (j + 1) - 1 = 512 * a + j by omega, ih (by omega),
      chunkSum_blk us vs hi n d (512 * a + (j + 1)) (by omega),
      show 256 * (512 * a + j) + 256 = 256 * (512 * a + (j + 1)) by omega]
    exact Finset.sum_Ico_consecutive _ (by omega) (by omega)

theorem half_sum (us vs : Vec Ideal S262144x1 .i32) (hi : S8192x256.Idx → EReal)
    (hus : ∀ e : Fin 262144, (us (ix2 e (0 : Fin 1))).toNat < 8192) (n : Fin 8192) (d : Fin 256) (a : Fin 2) :
    ∑ k ∈ Finset.Ico (256 * (512 * a.val)) (256 * (512 * a.val + 511) + 256), edgeTerm us vs hi n d k
      = ∑ e ∈ (Finset.univ.filter fun e : Fin 262144 => e.val / 131072 = a.val ∧ (vs (ix2 e (0 : Fin 1))).toNat = n.val),
          hi (ix2 (⟨(us (ix2 e (0 : Fin 1))).toNat, hus e⟩ : Fin 8192) d) := by
  have hIco : Finset.Ico (256 * (512 * a.val)) (256 * (512 * a.val + 511) + 256)
      = (Finset.range 262144).filter (fun k => k / 131072 = a.val) := by
    ext k
    have := a.isLt
    simp only [Finset.mem_Ico, Finset.mem_filter, Finset.mem_range]
    omega
  rw [hIco, Finset.sum_filter, ← Fin.sum_univ_eq_sum_range (fun k => if k / 131072 = a.val then edgeTerm us vs hi n d k else 0) 262144,
    Finset.sum_filter]
  refine Finset.sum_congr rfl fun e _ => ?_
  unfold edgeTerm
  rw [dif_pos e.isLt, rowAt_of_lt hi _ d (hus e)]
  by_cases h1 : e.val / 131072 = a.val
  · by_cases h2 : (vs (ix2 e (0 : Fin 1))).toNat = n.val
    · rw [if_pos h1, if_pos h2, if_pos ⟨h1, h2⟩]
    · rw [if_pos h1, if_neg h2, if_neg (fun h => h2 h.2)]
  · rw [if_neg h1, if_neg (fun h => h1 h.1)]

theorem regOut0_val (us vs : Vec Ideal S262144x1 .i32) (hi lo : Vec Ideal S8192x256 .bf16) (hlo : ∀ i, lo i = 0)
    (hus : ∀ e : Fin 262144, (us (ix2 e (0 : Fin 1))).toNat < 8192)
    (hvs : ∀ e : Fin 262144, (vs (ix2 e (0 : Fin 1))).toNat < 8192)
    (a : Fin 2) (n : Fin 8192) (d : Fin 256) :
    regOut0 us vs hi lo (ix3 a n d)
      = ∑ e ∈ (Finset.univ.filter fun e : Fin 262144 => e.val / 131072 = a.val ∧ (vs (ix2 e (0 : Fin 1))).toNat = n.val),
          hi (ix2 (⟨(us (ix2 e (0 : Fin 1))).toNat, hus e⟩ : Fin 8192) d) := by
  rw [regOut0_apply, acc0_val us vs hi lo hlo n d a.val a.isLt 511 (by omega), half_sum us vs hi hus n d a]

end Cert.KernelIdeal.Val0

end
-- ==== Proof.Reg1Val.lean ====
import proofs.«428349_j38809324486859_3_alg».proof.Proof.Reg1Defs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val1

open Cert.KernelIdeal Cert.KernelIdeal.Gen Cert.KernelIdeal.Hand
open Idealize.ShloMosaic Idealize.ShloMosaic.ValueIdx

theorem oneHotWord (w : BitVec 32) (n : Fin 8192) :
    FloatOps.sitofp (F := Ideal) .f32 ((IntOp.cmpi .eq w (BitVec.ofNat 32 n.val)).setWidth 32)
      = if w.toNat = n.val then (1 : EReal) else 0 := by
  have hn : (BitVec.ofNat 32 n.val).toNat = n.val := by
    rw [BitVec.toNat_ofNat]; have := n.isLt; omega
  by_cases h : w.toNat = n.val
  · have hw : w = BitVec.ofNat 32 n.val := BitVec.eq_of_toNat_eq (h.trans hn.symm)
    rw [if_pos h, ← hw]
    show ((((BitVec.ofBool (w == w)).setWidth 32).toInt : ℝ) : EReal) = 1
    rw [beq_self_eq_true]
    have e : ((BitVec.ofBool true).setWidth 32).toInt = 1 := by decide
    rw [e]
    norm_num
  · have hne : (w == BitVec.ofNat 32 n.val) = false := by
      rw [beq_eq_false_iff_ne]
      intro e; exact h ((congrArg BitVec.toNat e).trans hn)
    rw [if_neg h]
    show ((((BitVec.ofBool (w == BitVec.ofNat 32 n.val)).setWidth 32).toInt : ℝ) : EReal) = 0
    rw [hne]
    norm_num

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem onehotV_apply (v : Vec Ideal S512x1 .i32) (p : Fin 512) (n : Fin 8192) :
    k1_pay12 (F := Ideal) v (ix2 p n) = if (v (ix2 p (0 : Fin 1))).toNat = n.val then (1 : EReal) else 0 := by
  unfold k1_pay12
  rw [truncf_apply, sitofp_apply, extui_apply]
  show FloatOps.sitofp (F := Ideal) .f32 ((IntOp.cmpi .eq
      (broadcastTo S512x8192 (shapeCast S512x1 v shapeCasts_S512x1_S512x1) broadcasts_S512x1_S512x8192 (ix2 p n))
      (broadcastTo S512x8192 (iota .tc S1x8192 32 [1] iota_S1x8192_d1_w32) broadcasts_S1x8192_S512x8192 (ix2 p n))).setWidth 32) = _
  rw [broadcastTo_a1_ab_apply, broadcastTo_1b_ab_apply, shapeCast_self, iota_single_apply]
  exact oneHotWord _ n

theorem lhsScat_0 (j : S3x8192.Idx) (q : dot_S3x512_S512x8192_S3x8192_1_0_0_1_n_n.contr.Idx) :
    (dot_S3x512_S512x8192_S3x8192_1_0_0_1_n_n.lhsIdx j q 0 : ℕ) = j 0 := by
  simp [DotDims.lhsIdx, dot_S3x512_S512x8192_S3x8192_1_0_0_1_n_n]; rfl
theorem lhsScat_1 (j : S3x8192.Idx) (q : dot_S3x512_S512x8192_S3x8192_1_0_0_1_n_n.contr.Idx) :
    (dot_S3x512_S512x8192_S3x8192_1_0_0_1_n_n.lhsIdx j q 1 : ℕ) = q ⟨0, by decide⟩ := by
  simp [DotDims.lhsIdx, dot_S3x512_S512x8192_S3x8192_1_0_0_1_n_n]; rfl
theorem rhsScat_0 (j : S3x8192.Idx) (q : dot_S3x512_S512x8192_S3x8192_1_0_0_1_n_n.contr.Idx) :
    (dot_S3x512_S512x8192_S3x8192_1_0_0_1_n_n.rhsIdx j q 0 : ℕ) = q ⟨0, by decide⟩ := by
  simp [DotDims.rhsIdx, dot_S3x512_S512x8192_S3x8192_1_0_0_1_n_n]; rfl
theorem rhsScat_1 (j : S3x8192.Idx) (q : dot_S3x512_S512x8192_S3x8192_1_0_0_1_n_n.contr.Idx) :
    (dot_S3x512_S512x8192_S3x8192_1_0_0_1_n_n.rhsIdx j q 1 : ℕ) = j 1 := by
  simp [DotDims.rhsIdx, dot_S3x512_S512x8192_S3x8192_1_0_0_1_n_n]; rfl

theorem scatDot_apply (x : FVec Ideal S3x512 .bf16) (y : FVec Ideal S512x8192 .bf16) (k : Fin 3) (n : Fin 8192) :
    matmul dot_S3x512_S512x8192_S3x8192_1_0_0_1_n_n none x y (constant (F := Ideal) S3x8192 .f32 0x00000000#32) (ix2 k n)
      = ∑ p : Fin 512, x (ix2 k p) * y (ix2 p n) := by
  show FloatOps.matmul dot_S3x512_S512x8192_S3x8192_1_0_0_1_n_n none x y (constant (F := Ideal) S3x8192 .f32 0x00000000#32) (ix2 k n) = _
  rw [Ideal.matmul_constant_zero_apply,
    ← Equiv.sum_comp (contrEquiv1 dot_S3x512_S512x8192_S3x8192_1_0_0_1_n_n 512 rfl rfl).symm]
  refine Finset.sum_congr rfl fun p _ => ?_
  have hp := contrEquiv1_symm_val dot_S3x512_S512x8192_S3x8192_1_0_0_1_n_n 512 rfl rfl p
  congr 1
  · refine congrArg x (funext fun a => Fin.ext ?_)
    match a with
    | ⟨0, _⟩ => exact lhsScat_0 _ _
    | ⟨1, _⟩ => exact (lhsScat_1 _ _).trans hp
  · refine congrArg y (funext fun a => Fin.ext ?_)
    match a with
    | ⟨0, _⟩ => exact (rhsScat_0 _ _).trans hp
    | ⟨1, _⟩ => exact rhsScat_1 _ _

theorem mask_eq (mk : Vec Ideal S3x512 .bf16) : k1_pay13 (F := Ideal) mk = mk := by
  unfold k1_pay13
  exact shapeCast_self _ _

theorem maskF_apply (mk : Vec Ideal S3x512 .bf16) (k : Fin 3) (p : Fin 512) :
    k1_pay15 (F := Ideal) mk (ix2 k p) = mk (ix2 k p) := by
  unfold k1_pay15
  rw [extf_apply, mask_eq]

theorem attn_eq (tt : Vec Ideal S1x512 .f32) : k1_pay14 (F := Ideal) tt = tt := by
  unfold k1_pay14
  exact shapeCast_self _ _

theorem payLo_apply (mk : Vec Ideal S3x512 .bf16) (tt : Vec Ideal S1x512 .f32)
    (htt : ∀ p : Fin 512, ∃ r : ℝ, tt (ix2 (0 : Fin 1) p) = (r : EReal)) (k : Fin 3) (p : Fin 512) :
    payLo mk tt (ix2 k p) = 0 := by
  show k1_pay16 mk tt (ix2 k p) = 0
  unfold k1_pay16
  rw [truncf_apply, mulf_apply, broadcastTo_1b_ab_apply, subf_apply, attn_eq]
  obtain ⟨r, hr⟩ := htt p
  rw [hr, ← EReal.coe_sub, sub_self, EReal.coe_zero, mul_zero]

theorem stepNum_apply (vs : Vec Ideal S512x1 .i32) (tt : Vec Ideal S1x512 .f32) (mk : Vec Ideal S3x512 .bf16)
    (s : Vec Ideal S3x8192 .f32) (htt : ∀ p : Fin 512, ∃ r : ℝ, tt (ix2 (0 : Fin 1) p) = (r : EReal))
    (k : Fin 3) (n : Fin 8192) :
    stepNum vs tt mk s (ix2 k n)
      = s (ix2 k n) + ∑ p : Fin 512,
          if (vs (ix2 p (0 : Fin 1))).toNat = n.val then mk (ix2 k p) * tt (ix2 (0 : Fin 1) p) else 0 := by
  unfold stepNum k1_pay2 k1_pay1
  rw [shapeCast_self, shapeCast_self, addf_apply, scatDot_apply]
  show k1_pay17 vs mk tt s (ix2 k n) + _ = _
  unfold k1_pay17
  rw [addf_apply, scatDot_apply]
  have hlo : ∑ p : Fin 512, payLo mk tt (ix2 k p) * k1_pay12 vs (ix2 p n) = 0 :=
    Finset.sum_eq_zero fun p _ => by rw [payLo_apply mk tt htt, zero_mul]
  rw [hlo, add_zero]
  congr 1
  refine Finset.sum_congr rfl fun p _ => ?_
  rw [truncf_apply, mulf_apply, maskF_apply, broadcastTo_1b_ab_apply, attn_eq, onehotV_apply, mul_ite, mul_one, mul_zero]

theorem stepCnt_apply (vs : Vec Ideal S512x1 .i32) (mk : Vec Ideal S3x512 .bf16) (s : Vec Ideal S3x8192 .f32)
    (k : Fin 3) (n : Fin 8192) :
    stepCnt vs mk s (ix2 k n)
      = s (ix2 k n) + ∑ p : Fin 512, if (vs (ix2 p (0 : Fin 1))).toNat = n.val then mk (ix2 k p) else 0 := by
  unfold stepCnt k1_pay3
  rw [shapeCast_self, addf_apply, scatDot_apply, mask_eq]
  congr 1
  refine Finset.sum_congr rfl fun p _ => ?_
  rw [onehotV_apply, mul_ite, mul_one, mul_zero]

theorem stepSrc_apply (us : Vec Ideal S512x1 .i32) (mk : Vec Ideal S3x512 .bf16) (s : Vec Ideal S3x8192 .f32)
    (k : Fin 3) (n : Fin 8192) :
    stepSrc us mk s (ix2 k n)
      = s (ix2 k n) + ∑ p : Fin 512, if (us (ix2 p (0 : Fin 1))).toNat = n.val then mk (ix2 k p) else 0 :=
  stepCnt_apply us mk s k n

theorem zeroNum_apply (k : Fin 3) (n : Fin 8192) : (zero1 (F := Ideal)).1 (ix2 k n) = 0 := by
  show k1_pay8 (F := Ideal) (ix2 k n) = 0
  unfold k1_pay8
  rw [shapeCast_self, broadcast_apply]
  exact Ideal.ofBits_zero_f32
theorem zeroCnt_apply (k : Fin 3) (n : Fin 8192) : (zero1 (F := Ideal)).2.1 (ix2 k n) = 0 :=
  zeroNum_apply k n
theorem zeroSrc_apply (k : Fin 3) (n : Fin 8192) : (zero1 (F := Ideal)).2.2 (ix2 k n) = 0 :=
  zeroNum_apply k n

theorem chunkIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

theorem edge_lt (t : Fin cfg1.N) (p : Fin 512) : 512 * t.val + p.val < 262144 := by
  have : cfg1.N = 512 := N_1
  have := t.isLt; have := p.isLt; omega

theorem blkU_apply (us : Vec Ideal S262144x1 .i32) (t : Fin cfg1.N) (p : Fin 512) :
    blkU us t (ix2 p (0 : Fin 1)) = us (ix2 (⟨512 * t.val + p.val, edge_lt t p⟩ : Fin 262144) (0 : Fin 1)) := by
  obtain ⟨e0, e1, -, -, -, -, -, -⟩ := chunkIndex t
  show us ((win1_0.blk t).view.emb (ix2 p (0 : Fin 1))) = _
  refine congrArg us (funext fun a => Fin.ext ?_)
  match a with
  | ⟨0, _⟩ => show win1_0.index t (0 : Fin 2) * 512 + 1 * p.val = 512 * t.val + p.val; omega
  | ⟨1, _⟩ => show win1_0.index t (1 : Fin 2) * 1 + 1 * 0 = 0; omega

theorem blkV_apply (vs : Vec Ideal S262144x1 .i32) (t : Fin cfg1.N) (p : Fin 512) :
    blkV vs t (ix2 p (0 : Fin 1)) = vs (ix2 (⟨512 * t.val + p.val, edge_lt t p⟩ : Fin 262144) (0 : Fin 1)) := by
  obtain ⟨-, -, e0, e1, -, -, -, -⟩ := chunkIndex t
  show vs ((win1_1.blk t).view.emb (ix2 p (0 : Fin 1))) = _
  refine congrArg vs (funext fun a => Fin.ext ?_)
  match a with
  | ⟨0, _⟩ => show win1_1.index t (0 : Fin 2) * 512 + 1 * p.val = 512 * t.val + p.val; omega
  | ⟨1, _⟩ => show win1_1.index t (1 : Fin 2) * 1 + 1 * 0 = 0; omega

theorem blkT_apply (tt : Vec Ideal S1x262144 .f32) (t : Fin cfg1.N) (p : Fin 512) :
    blkT tt t (ix2 (0 : Fin 1) p) = tt (ix2 (0 : Fin 1) (⟨512 * t.val + p.val, edge_lt t p⟩ : Fin 262144)) := by
  obtain ⟨-, -, -, -, e0, e1, -, -⟩ := chunkIndex t
  show tt ((win1_2.blk t).view.emb (ix2 (0 : Fin 1) p)) = _
  refine congrArg tt (funext fun a => Fin.ext ?_)
  match a with
  | ⟨0, _⟩ => show win1_2.index t (0 : Fin 2) * 1 + 1 * 0 = 0; omega
  | ⟨1, _⟩ => show win1_2.index t (1 : Fin 2) * 512 + 1 * p.val = 512 * t.val + p.val; omega

theorem blkM_apply (mk : Vec Ideal S3x262144 .bf16) (t : Fin cfg1.N) (k : Fin 3) (p : Fin 512) :
    blkM mk t (ix2 k p) = mk (ix2 k (⟨512 * t.val + p.val, edge_lt t p⟩ : Fin 262144)) := by
  obtain ⟨-, -, -, -, -, -, e0, e1⟩ := chunkIndex t
  show mk ((win1_3.blk t).view.emb (ix2 k p)) = _
  refine congrArg mk (funext fun a => Fin.ext ?_)
  match a with
  | ⟨0, _⟩ => show win1_3.index t (0 : Fin 2) * 3 + 1 * k.val = k.val; omega
  | ⟨1, _⟩ => show win1_3.index t (1 : Fin 2) * 512 + 1 * p.val = 512 * t.val + p.val; omega

def ext0 (g : Fin 262144 → EReal) (i : ℕ) : EReal := if h : i < 262144 then g ⟨i, h⟩ else 0

theorem ext0_of_lt (g : Fin 262144 → EReal) {i : ℕ} (h : i < 262144) : ext0 g i = g ⟨i, h⟩ := dif_pos h

theorem half_sum (g : Fin 262144 → EReal) (a : Fin 2) :
    ∑ i ∈ Finset.range 131072, ext0 g (131072 * a.val + i)
      = ∑ e ∈ Finset.univ.filter (fun e : Fin 262144 => e.val / 131072 = a.val), g e := by
  have ha := a.isLt
  refine Finset.sum_bij
    (fun i hi => (⟨131072 * a.val + i, by have := Finset.mem_range.mp hi; omega⟩ : Fin 262144)) ?_ ?_ ?_ ?_
  · intro i hi
    have := Finset.mem_range.mp hi
    rw [Finset.mem_filter]
    exact ⟨Finset.mem_univ _, by show (131072 * a.val + i) / 131072 = a.val; omega⟩
  · intro i hi i' hi' e
    have h3 : 131072 * a.val + i = 131072 * a.val + i' := congrArg Fin.val e
    omega
  · intro e he
    rw [Finset.mem_filter] at he
    have h2 : e.val / 131072 = a.val := he.2
    have := e.isLt
    refine ⟨e.val - 131072 * a.val, Finset.mem_range.mpr (by omega), Fin.ext ?_⟩
    show 131072 * a.val + (e.val - 131072 * a.val) = e.val
    omega
  · intro i hi
    have := Finset.mem_range.mp hi
    exact ext0_of_lt g (by omega)

theorem half_filter_sum (c : Fin 262144 → Prop) [DecidablePred c] (f : Fin 262144 → EReal) (a : Fin 2) :
    ∑ i ∈ Finset.range (512 * (255 + 1)), ext0 (fun e => if c e then f e else 0) (131072 * a.val + i)
      = ∑ e ∈ Finset.univ.filter (fun e : Fin 262144 => e.val / 131072 = a.val ∧ c e), f e := by
  rw [show 512 * (255 + 1) = 131072 from rfl, half_sum, ← Finset.sum_filter, Finset.filter_filter]

section Sweep
variable (us vs : Vec Ideal S262144x1 .i32) (tt : Vec Ideal S1x262144 .f32) (mk : Vec Ideal S3x262144 .bf16)

theorem acc1_at_first (m : ℕ) (hm : m < cfg1.N) (h : m % 256 = 0) :
    acc1 us vs tt mk m hm = stepAt us vs tt mk ⟨m, hm⟩ zero1 :=
  acc1_first us vs tt mk ⟨m, hm⟩ h

theorem acc1_at_next (n m : ℕ) (e : m = n + 1) (hm : m < cfg1.N) (hn : n < cfg1.N) (h : m % 256 ≠ 0) :
    acc1 us vs tt mk m hm = stepAt us vs tt mk ⟨m, hm⟩ (acc1 us vs tt mk n hn) := by
  subst e
  rw [acc1_succ, if_neg h]

theorem sweep_sum (π : Acc Ideal → EReal) (g : Fin 262144 → EReal) (h0 : π zero1 = 0)
    (hstep : ∀ (t : Fin cfg1.N) (s : Acc Ideal),
      π (stepAt us vs tt mk t s) = π s + ∑ p : Fin 512, g ⟨512 * t.val + p.val, edge_lt t p⟩)
    (a : Fin 2) (j : ℕ) (hj : j < 256) (hlt : 256 * a.val + j < cfg1.N) :
    π (acc1 us vs tt mk (256 * a.val + j) hlt)
      = ∑ i ∈ Finset.range (512 * (j + 1)), ext0 g (131072 * a.val + i) := by
  have hN : cfg1.N = 512 := N_1
  have ha := a.isLt
  have chunk : ∀ t : Fin cfg1.N, ∑ p : Fin 512, g ⟨512 * t.val + p.val, edge_lt t p⟩
      = ∑ i ∈ Finset.range 512, ext0 g (512 * t.val + i) := by
    intro t
    rw [← Fin.sum_univ_eq_sum_range (fun i => ext0 g (512 * t.val + i)) 512]
    exact Finset.sum_congr rfl fun p _ => (ext0_of_lt g (edge_lt t p)).symm
  induction j with
  | zero =>
    rw [acc1_at_first us vs tt mk (256 * a.val + 0) hlt (by omega), hstep, h0, zero_add, chunk]
    refine Finset.sum_congr rfl fun i _ => congrArg (ext0 g) ?_
    show 512 * (256 * a.val + 0) + i = 131072 * a.val + i
    omega
  | succ j ih =>
    have hlt' : 256 * a.val + j < cfg1.N := by omega
    rw [acc1_at_next us vs tt mk (256 * a.val + j) (256 * a.val + (j + 1)) (by omega) hlt hlt' (by omega), hstep,
      ih (by omega) hlt', chunk, show 512 * (j + 1 + 1) = 512 * (j + 1) + 512 from by omega, Finset.sum_range_add]
    congr 1
    refine Finset.sum_congr rfl fun i _ => congrArg (ext0 g) ?_
    show 512 * (256 * a.val + (j + 1)) + i = 131072 * a.val + (512 * (j + 1) + i)
    omega

end Sweep

theorem slice_idx (j : S1x3x8192.Idx) : j = ix3 (0 : Fin 1) (j 1 : Fin 3) (j 2 : Fin 8192) := by
  funext b; apply Fin.ext
  match b with
  | ⟨0, _⟩ => have h0 : (j 0).val < 1 := (j 0).isLt; show (j 0).val = 0; omega
  | ⟨1, _⟩ => rfl
  | ⟨2, _⟩ => rfl

theorem liftNum_apply (v : Vec Ideal S3x8192 .f32) (j : S1x3x8192.Idx) :
    k1_pay5 (F := Ideal) v j = v (ix2 (j 1 : Fin 3) (j 2 : Fin 8192)) := by
  show shapeCast S1x3x8192 v shapeCasts_S3x8192_S1x3x8192 j = _
  exact (congrArg (shapeCast S1x3x8192 v shapeCasts_S3x8192_S1x3x8192) (slice_idx j)).trans
    (shapeCast_ab_1ab_apply v _ (0 : Fin 1) (j 1 : Fin 3) (j 2 : Fin 8192))
theorem liftCnt_apply (v : Vec Ideal S3x8192 .f32) (j : S1x3x8192.Idx) :
    k1_pay6 (F := Ideal) v j = v (ix2 (j 1 : Fin 3) (j 2 : Fin 8192)) :=
  liftNum_apply v j
theorem liftSrc_apply (v : Vec Ideal S3x8192 .f32) (j : S1x3x8192.Idx) :
    k1_pay7 (F := Ideal) v j = v (ix2 (j 1 : Fin 3) (j 2 : Fin 8192)) :=
  liftNum_apply v j

section Results
variable (us vs : S262144x1.Idx → BitVec 32) (tt : S1x262144.Idx → EReal) (mk : S3x262144.Idx → EReal)

theorem regOut1_0_val (htt : ∀ i, ∃ r : ℝ, tt i = (r : EReal)) (hmk : ∀ i, mk i = 0 ∨ mk i = 1)
    (hvs : ∀ e : Fin 262144, (vs (ix2 e (0 : Fin 1))).toNat < 8192) (a : Fin 2) (k : Fin 3) (n : Fin 8192) :
    regOut1_0 (F := Ideal) us vs tt mk (ix3 a k n)
      = ∑ e ∈ Finset.univ.filter (fun e : Fin 262144 =>
            e.val / 131072 = a.val ∧ (vs (ix2 e (0 : Fin 1))).toNat = n.val),
          mk (ix2 k e) * tt (ix2 (0 : Fin 1) e) := by
  show k1_pay5 (acc1 (F := Ideal) us vs tt mk (256 * a.val + 255) (lastOf_lt a)).1 _ = _
  rw [liftNum_apply]
  show (acc1 (F := Ideal) us vs tt mk (256 * a.val + 255) (lastOf_lt a)).1 (ix2 k n) = _
  refine (sweep_sum us vs tt mk (fun s => s.1 (ix2 k n))
      (fun e => if (vs (ix2 e (0 : Fin 1))).toNat = n.val then mk (ix2 k e) * tt (ix2 (0 : Fin 1) e) else 0)
      (zeroNum_apply k n) (fun t s => ?_) a 255 (by omega) (lastOf_lt a)).trans
    (half_filter_sum (fun e => (vs (ix2 e (0 : Fin 1))).toNat = n.val)
      (fun e => mk (ix2 k e) * tt (ix2 (0 : Fin 1) e)) a)
  show stepNum (blkV vs t) (blkT tt t) (blkM mk t) s.1 (ix2 k n) = s.1 (ix2 k n) + _
  rw [stepNum_apply _ _ _ _ (fun p => by rw [blkT_apply]; exact htt _) k n]
  congr 1
  refine Finset.sum_congr rfl fun p _ => ?_
  rw [blkV_apply, blkM_apply, blkT_apply]

theorem regOut1_1_val (htt : ∀ i, ∃ r : ℝ, tt i = (r : EReal)) (hmk : ∀ i, mk i = 0 ∨ mk i = 1)
    (hvs : ∀ e : Fin 262144, (vs (ix2 e (0 : Fin 1))).toNat < 8192) (a : Fin 2) (k : Fin 3) (n : Fin 8192) :
    regOut1_1 (F := Ideal) us vs tt mk (ix3 a k n)
      = ∑ e ∈ Finset.univ.filter (fun e : Fin 262144 =>
            e.val / 131072 = a.val ∧ (vs (ix2 e (0 : Fin 1))).toNat = n.val),
          mk (ix2 k e) := by
  show k1_pay6 (acc1 (F := Ideal) us vs tt mk (256 * a.val + 255) (lastOf_lt a)).2.1 _ = _
  rw [liftCnt_apply]
  show (acc1 (F := Ideal) us vs tt mk (256 * a.val + 255) (lastOf_lt a)).2.1 (ix2 k n) = _
  refine (sweep_sum us vs tt mk (fun s => s.2.1 (ix2 k n))
      (fun e => if (vs (ix2 e (0 : Fin 1))).toNat = n.val then mk (ix2 k e) else 0)
      (zeroCnt_apply k n) (fun t s => ?_) a 255 (by omega) (lastOf_lt a)).trans
    (half_filter_sum (fun e => (vs (ix2 e (0 : Fin 1))).toNat = n.val) (fun e => mk (ix2 k e)) a)
  show stepCnt (blkV vs t) (blkM mk t) s.2.1 (ix2 k n) = s.2.1 (ix2 k n) + _
  rw [stepCnt_apply]
  congr 1
  refine Finset.sum_congr rfl fun p _ => ?_
  rw [blkV_apply, blkM_apply]

theorem regOut1_2_val (htt : ∀ i, ∃ r : ℝ, tt i = (r : EReal)) (hmk : ∀ i, mk i = 0 ∨ mk i = 1)
    (hus : ∀ e : Fin 262144, (us (ix2 e (0 : Fin 1))).toNat < 8192) (a : Fin 2) (k : Fin 3) (n : Fin 8192) :
    regOut1_2 (F := Ideal) us vs tt mk (ix3 a k n)
      = ∑ e ∈ Finset.univ.filter (fun e : Fin 262144 =>
            e.val / 131072 = a.val ∧ (us (ix2 e (0 : Fin 1))).toNat = n.val),
          mk (ix2 k e) := by
  show k1_pay7 (acc1 (F := Ideal) us vs tt mk (256 * a.val + 255) (lastOf_lt a)).2.2 _ = _
  rw [liftSrc_apply]
  show (acc1 (F := Ideal) us vs tt mk (256 * a.val + 255) (lastOf_lt a)).2.2 (ix2 k n) = _
  refine (sweep_sum us vs tt mk (fun s => s.2.2 (ix2 k n))
      (fun e => if (us (ix2 e (0 : Fin 1))).toNat = n.val then mk (ix2 k e) else 0)
      (zeroSrc_apply k n) (fun t s => ?_) a 255 (by omega) (lastOf_lt a)).trans
    (half_filter_sum (fun e => (us (ix2 e (0 : Fin 1))).toNat = n.val) (fun e => mk (ix2 k e)) a)
  show stepSrc (blkU us t) (blkM mk t) s.2.2 (ix2 k n) = s.2.2 (ix2 k n) + _
  rw [stepSrc_apply]
  congr 1
  refine Finset.sum_congr rfl fun p _ => ?_
  rw [blkU_apply, blkM_apply]

end Results

end Cert.KernelIdeal.Val1

end
-- ==== Proof.SpecFacts.lean ====
import proofs.«428349_j38809324486859_3_alg».proof.Proof.SpecArgs

noncomputable section

namespace Cert.Spec

open Idealize.ShloMosaic

theorem tanh_real (x : EReal) : ∃ r : ℝ, Ideal.tanh x = (r : EReal) := by
  induction x using EReal.rec with
  | bot => exact ⟨-1, by rw [Ideal.tanh_bot]; norm_num⟩
  | coe r => exact ⟨Real.tanh r, rfl⟩
  | top => exact ⟨1, by rw [Ideal.tanh_top]; norm_num⟩

section

variable (h : Fin 8192 → Fin 256 → EReal) (A : Fin 3 → Fin 8192 → Fin 8192 → EReal)
  (wc : Fin 256 → Fin 256 → EReal) (bc : Fin 256 → EReal)
  (wW : Fin 256 → Fin 256 → EReal) (bW : Fin 256 → EReal)
  (wa : Fin 512 → EReal) (ba : EReal)
  (u v : Fin 262144 → Fin 8192)

theorem t_real (e : Fin 262144) : ∃ r : ℝ, t h wc bc wW bW wa ba u v e = (r : EReal) := tanh_real _

theorem ind_zero_or_one (k : Fin 3) (e : Fin 262144) : ind A u v k e = 0 ∨ ind A u v k e = 1 := by
  unfold ind; split
  · exact Or.inr rfl
  · exact Or.inl rfl

theorem ind_mul (k : Fin 3) (e : Fin 262144) (x : EReal) :
    ind A u v k e * x = if counted A u v k e then x else 0 := by
  unfold ind; split
  · exact one_mul x
  · exact zero_mul x

end

end Cert.Spec

end
-- ==== Proof.BridgeK.lean ====
import proofs.«428349_j38809324486859_3_alg».proof.Proof.RegionsKernelIdeal
import proofs.«428349_j38809324486859_3_alg».proof.Proof.Reg0Val
import proofs.«428349_j38809324486859_3_alg».proof.Proof.Reg1Val
import proofs.«428349_j38809324486859_3_alg».proof.Proof.SpecFacts
import Idealize.ShloMosaic.Lib.ValueIdx

noncomputable section

namespace Cert.KernelIdeal.Bridge

open Cert.KernelIdeal Cert.KernelIdeal.Gen Cert.KernelIdeal.GenP Cert.KernelIdeal.Hand
open Idealize.ShloMosaic Idealize.ShloMosaic.TcCoe Idealize.ShloMosaic.ValueIdx

variable (a0 : FVec Ideal S8192x256 .f32) (a1 : FVec Ideal S3x8192x8192 .f32) (a2 : FVec Ideal S256x256 .f32)
  (a3 : FVec Ideal S256 .f32) (a4 : FVec Ideal S256x256 .f32) (a5 : FVec Ideal S256 .f32)
  (a6 : FVec Ideal S512x1 .f32) (a7 : FVec Ideal S1 .f32) (a12 a13 : IVec S262144 32)
  (hus : ∀ e : Fin 262144, (a12 (ix1 e)).toNat < 8192) (hvs : ∀ e : Fin 262144, (a13 (ix1 e)).toNat < 8192)

-- A word of an endpoint column is `n` exactly when the node id read off it is.
theorem word_eq_iff (idx : IVec S262144 32) (hlt : ∀ e : Fin 262144, (idx (ix1 e)).toNat < 8192) (e : Fin 262144) (n : Fin 8192) :
    (idx (ix1 e)).toNat = n.val ↔ Cert.Spec.node idx hlt e = n :=
  ⟨fun h => Fin.ext h, fun h => congrArg Fin.val h⟩

section Pass0

variable (us vs : Vec Ideal S262144x1 .i32) (hi lo : Vec Ideal S8192x256 .bf16)
  (dUs : ∀ e : Fin 262144, us (ix2 e (0 : Fin 1)) = a12 (ix1 e))
  (dVs : ∀ e : Fin 262144, vs (ix2 e (0 : Fin 1)) = a13 (ix1 e))
  (dHi : ∀ (n : Fin 8192) (d : Fin 256), hi (ix2 n d) = Cert.Spec.hsOf a0 a2 a12 hus n d)
  (dLo : ∀ i, lo i = 0)

-- The pass's value is a sum over edges filtered by the target word; the words are the node ids, the features `hs`.
include dUs dVs dHi dLo in
theorem regOut0_spec (a : Fin 2) (n : Fin 8192) (d : Fin 256) :
    regOut0 us vs hi lo (ix3 a n d)
      = ∑ e ∈ (Finset.univ.filter fun e : Fin 262144 => e.val / 131072 = a.val ∧ Cert.Spec.node a13 hvs e = n),
          Cert.Spec.hsOf a0 a2 a12 hus (Cert.Spec.node a12 hus e) d := by
  have hus' : ∀ e : Fin 262144, (us (ix2 e (0 : Fin 1))).toNat < 8192 := fun e => by rw [dUs e]; exact hus e
  have hvs' : ∀ e : Fin 262144, (vs (ix2 e (0 : Fin 1))).toNat < 8192 := fun e => by rw [dVs e]; exact hvs e
  rw [Cert.KernelIdeal.Val0.regOut0_val us vs hi lo dLo hus' hvs' a n d]
  refine Finset.sum_congr (Finset.filter_congr fun e _ => ?_) fun e _ => ?_
  · rw [dVs e]; exact and_congr_right' (word_eq_iff a13 hvs e n)
  · have hval : (us (ix2 e (0 : Fin 1))).toNat = (a12 (ix1 e)).toNat := by rw [dUs e]
    rw [dHi]
    exact congrArg (fun x => Cert.Spec.hsOf a0 a2 a12 hus x d) (Fin.ext hval)

end Pass0

section Pass1

variable (us vs : S262144x1.Idx → BitVec 32) (tt : S1x262144.Idx → EReal) (mk : S3x262144.Idx → EReal)
  (dUs : ∀ e : Fin 262144, us (ix2 e (0 : Fin 1)) = a12 (ix1 e))
  (dVs : ∀ e : Fin 262144, vs (ix2 e (0 : Fin 1)) = a13 (ix1 e))
  (dT : ∀ e : Fin 262144, tt (ix2 (0 : Fin 1) e) = Cert.Spec.tOf a0 a2 a3 a4 a5 a6 a7 a12 a13 hus hvs e)
  (dM : ∀ (k : Fin 3) (e : Fin 262144), mk (ix2 k e) = Cert.Spec.indOf a1 a12 a13 hus hvs k e)

-- A score is a real number and an indicator is zero or one: what the second pass's value asks of its inputs.
include dT in
theorem tt_real (i : S1x262144.Idx) : ∃ r : ℝ, tt i = (r : EReal) := by
  obtain ⟨u, e, rfl⟩ : ∃ (u : Fin 1) (e : Fin 262144), i = ix2 u e := ⟨i 0, i 1, eq_ix2 i⟩
  rw [Subsingleton.elim u 0, dT]
  exact Cert.Spec.t_real (Cert.Spec.mat2 a0) (Cert.Spec.mat2 a2) (Cert.Spec.vec1 a3) (Cert.Spec.mat2 a4)
    (Cert.Spec.vec1 a5) (Cert.Spec.col1 a6) (Cert.Spec.the1 a7) (Cert.Spec.node a12 hus) (Cert.Spec.node a13 hvs) e

include dM in
theorem mk_bit (i : S3x262144.Idx) : mk i = 0 ∨ mk i = 1 := by
  obtain ⟨k, e, rfl⟩ : ∃ (k : Fin 3) (e : Fin 262144), i = ix2 k e := ⟨i 0, i 1, eq_ix2 i⟩
  rw [dM]
  exact Cert.Spec.ind_zero_or_one (Cert.Spec.ten3 a1) (Cert.Spec.node a12 hus) (Cert.Spec.node a13 hvs) k e

include dVs dT dM in
theorem regOut1_0_spec (a : Fin 2) (k : Fin 3) (n : Fin 8192) :
    regOut1_0 (F := Ideal) us vs tt mk (ix3 a k n)
      = ∑ e ∈ (Finset.univ.filter fun e : Fin 262144 => e.val / 131072 = a.val ∧ Cert.Spec.node a13 hvs e = n),
          (if Cert.Spec.counted (Cert.Spec.ten3 a1) (Cert.Spec.node a12 hus) (Cert.Spec.node a13 hvs) k e
            then Cert.Spec.tOf a0 a2 a3 a4 a5 a6 a7 a12 a13 hus hvs e else 0) := by
  have hvs' : ∀ e : Fin 262144, (vs (ix2 e (0 : Fin 1))).toNat < 8192 := fun e => by rw [dVs e]; exact hvs e
  rw [Cert.KernelIdeal.Val1.regOut1_0_val us vs tt mk (tt_real a0 a2 a3 a4 a5 a6 a7 a12 a13 hus hvs tt dT) (mk_bit a1 a12 a13 hus hvs mk dM) hvs' a k n]
  refine Finset.sum_congr (Finset.filter_congr fun e _ => ?_) fun e _ => ?_
  · rw [dVs e]; exact and_congr_right' (word_eq_iff a13 hvs e n)
  · rw [dM, dT]; exact Cert.Spec.ind_mul _ _ _ k e _

include dVs dT dM in
theorem regOut1_1_spec (a : Fin 2) (k : Fin 3) (n : Fin 8192) :
    regOut1_1 (F := Ideal) us vs tt mk (ix3 a k n)
      = ∑ e ∈ (Finset.univ.filter fun e : Fin 262144 => e.val / 131072 = a.val ∧ Cert.Spec.node a13 hvs e = n),
          Cert.Spec.indOf a1 a12 a13 hus hvs k e := by
  have hvs' : ∀ e : Fin 262144, (vs (ix2 e (0 : Fin 1))).toNat < 8192 := fun e => by rw [dVs e]; exact hvs e
  rw [Cert.KernelIdeal.Val1.regOut1_1_val us vs tt mk (tt_real a0 a2 a3 a4 a5 a6 a7 a12 a13 hus hvs tt dT) (mk_bit a1 a12 a13 hus hvs mk dM) hvs' a k n]
  refine Finset.sum_congr (Finset.filter_congr fun e _ => ?_) fun e _ => dM k e
  rw [dVs e]; exact and_congr_right' (word_eq_iff a13 hvs e n)

include dUs dT dM in
theorem regOut1_2_spec (a : Fin 2) (k : Fin 3) (n : Fin 8192) :
    regOut1_2 (F := Ideal) us vs tt mk (ix3 a k n)
      = ∑ e ∈ (Finset.univ.filter fun e : Fin 262144 => e.val / 131072 = a.val ∧ Cert.Spec.node a12 hus e = n),
          Cert.Spec.indOf a1 a12 a13 hus hvs k e := by
  have hus' : ∀ e : Fin 262144, (us (ix2 e (0 : Fin 1))).toNat < 8192 := fun e => by rw [dUs e]; exact hus e
  rw [Cert.KernelIdeal.Val1.regOut1_2_val us vs tt mk (tt_real a0 a2 a3 a4 a5 a6 a7 a12 a13 hus hvs tt dT) (mk_bit a1 a12 a13 hus hvs mk dM) hus' a k n]
  refine Finset.sum_congr (Finset.filter_congr fun e _ => ?_) fun e _ => dM k e
  rw [dUs e]; exact and_congr_right' (word_eq_iff a12 hus e n)

end Pass1

end Cert.KernelIdeal.Bridge

end
-- ==== Proof.Reg1Out.lean ====
import proofs.«428349_j38809324486859_3_alg».proof.Proof.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem acc1_congr (us vs : Vec F S262144x1 .i32) (tt : Vec F S1x262144 .f32) (mk : Vec F S3x262144 .bf16) {n n' : ℕ} (e : n = n')
    (h : n < cfg1.N) (h' : n' < cfg1.N) : acc1 us vs tt mk n h = acc1 us vs tt mk n' h' := by
  subst e; rfl

theorem hidx1_4 : ∀ t : Fin cfg1.N, win1_4.index t 0 = t.val / 256 ∧ win1_4.index t 1 = 0 ∧ win1_4.index t 2 = 0 :=
  (by decide +kernel : ∀ t : Fin grid1.N, win1_4.index t 0 = t.val / 256 ∧ win1_4.index t 1 = 0 ∧ win1_4.index t 2 = 0)
theorem hidx1_5 : ∀ t : Fin cfg1.N, win1_5.index t 0 = t.val / 256 ∧ win1_5.index t 1 = 0 ∧ win1_5.index t 2 = 0 :=
  (by decide +kernel : ∀ t : Fin grid1.N, win1_5.index t 0 = t.val / 256 ∧ win1_5.index t 1 = 0 ∧ win1_5.index t 2 = 0)
theorem hidx1_6 : ∀ t : Fin cfg1.N, win1_6.index t 0 = t.val / 256 ∧ win1_6.index t 1 = 0 ∧ win1_6.index t 2 = 0 :=
  (by decide +kernel : ∀ t : Fin grid1.N, win1_6.index t 0 = t.val / 256 ∧ win1_6.index t 1 = 0 ∧ win1_6.index t 2 = 0)

section Region

variable (V : (c : Dev nD) → (b : Ref sig .tc) → Buf (Elt F) ((c : Thread nD τ).loc b))

/-- An element of the block the last chunk `t` of a half writes back is that half's slice of the result. -/
theorem out_at (pay : Vec F S3x8192 .f32 → Vec F S1x3x8192 .f32) (π : Acc F → Vec F S3x8192 .f32)
    (us vs : Vec F S262144x1 .i32) (tt : Vec F S1x262144 .f32) (mk : Vec F S3x262144 .bf16)
    (t : Fin cfg1.N) (h : t.val % 256 = 255) (ix : Fin 3 → ℕ) (hix : ix 0 = t.val / 256 ∧ ix 1 = 0 ∧ ix 2 = 0)
    (i : S2x3x8192.Idx) (y z : S1x3x8192.Idx)
    (e0 : (i 0).val = ix 0 * 1 + 1 * (y 0).val) (e1 : (i 1).val = ix 1 * 3 + 1 * (y 1).val)
    (e2 : (i 2).val = ix 2 * 8192 + 1 * (y 2).val) (f1 : (z 1).val = (y 1).val) (f2 : (z 2).val = (y 2).val) :
    pay (π (acc1 us vs tt mk t.val t.isLt)) z
      = pay (π (acc1 us vs tt mk (256 * (i 0).val + 255) (lastOf_lt (i 0))))
          (fun a => match a with | ⟨0, _⟩ => (0 : Fin 1) | ⟨1, _⟩ => i 1 | ⟨2, _⟩ => i 2) := by
  obtain ⟨h0, h1, h2⟩ := hix
  have y0 : (y 0).val < 1 := (y 0).isLt
  have e : 256 * (i 0).val + 255 = t.val := by have := Nat.div_add_mod t.val 256; omega
  rw [acc1_congr us vs tt mk e _ t.isLt]
  refine congrArg (pay (π (acc1 us vs tt mk t.val t.isLt))) (funext fun a => Fin.ext ?_)
  match a with
  | ⟨0, _⟩ => have : (z 0).val < 1 := (z 0).isLt; show (z 0).val = 0; omega
  | ⟨1, _⟩ => show (z 1).val = (i 1).val; omega
  | ⟨2, _⟩ => show (z 2).val = (i 2).val; omega

/-- An index of the result lies in the block of the last chunk of its half. -/
theorem cover_mem (ix sz : Fin 3 → ℕ) (i : S2x3x8192.Idx) (hs : sz 0 = 1 ∧ sz 1 = 3 ∧ sz 2 = 8192)
    (h : ix 0 = (256 * (i 0).val + 255) / 256 ∧ ix 1 = 0 ∧ ix 2 = 0) (a : Fin 3) :
    ix a * sz a ≤ i a ∧ (i a : ℕ) < ix a * sz a + sz a := by
  obtain ⟨s0, s1, s2⟩ := hs
  obtain ⟨h0, h1, h2⟩ := h
  have b0 : (i 0 : ℕ) < 2 := (i 0).isLt
  have b1 : (i 1 : ℕ) < 3 := (i 1).isLt
  have b2 : (i 2 : ℕ) < 8192 := (i 2).isLt
  match a with
  | ⟨0, _⟩ => show ix 0 * sz 0 ≤ (i 0 : ℕ) ∧ (i 0 : ℕ) < ix 0 * sz 0 + sz 0; rw [h0, s0]; omega
  | ⟨1, _⟩ => show ix 1 * sz 1 ≤ (i 1 : ℕ) ∧ (i 1 : ℕ) < ix 1 * sz 1 + sz 1; rw [h1, s1]; omega
  | ⟨2, _⟩ => show ix 2 * sz 2 ≤ (i 2 : ℕ) ∧ (i 2 : ℕ) < ix 2 * sz 2 + sz 2; rw [h2, s2]; omega

theorem flushed1_4 (c : Dev nD) (t : Fin cfg1.N) (hf : (cfg1.win 4).flush t = true) :
    (dat1 V c).flushed 4 t = ((cfg1.win 4).blk t).view.read (Elt F) (regOut1_0 (aU V c) (aV V c) (aT V c) (aM V c)) := by
  show (cfg1.win 4).cut (grid1.coords t) ((dat1 V c).after 4 t) = _
  rw [after1_4]
  funext y
  rw [View.read_apply]
  exact out_at k1_pay5 (·.1) (aU V c) (aV V c) (aT V c) (aM V c) t ((flush1_4 t).mp hf) (win1_4.index t) (hidx1_4 t) _ y _ rfl rfl rfl rfl rfl

theorem arrAt1_out4 (c : Dev nD) :
    (dat1 V c).arrAt 4 cfg1.N = (regOut1_0 (aU V c) (aV V c) (aT V c) (aM V c) : S2x3x8192.Idx → Elt F .f32) :=
  (dat1 V c).arrAt_eq_of_cover 4 (regOut1_0 (aU V c) (aV V c) (aT V c) (aM V c)) (flushed1_4 V c) fun i =>
    ⟨⟨256 * (i 0).val + 255, lastOf_lt (i 0)⟩, (flush1_4 _).mpr (by show (256 * (i 0).val + 255) % 256 = 255; omega), by
      show i ∈ ((View.whole main_v98_0).slice (win1_4.rect ⟨256 * (i 0).val + 255, lastOf_lt (i 0)⟩)).set
      rw [View.set_slice_whole, Rect.mem_set_unit]
      exact cover_mem (win1_4.index _) win1_4.size i ⟨rfl, rfl, rfl⟩ (hidx1_4 _)⟩

theorem flushed1_5 (c : Dev nD) (t : Fin cfg1.N) (hf : (cfg1.win 5).flush t = true) :
    (dat1 V c).flushed 5 t = ((cfg1.win 5).blk t).view.read (Elt F) (regOut1_1 (aU V c) (aV V c) (aT V c) (aM V c)) := by
  show (cfg1.win 5).cut (grid1.coords t) ((dat1 V c).after 5 t) = _
  rw [after1_5]
  funext y
  rw [View.read_apply]
  exact out_at k1_pay6 (·.2.1) (aU V c) (aV V c) (aT V c) (aM V c) t ((flush1_5 t).mp hf) (win1_5.index t) (hidx1_5 t) _ y _ rfl rfl rfl rfl rfl

theorem arrAt1_out5 (c : Dev nD) :
    (dat1 V c).arrAt 5 cfg1.N = (regOut1_1 (aU V c) (aV V c) (aT V c) (aM V c) : S2x3x8192.Idx → Elt F .f32) :=
  (dat1 V c).arrAt_eq_of_cover 5 (regOut1_1 (aU V c) (aV V c) (aT V c) (aM V c)) (flushed1_5 V c) fun i =>
    ⟨⟨256 * (i 0).val + 255, lastOf_lt (i 0)⟩, (flush1_5 _).mpr (by show (256 * (i 0).val + 255) % 256 = 255; omega), by
      show i ∈ ((View.whole main_v98_1).slice (win1_5.rect ⟨256 * (i 0).val + 255, lastOf_lt (i 0)⟩)).set
      rw [View.set_slice_whole, Rect.mem_set_unit]
      exact cover_mem (win1_5.index _) win1_5.size i ⟨rfl, rfl, rfl⟩ (hidx1_5 _)⟩

theorem flushed1_6 (c : Dev nD) (t : Fin cfg1.N) (hf : (cfg1.win 6).flush t = true) :
    (dat1 V c).flushed 6 t = ((cfg1.win 6).blk t).view.read (Elt F) (regOut1_2 (aU V c) (aV V c) (aT V c) (aM V c)) := by
  show (cfg1.win 6).cut (grid1.coords t) ((dat1 V c).after 6 t) = _
  rw [after1_6]
  funext y
  rw [View.read_apply]
  exact out_at k1_pay7 (·.2.2) (aU V c) (aV V c) (aT V c) (aM V c) t ((flush1_6 t).mp hf) (win1_6.index t) (hidx1_6 t) _ y _ rfl rfl rfl rfl rfl

theorem arrAt1_out6 (c : Dev nD) :
    (dat1 V c).arrAt 6 cfg1.N = (regOut1_2 (aU V c) (aV V c) (aT V c) (aM V c) : S2x3x8192.Idx → Elt F .f32) :=
  (dat1 V c).arrAt_eq_of_cover 6 (regOut1_2 (aU V c) (aV V c) (aT V c) (aM V c)) (flushed1_6 V c) fun i =>
    ⟨⟨256 * (i 0).val + 255, lastOf_lt (i 0)⟩, (flush1_6 _).mpr (by show (256 * (i 0).val + 255) % 256 = 255; omega), by
      show i ∈ ((View.whole main_v98_2).slice (win1_6.rect ⟨256 * (i 0).val + 255, lastOf_lt (i 0)⟩)).set
      rw [View.set_slice_whole, Rect.mem_set_unit]
      exact cover_mem (win1_6.index _) win1_6.size i ⟨rfl, rfl, rfl⟩ (hidx1_6 _)⟩

end Region

end Cert.KernelIdeal.Hand

end
-- ==== Proof.KValTIdx.lean ====
import proofs.«428349_j38809324486859_3_alg».proof.Proof.RegionsKernelIdeal
import proofs.«428349_j38809324486859_3_alg».proof.Proof.SpecArgs
import proofs.«428349_j38809324486859_3_alg».proof.Proof.LibScatter
import proofs.«428349_j38809324486859_3_alg».proof.Proof.LibGather
import proofs.«428349_j38809324486859_3_alg».proof.Proof.LibCoe
import proofs.«428349_j38809324486859_3_alg».proof.Proof.RefRead
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.Lib.StackMember
import Idealize.ShloMosaic.PureOps.Ideal.Laws

noncomputable section

namespace Cert.KernelIdeal.ValT

open Idealize.ShloMosaic Idealize.ShloMosaic.ValueIdx Idealize.ShloMosaic.TcCoe Idealize.SL.Sem Finset
open Cert.KernelIdeal Cert.KernelIdeal.Gen Cert.KernelIdeal.GenP Cert.RefRead Cert.LibGather

theorem bcast0_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

theorem col_apply {α : Type} (h : S262144.BroadcastsInDim S262144x1 (![0] : Fin 1 → Fin 2)) (x : S262144.Idx → α)
    (e : Fin 262144) (z : Fin 1) : broadcastInDim S262144x1 ![0] h x (ix2 e z) = x (ix1 e) :=
  bcast_col_apply _ rfl h x e z

theorem pair_fst_apply {α : Type} (h : Shape.Concatenates [S262144x1, S262144x1] S262144x2 1)
    (a b : S262144x1.Idx → α) (e : Fin 262144) :
    concatenate S262144x2 1 [⟨S262144x1, a⟩, ⟨S262144x1, b⟩] h (ix2 e (0 : Fin 2)) = a (ix2 e (0 : Fin 1)) :=
  concatenate_pair_apply_left 1 a b h _ rfl (ix2 e (0 : Fin 1)) (fun k => match k with
    | ⟨0, _⟩ => rfl
    | ⟨1, _⟩ => rfl)

/-- The index array of the two gathers, as the program spells it. -/
def idxCols (x : IVec S262144 32) : IVec S262144x2 32 :=
  concatenate S262144x2 1
    [⟨S262144x1, broadcastInDim S262144x1 ![0] bcast_S262144_S262144x1_0
        (select (cmpi .slt x (broadcastInDim S262144 ![] bcast_S_S262144 (constantI S_ 32 0#32)))
          (addi x (broadcastInDim S262144 ![] bcast_S_S262144 (constantI S_ 32 8192#32))) x)⟩,
     ⟨S262144x1, broadcastInDim S262144x1 ![0] bcast_S262144_S262144x1_0
        (id (broadcastInDim S262144 ![] bcast_S_S262144 (constantI S_ 32 0#32)))⟩]
    concatenates_S262144x1_S262144x1_S262144x2_d1

/-- An endpoint in range is not negative, so it is not wrapped. -/
theorem idxCols_fst (x : IVec S262144 32) (e : Fin 262144) (hx : (x (ix1 e)).toNat < 8192) :
    idxCols x (ix2 e (0 : Fin 2)) = x (ix1 e) := by
  unfold idxCols
  rw [pair_fst_apply, col_apply]
  exact norm_vec_apply x _ _ _ (ix1 e) (by omega)

theorem gather_cell_apply {α : Type} (x : S8192x1.Idx → α) (idx : IVec S262144x2 32) (e : Fin 262144) :
    Host.gather gather_S8192x1_S262144x2_S262144_n_01_n_n_01_1_11 x idx (ix1 e)
      = x (ix2 ⟨min (idx (ix2 e (0 : Fin 2))).toInt.toNat (8192 - 1), by omega⟩ (0 : Fin 1)) := by
  unfold Host.gather
  congr 1
  funext a
  refine Fin.ext ?_
  show gather_S8192x1_S262144x2_S262144_n_01_n_n_01_1_11.start (ix1 e) idx a
      + gather_S8192x1_S262144x2_S262144_n_01_n_n_01_1_11.batchCoord (ix1 e) a
      + gather_S8192x1_S262144x2_S262144_n_01_n_n_01_1_11.offCoord (ix1 e) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (by decide +revert)), Nat.add_zero]
    unfold GatherDims.start
    rw [dif_pos (show (⟨0, h0⟩ : Fin 2) ∈ gather_S8192x1_S262144x2_S262144_n_01_n_n_01_1_11.startIndexMap from by decide +revert)]
    have hsi : gather_S8192x1_S262144x2_S262144_n_01_n_n_01_1_11.siIdx (ix1 e)
        ⟨List.idxOf (⟨0, h0⟩ : Fin 2) gather_S8192x1_S262144x2_S262144_n_01_n_n_01_1_11.startIndexMap,
          List.idxOf_lt_length_iff.2 (by decide +revert)⟩ = ix2 e (0 : Fin 2) := by
      funext b; refine Fin.ext ?_
      match b with
      | ⟨0, _⟩ => rfl
      | ⟨1, _⟩ => rfl
    rw [hsi]
    rfl
  | ⟨1, h1⟩ =>
    rw [GatherDims.offCoord_eq_zero _ _ _ (fun h => ((GatherDims.mem_sKept _ _).mp h).1 (by decide +revert)), Nat.add_zero]
    unfold GatherDims.start
    rw [dif_pos (show (⟨1, h1⟩ : Fin 2) ∈ gather_S8192x1_S262144x2_S262144_n_01_n_n_01_1_11.startIndexMap from by decide +revert)]
    show min _ (1 - 1) = 0
    exact Nat.min_zero _

/-- In range nothing is wrapped or clamped: the gathered cell is the column's entry at the endpoint. -/
theorem gather_idxCols_apply {α : Type} (y : S8192x1.Idx → α) (x : IVec S262144 32) (e : Fin 262144)
    (hx : (x (ix1 e)).toNat < 8192) :
    Host.gather gather_S8192x1_S262144x2_S262144_n_01_n_n_01_1_11 y (idxCols x) (ix1 e)
      = y (ix2 ⟨(x (ix1 e)).toNat, hx⟩ (0 : Fin 1)) := by
  rw [gather_cell_apply]
  congr 2
  refine Fin.ext ?_
  show min (idxCols x (ix2 e (0 : Fin 2))).toInt.toNat (8192 - 1) = (x (ix1 e)).toNat
  rw [idxCols_fst x e hx, StableHlo.Predicate.toInt_eq_toNat_of_lt (by omega)]
  omega

theorem dot_col_apply (Zm : FVec Ideal S8192x256 .f32) (w : FVec Ideal S256x1 .f32) (n : Fin 8192) :
    Host.dotGeneral (F := Ideal) dot_S8192x256_S256x1_S8192x1_1_0_0_1_n_n none Zm w (ix2 n (0 : Fin 1))
      = ∑ k : Fin 256, Zm (ix2 n k) * w (ix2 k (0 : Fin 1)) :=
  StackMember.dotGeneral_plain_apply (m := 8192) (k := 256) (n := 1) none Zm w n 0

theorem half0_apply {α : Type} (x : S512x1.Idx → α) (h : S512x1.Slices ![0, 0] S256x1) (k : Fin 256) :
    extractStridedSlice S256x1 ![0, 0] x h (ix2 k (0 : Fin 1)) = x (ix2 (⟨k.val, by omega⟩ : Fin 512) (0 : Fin 1)) :=
  extractStridedSlice_apply _ x h _ _ fun a => match a with
    | ⟨0, _⟩ => by show k.val = 0 + k.val; omega
    | ⟨1, _⟩ => rfl

theorem half1_apply {α : Type} (x : S512x1.Idx → α) (h : S512x1.Slices ![256, 0] S256x1) (k : Fin 256) :
    extractStridedSlice S256x1 ![256, 0] x h (ix2 k (0 : Fin 1)) = x (ix2 (⟨256 + k.val, by omega⟩ : Fin 512) (0 : Fin 1)) :=
  extractStridedSlice_apply _ x h _ _ fun a => match a with
    | ⟨0, _⟩ => rfl
    | ⟨1, _⟩ => rfl

end Cert.KernelIdeal.ValT

end
-- ==== Proof.KValTRuns.lean ====
import proofs.«428349_j38809324486859_3_alg».proof.Proof.KValTIdx

noncomputable section

namespace Cert.KernelIdeal.ValT

open Idealize.ShloMosaic Idealize.ShloMosaic.ValueIdx Idealize.ShloMosaic.TcCoe Idealize.SL.Sem Finset
open Cert.KernelIdeal Cert.KernelIdeal.Gen Cert.KernelIdeal.GenP

variable (m : (ℓ : Loc nD τ sig) → Buf (Elt Ideal) ℓ) (outs : Outs (F := Ideal)) (c : Dev nD)

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih _

/-- Five consecutive runs of the stretch, cut at operations 14, 18, 32 and 46. -/
abbrev opsA : List (HloOp τ sig (Elt Ideal)) := (hostOps1 (F := Ideal)).take 14
abbrev opsB : List (HloOp τ sig (Elt Ideal)) := ((hostOps1 (F := Ideal)).drop 14).take 4
abbrev opsC : List (HloOp τ sig (Elt Ideal)) := ((hostOps1 (F := Ideal)).drop 18).take 14
abbrev opsD : List (HloOp τ sig (Elt Ideal)) := ((hostOps1 (F := Ideal)).drop 32).take 14
abbrev opsE : List (HloOp τ sig (Elt Ideal)) := (hostOps1 (F := Ideal)).drop 46

def W1 : Valuation τ sig (Elt Ideal) := StableHlo.after opsA (V6 m outs c)
def W2 : Valuation τ sig (Elt Ideal) := StableHlo.after opsB (W1 m outs c)
def W3 : Valuation τ sig (Elt Ideal) := StableHlo.after opsC (W2 m outs c)
def W4 : Valuation τ sig (Elt Ideal) := StableHlo.after opsD (W3 m outs c)
def W5 : Valuation τ sig (Elt Ideal) := StableHlo.after opsE (W4 m outs c)

theorem V7_eq_W5 : V7 m outs c = W5 m outs c := by
  show StableHlo.after hostOps1 (V6 m outs c) = _
  rw [show (hostOps1 (F := Ideal)) = opsA ++ (opsB ++ (opsC ++ (opsD ++ opsE))) from rfl,
    after_append, after_append, after_append, after_append]
  rfl

/-- Every operation of a run belongs to the stretch, whose writes miss `r`. -/
theorem pass (sub : List (HloOp τ sig (Elt Ideal))) (hsub : ∀ op ∈ sub, op ∈ (hostOps1 (F := Ideal)))
    (V : Valuation τ sig (Elt Ideal)) (r : Ref sig .tc) (h : r ∉ hostOps1_W) :
    StableHlo.after sub V (Proc.devRef .tc r) = V (Proc.devRef .tc r) :=
  StableHlo.after_of_writes_sub sub V (List.forall_iff_forall_mem.2 fun op hop =>
    List.forall_iff_forall_mem.1 (hostOps1_writes (F := Ideal)) op (hsub op hop)) h

theorem W1_arg (r : Ref sig .tc) (h : r ∉ hostOps1_W) : W1 m outs c r = V6 m outs c r :=
  pass _ (fun _ hop => List.mem_of_mem_take hop) _ r h
theorem W2_arg (r : Ref sig .tc) (h : r ∉ hostOps1_W) : W2 m outs c r = W1 m outs c r :=
  pass _ (fun _ hop => List.mem_of_mem_drop (List.mem_of_mem_take hop)) _ r h
theorem W3_arg (r : Ref sig .tc) (h : r ∉ hostOps1_W) : W3 m outs c r = W2 m outs c r :=
  pass _ (fun _ hop => List.mem_of_mem_drop (List.mem_of_mem_take hop)) _ r h
theorem W4_arg (r : Ref sig .tc) (h : r ∉ hostOps1_W) : W4 m outs c r = W3 m outs c r :=
  pass _ (fun _ hop => List.mem_of_mem_drop (List.mem_of_mem_take hop)) _ r h

theorem W2_v40 : (W2 m outs c main_v40 : S8192x1.Idx → EReal)
    = Host.dotGeneral (F := Ideal) (φ₁ := .f32) (φ₂ := .f32) dot_S8192x256_S256x1_S8192x1_1_0_0_1_n_n none
        (W1 m outs c main_v37 : S8192x256.Idx → EReal)
        (extractStridedSlice S256x1 ![0, 0] (W1 m outs c main_arg6 : S512x1.Idx → EReal) slices_S512x1_S256x1_0_0) := by
  unfold W2
  dsimp only [opsB, hostOps1, List.take, List.drop]
  generalize W1 m outs c = W
  after_results

theorem W2_v41 : (W2 m outs c main_v41 : S8192x1.Idx → EReal)
    = Host.dotGeneral (F := Ideal) (φ₁ := .f32) (φ₂ := .f32) dot_S8192x256_S256x1_S8192x1_1_0_0_1_n_n none
        (W1 m outs c main_v37 : S8192x256.Idx → EReal)
        (extractStridedSlice S256x1 ![256, 0] (W1 m outs c main_arg6 : S512x1.Idx → EReal) slices_S512x1_S256x1_256_0) := by
  unfold W2
  dsimp only [opsB, hostOps1, List.take, List.drop]
  generalize W1 m outs c = W
  after_results

theorem W2_v37 : W2 m outs c main_v37 = W1 m outs c main_v37 := by
  unfold W2
  dsimp only [opsB, hostOps1, List.take, List.drop]
  generalize W1 m outs c = W
  after_results

theorem W3_v52 : (W3 m outs c main_v52 : S262144.Idx → EReal)
    = Host.gather gather_S8192x1_S262144x2_S262144_n_01_n_n_01_1_11 (W2 m outs c main_v40 : S8192x1.Idx → EReal)
        (idxCols (W2 m outs c main_arg12 : S262144.Idx → BitVec 32)) := by
  unfold W3
  dsimp only [opsC, hostOps1, List.take, List.drop]
  generalize W2 m outs c = W
  after_results
  rfl

theorem W3_v41 : W3 m outs c main_v41 = W2 m outs c main_v41 := by
  unfold W3
  dsimp only [opsC, hostOps1, List.take, List.drop]
  generalize W2 m outs c = W
  after_results

theorem W3_v37 : W3 m outs c main_v37 = W2 m outs c main_v37 := by
  unfold W3
  dsimp only [opsC, hostOps1, List.take, List.drop]
  generalize W2 m outs c = W
  after_results

theorem W4_v63 : (W4 m outs c main_v63 : S262144.Idx → EReal)
    = Host.gather gather_S8192x1_S262144x2_S262144_n_01_n_n_01_1_11 (W3 m outs c main_v41 : S8192x1.Idx → EReal)
        (idxCols (W3 m outs c main_arg13 : S262144.Idx → BitVec 32)) := by
  unfold W4
  dsimp only [opsD, hostOps1, List.take, List.drop]
  generalize W3 m outs c = W
  after_results
  rfl

theorem W4_v52 : W4 m outs c main_v52 = W3 m outs c main_v52 := by
  unfold W4
  dsimp only [opsD, hostOps1, List.take, List.drop]
  generalize W3 m outs c = W
  after_results

theorem W4_v37 : W4 m outs c main_v37 = W3 m outs c main_v37 := by
  unfold W4
  dsimp only [opsD, hostOps1, List.take, List.drop]
  generalize W3 m outs c = W
  after_results

theorem W5_v67 : (W5 m outs c main_v67 : S262144.Idx → EReal)
    = addf (F := Ideal) (φ := .f32)
        (addf (F := Ideal) (φ := .f32) (W4 m outs c main_v52 : S262144.Idx → EReal) (W4 m outs c main_v63 : S262144.Idx → EReal))
        (broadcastInDim S262144 ![] bcast_S_S262144 (shapeCast S_ (W4 m outs c main_arg7 : S1.Idx → EReal) shapeCasts_S1_S_)) := by
  unfold W5
  dsimp only [opsE, hostOps1, List.take, List.drop]
  generalize W4 m outs c = W
  after_results
  rfl

theorem W5_v37 : W5 m outs c main_v37 = W4 m outs c main_v37 := by
  unfold W5
  dsimp only [opsE, hostOps1, List.take, List.drop]
  generalize W4 m outs c = W
  after_results

end Cert.KernelIdeal.ValT

end
-- ==== Proof.KValT.lean ====
import proofs.«428349_j38809324486859_3_alg».proof.Proof.KValTRuns
import Idealize.ShloMosaic.Lib.KernelVsHost

noncomputable section

namespace Cert.KernelIdeal.ValT

open Idealize.ShloMosaic Idealize.ShloMosaic.ValueIdx Idealize.ShloMosaic.TcCoe Idealize.SL.Sem Finset
open Cert.KernelIdeal Cert.KernelIdeal.Gen Cert.KernelIdeal.GenP

variable (m : (ℓ : Loc nD τ sig) → Buf (Elt Ideal) ℓ) (outs : Outs (F := Ideal)) (c : Dev nD)

abbrev Zf : S8192x256.Idx → EReal := V7 m outs c main_v37
abbrev suV : S8192x1.Idx → EReal := W2 m outs c main_v40
abbrev svV : S8192x1.Idx → EReal := W2 m outs c main_v41
abbrev wAtt : S512x1.Idx → EReal := m ((c.tc : Thread nD τ).loc main_arg6)
abbrev bAtt : S1.Idx → EReal := m ((c.tc : Thread nD τ).loc main_arg7)
abbrev usW : S262144.Idx → BitVec 32 := m ((c.tc : Thread nD τ).loc main_arg12)
abbrev vsW : S262144.Idx → BitVec 32 := m ((c.tc : Thread nD τ).loc main_arg13)

/-- Nothing before a run writes an argument array, so the run reads it at its launch contents. -/
theorem W1_arg6 : (W1 m outs c main_arg6 : S512x1.Idx → EReal) = wAtt m c := by
  rw [W1_arg, V6_of, V5_of, V4_of, V3_of, V2_of, V1_of] <;> decide
theorem W2_arg12 : (W2 m outs c main_arg12 : S262144.Idx → BitVec 32) = usW m c := by
  rw [W2_arg, W1_arg, V6_of, V5_of, V4_of, V3_of, V2_of, V1_of] <;> decide
theorem W3_arg13 : (W3 m outs c main_arg13 : S262144.Idx → BitVec 32) = vsW m c := by
  rw [W3_arg, W2_arg, W1_arg, V6_of, V5_of, V4_of, V3_of, V2_of, V1_of] <;> decide
theorem W4_arg7 : (W4 m outs c main_arg7 : S1.Idx → EReal) = bAtt m c := by
  rw [W4_arg, W3_arg, W2_arg, W1_arg, V6_of, V5_of, V4_of, V3_of, V2_of, V1_of] <;> decide

theorem V7_v37 : V7 m outs c main_v37 = W1 m outs c main_v37 := by
  rw [V7_eq_W5, W5_v37, W4_v37, W3_v37, W2_v37]

theorem su_apply (n : Fin 8192) :
    suV m outs c (ix2 n (0 : Fin 1))
      = ∑ k : Fin 256, Zf m outs c (ix2 n k) * wAtt m c (ix2 (⟨k.val, by omega⟩ : Fin 512) (0 : Fin 1)) := by
  unfold suV Zf
  rw [W2_v40, dot_col_apply, V7_v37]
  exact Finset.sum_congr rfl fun k _ => by rw [half0_apply, W1_arg6]

theorem sv_apply (n : Fin 8192) :
    svV m outs c (ix2 n (0 : Fin 1))
      = ∑ k : Fin 256, Zf m outs c (ix2 n k) * wAtt m c (ix2 (⟨256 + k.val, by omega⟩ : Fin 512) (0 : Fin 1)) := by
  unfold svV Zf
  rw [W2_v41, dot_col_apply, V7_v37]
  exact Finset.sum_congr rfl fun k _ => by rw [half1_apply, W1_arg6]

theorem scalar_of_one {α : Type} (x : S1.Idx → α) (h : S1.ShapeCasts S_) : shapeCast S_ x h ix0 = x (ix1 (0 : Fin 1)) :=
  shapeCast_apply x h ix0 (ix1 (0 : Fin 1)) (by
    have h1 := (S1.rowMajor (ix1 (0 : Fin 1))).isLt
    have h2 := (S_.rowMajor ix0).isLt
    have e1 : S1.numel = 1 := by decide
    have e2 : S_.numel = 1 := by decide
    omega)

/-- Both gathers read their score column at an endpoint in range, so the score is the two column entries plus the bias. -/
theorem esc_apply (hus : ∀ e : Fin 262144, (usW m c (ix1 e)).toNat < 8192)
    (hvs : ∀ e : Fin 262144, (vsW m c (ix1 e)).toNat < 8192) (e : Fin 262144) :
    (V7 m outs c main_v67 : S262144.Idx → EReal) (ix1 e)
      = ((∑ k : Fin 256, Zf m outs c (ix2 ⟨(usW m c (ix1 e)).toNat, hus e⟩ k)
            * wAtt m c (ix2 (⟨k.val, by omega⟩ : Fin 512) (0 : Fin 1)))
          + (∑ k : Fin 256, Zf m outs c (ix2 ⟨(vsW m c (ix1 e)).toNat, hvs e⟩ k)
            * wAtt m c (ix2 (⟨256 + k.val, by omega⟩ : Fin 512) (0 : Fin 1))))
        + bAtt m c (ix1 (0 : Fin 1)) := by
  rw [V7_eq_W5, W5_v67, addf_apply, addf_apply, bcast0_apply, scalar_of_one, W4_arg7, W4_v52, W3_v52, W4_v63, W2_arg12,
    W3_arg13, gather_idxCols_apply _ _ e (hus e), gather_idxCols_apply _ _ e (hvs e), W3_v41]
  exact congrArg₂ (· + ·) (congrArg₂ (· + ·) (su_apply m outs c _) (sv_apply m outs c _)) rfl

theorem V8_v68 : (V8 m outs c main_v68 : S262144.Idx → EReal)
    = select
        (cmpf (F := Ideal) (φ := .f32) .oge (V7 m outs c main_v67 : S262144.Idx → EReal)
          (broadcastInDim S262144 ![] bcast_S_S262144 (constant (F := Ideal) S_ .f32 0x00000000#32)))
        (V7 m outs c main_v67 : S262144.Idx → EReal)
        (mulf (F := Ideal) (φ := .f32)
          (broadcastInDim S262144 ![] bcast_S_S262144 (constant (F := Ideal) S_ .f32 0x3C23D70A#32))
          (V7 m outs c main_v67 : S262144.Idx → EReal)) := by
  dsimp only [V8, hostOps1_1]
  generalize V7 m outs c = W
  after_results
  rfl

theorem leaky_apply (e : Fin 262144) :
    (V8 m outs c main_v68 : S262144.Idx → EReal) (ix1 e)
      = Cert.Spec.leaky ((V7 m outs c main_v67 : S262144.Idx → EReal) (ix1 e)) := by
  rw [V8_v68, select_apply, cmpf_apply, mulf_apply, bcast0_apply, bcast0_apply, constant_apply, constant_apply,
    Ideal.ofBits_zero_f32]
  rfl

theorem V9_v69 : (V9 m outs c main_v69 : S262144.Idx → EReal)
    = Host.tanh (F := Ideal) (φ := .f32) (V8 m outs c main_v68 : S262144.Idx → EReal) := by
  dsimp only [V9, hostOps1_2]
  generalize V8 m outs c = W
  after_results

theorem V15_v69 : V15 m outs c main_v69 = V9 m outs c main_v69 := by
  rw [V15_of, V14_of, V13_of, V12_of, V11_of, V10_of] <;> decide

theorem V16_v92 : (V16 m outs c main_v92 : S262144.Idx → EReal)
    = pad S262144 ![0] ![0] ![0] (V15 m outs c main_v69 : S262144.Idx → EReal)
        (sitofp (F := Ideal) .f32 (V15 m outs c main_c_17 : S_.Idx → BitVec 32)) pads_S262144_S262144_000 h_S_ := by
  dsimp only [V16, hostOps1_9]
  generalize V15 m outs c = W
  after_results
  rfl

theorem V18_v92 : V18 m outs c main_v92 = V16 m outs c main_v92 := by
  rw [V18_of, V17_of] <;> decide

theorem V19_v97 : (V19 m outs c main_v97 : S1x262144.Idx → EReal)
    = shapeCast S1x262144 (V18 m outs c main_v92 : S262144.Idx → EReal) shapeCasts_S262144_S1x262144 := by
  dsimp only [V19, hostOps1_12]
  generalize V18 m outs c = W
  after_results
  rfl

theorem hostTanh_apply {s : Shape} (x : FVec Ideal s .f32) (i : s.Idx) :
    Host.tanh (F := Ideal) x i = Ideal.tanh (x i) := rfl

theorem pad0_apply {α : Type} {u : Shape} (x : S262144.Idx → α) (v : u.Idx → α)
    (h : S262144.Pads ![0] ![0] ![0] S262144) (hu : 0 < u.numel) (e : Fin 262144) :
    pad S262144 ![0] ![0] ![0] x v h hu (ix1 e) = x (ix1 e) :=
  pad_apply_of_inside _ _ _ x v h hu (ix1 e) (ix1 e) fun a => match a with
    | ⟨0, _⟩ => by show e.val = 0 + e.val * (0 + 1); omega

theorem row_of_vec_apply {α : Type} (x : S262144.Idx → α) (h : S262144.ShapeCasts S1x262144) (e : Fin 262144) :
    shapeCast S1x262144 x h (ix2 (0 : Fin 1) e) = x (ix1 e) :=
  shapeCast_apply x h _ (ix1 e) (by rw [Shape.rowMajor_val_two, Shape.rowMajor_val_one]; simp)

theorem col_of_vec_apply {α : Type} (x : S262144.Idx → α) (h : S262144.ShapeCasts S262144x1) (e : Fin 262144) :
    shapeCast S262144x1 x h (ix2 e (0 : Fin 1)) = x (ix1 e) :=
  shapeCast_apply x h _ (ix1 e) (by rw [Shape.rowMajor_val_two, Shape.rowMajor_val_one]; simp)

/-- With the node features equal to the specification's `Z`, the edge's attention is the specification's. -/
theorem kT (hus : ∀ e : Fin 262144, ((m (c.tc.loc main_arg12) : S262144.Idx → BitVec 32) (ix1 e)).toNat < 8192)
    (hvs : ∀ e : Fin 262144, ((m (c.tc.loc main_arg13) : S262144.Idx → BitVec 32) (ix1 e)).toNat < 8192)
    (hZ : ∀ n j, (V7 m outs c main_v37 : S8192x256.Idx → EReal) (ix2 n j)
      = Cert.Spec.ZOf (m (c.tc.loc main_arg0)) (m (c.tc.loc main_arg2))
          (m (c.tc.loc main_arg3)) (m (c.tc.loc main_arg4))
          (m (c.tc.loc main_arg5)) (m (c.tc.loc main_arg12))
          (m (c.tc.loc main_arg13)) hus hvs n j)
    (e : Fin 262144) :
    (V19 m outs c main_v97 : S1x262144.Idx → EReal) (ix2 (0 : Fin 1) e)
      = Cert.Spec.tOf (m (c.tc.loc main_arg0)) (m (c.tc.loc main_arg2))
          (m (c.tc.loc main_arg3)) (m (c.tc.loc main_arg4))
          (m (c.tc.loc main_arg5)) (m (c.tc.loc main_arg6))
          (m (c.tc.loc main_arg7)) (m (c.tc.loc main_arg12))
          (m (c.tc.loc main_arg13)) hus hvs e := by
  rw [V19_v97, row_of_vec_apply, V18_v92, V16_v92, pad0_apply, V15_v69, V9_v69, hostTanh_apply, leaky_apply]
  have hesc := esc_apply m outs c hus hvs e
  unfold Zf at hesc
  rw [hesc]
  simp only [hZ]
  rfl

theorem V19_v95 : (V19 m outs c main_v95 : S262144x1.Idx → BitVec 32)
    = shapeCast S262144x1 (V18 m outs c main_v90 : S262144.Idx → BitVec 32) shapeCasts_S262144_S262144x1 := by
  dsimp only [V19, hostOps1_12]
  generalize V18 m outs c = W
  after_results
  rfl

theorem V19_v96 : (V19 m outs c main_v96 : S262144x1.Idx → BitVec 32)
    = shapeCast S262144x1 (V18 m outs c main_v91 : S262144.Idx → BitVec 32) shapeCasts_S262144_S262144x1 := by
  dsimp only [V19, hostOps1_12]
  generalize V18 m outs c = W
  after_results
  rfl

theorem V12_v90 : (V12 m outs c main_v90 : S262144.Idx → BitVec 32)
    = pad S262144 ![0] ![0] ![0] (V11 m outs c main_arg12 : S262144.Idx → BitVec 32)
        (V11 m outs c main_c_15 : S_.Idx → BitVec 32) pads_S262144_S262144_000 h_S_ := by
  dsimp only [V12, hostOps1_5]
  generalize V11 m outs c = W
  after_results
  rfl

theorem V14_v91 : (V14 m outs c main_v91 : S262144.Idx → BitVec 32)
    = pad S262144 ![0] ![0] ![0] (V13 m outs c main_arg13 : S262144.Idx → BitVec 32)
        (V13 m outs c main_c_16 : S_.Idx → BitVec 32) pads_S262144_S262144_000 h_S_ := by
  dsimp only [V14, hostOps1_7]
  generalize V13 m outs c = W
  after_results
  rfl

theorem V18_v90 : V18 m outs c main_v90 = V12 m outs c main_v90 := by
  rw [V18_of, V17_of, V16_of, V15_of, V14_of, V13_of] <;> decide
theorem V18_v91 : V18 m outs c main_v91 = V14 m outs c main_v91 := by
  rw [V18_of, V17_of, V16_of, V15_of] <;> decide
theorem V11_arg12 : (V11 m outs c main_arg12 : S262144.Idx → BitVec 32) = usW m c := by
  rw [V11_of, V10_of, V9_of, V8_of, V7_of, V6_of, V5_of, V4_of, V3_of, V2_of, V1_of] <;> decide
theorem V13_arg13 : (V13 m outs c main_arg13 : S262144.Idx → BitVec 32) = vsW m c := by
  rw [V13_of, V12_of, V11_of, V10_of, V9_of, V8_of, V7_of, V6_of, V5_of, V4_of, V3_of, V2_of, V1_of] <;> decide

theorem kUsCol (e : Fin 262144) :
    (V19 m outs c main_v95 : S262144x1.Idx → BitVec 32) (ix2 e (0 : Fin 1)) = (m (c.tc.loc main_arg12)) (ix1 e) := by
  rw [V19_v95, col_of_vec_apply, V18_v90, V12_v90, pad0_apply, V11_arg12]

theorem kVsCol (e : Fin 262144) :
    (V19 m outs c main_v96 : S262144x1.Idx → BitVec 32) (ix2 e (0 : Fin 1)) = (m (c.tc.loc main_arg13)) (ix1 e) := by
  rw [V19_v96, col_of_vec_apply, V18_v91, V14_v91, pad0_apply, V13_arg13]

end Cert.KernelIdeal.ValT

end
-- ==== Proof.RefValB0.lean ====
import proofs.«428349_j38809324486859_3_alg».proof.Proof.Gen.ReferenceIdeal
import proofs.«428349_j38809324486859_3_alg».proof.Proof.SpecArgs
import proofs.«428349_j38809324486859_3_alg».proof.Proof.LibScatter
import proofs.«428349_j38809324486859_3_alg».proof.Proof.LibGather
import proofs.«428349_j38809324486859_3_alg».proof.Proof.LibCoe
import proofs.«428349_j38809324486859_3_alg».proof.Proof.RefRead
import Idealize.ShloMosaic.Lib.ValueIdx
import Idealize.ShloMosaic.Lib.StackMember
import Idealize.ShloMosaic.Lib.ValueIdxRank1
import Idealize.ShloMosaic.Lib.ValueLayout
import Idealize.ShloMosaic.Lib.Pipeline.Value
import Idealize.ShloMosaic.Lib.StableHlo.Run
import Idealize.ShloMosaic.PureOps.Ideal.Laws

noncomputable section

namespace Cert.ReferenceIdeal.Val

open Idealize.ShloMosaic Idealize.ShloMosaic.ValueIdx Finset
open Cert.ReferenceIdeal Cert.ReferenceIdeal.Gen

theorem bcast0_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

-- Row o of an array of R rows, as a vector.
theorem row_apply {α : Type} {R n : ℕ} (o : ℕ) (ho : o < R) (g : (⟨2, ![R, n]⟩ : Shape).Idx → α)
    (hs : (⟨2, ![R, n]⟩ : Shape).Slices ![o, 0] ⟨2, ![1, n]⟩) (hc : (⟨2, ![1, n]⟩ : Shape).ShapeCasts ⟨1, ![n]⟩) (e : Fin n) :
    shapeCast ⟨1, ![n]⟩ (extractStridedSlice ⟨2, ![1, n]⟩ ![o, 0] g hs) hc (ix1 e) = g (ix2 ⟨o, ho⟩ e) := by
  refine (shapeCast_apply _ hc (ix1 e) (ix2 (0 : Fin 1) e) ?_).trans (slice2_axis0_apply o g hs _ e _ rfl)
  rw [Shape.rowMajor_val_two, Shape.rowMajor_val_one]
  show 0 * n + e.val = e.val
  rw [Nat.zero_mul, Nat.zero_add]

theorem col_apply {α : Type} {n : ℕ} (hn : n ≠ 1) (h : (⟨1, ![n]⟩ : Shape).BroadcastsInDim ⟨2, ![n, 1]⟩ (![0] : Fin 1 → Fin 2))
    (x : (⟨1, ![n]⟩ : Shape).Idx → α) (e : Fin n) (z : Fin 1) :
    broadcastInDim ⟨2, ![n, 1]⟩ ![0] h x (ix2 e z) = x (ix1 e) :=
  Cert.RefRead.bcast_col_apply ![0] rfl h x e z

theorem select_bit {α : Type} (c : BitVec 1) (a b : α) : Scalar.select c a b = if c = 1#1 then a else b := rfl

theorem bit_float (b : BitVec 1) : FloatOps.uitofp (F := Ideal) .f32 b = if b = 1#1 then (1 : EReal) else 0 := by
  rw [Gnn.Coe.uitofp_bit, EReal.coe_one, EReal.coe_zero]

theorem zero_scalar (i : S_.Idx) : constant (F := Ideal) S_ .f32 0x00000000#32 i = (0 : EReal) := by
  rw [constant_apply, Ideal.ofBits_zero_f32]

theorem one_scalar (i : S_.Idx) : constant (F := Ideal) S_ .f32 0x3F800000#32 i = (1 : EReal) := by
  rw [constant_apply, Gnn.Coe.ofBits_one, EReal.coe_one]

theorem segsum_apply (hb0 : S_.BroadcastsInDim S8192 (![] : Fin 0 → Fin S8192.rank))
    (hbc : S262144.BroadcastsInDim S262144x1 (![0] : Fin 1 → Fin S262144x1.rank))
    (a : IVec S262144 32) (ha : ∀ e : Fin 262144, (a (ix1 e)).toNat < 8192) (upd : FVec Ideal S262144 .f32) (n : Fin 8192) :
    Host.scatterAdd scatter_S8192_S262144x1_S262144_n_0_0_1
        (broadcastInDim S8192 ![] hb0 (constant (F := Ideal) S_ .f32 0x00000000#32)) (broadcastInDim S262144x1 ![0] hbc a) upd (ix1 n)
      = ∑ e ∈ univ.filter (fun e => Cert.Spec.node a ha e = n), upd (ix1 e) := by
  show Ideal.hostScatterAdd (Gnn.Scatter.vecScatter 8192 262144 Gen.scatter_S8192_S262144x1_S262144_n_0_0_1_wf) _ _ upd (ix1 n) = _
  rw [Gnn.Scatter.scatterAdd_vec_apply, bcast0_apply, zero_scalar, zero_add]
  refine Finset.sum_congr (Finset.filter_congr fun e _ => ?_) fun _ _ => rfl
  rw [col_apply (by decide), Cert.RefRead.toInt_of_small (a (ix1 e)) (by have := ha e; omega)]
  constructor
  · intro h; exact Fin.ext (by exact_mod_cast h)
  · intro h; rw [← h]; rfl

theorem nodesum_apply (x : FVec Ideal S8192 .f32) (hr : S8192.ReducesTo [0] S_) (hp : 0 < S_.numel) (i : S_.Idx) :
    Host.reduceAdd x (constant (F := Ideal) S_ .f32 0x00000000#32) hr hp i = ∑ n : Fin 8192, x (ix1 n) := by
  show Ideal.hostReduceAdd hr x _ i = _
  rw [Ideal.hostReduceAdd_total hr (fun b => b.elim0), zero_scalar, zero_add,
    ← Equiv.sum_comp (idxEquiv1 (n := 8192)).symm x]
  rfl

theorem colsum_apply (x : FVec Ideal S8192x256 .f32) (hr : S8192x256.ReducesTo [0] S256) (hp : 0 < S_.numel) (j : Fin 256) :
    Host.reduceAdd x (constant (F := Ideal) S_ .f32 0x00000000#32) hr hp (ix1 j) = ∑ n : Fin 8192, x (ix2 n j) := by
  show Ideal.hostReduceAdd hr x _ (ix1 j) = _
  rw [Ideal.hostReduceAdd_single hr (by decide : S8192x256.Reduces [0] S256), zero_scalar, zero_add]
  refine Finset.sum_congr rfl fun n _ => congrArg x ?_
  funext a
  match a with
  | ⟨0, _⟩ => rfl
  | ⟨1, _⟩ => rfl

theorem dotZ_apply (l : FVec Ideal S8192x256 .f32) (r : FVec Ideal S256x256 .f32) (n : Fin 8192) (j : Fin 256) :
    Host.dotGeneral dot_S8192x256_S256x256_S8192x256_1_0_0_1_n_n none l r (ix2 n j) = ∑ d : Fin 256, l (ix2 n d) * r (ix2 d j) :=
  StackMember.dotGeneral_plain_apply none l r n j

theorem dotL_apply (l : FVec Ideal S1x1024 .f32) (r : FVec Ideal S1024x2 .f32) (z : Fin 1) (o : Fin 2) :
    Host.dotGeneral dot_S1x1024_S1024x2_S1x2_1_0_0_1_n_n none l r (ix2 z o) = ∑ q : Fin 1024, l (ix2 z q) * r (ix2 q o) :=
  StackMember.dotGeneral_plain_apply none l r z o

theorem gatherA_apply {α : Type} (x : S3x8192x8192.Idx → α) (idx : IVec S262144x2 32) (k : Fin 3) (e : Fin 262144) :
    Host.gather gather_S3x8192x8192_S262144x2_S3x262144_0_12_n_n_12_1_311 x idx (ix2 k e)
      = x (ix3 k ⟨min (idx (ix2 e (0 : Fin 2))).toInt.toNat 8191, by omega⟩
          ⟨min (idx (ix2 e (1 : Fin 2))).toInt.toNat 8191, by omega⟩) := by
  unfold Host.gather
  congr 1
  funext a
  refine Fin.ext ?_
  show gather_S3x8192x8192_S262144x2_S3x262144_0_12_n_n_12_1_311.start (ix2 k e) idx a + gather_S3x8192x8192_S262144x2_S3x262144_0_12_n_n_12_1_311.batchCoord (ix2 k e) a
      + gather_S3x8192x8192_S262144x2_S3x262144_0_12_n_n_12_1_311.offCoord (ix2 k e) a = _
  rw [GatherDims.batchCoord_eq_zero _ _ _ List.not_mem_nil, Nat.add_zero]
  match a with
  | ⟨0, h0⟩ =>
    have hn : (⟨0, h0⟩ : Fin 3) ∉ gather_S3x8192x8192_S262144x2_S3x262144_0_12_n_n_12_1_311.startIndexMap := by decide +revert
    have hk : (⟨0, h0⟩ : Fin 3) ∈ gather_S3x8192x8192_S262144x2_S3x262144_0_12_n_n_12_1_311.sKept := by decide +revert
    unfold GatherDims.start GatherDims.offCoord
    rw [dif_neg hn, dif_pos hk, Nat.zero_add]
    rfl
  | ⟨1, h1⟩ =>
    have hk : (⟨1, h1⟩ : Fin 3) ∉ gather_S3x8192x8192_S262144x2_S3x262144_0_12_n_n_12_1_311.sKept := by decide +revert
    have hm : (⟨1, h1⟩ : Fin 3) ∈ gather_S3x8192x8192_S262144x2_S3x262144_0_12_n_n_12_1_311.startIndexMap := by decide +revert
    rw [GatherDims.offCoord_eq_zero _ _ _ hk, Nat.add_zero]
    unfold GatherDims.start
    rw [dif_pos hm]
    have hsi : gather_S3x8192x8192_S262144x2_S3x262144_0_12_n_n_12_1_311.siIdx (ix2 k e) ⟨List.idxOf (⟨1, h1⟩ : Fin 3) gather_S3x8192x8192_S262144x2_S3x262144_0_12_n_n_12_1_311.startIndexMap,
        List.idxOf_lt_length_iff.2 hm⟩ = ix2 e (0 : Fin 2) := by
      funext b; refine Fin.ext ?_
      match b with
      | ⟨0, _⟩ => rfl
      | ⟨1, _⟩ => rfl
    rw [hsi]
    rfl
  | ⟨2, h2⟩ =>
    have hk : (⟨2, h2⟩ : Fin 3) ∉ gather_S3x8192x8192_S262144x2_S3x262144_0_12_n_n_12_1_311.sKept := by decide +revert
    have hm : (⟨2, h2⟩ : Fin 3) ∈ gather_S3x8192x8192_S262144x2_S3x262144_0_12_n_n_12_1_311.startIndexMap := by decide +revert
    rw [GatherDims.offCoord_eq_zero _ _ _ hk, Nat.add_zero]
    unfold GatherDims.start
    rw [dif_pos hm]
    have hsi : gather_S3x8192x8192_S262144x2_S3x262144_0_12_n_n_12_1_311.siIdx (ix2 k e) ⟨List.idxOf (⟨2, h2⟩ : Fin 3) gather_S3x8192x8192_S262144x2_S3x262144_0_12_n_n_12_1_311.startIndexMap,
        List.idxOf_lt_length_iff.2 hm⟩ = ix2 e (1 : Fin 2) := by
      funext b; refine Fin.ext ?_
      match b with
      | ⟨0, _⟩ => rfl
      | ⟨1, _⟩ => rfl
    rw [hsi]
    rfl

end Cert.ReferenceIdeal.Val

end
-- ==== Proof.RefValA.lean ====
import proofs.«428349_j38809324486859_3_alg».proof.Proof.RefTables
import proofs.«428349_j38809324486859_3_alg».proof.Proof.RefValB0
import Idealize.ShloMosaic.Lib.IdealHost

noncomputable section

namespace Cert.ReferenceIdeal.ValA

open Idealize.ShloMosaic Idealize.ShloMosaic.ValueIdx Finset
open Cert.ReferenceIdeal Cert.ReferenceIdeal.Gen Cert.RefRead Cert.ReferenceIdeal.Val

def pCat (a : IVec S262144 32) : IVec S270336 32 :=
  concatenate S270336 0 [⟨S262144, a⟩, ⟨S8192, iotaInDim S8192 32 0⟩] concatenates_S262144_S8192_S270336_d0

def pCol (a : IVec S262144 32) : IVec S270336x1 32 :=
  broadcastInDim S270336x1 ![0] bcast_S270336_S270336x1_0 (pCat a)

def pWrap (a : IVec S262144 32) : IVec S270336x1 32 :=
  broadcastInDim S270336x1 ![0] bcast_S270336_S270336x1_0
    (select (cmpi .slt (pCat a) (broadcastInDim S270336 ![] bcast_S_S270336 (constantI S_ 32 0#32)))
      (addi (pCat a) (broadcastInDim S270336 ![] bcast_S_S270336 (constantI S_ 32 8192#32))) (pCat a))

def pDeg (a : IVec S262144 32) : FVec Ideal S8192 .f32 :=
  Host.scatterAdd scatter_S8192_S270336x1_S270336_n_0_0_1
    (broadcastInDim S8192 ![] bcast_S_S8192 (constant S_ .f32 0x00000000#32)) (pCol a)
    (broadcastInDim S270336 ![] bcast_S_S270336 (constant S_ .f32 0x3F800000#32))

def pHw (a0 : FVec Ideal S8192x256 .f32) (a2 : FVec Ideal S256x256 .f32) : FVec Ideal S8192x256 .f32 :=
  Host.dotGeneral dot_S8192x256_S256x256_S8192x256_1_0_0_1_n_n none a0 a2

def pMsg (a0 : FVec Ideal S8192x256 .f32) (a2 : FVec Ideal S256x256 .f32) (a12 : IVec S262144 32) :
    FVec Ideal S270336x256 .f32 :=
  mulf (Host.gather gather_S8192x256_S270336x1_S270336x256_1_0_n_n_0_1_1256 (pHw a0 a2) (pWrap a12))
    (broadcastInDim S270336x256 ![0, 1] bcast_S270336x1_S270336x256_0_1
      (broadcastInDim S270336x1 ![0] bcast_S270336_S270336x1_0
        (Host.gather gather_S8192_S270336x1_S270336_n_0_n_n_0_1_1 (Host.rsqrt (pDeg a12)) (pWrap a12))))

def pAgg (a0 : FVec Ideal S8192x256 .f32) (a2 : FVec Ideal S256x256 .f32) (a12 a13 : IVec S262144 32) :
    FVec Ideal S8192x256 .f32 :=
  Host.scatterAdd scatter_S8192x256_S270336x1_S270336x256_1_0_0_1
    (broadcastInDim S8192x256 ![] bcast_S_S8192x256 (constant S_ .f32 0x00000000#32)) (pCol a13) (pMsg a0 a2 a12)

def pConv (a0 : FVec Ideal S8192x256 .f32) (a2 : FVec Ideal S256x256 .f32) (a3 : FVec Ideal S256 .f32)
    (a12 a13 : IVec S262144 32) : FVec Ideal S8192x256 .f32 :=
  addf (mulf (pAgg a0 a2 a12 a13)
      (broadcastInDim S8192x256 ![0, 1] bcast_S8192x1_S8192x256_0_1
        (broadcastInDim S8192x1 ![0] bcast_S8192_S8192x1_0 (Host.rsqrt (pDeg a13)))))
    (broadcastInDim S8192x256 ![0, 1] bcast_S1x256_S8192x256_0_1 (broadcastInDim S1x256 ![1] bcast_S256_S1x256_1 a3))

def pZ (a0 : FVec Ideal S8192x256 .f32) (a2 : FVec Ideal S256x256 .f32) (a3 : FVec Ideal S256 .f32)
    (a4 : FVec Ideal S256x256 .f32) (a5 : FVec Ideal S256 .f32) (a12 a13 : IVec S262144 32) : FVec Ideal S8192x256 .f32 :=
  addf (Host.dotGeneral dot_S8192x256_S256x256_S8192x256_1_0_0_1_n_n none (pConv a0 a2 a3 a12 a13) a4)
    (broadcastInDim S8192x256 ![0, 1] bcast_S1x256_S8192x256_0_1 (broadcastInDim S1x256 ![1] bcast_S256_S1x256_1 a5))

section Index
variable (a : IVec S262144 32) (ha : ∀ e : Fin 262144, (a (ix1 e)).toNat < 8192)

theorem pCat_edge (e : Fin 262144) : pCat a (ix1 ⟨e.val, by omega⟩) = a (ix1 e) := by
  unfold pCat
  exact cat_vec_left concatenates_S262144_S8192_S270336_d0 a _ ⟨e.val, by omega⟩ e.isLt

theorem pCat_loop (n : Fin 8192) : pCat a (ix1 ⟨262144 + n.val, by omega⟩) = BitVec.ofNat 32 n.val := by
  unfold pCat
  exact cat_vec_right concatenates_S262144_S8192_S270336_d0 a _ ⟨262144 + n.val, by omega⟩ n rfl

include ha in
theorem pCat_small (i : Fin 270336) : (pCat a (ix1 i)).toNat < 2 ^ 31 := by
  by_cases hi : i.val < 262144
  · have h := pCat_edge a ⟨i.val, hi⟩
    have h2 := ha ⟨i.val, hi⟩
    rw [show (⟨(⟨i.val, hi⟩ : Fin 262144).val, by omega⟩ : Fin 270336) = i from rfl] at h
    rw [h]; omega
  · have hb : i.val - 262144 < 8192 := by have := i.isLt; omega
    have h := pCat_loop a ⟨i.val - 262144, hb⟩
    rw [show (⟨262144 + (⟨i.val - 262144, hb⟩ : Fin 8192).val, by omega⟩ : Fin 270336) = i from Fin.ext (by show 262144 + (i.val - 262144) = i.val; omega)] at h
    rw [h, toNat_ofNat32 _ (by omega)]; omega

theorem pCol_edge (e : Fin 262144) (z : Fin 1) : pCol a (ix2 ⟨e.val, by omega⟩ z) = a (ix1 e) := by
  unfold pCol
  rw [bcast_col_apply ![0] rfl]
  exact pCat_edge a e

theorem pCol_loop (n : Fin 8192) (z : Fin 1) : pCol a (ix2 ⟨262144 + n.val, by omega⟩ z) = BitVec.ofNat 32 n.val := by
  unfold pCol
  rw [bcast_col_apply ![0] rfl]
  exact pCat_loop a n

include ha in
theorem pWrap_eq (i : Fin 270336) (z : Fin 1) : pWrap a (ix2 i z) = pCat a (ix1 i) := by
  unfold pWrap
  rw [bcast_col_apply ![0] rfl]
  exact norm_vec_apply (pCat a) 8192#32 _ _ (ix1 i) (pCat_small a ha i)

theorem pCol_edge_toInt (e : Fin 262144) (z : Fin 1) :
    (pCol a (ix2 ⟨e.val, by omega⟩ z)).toInt = ((Cert.Spec.node a ha e).val : ℤ) := by
  rw [pCol_edge, toInt_of_small _ (by have := ha e; omega)]
  rfl

theorem pCol_loop_toInt (n : Fin 8192) (z : Fin 1) :
    (pCol a (ix2 ⟨262144 + n.val, by omega⟩ z)).toInt = (n.val : ℤ) := by
  have hn := toNat_ofNat32 n.val (by have := n.isLt; omega)
  rw [pCol_loop, toInt_of_small _ (by rw [hn]; have := n.isLt; omega), hn]

end Index

section Chain
variable (a0 : FVec Ideal S8192x256 .f32) (a2 : FVec Ideal S256x256 .f32) (a3 : FVec Ideal S256 .f32)
  (a4 : FVec Ideal S256x256 .f32) (a5 : FVec Ideal S256 .f32) (a12 a13 : IVec S262144 32)
  (h12 : ∀ e : Fin 262144, (a12 (ix1 e)).toNat < 8192) (h13 : ∀ e : Fin 262144, (a13 (ix1 e)).toNat < 8192)

attribute [local irreducible] pCat pCol pWrap pDeg pHw pMsg pAgg pConv pZ

theorem zeros_apply {t : Shape} (h : S_.BroadcastsInDim t (![] : Fin 0 → Fin t.rank)) (j : t.Idx) :
    broadcastInDim t ![] h (constant (F := Ideal) S_ .f32 0x00000000#32) j = (0 : EReal) :=
  (bcast0_apply h _ j).trans (zero_scalar _)

theorem hostRsqrt_apply {s : Shape} (x : FVec Ideal s .f32) (i : s.Idx) : Host.rsqrt x i = Ideal.rsqrt (x i) := rfl

theorem ones_apply {t : Shape} (h : S_.BroadcastsInDim t (![] : Fin 0 → Fin t.rank)) (j : t.Idx) :
    broadcastInDim t ![] h (constant (F := Ideal) S_ .f32 0x3F800000#32) j = (1 : EReal) :=
  (bcast0_apply h _ j).trans (one_scalar _)

theorem pDeg_apply (a : IVec S262144 32) (ha : ∀ e : Fin 262144, (a (ix1 e)).toNat < 8192) (n : Fin 8192) :
    pDeg a (ix1 n) = Cert.Spec.degOut (Cert.Spec.node a ha) n := by
  unfold pDeg
  show Ideal.hostScatterAdd (Gnn.Scatter.vecScatter 8192 270336 scatter_S8192_S270336x1_S270336_n_0_0_1_wf) _ _ _ (ix1 n) = _
  rw [Gnn.Scatter.scatterAdd_vec_apply, zeros_apply, zero_add]
  refine (sum_edges_loops (A := 262144) (B := 8192) (T := 270336) rfl
    (fun i => (pCol a (ix2 i ⟨0, Nat.one_pos⟩)).toInt) (Cert.Spec.node a ha)
    (fun e => pCol_edge_toInt a ha e _) (fun q => pCol_loop_toInt a q _)
    (fun i => broadcastInDim S270336 ![] bcast_S_S270336 (constant (F := Ideal) S_ .f32 0x3F800000#32) (ix1 i)) n).trans ?_
  unfold Cert.Spec.degOut
  refine congrArg₂ (· + ·) ?_ ?_
  · exact Finset.sum_congr rfl fun e _ => ones_apply _ _
  · exact ones_apply _ _

theorem pHw_apply (n : Fin 8192) (d : Fin 256) :
    pHw a0 a2 (ix2 n d) = Cert.Spec.hw (Cert.Spec.mat2 a0) (Cert.Spec.mat2 a2) n d := by
  unfold pHw
  exact dotZ_apply a0 a2 n d

theorem pMsg_at (i : Fin 270336) (q : Fin 8192) (hq : (pCat a12 (ix1 i)).toNat = q.val) (d : Fin 256) :
    pMsg a0 a2 a12 (ix2 i d)
      = Cert.Spec.hs (Cert.Spec.mat2 a0) (Cert.Spec.mat2 a2) (Cert.Spec.node a12 h12) q d := by
  have hw : (pWrap a12 (ix2 i ⟨0, Nat.one_pos⟩)).toNat = q.val := by rw [pWrap_eq a12 h12]; exact hq
  have g1 : Host.gather gather_S8192x256_S270336x1_S270336x256_1_0_n_n_0_1_1256 (pHw a0 a2) (pWrap a12) (ix2 i d)
      = pHw a0 a2 (ix2 q d) :=
    gather_row_at (by norm_num) gather_S8192x256_S270336x1_S270336x256_1_0_n_n_0_1_1256_wf _ _ i d q hw
  have g2 : Host.gather gather_S8192_S270336x1_S270336_n_0_n_n_0_1_1 (Host.rsqrt (pDeg a12)) (pWrap a12) (ix1 i)
      = Host.rsqrt (pDeg a12) (ix1 q) :=
    gather_vec_at (by norm_num) gather_S8192_S270336x1_S270336_n_0_n_n_0_1_1_wf _ _ i q hw
  unfold pMsg
  rw [mulf_apply, bcast_rep_apply ![0, 1] rfl rfl, bcast_col_apply ![0] rfl, g1, g2, pHw_apply, hostRsqrt_apply,
    pDeg_apply a12 h12]
  unfold Cert.Spec.hs
  rfl

theorem pMsg_edge (e : Fin 262144) (d : Fin 256) :
    pMsg a0 a2 a12 (ix2 ⟨e.val, by omega⟩ d)
      = Cert.Spec.hs (Cert.Spec.mat2 a0) (Cert.Spec.mat2 a2) (Cert.Spec.node a12 h12) (Cert.Spec.node a12 h12 e) d :=
  pMsg_at a0 a2 a12 h12 _ _ (by rw [pCat_edge]; rfl) d

theorem pMsg_loop (n : Fin 8192) (d : Fin 256) :
    pMsg a0 a2 a12 (ix2 ⟨262144 + n.val, by omega⟩ d)
      = Cert.Spec.hs (Cert.Spec.mat2 a0) (Cert.Spec.mat2 a2) (Cert.Spec.node a12 h12) n d :=
  pMsg_at a0 a2 a12 h12 _ _ (by rw [pCat_loop]; exact toNat_ofNat32 _ (by have := n.isLt; omega)) d

theorem pAgg_apply (n : Fin 8192) (d : Fin 256) :
    pAgg a0 a2 a12 a13 (ix2 n d)
      = Cert.Spec.agg (Cert.Spec.mat2 a0) (Cert.Spec.mat2 a2) (Cert.Spec.node a12 h12) (Cert.Spec.node a13 h13) n d := by
  unfold pAgg
  show Ideal.hostScatterAdd (Gnn.Scatter.rowScatter 8192 270336 256 scatter_S8192x256_S270336x1_S270336x256_1_0_0_1_wf) _ _ _ (ix2 n d) = _
  rw [Gnn.Scatter.scatterAdd_row_apply, zeros_apply, zero_add]
  refine (sum_edges_loops (A := 262144) (B := 8192) (T := 270336) rfl
    (fun i => (pCol a13 (ix2 i ⟨0, Nat.one_pos⟩)).toInt) (Cert.Spec.node a13 h13)
    (fun e => pCol_edge_toInt a13 h13 e _) (fun q => pCol_loop_toInt a13 q _)
    (fun i => pMsg a0 a2 a12 (ix2 i d)) n).trans ?_
  unfold Cert.Spec.agg
  refine congrArg₂ (· + ·) ?_ ?_
  · exact Finset.sum_congr rfl fun e _ => pMsg_edge a0 a2 a12 h12 e d
  · exact pMsg_loop a0 a2 a12 h12 n d

theorem pConv_apply (n : Fin 8192) (d : Fin 256) :
    pConv a0 a2 a3 a12 a13 (ix2 n d)
      = Cert.Spec.conv (Cert.Spec.mat2 a0) (Cert.Spec.mat2 a2) (Cert.Spec.vec1 a3)
          (Cert.Spec.node a12 h12) (Cert.Spec.node a13 h13) n d := by
  unfold pConv
  rw [addf_apply, mulf_apply, bcast_rep_apply ![0, 1] rfl rfl, bcast_col_apply ![0] rfl,
    bcast_down_apply ![0, 1] rfl rfl, bcast_row_apply ![1] rfl, pAgg_apply a0 a2 a12 a13 h12 h13, hostRsqrt_apply,
    pDeg_apply a13 h13]
  unfold Cert.Spec.conv Cert.Spec.vec1
  rfl

theorem pZ_apply (n : Fin 8192) (j : Fin 256) :
    pZ a0 a2 a3 a4 a5 a12 a13 (ix2 n j) = Cert.Spec.ZOf a0 a2 a3 a4 a5 a12 a13 h12 h13 n j := by
  unfold pZ
  rw [addf_apply, bcast_down_apply ![0, 1] rfl rfl, bcast_row_apply ![1] rfl, dotZ_apply]
  unfold Cert.Spec.ZOf Cert.Spec.Z
  refine congrArg₂ (· + ·) ?_ rfl
  exact Finset.sum_congr rfl fun d _ => by rw [pConv_apply a0 a2 a3 a12 a13 h12 h13]; rfl

end Chain

def pPool (z : FVec Ideal S8192x256 .f32) : FVec Ideal S256 .f32 :=
  Host.divf (Host.reduceAdd z (constant S_ .f32 0x00000000#32) reducesTo_S8192x256_S256_d0 h_S_)
    (broadcastInDim S256 ![] bcast_S_S256 (constant S_ .f32 0x46000000#32))

def pRows (z : FVec Ideal S8192x256 .f32) (a : IVec S262144 32) : FVec Ideal S262144x256 .f32 :=
  Host.gather gather_S8192x256_S262144x1_S262144x256_1_0_n_n_0_1_1256 z
    (broadcastInDim S262144x1 ![0] bcast_S262144_S262144x1_0
      (select (cmpi .slt a (broadcastInDim S262144 ![] bcast_S_S262144 (constantI S_ 32 0#32)))
        (addi a (broadcastInDim S262144 ![] bcast_S_S262144 (constantI S_ 32 8192#32))) a))

def pEsc (z : FVec Ideal S8192x256 .f32) (a6 : FVec Ideal S512x1 .f32) (a7 : FVec Ideal S1 .f32)
    (a12 a13 : IVec S262144 32) : FVec Ideal S262144x1 .f32 :=
  addf (Host.dotGeneral dot_S262144x512_S512x1_S262144x1_1_0_0_1_n_n none
      (concatenate S262144x512 1 [⟨S262144x256, pRows z a12⟩, ⟨S262144x256, pRows z a13⟩]
        concatenates_S262144x256_S262144x256_S262144x512_d1) a6)
    (broadcastInDim S262144x1 ![0, 1] bcast_S1x1_S262144x1_0_1 (broadcastInDim S1x1 ![1] bcast_S1_S1x1_1 a7))

def pLeaky (x : FVec Ideal S262144 .f32) : FVec Ideal S262144 .f32 :=
  select (cmpf .oge x (broadcastInDim S262144 ![] bcast_S_S262144 (constant S_ .f32 0x00000000#32))) x
    (mulf (broadcastInDim S262144 ![] bcast_S_S262144 (constant S_ .f32 0x3C23D70A#32)) x)

def pT (z : FVec Ideal S8192x256 .f32) (a6 : FVec Ideal S512x1 .f32) (a7 : FVec Ideal S1 .f32)
    (a12 a13 : IVec S262144 32) : FVec Ideal S262144 .f32 :=
  Host.tanh (pLeaky (shapeCast S262144 (pEsc z a6 a7 a12 a13) shapeCasts_S262144x1_S262144))

section Edge
variable (z : FVec Ideal S8192x256 .f32) (a6 : FVec Ideal S512x1 .f32) (a7 : FVec Ideal S1 .f32)
  (a12 a13 : IVec S262144 32)
  (h12 : ∀ e : Fin 262144, (a12 (ix1 e)).toNat < 8192) (h13 : ∀ e : Fin 262144, (a13 (ix1 e)).toNat < 8192)

attribute [local irreducible] pPool pRows pEsc pLeaky pT

theorem hostTanh_apply {s : Shape} (x : FVec Ideal s .f32) (i : s.Idx) : Host.tanh x i = Ideal.tanh (x i) := rfl

theorem sum_split {A B T : Nat} (hT : T = A + B) (f : Fin T → EReal) :
    ∑ k : Fin T, f k = (∑ k : Fin A, f ⟨k.val, by omega⟩) + ∑ k : Fin B, f ⟨A + k.val, by omega⟩ := by
  subst hT
  rw [Fin.sum_univ_add]
  rfl

theorem pPool_apply (j : Fin 256) :
    pPool z (ix1 j) = Ideal.div (∑ n : Fin 8192, z (ix2 n j)) Cert.Spec.nNodes := by
  unfold pPool
  rw [hostDivf_apply, bcast0_apply, constant_apply, colsum_apply]

theorem pRows_apply (a : IVec S262144 32) (ha : ∀ e : Fin 262144, (a (ix1 e)).toNat < 8192) (e : Fin 262144) (k : Fin 256) :
    pRows z a (ix2 e k) = z (ix2 (Cert.Spec.node a ha e) k) := by
  unfold pRows
  refine gather_row_at (by norm_num) gather_S8192x256_S262144x1_S262144x256_1_0_n_n_0_1_1256_wf z _ e k
    (Cert.Spec.node a ha e) ?_
  rw [bcast_col_apply ![0] rfl, norm_vec_apply a 8192#32 _ _ (ix1 e) (by have := ha e; omega)]
  rfl

theorem pEsc_apply (e : Fin 262144) :
    pEsc z a6 a7 a12 a13 (ix2 e (0 : Fin 1))
      = ((∑ k : Fin 256, z (ix2 (Cert.Spec.node a12 h12 e) k) * a6 (ix2 (⟨k.val, by omega⟩ : Fin 512) (0 : Fin 1)))
          + ∑ k : Fin 256, z (ix2 (Cert.Spec.node a13 h13 e) k) * a6 (ix2 (⟨256 + k.val, by omega⟩ : Fin 512) (0 : Fin 1)))
        + a7 (ix1 (0 : Fin 1)) := by
  unfold pEsc
  rw [addf_apply, bcast_down_apply ![0, 1] rfl rfl, bcast_row_apply ![1] rfl]
  have hd := StackMember.dotGeneral_plain_apply none
    (concatenate S262144x512 1 [⟨S262144x256, pRows z a12⟩, ⟨S262144x256, pRows z a13⟩]
      concatenates_S262144x256_S262144x256_S262144x512_d1) a6 e (0 : Fin 1)
  refine congrArg₂ (· + ·) (hd.trans ?_) rfl
  rw [sum_split (A := 256) (B := 256) (T := 512) rfl]
  refine congrArg₂ (· + ·) (Finset.sum_congr rfl fun k _ => ?_) (Finset.sum_congr rfl fun k _ => ?_)
  · rw [cat_col_left concatenates_S262144x256_S262144x256_S262144x512_d1 _ _ e ⟨k.val, by omega⟩ k.isLt]
    exact congrArg (· * _) (pRows_apply z a12 h12 e k)
  · rw [cat_col_right concatenates_S262144x256_S262144x256_S262144x512_d1 _ _ e ⟨256 + k.val, by omega⟩ k rfl,
      pRows_apply z a13 h13 e k]

theorem pLeaky_apply (x : FVec Ideal S262144 .f32) (e : Fin 262144) :
    pLeaky x (ix1 e) = Cert.Spec.leaky (x (ix1 e)) := by
  unfold pLeaky Cert.Spec.leaky
  rw [select_apply, cmpf_apply, mulf_apply, zeros_apply, broadcastInDim_scalar_apply, constant_apply]
  rfl

theorem pT_apply (e : Fin 262144) :
    pT z a6 a7 a12 a13 (ix1 e)
      = Ideal.tanh (Cert.Spec.leaky
          (((∑ k : Fin 256, z (ix2 (Cert.Spec.node a12 h12 e) k) * a6 (ix2 (⟨k.val, by omega⟩ : Fin 512) (0 : Fin 1)))
            + ∑ k : Fin 256, z (ix2 (Cert.Spec.node a13 h13 e) k) * a6 (ix2 (⟨256 + k.val, by omega⟩ : Fin 512) (0 : Fin 1)))
          + a7 (ix1 (0 : Fin 1)))) := by
  unfold pT
  rw [hostTanh_apply, pLeaky_apply, cast_col_vec_apply, pEsc_apply z a6 a7 a12 a13 h12 h13]

end Edge

section Run
open Cert.ReferenceIdeal.Hand Idealize.ShloMosaic.TcCoe Idealize.SL.Sem Idealize.ShloMosaic.StableHlo

variable (m : (ℓ : Loc nD τ sig) → Buf (Elt Ideal) ℓ) (c : Dev nD)

theorem run_v42 :
    (RW1 m c main_v42 : S8192x256.Idx → EReal)
      = pZ (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg12))
          (m ((c.tc : Thread nD τ).loc main_arg13)) := by
  show StableHlo.after rops0 (fun b => m (c, b)) (Proc.devRef .tc main_v42) = _
  after_results_simp
  rfl

-- The first stretch leaves what it does not write alone.
theorem run1_arg {r : Ref sig .tc} (h : r ∉ rops0_W) : RW1 m c r = m ((c.tc : Thread nD τ).loc r) :=
  StableHlo.after_of_writes_sub rops0 _ rops0_writes h

theorem run_v45 : (RW2 m c main_v45 : S256.Idx → EReal) = pPool (RW1 m c main_v42) := by
  show StableHlo.after rops1 (RW1 m c) (Proc.devRef .tc main_v45) = pPool (RW1 m c (Proc.devRef .tc main_v42))
  generalize RW1 m c = W
  after_results_simp
  rfl

theorem run_v67 :
    (RW2 m c main_v67 : S262144.Idx → EReal)
      = pT (RW1 m c main_v42) (RW1 m c main_arg6) (RW1 m c main_arg7) (RW1 m c main_arg12) (RW1 m c main_arg13) := by
  show StableHlo.after rops1 (RW1 m c) (Proc.devRef .tc main_v67)
    = pT (RW1 m c (Proc.devRef .tc main_v42)) (RW1 m c (Proc.devRef .tc main_arg6)) (RW1 m c (Proc.devRef .tc main_arg7))
        (RW1 m c (Proc.devRef .tc main_arg12)) (RW1 m c (Proc.devRef .tc main_arg13))
  generalize RW1 m c = W
  after_results_simp
  rfl

end Run

end Cert.ReferenceIdeal.ValA

namespace Cert.ReferenceIdeal.Val

open Idealize.ShloMosaic Idealize.ShloMosaic.ValueIdx Finset
open Cert.ReferenceIdeal Cert.ReferenceIdeal.Gen Cert.ReferenceIdeal.Hand Cert.ReferenceIdeal.ValA
open Idealize.ShloMosaic.TcCoe Idealize.SL.Sem

variable (m : (ℓ : Loc nD τ sig) → Buf (Elt Ideal) ℓ) (c : Dev nD)
  (hus : ∀ e : Fin 262144,
    ((m ((c.tc : Thread nD τ).loc main_arg12) : (⟨1, ![262144]⟩ : Shape).Idx → BitVec 32) (ix1 e)).toNat < 8192)
  (hvs : ∀ e : Fin 262144,
    ((m ((c.tc : Thread nD τ).loc main_arg13) : (⟨1, ![262144]⟩ : Shape).Idx → BitVec 32) (ix1 e)).toNat < 8192)

theorem rZ (n : Fin 8192) (j : Fin 256) :
    (RW1 m c main_v42 : S8192x256.Idx → EReal) (ix2 n j)
      = Cert.Spec.ZOf
          (m ((c.tc : Thread nD τ).loc main_arg0) : (⟨2, ![8192, 256]⟩ : Shape).Idx → EReal)
          (m ((c.tc : Thread nD τ).loc main_arg2) : (⟨2, ![256, 256]⟩ : Shape).Idx → EReal)
          (m ((c.tc : Thread nD τ).loc main_arg3) : (⟨1, ![256]⟩ : Shape).Idx → EReal)
          (m ((c.tc : Thread nD τ).loc main_arg4) : (⟨2, ![256, 256]⟩ : Shape).Idx → EReal)
          (m ((c.tc : Thread nD τ).loc main_arg5) : (⟨1, ![256]⟩ : Shape).Idx → EReal)
          (m ((c.tc : Thread nD τ).loc main_arg12) : (⟨1, ![262144]⟩ : Shape).Idx → BitVec 32)
          (m ((c.tc : Thread nD τ).loc main_arg13) : (⟨1, ![262144]⟩ : Shape).Idx → BitVec 32) hus hvs n j := by
  rw [run_v42 m c]
  exact pZ_apply _ _ _ _ _ _ _ hus hvs n j

theorem rPool0 (j : Fin 256) :
    (RW2 m c main_v45 : S256.Idx → EReal) (ix1 j)
      = Cert.Spec.pool0Of
          (m ((c.tc : Thread nD τ).loc main_arg0) : (⟨2, ![8192, 256]⟩ : Shape).Idx → EReal)
          (m ((c.tc : Thread nD τ).loc main_arg2) : (⟨2, ![256, 256]⟩ : Shape).Idx → EReal)
          (m ((c.tc : Thread nD τ).loc main_arg3) : (⟨1, ![256]⟩ : Shape).Idx → EReal)
          (m ((c.tc : Thread nD τ).loc main_arg4) : (⟨2, ![256, 256]⟩ : Shape).Idx → EReal)
          (m ((c.tc : Thread nD τ).loc main_arg5) : (⟨1, ![256]⟩ : Shape).Idx → EReal)
          (m ((c.tc : Thread nD τ).loc main_arg12) : (⟨1, ![262144]⟩ : Shape).Idx → BitVec 32)
          (m ((c.tc : Thread nD τ).loc main_arg13) : (⟨1, ![262144]⟩ : Shape).Idx → BitVec 32) hus hvs j := by
  rw [run_v45 m c, pPool_apply]
  unfold Cert.Spec.pool0Of Cert.Spec.pool0
  refine congrArg₂ Ideal.div (Finset.sum_congr rfl fun n _ => ?_) rfl
  rw [rZ m c hus hvs]
  rfl

theorem rT (e : Fin 262144) :
    (RW2 m c main_v67 : S262144.Idx → EReal) (ix1 e)
      = Cert.Spec.tOf
          (m ((c.tc : Thread nD τ).loc main_arg0) : (⟨2, ![8192, 256]⟩ : Shape).Idx → EReal)
          (m ((c.tc : Thread nD τ).loc main_arg2) : (⟨2, ![256, 256]⟩ : Shape).Idx → EReal)
          (m ((c.tc : Thread nD τ).loc main_arg3) : (⟨1, ![256]⟩ : Shape).Idx → EReal)
          (m ((c.tc : Thread nD τ).loc main_arg4) : (⟨2, ![256, 256]⟩ : Shape).Idx → EReal)
          (m ((c.tc : Thread nD τ).loc main_arg5) : (⟨1, ![256]⟩ : Shape).Idx → EReal)
          (m ((c.tc : Thread nD τ).loc main_arg6) : (⟨2, ![512, 1]⟩ : Shape).Idx → EReal)
          (m ((c.tc : Thread nD τ).loc main_arg7) : (⟨1, ![1]⟩ : Shape).Idx → EReal)
          (m ((c.tc : Thread nD τ).loc main_arg12) : (⟨1, ![262144]⟩ : Shape).Idx → BitVec 32)
          (m ((c.tc : Thread nD τ).loc main_arg13) : (⟨1, ![262144]⟩ : Shape).Idx → BitVec 32) hus hvs e := by
  rw [run_v67 m c, run1_arg m c (r := main_arg6) (by decide), run1_arg m c (r := main_arg7) (by decide),
    run1_arg m c (r := main_arg12) (by decide), run1_arg m c (r := main_arg13) (by decide), pT_apply _ _ _ _ _ hus hvs]
  unfold Cert.Spec.tOf Cert.Spec.t Cert.Spec.esc
  refine congrArg Ideal.tanh (congrArg Cert.Spec.leaky (congrArg₂ (· + ·) (congrArg₂ (· + ·)
    (Finset.sum_congr rfl fun k _ => ?_) (Finset.sum_congr rfl fun k _ => ?_)) rfl))
  · rw [rZ m c hus hvs]; rfl
  · rw [rZ m c hus hvs]; rfl

end Cert.ReferenceIdeal.Val

end
-- ==== Proof.KValM0.lean ====
import proofs.«428349_j38809324486859_3_alg».proof.Proof.Gen.KernelIdeal
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

noncomputable section

namespace Cert.KernelIdeal.Val

open Cert.KernelIdeal Cert.KernelIdeal.Gen
open Idealize.ShloMosaic Idealize.ShloMosaic.ValueIdx

theorem coreSum_apply (x : FVec Ideal S2x3x8192 .f32) (h' : S2x3x8192.ReducesTo [0] S3x8192) (hu : 0 < S_.numel)
    (ht : S3x8192.Transposes [1, 0] S8192x3) (n : Fin 8192) (k : Fin 3) :
    transpose S8192x3 [1, 0] (Host.reduceAdd x (constant (F := Ideal) S_ .f32 0x00000000#32) h' hu) ht (ix2 n k)
      = ∑ a : Fin 2, x (ix3 a k n) := by
  have h : S2x3x8192.Reduces [0] S3x8192 := ⟨h'.1, Nat.two_pos, h'.2⟩
  rw [transpose_ix2_apply, hostReduceAdd_apply, Ideal.hostReduceAdd_single h' h, constant_apply, Ideal.ofBits_zero_f32, zero_add]
  refine Finset.sum_congr rfl fun a _ => congrArg x (funext fun b => Fin.ext ?_)
  match b with
  | ⟨0, _⟩ => rfl
  | ⟨1, _⟩ => rfl
  | ⟨2, _⟩ => rfl

theorem colSum_apply (x : FVec Ideal S8192x256 .f32) (h' : S8192x256.ReducesTo [0] S256) (hu : 0 < S_.numel) (j : Fin 256) :
    Host.reduceAdd x (constant (F := Ideal) S_ .f32 0x00000000#32) h' hu (ix1 j) = ∑ n : Fin 8192, x (ix2 n j) := by
  have h : S8192x256.Reduces [0] S256 := ⟨h'.1, Nat.one_pos, h'.2⟩
  rw [hostReduceAdd_apply, Ideal.hostReduceAdd_single h' h, constant_apply, Ideal.ofBits_zero_f32, zero_add]
  refine Finset.sum_congr rfl fun a _ => congrArg x (funext fun b => Fin.ext ?_)
  match b with
  | ⟨0, _⟩ => rfl
  | ⟨1, _⟩ => rfl

theorem totalSum_apply (x : FVec Ideal S8192x1 .f32) (h' : S8192x1.ReducesTo [0, 1] S_) (hu : 0 < S_.numel) (j : S_.Idx) :
    Host.reduceAdd x (constant (F := Ideal) S_ .f32 0x00000000#32) h' hu j = ∑ n : Fin 8192, x (ix2 n (0 : Fin 1)) := by
  rw [hostReduceAdd_apply, Ideal.hostReduceAdd_total h' (fun b => b.elim0), constant_apply, Ideal.ofBits_zero_f32, zero_add,
    sum_idx2]
  exact Finset.sum_congr rfl fun n _ => Fin.sum_univ_one _

section Bcast
variable {α : Type}

theorem bcastCol_apply (x : S8192x1.Idx → α) (h : S8192x1.BroadcastsInDim S8192x256 ![0, 1]) (n : Fin 8192) (j : Fin 256) :
    broadcastInDim S8192x256 ![0, 1] h x (ix2 n j) = x (ix2 n (0 : Fin 1)) :=
  broadcastInDim_apply _ h x _ _ fun a => by
    match a with
    | ⟨0, _⟩ => rfl
    | ⟨1, _⟩ => rfl

theorem bcastVecRow_apply {c : ℕ} (hc : c ≠ 1) (x : (⟨1, ![c]⟩ : Shape).Idx → α)
    (h : (⟨1, ![c]⟩ : Shape).BroadcastsInDim ⟨2, ![1, c]⟩ ![1]) (u : Fin 1) (j : Fin c) :
    broadcastInDim ⟨2, ![1, c]⟩ ![1] h x (ix2 u j) = x (ix1 j) :=
  broadcastInDim_apply _ h x _ _ fun a => by
    match a with
    | ⟨0, _⟩ =>
      show j.val = if c = 1 then 0 else j.val
      rw [if_neg hc]

end Bcast

section Slices
variable {α : Type}

theorem motifCol_apply (o : ℕ) (k : Fin 3) (hk : k.val = o) (x : S8192x3.Idx → α) (h : S8192x3.Slices ![0, o] S8192x1)
    (n : Fin 8192) : extractStridedSlice S8192x1 ![0, o] x h (ix2 n (0 : Fin 1)) = x (ix2 n k) :=
  slice2_axis1_apply o x h n (0 : Fin 1) k (by rw [hk]; rfl)

theorem motifMat_apply (o : ℕ) (k : Fin 3) (hk : k.val = o) (x : S3x256x256.Idx → α) (h : S3x256x256.Slices ![o, 0, 0] S1x256x256)
    (hc : S1x256x256.ShapeCasts S256x256) (d j : Fin 256) :
    shapeCast S256x256 (extractStridedSlice S1x256x256 ![o, 0, 0] x h) hc (ix2 d j) = x (ix3 k d j) := by
  rw [shapeCast_1ab_ab_apply]
  refine extractStridedSlice_apply _ x h _ _ fun a => ?_
  match a with
  | ⟨0, _⟩ => exact hk.trans (Nat.add_zero o).symm
  | ⟨1, _⟩ => exact (Nat.zero_add _).symm
  | ⟨2, _⟩ => exact (Nat.zero_add _).symm

theorem motifRow_apply (o : ℕ) (k : Fin 3) (hk : k.val = o) (x : S3x256.Idx → α) (h : S3x256.Slices ![o, 0] S1x256)
    (hc : S1x256.ShapeCasts S256) (j : Fin 256) :
    shapeCast S256 (extractStridedSlice S1x256 ![o, 0] x h) hc (ix1 j) = x (ix2 k j) := by
  rw [shapeCast_1a_a_apply]
  exact slice2_axis0_apply o x h (0 : Fin 1) j k (by rw [hk]; rfl)

end Slices

/-- The two products of this program are plain matrix products: the sum over the inner coordinate. -/
theorem featDot_apply (x : FVec Ideal S8192x256 .f32) (w : FVec Ideal S256x256 .f32) (n : Fin 8192) (j : Fin 256) :
    Host.dotGeneral dot_S8192x256_S256x256_S8192x256_1_0_0_1_n_n none x w (ix2 n j) = ∑ d : Fin 256, x (ix2 n d) * w (ix2 d j) :=
  StackMember.dotGeneral_plain_apply none x w n j

theorem lastDot_apply (x : FVec Ideal S1x1024 .f32) (w : FVec Ideal S1024x2 .f32) (o : Fin 2) :
    Host.dotGeneral dot_S1x1024_S1024x2_S1x2_1_0_0_1_n_n none x w (ix2 (0 : Fin 1) o)
      = ∑ q : Fin 1024, x (ix2 (0 : Fin 1) q) * w (ix2 q o) :=
  StackMember.dotGeneral_plain_apply none x w 0 o

theorem pools_apply {α : Type} (u : Fin 4 → S256.Idx → α)
    (h : Shape.Concatenates (([⟨S256, u 0⟩, ⟨S256, u 1⟩, ⟨S256, u 2⟩, ⟨S256, u 3⟩] : List ((s : Shape) × (s.Idx → α))).map (·.1)) S1024 0)
    (k : Fin 4) (r : Fin 256) (q : Fin 1024) (hq : q.val = 256 * k.val + r.val) :
    concatenate S1024 0 [⟨S256, u 0⟩, ⟨S256, u 1⟩, ⟨S256, u 2⟩, ⟨S256, u 3⟩] h (ix1 q) = u k (ix1 r) := by
  have hi : ∀ b : Fin S256.rank, b.cast (rfl : S256.rank = S1024.rank) ≠ (0 : Fin S1024.rank) →
      ((ix1 r : S256.Idx) b).val = ((ix1 q : S1024.Idx) (b.cast rfl)).val :=
    fun b hb => absurd (Subsingleton.elim _ _) hb
  fin_cases k
  · exact concatenate_apply_piece 0 _ h _ 0 (by simp) S256 (u 0) rfl rfl 0 rfl (ix1 r) hi
      (by show 0 + r.val = q.val; simp at hq; omega)
  · exact concatenate_apply_piece 0 _ h _ 1 (by simp) S256 (u 1) rfl rfl 256 rfl (ix1 r) hi
      (by show 256 + r.val = q.val; simp at hq; omega)
  · exact concatenate_apply_piece 0 _ h _ 2 (by simp) S256 (u 2) rfl rfl 512 rfl (ix1 r) hi
      (by show 512 + r.val = q.val; simp at hq; omega)
  · exact concatenate_apply_piece 0 _ h _ 3 (by simp) S256 (u 3) rfl rfl 768 rfl (ix1 r) hi
      (by show 768 + r.val = q.val; simp at hq; omega)

theorem bitFloat_gt_zero (x : EReal) :
    FloatOps.uitofp (F := Ideal) .f32 (FloatOps.cmpf (F := Ideal) (φ := .f32) .ogt x (Ideal.ofBits .f32 0x00000000#32))
      = if Ideal.cmp .ogt x 0 = 1#1 then (1 : EReal) else 0 := by
  rw [Ideal.ofBits_zero_f32]
  show FloatOps.uitofp (F := Ideal) .f32 (Ideal.cmp .ogt x 0) = _
  rcases (by decide : ∀ c : BitVec 1, c = 0#1 ∨ c = 1#1) (Ideal.cmp .ogt x 0) with h | h
  · rw [h, if_neg (by decide)]; show (((0#1 : BitVec 1).toNat : ℝ) : EReal) = 0; simp
  · rw [h, if_pos rfl]; show (((1#1 : BitVec 1).toNat : ℝ) : EReal) = 1; simp

theorem select_bit {α : Type} (c : BitVec 1) (a b : α) : Scalar.select c a b = if c = 1#1 then a else b := rfl

end Cert.KernelIdeal.Val
-- ==== Proof.KValM1.lean ====
import proofs.«428349_j38809324486859_3_alg».proof.Proof.RegionsKernelIdeal
import proofs.«428349_j38809324486859_3_alg».proof.Proof.KValM0
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 1824

noncomputable section

namespace Cert.KernelIdeal.Val

open Cert.KernelIdeal Cert.KernelIdeal.Gen Cert.KernelIdeal.GenP
open Idealize.ShloMosaic Idealize.ShloMosaic.TcCoe Idealize.ShloMosaic.ValueIdx

variable (W : Valuation τ sig (Elt Ideal))

theorem cnt_W (p1 : FVec Ideal S2x3x8192 .f32) (h1 : W (Proc.devRef .tc main_v98_1) = p1) (n : Fin 8192) (k : Fin 3) :
    (StableHlo.after (hostOps2 (F := Ideal)) W (Proc.devRef .tc main_v102) : S8192x3.Idx → EReal) (ix2 n k)
      = ∑ a : Fin 2, p1 (ix3 a k n) := by
  subst h1
  after_results_simp
  exact coreSum_apply _ _ _ _ n k

theorem mean_W (p0 p1 : FVec Ideal S2x3x8192 .f32) (h0 : W (Proc.devRef .tc main_v98_0) = p0)
    (h1 : W (Proc.devRef .tc main_v98_1) = p1) (n : Fin 8192) (k : Fin 3) :
    (StableHlo.after (hostOps2 (F := Ideal)) W (Proc.devRef .tc main_v107) : S8192x3.Idx → EReal) (ix2 n k)
      = Ideal.div (∑ a : Fin 2, p0 (ix3 a k n)) (max (∑ a : Fin 2, p1 (ix3 a k n)) 1) := by
  subst h0 h1
  after_results_simp
  rw [hostDivf_apply, maximumf_apply, coreSum_apply, coreSum_apply, broadcastInDim_scalar_apply, constant_apply,
    Ideal.ofBits_one_f32]

theorem insub_W (p1 p2 : FVec Ideal S2x3x8192 .f32) (h1 : W (Proc.devRef .tc main_v98_1) = p1)
    (h2 : W (Proc.devRef .tc main_v98_2) = p2) (n : Fin 8192) (k : Fin 3) :
    (StableHlo.after (hostOps2 (F := Ideal)) W (Proc.devRef .tc main_v111) : S8192x3.Idx → EReal) (ix2 n k)
      = if Ideal.cmp .ogt ((∑ a : Fin 2, p1 (ix3 a k n)) + ∑ a : Fin 2, p2 (ix3 a k n)) 0 = 1#1 then (1 : EReal) else 0 := by
  subst h1 h2
  after_results_simp
  show FloatOps.uitofp (F := Ideal) .f32 (FloatOps.cmpf (F := Ideal) (φ := .f32) .ogt (addf _ _ (ix2 n k)) (broadcastInDim _ _ _ _ (ix2 n k))) = _
  rw [addf_apply, coreSum_apply, coreSum_apply, broadcastInDim_scalar_apply, constant_apply, bitFloat_gt_zero]

theorem wholePool_W (z : FVec Ideal S8192x256 .f32) (hz : W (Proc.devRef .tc main_v37) = z) (j : Fin 256) :
    (StableHlo.after (hostOps2 (F := Ideal)) W (Proc.devRef .tc main_v114) : S256.Idx → EReal) (ix1 j)
      = Ideal.div (∑ n : Fin 8192, z (ix2 n j)) (Ideal.ofBits .f32 0x46000000#32) := by
  subst hz
  after_results_simp
  rw [hostDivf_apply, colSum_apply, broadcastInDim_scalar_apply, constant_apply]

theorem pos0_W (p1 : FVec Ideal S2x3x8192 .f32) (h1 : W (Proc.devRef .tc main_v98_1) = p1) (n : Fin 8192) :
    (StableHlo.after (hostOps2 (F := Ideal)) W (Proc.devRef .tc main_v125) : S8192x1.Idx → BitVec 1) (ix2 n (0 : Fin 1))
      = Ideal.cmp .ogt (∑ a : Fin 2, p1 (ix3 a (0 : Fin 3) n)) 0 := by
  subst h1
  after_results_simp
  show FloatOps.cmpf (F := Ideal) (φ := .f32) .ogt (extractStridedSlice _ _ _ _ (ix2 n (0 : Fin 1))) (broadcastInDim _ _ _ _ (ix2 n (0 : Fin 1))) = _
  rw [motifCol_apply 0 (0 : Fin 3) rfl, coreSum_apply, broadcastInDim_scalar_apply, constant_apply, Ideal.ofBits_zero_f32]
  rfl

theorem azm0_W (p0 p1 : FVec Ideal S2x3x8192 .f32) (z : FVec Ideal S8192x256 .f32) (w8 : FVec Ideal S3x256x256 .f32)
    (w9 : FVec Ideal S3x256 .f32) (h0 : W (Proc.devRef .tc main_v98_0) = p0) (h1 : W (Proc.devRef .tc main_v98_1) = p1)
    (hz : W (Proc.devRef .tc main_v37) = z) (h8 : W (Proc.devRef .tc main_arg8) = w8) (h9 : W (Proc.devRef .tc main_arg9) = w9)
    (n : Fin 8192) (j : Fin 256) :
    (StableHlo.after (hostOps2 (F := Ideal)) W (Proc.devRef .tc main_v128) : S8192x256.Idx → EReal) (ix2 n j)
      = ((∑ d : Fin 256, z (ix2 n d) * w8 (ix3 (0 : Fin 3) d j)) + w9 (ix2 (0 : Fin 3) j))
        * Ideal.div (∑ a : Fin 2, p0 (ix3 a (0 : Fin 3) n)) (max (∑ a : Fin 2, p1 (ix3 a (0 : Fin 3) n)) 1) := by
  after_results_simp
  rw [h0, h1, hz, h8, h9, mulf_apply, addf_apply, featDot_apply, broadcastInDim_oneRow_apply, bcastVecRow_apply (by decide), bcastCol_apply,
    motifCol_apply 0 (0 : Fin 3) rfl, hostDivf_apply, maximumf_apply, coreSum_apply, coreSum_apply, broadcastInDim_scalar_apply,
    constant_apply, Ideal.ofBits_one_f32]
  exact congrArg₂ (· * ·) (congrArg₂ (· + ·)
    (Finset.sum_congr rfl fun d _ => congrArg (_ * ·) (motifMat_apply 0 (0 : Fin 3) rfl _ _ _ d j))
    (motifRow_apply 0 (0 : Fin 3) rfl _ _ _ j)) rfl

end Cert.KernelIdeal.Val
-- ==== Proof.KValM2a.lean ====
import proofs.«428349_j38809324486859_3_alg».proof.Proof.RegionsKernelIdeal
import proofs.«428349_j38809324486859_3_alg».proof.Proof.KValM0
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 1824

noncomputable section

namespace Cert.KernelIdeal.Val

open Cert.KernelIdeal Cert.KernelIdeal.Gen Cert.KernelIdeal.GenP
open Idealize.ShloMosaic Idealize.ShloMosaic.TcCoe Idealize.ShloMosaic.ValueIdx

variable (W : Valuation τ sig (Elt Ideal))

theorem hk0_W (b : IVec S8192x1 1) (x z : FVec Ideal S8192x256 .f32) (hb : W (Proc.devRef .tc main_v125) = b)
    (hx : W (Proc.devRef .tc main_v128) = x) (hz : W (Proc.devRef .tc main_v37) = z) (n : Fin 8192) (j : Fin 256) :
    (StableHlo.after (hostOps2_1 (F := Ideal)) W (Proc.devRef .tc main_v129) : S8192x256.Idx → EReal) (ix2 n j)
      = if b (ix2 n (0 : Fin 1)) = 1#1 then x (ix2 n j) else z (ix2 n j) := by
  after_results
  simp only [StableHlo.TRef.ofBuf, StableHlo.TRef.toBuf, cast_eq]
  rw [hb, hx, hz, select_apply, bcastCol_apply, select_bit]

theorem pool0_W (g : FVec Ideal S8192x3 .f32) (x : FVec Ideal S8192x256 .f32) (hg : W (Proc.devRef .tc main_v111) = g)
    (hx : W (Proc.devRef .tc main_v129) = x) (j : Fin 256) :
    (StableHlo.after (hostOps2_2 (F := Ideal)) W (Proc.devRef .tc main_v137) : S256.Idx → EReal) (ix1 j)
      = Ideal.div (∑ n : Fin 8192, x (ix2 n j) * g (ix2 n (0 : Fin 3))) (max (∑ n : Fin 8192, g (ix2 n (0 : Fin 3))) 1) := by
  after_results_simp
  rw [hg, hx, hostDivf_apply, colSum_apply, broadcastInDim_scalar_apply, maximumf_apply, totalSum_apply, constant_apply,
    Ideal.ofBits_one_f32]
  refine congrArg₂ Ideal.div (Finset.sum_congr rfl fun n _ => ?_)
    (congrArg (max · 1) (Finset.sum_congr rfl fun n _ => motifCol_apply 0 (0 : Fin 3) rfl _ _ n))
  rw [mulf_apply, bcastCol_apply, motifCol_apply 0 (0 : Fin 3) rfl]

theorem nz0_W (g : FVec Ideal S8192x3 .f32) (hg : W (Proc.devRef .tc main_v111) = g) :
    (StableHlo.after (hostOps2_2 (F := Ideal)) W (Proc.devRef .tc main_v139) : S_.Idx → BitVec 1) ix0
      = Ideal.cmp .ogt (∑ n : Fin 8192, g (ix2 n (0 : Fin 3))) 0 := by
  after_results_simp
  rw [hg]
  show FloatOps.cmpf (F := Ideal) (φ := .f32) .ogt (Host.reduceAdd _ _ _ _ ix0) (constant _ _ _ ix0) = _
  rw [totalSum_apply, constant_apply, Ideal.ofBits_zero_f32]
  exact congrArg (Ideal.cmp .ogt · 0) (Finset.sum_congr rfl fun n _ => motifCol_apply 0 (0 : Fin 3) rfl _ _ n)

theorem zero0_W (j : Fin 256) :
    (StableHlo.after (hostOps2_2 (F := Ideal)) W (Proc.devRef .tc main_v140) : S256.Idx → EReal) (ix1 j) = (0 : EReal) := by
  after_results_simp
  rw [broadcastInDim_scalar_apply, constant_apply, Ideal.ofBits_zero_f32]

theorem res0_W (b : IVec S_ 1) (x y : FVec Ideal S256 .f32) (hb : W (Proc.devRef .tc main_v139) = b)
    (hx : W (Proc.devRef .tc main_v137) = x) (hy : W (Proc.devRef .tc main_v140) = y) (j : Fin 256) :
    (StableHlo.after (hostOps2_3 (F := Ideal)) W (Proc.devRef .tc main_v141) : S256.Idx → EReal) (ix1 j)
      = if b ix0 = 1#1 then x (ix1 j) else y (ix1 j) := by
  after_results
  simp only [StableHlo.TRef.ofBuf, StableHlo.TRef.toBuf, cast_eq]
  rw [hb, hx, hy, select_apply, broadcastInDim_scalar_apply, select_bit]

end Cert.KernelIdeal.Val
-- ==== Proof.KValM2b.lean ====
import proofs.«428349_j38809324486859_3_alg».proof.Proof.RegionsKernelIdeal
import proofs.«428349_j38809324486859_3_alg».proof.Proof.KValM0
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 1824

noncomputable section

namespace Cert.KernelIdeal.Val

open Cert.KernelIdeal Cert.KernelIdeal.Gen Cert.KernelIdeal.GenP
open Idealize.ShloMosaic Idealize.ShloMosaic.TcCoe Idealize.ShloMosaic.ValueIdx

variable (W : Valuation τ sig (Elt Ideal))

theorem pos1_W (c : FVec Ideal S8192x3 .f32) (hc : W (Proc.devRef .tc main_v102) = c) (n : Fin 8192) :
    (StableHlo.after (hostOps2_4 (F := Ideal)) W (Proc.devRef .tc main_v152) : S8192x1.Idx → BitVec 1) (ix2 n (0 : Fin 1))
      = Ideal.cmp .ogt (c (ix2 n (1 : Fin 3))) 0 := by
  after_results_simp
  rw [hc]
  show FloatOps.cmpf (F := Ideal) (φ := .f32) .ogt (extractStridedSlice _ _ _ _ (ix2 n (0 : Fin 1))) (broadcastInDim _ _ _ _ (ix2 n (0 : Fin 1))) = _
  rw [motifCol_apply 1 (1 : Fin 3) rfl, broadcastInDim_scalar_apply, constant_apply, Ideal.ofBits_zero_f32]
  rfl

theorem azm1_W (ma : FVec Ideal S8192x3 .f32) (z : FVec Ideal S8192x256 .f32) (w8 : FVec Ideal S3x256x256 .f32)
    (w9 : FVec Ideal S3x256 .f32) (hma : W (Proc.devRef .tc main_v107) = ma)
    (hz : W (Proc.devRef .tc main_v37) = z) (h8 : W (Proc.devRef .tc main_arg8) = w8) (h9 : W (Proc.devRef .tc main_arg9) = w9)
    (n : Fin 8192) (j : Fin 256) :
    (StableHlo.after (hostOps2_4 (F := Ideal)) W (Proc.devRef .tc main_v155) : S8192x256.Idx → EReal) (ix2 n j)
      = ((∑ d : Fin 256, z (ix2 n d) * w8 (ix3 (1 : Fin 3) d j)) + w9 (ix2 (1 : Fin 3) j)) * ma (ix2 n (1 : Fin 3)) := by
  after_results_simp
  rw [hma, hz, h8, h9, mulf_apply, addf_apply, featDot_apply, broadcastInDim_oneRow_apply, bcastVecRow_apply (by decide), bcastCol_apply,
    motifCol_apply 1 (1 : Fin 3) rfl]
  exact congrArg₂ (· * ·) (congrArg₂ (· + ·)
    (Finset.sum_congr rfl fun d _ => congrArg (_ * ·) (motifMat_apply 1 (1 : Fin 3) rfl _ _ _ d j))
    (motifRow_apply 1 (1 : Fin 3) rfl _ _ _ j)) rfl

theorem hk1_W (b : IVec S8192x1 1) (x z : FVec Ideal S8192x256 .f32) (hb : W (Proc.devRef .tc main_v152) = b)
    (hx : W (Proc.devRef .tc main_v155) = x) (hz : W (Proc.devRef .tc main_v37) = z) (n : Fin 8192) (j : Fin 256) :
    (StableHlo.after (hostOps2_5 (F := Ideal)) W (Proc.devRef .tc main_v156) : S8192x256.Idx → EReal) (ix2 n j)
      = if b (ix2 n (0 : Fin 1)) = 1#1 then x (ix2 n j) else z (ix2 n j) := by
  after_results
  simp only [StableHlo.TRef.ofBuf, StableHlo.TRef.toBuf, cast_eq]
  rw [hb, hx, hz, select_apply, bcastCol_apply, select_bit]

theorem pool1_W (g : FVec Ideal S8192x3 .f32) (x : FVec Ideal S8192x256 .f32) (hg : W (Proc.devRef .tc main_v111) = g)
    (hx : W (Proc.devRef .tc main_v156) = x) (j : Fin 256) :
    (StableHlo.after (hostOps2_6 (F := Ideal)) W (Proc.devRef .tc main_v164) : S256.Idx → EReal) (ix1 j)
      = Ideal.div (∑ n : Fin 8192, x (ix2 n j) * g (ix2 n (1 : Fin 3))) (max (∑ n : Fin 8192, g (ix2 n (1 : Fin 3))) 1) := by
  after_results_simp
  rw [hg, hx, hostDivf_apply, colSum_apply, broadcastInDim_scalar_apply, maximumf_apply, totalSum_apply, constant_apply,
    Ideal.ofBits_one_f32]
  refine congrArg₂ Ideal.div (Finset.sum_congr rfl fun n _ => ?_)
    (congrArg (max · 1) (Finset.sum_congr rfl fun n _ => motifCol_apply 1 (1 : Fin 3) rfl _ _ n))
  rw [mulf_apply, bcastCol_apply, motifCol_apply 1 (1 : Fin 3) rfl]

theorem nz1_W (g : FVec Ideal S8192x3 .f32) (hg : W (Proc.devRef .tc main_v111) = g) :
    (StableHlo.after (hostOps2_6 (F := Ideal)) W (Proc.devRef .tc main_v166) : S_.Idx → BitVec 1) ix0
      = Ideal.cmp .ogt (∑ n : Fin 8192, g (ix2 n (1 : Fin 3))) 0 := by
  after_results_simp
  rw [hg]
  show FloatOps.cmpf (F := Ideal) (φ := .f32) .ogt (Host.reduceAdd _ _ _ _ ix0) (constant _ _ _ ix0) = _
  rw [totalSum_apply, constant_apply, Ideal.ofBits_zero_f32]
  exact congrArg (Ideal.cmp .ogt · 0) (Finset.sum_congr rfl fun n _ => motifCol_apply 1 (1 : Fin 3) rfl _ _ n)

theorem zero1_W (j : Fin 256) :
    (StableHlo.after (hostOps2_6 (F := Ideal)) W (Proc.devRef .tc main_v167) : S256.Idx → EReal) (ix1 j) = (0 : EReal) := by
  after_results_simp
  rw [broadcastInDim_scalar_apply, constant_apply, Ideal.ofBits_zero_f32]

theorem res1_W (b : IVec S_ 1) (x y : FVec Ideal S256 .f32) (hb : W (Proc.devRef .tc main_v166) = b)
    (hx : W (Proc.devRef .tc main_v164) = x) (hy : W (Proc.devRef .tc main_v167) = y) (j : Fin 256) :
    (StableHlo.after (hostOps2_7 (F := Ideal)) W (Proc.devRef .tc main_v168) : S256.Idx → EReal) (ix1 j)
      = if b ix0 = 1#1 then x (ix1 j) else y (ix1 j) := by
  after_results
  simp only [StableHlo.TRef.ofBuf, StableHlo.TRef.toBuf, cast_eq]
  rw [hb, hx, hy, select_apply, broadcastInDim_scalar_apply, select_bit]

end Cert.KernelIdeal.Val
-- ==== Proof.KValM2c.lean ====
import proofs.«428349_j38809324486859_3_alg».proof.Proof.RegionsKernelIdeal
import proofs.«428349_j38809324486859_3_alg».proof.Proof.KValM0
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 1824

noncomputable section

namespace Cert.KernelIdeal.Val

open Cert.KernelIdeal Cert.KernelIdeal.Gen Cert.KernelIdeal.GenP
open Idealize.ShloMosaic Idealize.ShloMosaic.TcCoe Idealize.ShloMosaic.ValueIdx

variable (W : Valuation τ sig (Elt Ideal))

theorem pos2_W (c : FVec Ideal S8192x3 .f32) (hc : W (Proc.devRef .tc main_v102) = c) (n : Fin 8192) :
    (StableHlo.after (hostOps2_8 (F := Ideal)) W (Proc.devRef .tc main_v179) : S8192x1.Idx → BitVec 1) (ix2 n (0 : Fin 1))
      = Ideal.cmp .ogt (c (ix2 n (2 : Fin 3))) 0 := by
  after_results_simp
  rw [hc]
  show FloatOps.cmpf (F := Ideal) (φ := .f32) .ogt (extractStridedSlice _ _ _ _ (ix2 n (0 : Fin 1))) (broadcastInDim _ _ _ _ (ix2 n (0 : Fin 1))) = _
  rw [motifCol_apply 2 (2 : Fin 3) rfl, broadcastInDim_scalar_apply, constant_apply, Ideal.ofBits_zero_f32]
  rfl

theorem azm2_W (ma : FVec Ideal S8192x3 .f32) (z : FVec Ideal S8192x256 .f32) (w8 : FVec Ideal S3x256x256 .f32)
    (w9 : FVec Ideal S3x256 .f32) (hma : W (Proc.devRef .tc main_v107) = ma)
    (hz : W (Proc.devRef .tc main_v37) = z) (h8 : W (Proc.devRef .tc main_arg8) = w8) (h9 : W (Proc.devRef .tc main_arg9) = w9)
    (n : Fin 8192) (j : Fin 256) :
    (StableHlo.after (hostOps2_8 (F := Ideal)) W (Proc.devRef .tc main_v182) : S8192x256.Idx → EReal) (ix2 n j)
      = ((∑ d : Fin 256, z (ix2 n d) * w8 (ix3 (2 : Fin 3) d j)) + w9 (ix2 (2 : Fin 3) j)) * ma (ix2 n (2 : Fin 3)) := by
  after_results_simp
  rw [hma, hz, h8, h9, mulf_apply, addf_apply, featDot_apply, broadcastInDim_oneRow_apply, bcastVecRow_apply (by decide), bcastCol_apply,
    motifCol_apply 2 (2 : Fin 3) rfl]
  exact congrArg₂ (· * ·) (congrArg₂ (· + ·)
    (Finset.sum_congr rfl fun d _ => congrArg (_ * ·) (motifMat_apply 2 (2 : Fin 3) rfl _ _ _ d j))
    (motifRow_apply 2 (2 : Fin 3) rfl _ _ _ j)) rfl

theorem hk2_W (b : IVec S8192x1 1) (x z : FVec Ideal S8192x256 .f32) (hb : W (Proc.devRef .tc main_v179) = b)
    (hx : W (Proc.devRef .tc main_v182) = x) (hz : W (Proc.devRef .tc main_v37) = z) (n : Fin 8192) (j : Fin 256) :
    (StableHlo.after (hostOps2_9 (F := Ideal)) W (Proc.devRef .tc main_v183) : S8192x256.Idx → EReal) (ix2 n j)
      = if b (ix2 n (0 : Fin 1)) = 1#1 then x (ix2 n j) else z (ix2 n j) := by
  after_results
  simp only [StableHlo.TRef.ofBuf, StableHlo.TRef.toBuf, cast_eq]
  rw [hb, hx, hz, select_apply, bcastCol_apply, select_bit]

theorem pool2_W (g : FVec Ideal S8192x3 .f32) (x : FVec Ideal S8192x256 .f32) (hg : W (Proc.devRef .tc main_v111) = g)
    (hx : W (Proc.devRef .tc main_v183) = x) (j : Fin 256) :
    (StableHlo.after (hostOps2_10 (F := Ideal)) W (Proc.devRef .tc main_v191) : S256.Idx → EReal) (ix1 j)
      = Ideal.div (∑ n : Fin 8192, x (ix2 n j) * g (ix2 n (2 : Fin 3))) (max (∑ n : Fin 8192, g (ix2 n (2 : Fin 3))) 1) := by
  after_results_simp
  rw [hg, hx, hostDivf_apply, colSum_apply, broadcastInDim_scalar_apply, maximumf_apply, totalSum_apply, constant_apply,
    Ideal.ofBits_one_f32]
  refine congrArg₂ Ideal.div (Finset.sum_congr rfl fun n _ => ?_)
    (congrArg (max · 1) (Finset.sum_congr rfl fun n _ => motifCol_apply 2 (2 : Fin 3) rfl _ _ n))
  rw [mulf_apply, bcastCol_apply, motifCol_apply 2 (2 : Fin 3) rfl]

theorem nz2_W (g : FVec Ideal S8192x3 .f32) (hg : W (Proc.devRef .tc main_v111) = g) :
    (StableHlo.after (hostOps2_10 (F := Ideal)) W (Proc.devRef .tc main_v193) : S_.Idx → BitVec 1) ix0
      = Ideal.cmp .ogt (∑ n : Fin 8192, g (ix2 n (2 : Fin 3))) 0 := by
  after_results_simp
  rw [hg]
  show FloatOps.cmpf (F := Ideal) (φ := .f32) .ogt (Host.reduceAdd _ _ _ _ ix0) (constant _ _ _ ix0) = _
  rw [totalSum_apply, constant_apply, Ideal.ofBits_zero_f32]
  exact congrArg (Ideal.cmp .ogt · 0) (Finset.sum_congr rfl fun n _ => motifCol_apply 2 (2 : Fin 3) rfl _ _ n)

theorem zero2_W (j : Fin 256) :
    (StableHlo.after (hostOps2_10 (F := Ideal)) W (Proc.devRef .tc main_v194) : S256.Idx → EReal) (ix1 j) = (0 : EReal) := by
  after_results_simp
  rw [broadcastInDim_scalar_apply, constant_apply, Ideal.ofBits_zero_f32]

theorem res2_W (b : IVec S_ 1) (x y : FVec Ideal S256 .f32) (hb : W (Proc.devRef .tc main_v193) = b)
    (hx : W (Proc.devRef .tc main_v191) = x) (hy : W (Proc.devRef .tc main_v194) = y) (j : Fin 256) :
    (StableHlo.after (hostOps2_11 (F := Ideal)) W (Proc.devRef .tc main_v195) : S256.Idx → EReal) (ix1 j)
      = if b ix0 = 1#1 then x (ix1 j) else y (ix1 j) := by
  after_results
  simp only [StableHlo.TRef.ofBuf, StableHlo.TRef.toBuf, cast_eq]
  rw [hb, hx, hy, select_apply, broadcastInDim_scalar_apply, select_bit]

end Cert.KernelIdeal.Val
-- ==== Proof.KValM3a.lean ====
import proofs.«428349_j38809324486859_3_alg».proof.Proof.RegionsKernelIdeal
import Idealize.ShloMosaic.PureOps.Ideal

set_option maxRecDepth 1824

noncomputable section

namespace Cert.KernelIdeal.Val

open Cert.KernelIdeal Cert.KernelIdeal.Gen Cert.KernelIdeal.GenP
open Idealize.ShloMosaic Idealize.ShloMosaic.TcCoe

variable (m : (ℓ : Loc nD τ sig) → Buf (Elt Ideal) ℓ) (outs : GenP.Outs (F := Ideal)) (c : Dev nD)

/-- A stretch that does not write a reference leaves its contents: each of these walks over such stretches. -/
theorem z_at20 : V20 m outs c main_v37 = V7 m outs c main_v37 := by
  rw [V20_of, V19_of, V18_of, V17_of, V16_of, V15_of, V14_of, V13_of, V12_of, V11_of, V10_of, V9_of, V8_of] <;> decide

theorem z_at21 : V21 m outs c main_v37 = V7 m outs c main_v37 :=
  (V21_of m outs c main_v37 (by decide)).trans (z_at20 m outs c)

theorem z_at24 : V24 m outs c main_v37 = V7 m outs c main_v37 := by
  rw [V24_of, V23_of, V22_of, z_at21] <;> decide

theorem z_at25 : V25 m outs c main_v37 = V7 m outs c main_v37 :=
  (V25_of m outs c main_v37 (by decide)).trans (z_at24 m outs c)

theorem z_at28 : V28 m outs c main_v37 = V7 m outs c main_v37 := by
  rw [V28_of, V27_of, V26_of, z_at25] <;> decide

theorem z_at29 : V29 m outs c main_v37 = V7 m outs c main_v37 :=
  (V29_of m outs c main_v37 (by decide)).trans (z_at28 m outs c)

theorem w8_at28 : V28 m outs c main_arg8 = m ((c : Thread nD τ).loc main_arg8) := by
  rw [← V33_main_arg8 m outs c, V33_of, V32_of, V31_of, V30_of, V29_of] <;> decide

theorem w8_at24 : V24 m outs c main_arg8 = m ((c : Thread nD τ).loc main_arg8) := by
  rw [← w8_at28 m outs c, V28_of, V27_of, V26_of, V25_of] <;> decide

theorem w8_at20 : V20 m outs c main_arg8 = m ((c : Thread nD τ).loc main_arg8) := by
  rw [← w8_at24 m outs c, V24_of, V23_of, V22_of, V21_of] <;> decide

theorem w9_at28 : V28 m outs c main_arg9 = m ((c : Thread nD τ).loc main_arg9) := by
  rw [← V33_main_arg9 m outs c, V33_of, V32_of, V31_of, V30_of, V29_of] <;> decide

theorem w9_at24 : V24 m outs c main_arg9 = m ((c : Thread nD τ).loc main_arg9) := by
  rw [← w9_at28 m outs c, V28_of, V27_of, V26_of, V25_of] <;> decide

theorem w9_at20 : V20 m outs c main_arg9 = m ((c : Thread nD τ).loc main_arg9) := by
  rw [← w9_at24 m outs c, V24_of, V23_of, V22_of, V21_of] <;> decide

theorem w10_at32 : V32 m outs c main_arg10 = m ((c : Thread nD τ).loc main_arg10) :=
  (V33_of m outs c main_arg10 (by decide)).symm.trans (V33_main_arg10 m outs c)

theorem w11_at32 : V32 m outs c main_arg11 = m ((c : Thread nD τ).loc main_arg11) :=
  (V33_of m outs c main_arg11 (by decide)).symm.trans (V33_main_arg11 m outs c)

theorem cnt_at24 : V24 m outs c main_v102 = V21 m outs c main_v102 := by
  rw [V24_of, V23_of, V22_of] <;> decide

theorem cnt_at28 : V28 m outs c main_v102 = V21 m outs c main_v102 := by
  rw [V28_of, V27_of, V26_of, V25_of, cnt_at24] <;> decide

theorem mean_at24 : V24 m outs c main_v107 = V21 m outs c main_v107 := by
  rw [V24_of, V23_of, V22_of] <;> decide

theorem mean_at28 : V28 m outs c main_v107 = V21 m outs c main_v107 := by
  rw [V28_of, V27_of, V26_of, V25_of, mean_at24] <;> decide

theorem insub_at22 : V22 m outs c main_v111 = V21 m outs c main_v111 :=
  V22_of m outs c main_v111 (by decide)

theorem insub_at26 : V26 m outs c main_v111 = V21 m outs c main_v111 := by
  rw [V26_of, V25_of, V24_of, V23_of, V22_of] <;> decide

theorem insub_at30 : V30 m outs c main_v111 = V21 m outs c main_v111 := by
  rw [V30_of, V29_of, V28_of, V27_of, insub_at26] <;> decide

theorem pool0_at32 : V32 m outs c main_v114 = V21 m outs c main_v114 := by
  rw [V32_of, V31_of, V30_of, V29_of, V28_of, V27_of, V26_of, V25_of, V24_of, V23_of, V22_of] <;> decide

theorem res0_at32 : V32 m outs c main_v141 = V24 m outs c main_v141 := by
  rw [V32_of, V31_of, V30_of, V29_of, V28_of, V27_of, V26_of, V25_of] <;> decide

theorem res1_at32 : V32 m outs c main_v168 = V28 m outs c main_v168 := by
  rw [V32_of, V31_of, V30_of, V29_of] <;> decide

theorem pass_out0 : V20 m outs c main_v98_0 = outs 20 main_v98_0 c := by
  simp (disch := decide) only [V20, Function.update_of_ne, StableHlo.devRef_ne_of_ne, ne_eq, not_false_eq_true, Function.update_self]

theorem pass_out1 : V20 m outs c main_v98_1 = outs 20 main_v98_1 c := by
  simp (disch := decide) only [V20, Function.update_of_ne, StableHlo.devRef_ne_of_ne, ne_eq, not_false_eq_true, Function.update_self]

theorem pass_out2 : V20 m outs c main_v98_2 = outs 20 main_v98_2 c := by
  simp only [V20, Function.update_self]

end Cert.KernelIdeal.Val
-- ==== Proof.KValM3.lean ====
import proofs.«428349_j38809324486859_3_alg».proof.Proof.RegionsKernelIdeal
import proofs.«428349_j38809324486859_3_alg».proof.Proof.SpecArgs
import proofs.«428349_j38809324486859_3_alg».proof.Proof.KValM0
import proofs.«428349_j38809324486859_3_alg».proof.Proof.KValM1
import proofs.«428349_j38809324486859_3_alg».proof.Proof.KValM2a
import proofs.«428349_j38809324486859_3_alg».proof.Proof.KValM2b
import proofs.«428349_j38809324486859_3_alg».proof.Proof.KValM2c
import proofs.«428349_j38809324486859_3_alg».proof.Proof.KValM3a
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 1824

noncomputable section

namespace Cert.KernelIdeal.Val

open Cert.KernelIdeal Cert.KernelIdeal.Gen Cert.KernelIdeal.GenP
open Idealize.ShloMosaic Idealize.ShloMosaic.TcCoe Idealize.ShloMosaic.ValueIdx
open Cert

namespace KOut

def pick4 (f0 f1 f2 f3 : S256.Idx → EReal) (q : Fin 1024) : EReal :=
  if q.val < 256 then f0 (ix1 ⟨q.val % 256, Nat.mod_lt _ (by norm_num)⟩)
  else if q.val < 512 then f1 (ix1 ⟨q.val % 256, Nat.mod_lt _ (by norm_num)⟩)
  else if q.val < 768 then f2 (ix1 ⟨q.val % 256, Nat.mod_lt _ (by norm_num)⟩)
  else f3 (ix1 ⟨q.val % 256, Nat.mod_lt _ (by norm_num)⟩)

theorem out_W (W : Valuation τ sig (Elt Ideal)) (f0 f1 f2 f3 : FVec Ideal S256 .f32) (w10 : FVec Ideal S1024x2 .f32)
    (w11 : FVec Ideal S2 .f32) (h0 : W (Proc.devRef .tc main_v114) = f0) (h1 : W (Proc.devRef .tc main_v141) = f1)
    (h2 : W (Proc.devRef .tc main_v168) = f2) (h3 : W (Proc.devRef .tc main_v195) = f3)
    (h10 : W (Proc.devRef .tc main_arg10) = w10) (h11 : W (Proc.devRef .tc main_arg11) = w11) (o : Fin 2) :
    (StableHlo.after (hostOps2_12 (F := Ideal)) W (Proc.devRef .tc main_v200) : S1x2.Idx → EReal) (ix2 (0 : Fin 1) o)
      = (∑ q : Fin 1024, pick4 f0 f1 f2 f3 q * w10 (ix2 q o)) + w11 (ix1 o) := by
  after_results
  rw [h10, h11, addf_apply, lastDot_apply, bcastVecRow_apply (by decide) w11]
  refine congrArg₂ (· + ·) (Finset.sum_congr rfl fun q _ => congrArg (· * w10 (ix2 q o)) ?_) rfl
  rw [bcastVecRow_apply (by decide)]
  show concatenate S1024 0 [⟨S256, W (Proc.devRef .tc main_v114)⟩, ⟨S256, W (Proc.devRef .tc main_v141)⟩,
    ⟨S256, W (Proc.devRef .tc main_v168)⟩, ⟨S256, W (Proc.devRef .tc main_v195)⟩] _ (ix1 q) = _
  rw [h0, h1, h2, h3]
  have hq := q.isLt
  unfold pick4
  by_cases c1 : q.val < 256
  · rw [if_pos c1]
    exact pools_apply ![f0, f1, f2, f3] _ 0 _ q (by show q.val = 256 * 0 + q.val % 256; omega)
  · rw [if_neg c1]
    by_cases c2 : q.val < 512
    · rw [if_pos c2]
      exact pools_apply ![f0, f1, f2, f3] _ 1 _ q (by show q.val = 256 * 1 + q.val % 256; omega)
    · rw [if_neg c2]
      by_cases c3 : q.val < 768
      · rw [if_pos c3]
        exact pools_apply ![f0, f1, f2, f3] _ 2 _ q (by show q.val = 256 * 2 + q.val % 256; omega)
      · rw [if_neg c3]
        exact pools_apply ![f0, f1, f2, f3] _ 3 _ q (by show q.val = 256 * 3 + q.val % 256; omega)

theorem rows_sum (P : Fin 262144 → Prop) [DecidablePred P] (f : Fin 262144 → EReal) :
    ∑ a : Fin 2, ∑ e ∈ Finset.univ.filter (fun e : Fin 262144 => e.val / 131072 = a.val ∧ P e), f e
      = ∑ e ∈ Finset.univ.filter P, f e := by
  rw [← Finset.sum_fiberwise (Finset.univ.filter P) (fun e : Fin 262144 => (⟨e.val / 131072, by have := e.isLt; omega⟩ : Fin 2)) f]
  refine Finset.sum_congr rfl fun a _ => Finset.sum_congr ?_ fun _ _ => rfl
  ext e
  simp only [Finset.mem_filter, Finset.mem_univ, true_and, Fin.ext_iff]
  exact and_comm

/-- A function on a rank-2 index set is determined by its values at the pairs of coordinates. -/
theorem fn2 {a b : ℕ} {α : Type} {f : (⟨2, ![a, b]⟩ : Shape).Idx → α} {g : Fin a → Fin b → α}
    (h : ∀ n j, f (ix2 n j) = g n j) : f = fun i => g (i 0) (i 1) :=
  funext fun i => (congrArg f (eq_ix2 i)).trans (h _ _)

section Chain

variable (m : (ℓ : Loc nD τ sig) → Buf (Elt Ideal) ℓ) (outs : GenP.Outs (F := Ideal)) (c : Dev nD)

abbrev A0 := Spec.mat2 (m ((c : Thread nD τ).loc main_arg0) : (⟨2, ![8192, 256]⟩ : Shape).Idx → EReal)
abbrev A1 := Spec.ten3 (m ((c : Thread nD τ).loc main_arg1) : (⟨3, ![3, 8192, 8192]⟩ : Shape).Idx → EReal)
abbrev A2 := Spec.mat2 (m ((c : Thread nD τ).loc main_arg2) : (⟨2, ![256, 256]⟩ : Shape).Idx → EReal)
abbrev A3 := Spec.vec1 (m ((c : Thread nD τ).loc main_arg3) : (⟨1, ![256]⟩ : Shape).Idx → EReal)
abbrev A4 := Spec.mat2 (m ((c : Thread nD τ).loc main_arg4) : (⟨2, ![256, 256]⟩ : Shape).Idx → EReal)
abbrev A5 := Spec.vec1 (m ((c : Thread nD τ).loc main_arg5) : (⟨1, ![256]⟩ : Shape).Idx → EReal)
abbrev A6 := Spec.col1 (m ((c : Thread nD τ).loc main_arg6) : (⟨2, ![512, 1]⟩ : Shape).Idx → EReal)
abbrev A7 := Spec.the1 (m ((c : Thread nD τ).loc main_arg7) : (⟨1, ![1]⟩ : Shape).Idx → EReal)
abbrev A8 := Spec.ten3 (m ((c : Thread nD τ).loc main_arg8) : (⟨3, ![3, 256, 256]⟩ : Shape).Idx → EReal)
abbrev A9 := Spec.mat2 (m ((c : Thread nD τ).loc main_arg9) : (⟨2, ![3, 256]⟩ : Shape).Idx → EReal)
abbrev A10 := Spec.mat2 (m ((c : Thread nD τ).loc main_arg10) : (⟨2, ![1024, 2]⟩ : Shape).Idx → EReal)
abbrev A11 := Spec.vec1 (m ((c : Thread nD τ).loc main_arg11) : (⟨1, ![2]⟩ : Shape).Idx → EReal)
abbrev B12 := (m ((c : Thread nD τ).loc main_arg12) : (⟨1, ![262144]⟩ : Shape).Idx → BitVec 32)
abbrev B13 := (m ((c : Thread nD τ).loc main_arg13) : (⟨1, ![262144]⟩ : Shape).Idx → BitVec 32)

/-- Both endpoint words of every edge are node ids. -/
structure NodeIds : Prop where
  hus : ∀ e : Fin 262144, (B12 m c (ix1 e)).toNat < 8192
  hvs : ∀ e : Fin 262144, (B13 m c (ix1 e)).toNat < 8192

variable {m c} (I : NodeIds m c)

abbrev uS := Spec.node (B12 m c) I.hus
abbrev vS := Spec.node (B13 m c) I.hvs
abbrev sZ := Spec.Z (A0 m c) (A2 m c) (A3 m c) (A4 m c) (A5 m c) (uS I) (vS I)
abbrev sT := Spec.t (A0 m c) (A2 m c) (A3 m c) (A4 m c) (A5 m c) (A6 m c) (A7 m c) (uS I) (vS I)
abbrev sCounted := Spec.counted (A1 m c) (uS I) (vS I)
abbrev sInd := Spec.ind (A1 m c) (uS I) (vS I)
abbrev sCnt := Spec.cnt (A1 m c) (uS I) (vS I)
abbrev sMean := Spec.meanAttn (A0 m c) (A1 m c) (A2 m c) (A3 m c) (A4 m c) (A5 m c) (A6 m c) (A7 m c) (uS I) (vS I)
abbrev sInsub := Spec.insub (A1 m c) (uS I) (vS I)
abbrev sNsub := Spec.nsub (A1 m c) (uS I) (vS I)
abbrev sAz := Spec.az (A0 m c) (A2 m c) (A3 m c) (A4 m c) (A5 m c) (A8 m c) (A9 m c) (uS I) (vS I)
abbrev sHk := Spec.hk (A0 m c) (A1 m c) (A2 m c) (A3 m c) (A4 m c) (A5 m c) (A6 m c) (A7 m c) (A8 m c) (A9 m c) (uS I) (vS I)
abbrev sPoolk := Spec.poolk (A0 m c) (A1 m c) (A2 m c) (A3 m c) (A4 m c) (A5 m c) (A6 m c) (A7 m c) (A8 m c) (A9 m c) (uS I) (vS I)
abbrev sFeat := Spec.feat (A0 m c) (A1 m c) (A2 m c) (A3 m c) (A4 m c) (A5 m c) (A6 m c) (A7 m c) (A8 m c) (A9 m c) (uS I) (vS I)

/-- The node features are the specification's; the pass's outputs are, per core row, the sums over that row's edges. -/
structure PassFacts : Prop where
  hZ : ∀ (n : Fin 8192) (j : Fin 256), (V7 m outs c main_v37 : S8192x256.Idx → EReal) (ix2 n j) = sZ I n j
  h0 : ∀ (a : Fin 2) (k : Fin 3) (n : Fin 8192), (outs 20 main_v98_0 c : S2x3x8192.Idx → EReal) (ix3 a k n)
    = ∑ e ∈ Finset.univ.filter (fun e : Fin 262144 => e.val / 131072 = a.val ∧ vS I e = n), (if sCounted I k e then sT I e else 0)
  h1 : ∀ (a : Fin 2) (k : Fin 3) (n : Fin 8192), (outs 20 main_v98_1 c : S2x3x8192.Idx → EReal) (ix3 a k n)
    = ∑ e ∈ Finset.univ.filter (fun e : Fin 262144 => e.val / 131072 = a.val ∧ vS I e = n), sInd I k e
  h2 : ∀ (a : Fin 2) (k : Fin 3) (n : Fin 8192), (outs 20 main_v98_2 c : S2x3x8192.Idx → EReal) (ix3 a k n)
    = ∑ e ∈ Finset.univ.filter (fun e : Fin 262144 => e.val / 131072 = a.val ∧ uS I e = n), sInd I k e

variable {outs I} (P : PassFacts outs I)
include P

theorem z7f : (V7 m outs c main_v37 : S8192x256.Idx → EReal) = fun i => sZ I (i 0) (i 1) := fn2 P.hZ

theorem cnt21 (n : Fin 8192) (k : Fin 3) : (V21 m outs c main_v102 : S8192x3.Idx → EReal) (ix2 n k) = sCnt I k n := by
  refine (cnt_W (V20 m outs c) _ (pass_out1 m outs c) n k).trans ?_
  simp only [P.h1]
  exact rows_sum (fun e => vS I e = n) _

theorem mean21 (n : Fin 8192) (k : Fin 3) : (V21 m outs c main_v107 : S8192x3.Idx → EReal) (ix2 n k) = sMean I k n := by
  refine (mean_W (V20 m outs c) _ _ (pass_out0 m outs c) (pass_out1 m outs c) n k).trans ?_
  simp only [P.h0, P.h1]
  exact congrArg₂ Ideal.div (rows_sum (fun e => vS I e = n) _) (congrArg (max · 1) (rows_sum (fun e => vS I e = n) _))

theorem insub21 (n : Fin 8192) (k : Fin 3) : (V21 m outs c main_v111 : S8192x3.Idx → EReal) (ix2 n k) = sInsub I k n := by
  refine (insub_W (V20 m outs c) _ _ (pass_out1 m outs c) (pass_out2 m outs c) n k).trans ?_
  simp only [P.h1, P.h2]
  exact congrArg (fun s : EReal => if Ideal.cmp .ogt s 0 = 1#1 then (1 : EReal) else 0)
    (congrArg₂ (· + ·) (rows_sum (fun e => vS I e = n) _) (rows_sum (fun e => uS I e = n) _))

theorem wholePool21 (j : Fin 256) : (V21 m outs c main_v114 : S256.Idx → EReal) (ix1 j)
    = Spec.pool0 (A0 m c) (A2 m c) (A3 m c) (A4 m c) (A5 m c) (uS I) (vS I) j := by
  refine (wholePool_W (V20 m outs c) _ (z_at20 m outs c) j).trans ?_
  rw [z7f P] <;> rfl

theorem pos0_at (n : Fin 8192) :
    (V21 m outs c main_v125 : S8192x1.Idx → BitVec 1) (ix2 n (0 : Fin 1)) = Ideal.cmp .ogt (sCnt I 0 n) 0 := by
  refine (pos0_W (V20 m outs c) _ (pass_out1 m outs c) n).trans ?_
  simp only [P.h1]
  exact congrArg (Ideal.cmp .ogt · 0) (rows_sum (fun e => vS I e = n) _)

theorem azm0_at (n : Fin 8192) (j : Fin 256) :
    (V21 m outs c main_v128 : S8192x256.Idx → EReal) (ix2 n j) = sAz I 0 n j * sMean I 0 n := by
  refine (azm0_W (V20 m outs c) _ _ _ _ _ (pass_out0 m outs c) (pass_out1 m outs c) (z_at20 m outs c) (w8_at20 m outs c)
    (w9_at20 m outs c) n j).trans ?_
  rw [z7f P]
  simp only [P.h0, P.h1]
  exact congrArg₂ (· * ·) rfl (congrArg₂ Ideal.div (rows_sum (fun e => vS I e = n) _) (congrArg (max · 1) (rows_sum (fun e => vS I e = n) _)))

theorem hk0_at (n : Fin 8192) (j : Fin 256) : (V22 m outs c main_v129 : S8192x256.Idx → EReal) (ix2 n j) = sHk I 0 n j := by
  refine (hk0_W (V21 m outs c) _ _ _ rfl rfl (z_at21 m outs c) n j).trans ?_
  rw [pos0_at P, azm0_at P, z7f P] <;> rfl

theorem mpool0_at (j : Fin 256) : (V23 m outs c main_v137 : S256.Idx → EReal) (ix1 j)
    = Ideal.div (∑ n : Fin 8192, sHk I 0 n j * sInsub I 0 n) (max (sNsub I 0) 1) := by
  refine (pool0_W (V22 m outs c) _ _ (insub_at22 m outs c) rfl j).trans ?_
  rw [fn2 (hk0_at P), fn2 (insub21 P)] <;> rfl

theorem nz0_at : (V23 m outs c main_v139 : S_.Idx → BitVec 1) ix0 = Ideal.cmp .ogt (sNsub I 0) 0 := by
  refine (nz0_W (V22 m outs c) _ (insub_at22 m outs c)).trans ?_
  rw [fn2 (insub21 P)] <;> rfl

theorem res0_at (j : Fin 256) : (V24 m outs c main_v141 : S256.Idx → EReal) (ix1 j) = sPoolk I 0 j := by
  have hz : (V23 m outs c main_v140 : S256.Idx → EReal) (ix1 j) = (0 : EReal) := zero0_W (V22 m outs c) j
  refine (res0_W (V23 m outs c) _ _ _ rfl rfl rfl j).trans ?_
  rw [nz0_at P, mpool0_at P, hz] <;> rfl

theorem pos1_at (n : Fin 8192) :
    (V25 m outs c main_v152 : S8192x1.Idx → BitVec 1) (ix2 n (0 : Fin 1)) = Ideal.cmp .ogt (sCnt I 1 n) 0 := by
  refine (pos1_W (V24 m outs c) _ (cnt_at24 m outs c) n).trans ?_
  rw [fn2 (cnt21 P)] <;> rfl

theorem azm1_at (n : Fin 8192) (j : Fin 256) :
    (V25 m outs c main_v155 : S8192x256.Idx → EReal) (ix2 n j) = sAz I 1 n j * sMean I 1 n := by
  refine (azm1_W (V24 m outs c) _ _ _ _ (mean_at24 m outs c) (z_at24 m outs c) (w8_at24 m outs c)
    (w9_at24 m outs c) n j).trans ?_
  rw [z7f P, fn2 (mean21 P)] <;> rfl

theorem hk1_at (n : Fin 8192) (j : Fin 256) : (V26 m outs c main_v156 : S8192x256.Idx → EReal) (ix2 n j) = sHk I 1 n j := by
  refine (hk1_W (V25 m outs c) _ _ _ rfl rfl (z_at25 m outs c) n j).trans ?_
  rw [pos1_at P, azm1_at P, z7f P] <;> rfl

theorem mpool1_at (j : Fin 256) : (V27 m outs c main_v164 : S256.Idx → EReal) (ix1 j)
    = Ideal.div (∑ n : Fin 8192, sHk I 1 n j * sInsub I 1 n) (max (sNsub I 1) 1) := by
  refine (pool1_W (V26 m outs c) _ _ (insub_at26 m outs c) rfl j).trans ?_
  rw [fn2 (hk1_at P), fn2 (insub21 P)] <;> rfl

theorem nz1_at : (V27 m outs c main_v166 : S_.Idx → BitVec 1) ix0 = Ideal.cmp .ogt (sNsub I 1) 0 := by
  refine (nz1_W (V26 m outs c) _ (insub_at26 m outs c)).trans ?_
  rw [fn2 (insub21 P)] <;> rfl

theorem res1_at (j : Fin 256) : (V28 m outs c main_v168 : S256.Idx → EReal) (ix1 j) = sPoolk I 1 j := by
  have hz : (V27 m outs c main_v167 : S256.Idx → EReal) (ix1 j) = (0 : EReal) := zero1_W (V26 m outs c) j
  refine (res1_W (V27 m outs c) _ _ _ rfl rfl rfl j).trans ?_
  rw [nz1_at P, mpool1_at P, hz] <;> rfl

theorem pos2_at (n : Fin 8192) :
    (V29 m outs c main_v179 : S8192x1.Idx → BitVec 1) (ix2 n (0 : Fin 1)) = Ideal.cmp .ogt (sCnt I 2 n) 0 := by
  refine (pos2_W (V28 m outs c) _ (cnt_at28 m outs c) n).trans ?_
  rw [fn2 (cnt21 P)] <;> rfl

theorem azm2_at (n : Fin 8192) (j : Fin 256) :
    (V29 m outs c main_v182 : S8192x256.Idx → EReal) (ix2 n j) = sAz I 2 n j * sMean I 2 n := by
  refine (azm2_W (V28 m outs c) _ _ _ _ (mean_at28 m outs c) (z_at28 m outs c) (w8_at28 m outs c)
    (w9_at28 m outs c) n j).trans ?_
  rw [z7f P, fn2 (mean21 P)] <;> rfl

theorem hk2_at (n : Fin 8192) (j : Fin 256) : (V30 m outs c main_v183 : S8192x256.Idx → EReal) (ix2 n j) = sHk I 2 n j := by
  refine (hk2_W (V29 m outs c) _ _ _ rfl rfl (z_at29 m outs c) n j).trans ?_
  rw [pos2_at P, azm2_at P, z7f P] <;> rfl

theorem mpool2_at (j : Fin 256) : (V31 m outs c main_v191 : S256.Idx → EReal) (ix1 j)
    = Ideal.div (∑ n : Fin 8192, sHk I 2 n j * sInsub I 2 n) (max (sNsub I 2) 1) := by
  refine (pool2_W (V30 m outs c) _ _ (insub_at30 m outs c) rfl j).trans ?_
  rw [fn2 (hk2_at P), fn2 (insub21 P)] <;> rfl

theorem nz2_at : (V31 m outs c main_v193 : S_.Idx → BitVec 1) ix0 = Ideal.cmp .ogt (sNsub I 2) 0 := by
  refine (nz2_W (V30 m outs c) _ (insub_at30 m outs c)).trans ?_
  rw [fn2 (insub21 P)] <;> rfl

theorem res2_at (j : Fin 256) : (V32 m outs c main_v195 : S256.Idx → EReal) (ix1 j) = sPoolk I 2 j := by
  have hz : (V31 m outs c main_v194 : S256.Idx → EReal) (ix1 j) = (0 : EReal) := zero2_W (V30 m outs c) j
  refine (res2_W (V31 m outs c) _ _ _ rfl rfl rfl j).trans ?_
  rw [nz2_at P, mpool2_at P, hz] <;> rfl

theorem kOut' (o : Fin 2) : (V33 m outs c main_v200 : S1x2.Idx → EReal) (ix2 (0 : Fin 1) o)
    = Spec.out (A0 m c) (A1 m c) (A2 m c) (A3 m c) (A4 m c) (A5 m c) (A6 m c) (A7 m c) (A8 m c) (A9 m c) (A10 m c) (A11 m c) (uS I) (vS I) o := by
  refine (out_W (V32 m outs c) _ _ _ _ _ _ rfl rfl rfl rfl (w10_at32 m outs c) (w11_at32 m outs c) o).trans ?_
  rw [pool0_at32 m outs c, res0_at32 m outs c, res1_at32 m outs c]
  show _ = (∑ q : Fin 1024, sFeat I q * A10 m c q o) + A11 m c o
  refine congrArg₂ (· + ·) (Finset.sum_congr rfl fun q _ => congrArg (· * _) ?_) rfl
  have hq := q.isLt
  unfold pick4 sFeat Spec.feat
  by_cases c1 : q.val < 256
  · rw [if_pos c1, dif_pos c1]
    have e1 : (⟨q.val % 256, Nat.mod_lt _ (by norm_num)⟩ : Fin 256) = ⟨q.val, c1⟩ := Fin.ext (Nat.mod_eq_of_lt c1)
    rw [e1]
    exact wholePool21 P _
  · rw [if_neg c1, dif_neg c1]
    by_cases c2 : q.val < 512
    · rw [if_pos c2]
      have e2 : (⟨q.val / 256 - 1, by omega⟩ : Fin 3) = 0 := Fin.ext (by show q.val / 256 - 1 = 0; omega)
      rw [e2]
      exact res0_at P _
    · rw [if_neg c2]
      by_cases c3 : q.val < 768
      · rw [if_pos c3]
        have e2 : (⟨q.val / 256 - 1, by omega⟩ : Fin 3) = 1 := Fin.ext (by show q.val / 256 - 1 = 1; omega)
        rw [e2]
        exact res1_at P _
      · rw [if_neg c3]
        have e2 : (⟨q.val / 256 - 1, by omega⟩ : Fin 3) = 2 := Fin.ext (by show q.val / 256 - 1 = 2; omega)
        rw [e2]
        exact res2_at P _

end Chain

end KOut

section Final

variable (m : (ℓ : Loc nD τ sig) → Buf (Elt Ideal) ℓ) (outs : GenP.Outs (F := Ideal)) (c : Dev nD)

theorem kOut (hus : ∀ e : Fin 262144, ((m ((c : Thread nD τ).loc main_arg12) : (⟨1, ![262144]⟩ : Shape).Idx → BitVec 32) (ix1 e)).toNat < 8192) (hvs : ∀ e : Fin 262144, ((m ((c : Thread nD τ).loc main_arg13) : (⟨1, ![262144]⟩ : Shape).Idx → BitVec 32) (ix1 e)).toNat < 8192)
    (hZ : ∀ (n : Fin 8192) (j : Fin 256),
      (V7 m outs c main_v37 : S8192x256.Idx → EReal) (ix2 n j) = Spec.ZOf (m ((c : Thread nD τ).loc main_arg0) : (⟨2, ![8192, 256]⟩ : Shape).Idx → EReal) (m ((c : Thread nD τ).loc main_arg2) : (⟨2, ![256, 256]⟩ : Shape).Idx → EReal) (m ((c : Thread nD τ).loc main_arg3) : (⟨1, ![256]⟩ : Shape).Idx → EReal) (m ((c : Thread nD τ).loc main_arg4) : (⟨2, ![256, 256]⟩ : Shape).Idx → EReal) (m ((c : Thread nD τ).loc main_arg5) : (⟨1, ![256]⟩ : Shape).Idx → EReal) (m ((c : Thread nD τ).loc main_arg12) : (⟨1, ![262144]⟩ : Shape).Idx → BitVec 32) (m ((c : Thread nD τ).loc main_arg13) : (⟨1, ![262144]⟩ : Shape).Idx → BitVec 32) hus hvs n j)
    (h98_0 : ∀ (a : Fin 2) (k : Fin 3) (n : Fin 8192), (outs 20 main_v98_0 c : S2x3x8192.Idx → EReal) (ix3 a k n)
      = ∑ e ∈ Finset.univ.filter (fun e : Fin 262144 => e.val / 131072 = a.val ∧ Spec.node (m ((c : Thread nD τ).loc main_arg13) : (⟨1, ![262144]⟩ : Shape).Idx → BitVec 32) hvs e = n),
          (if Spec.counted (Spec.ten3 (m ((c : Thread nD τ).loc main_arg1) : (⟨3, ![3, 8192, 8192]⟩ : Shape).Idx → EReal)) (Spec.node (m ((c : Thread nD τ).loc main_arg12) : (⟨1, ![262144]⟩ : Shape).Idx → BitVec 32) hus) (Spec.node (m ((c : Thread nD τ).loc main_arg13) : (⟨1, ![262144]⟩ : Shape).Idx → BitVec 32) hvs) k e
            then Spec.tOf (m ((c : Thread nD τ).loc main_arg0) : (⟨2, ![8192, 256]⟩ : Shape).Idx → EReal) (m ((c : Thread nD τ).loc main_arg2) : (⟨2, ![256, 256]⟩ : Shape).Idx → EReal) (m ((c : Thread nD τ).loc main_arg3) : (⟨1, ![256]⟩ : Shape).Idx → EReal) (m ((c : Thread nD τ).loc main_arg4) : (⟨2, ![256, 256]⟩ : Shape).Idx → EReal) (m ((c : Thread nD τ).loc main_arg5) : (⟨1, ![256]⟩ : Shape).Idx → EReal) (m ((c : Thread nD τ).loc main_arg6) : (⟨2, ![512, 1]⟩ : Shape).Idx → EReal) (m ((c : Thread nD τ).loc main_arg7) : (⟨1, ![1]⟩ : Shape).Idx → EReal) (m ((c : Thread nD τ).loc main_arg12) : (⟨1, ![262144]⟩ : Shape).Idx → BitVec 32) (m ((c : Thread nD τ).loc main_arg13) : (⟨1, ![262144]⟩ : Shape).Idx → BitVec 32) hus hvs e else 0))
    (h98_1 : ∀ (a : Fin 2) (k : Fin 3) (n : Fin 8192), (outs 20 main_v98_1 c : S2x3x8192.Idx → EReal) (ix3 a k n)
      = ∑ e ∈ Finset.univ.filter (fun e : Fin 262144 => e.val / 131072 = a.val ∧ Spec.node (m ((c : Thread nD τ).loc main_arg13) : (⟨1, ![262144]⟩ : Shape).Idx → BitVec 32) hvs e = n),
          Spec.indOf (m ((c : Thread nD τ).loc main_arg1) : (⟨3, ![3, 8192, 8192]⟩ : Shape).Idx → EReal) (m ((c : Thread nD τ).loc main_arg12) : (⟨1, ![262144]⟩ : Shape).Idx → BitVec 32) (m ((c : Thread nD τ).loc main_arg13) : (⟨1, ![262144]⟩ : Shape).Idx → BitVec 32) hus hvs k e)
    (h98_2 : ∀ (a : Fin 2) (k : Fin 3) (n : Fin 8192), (outs 20 main_v98_2 c : S2x3x8192.Idx → EReal) (ix3 a k n)
      = ∑ e ∈ Finset.univ.filter (fun e : Fin 262144 => e.val / 131072 = a.val ∧ Spec.node (m ((c : Thread nD τ).loc main_arg12) : (⟨1, ![262144]⟩ : Shape).Idx → BitVec 32) hus e = n),
          Spec.indOf (m ((c : Thread nD τ).loc main_arg1) : (⟨3, ![3, 8192, 8192]⟩ : Shape).Idx → EReal) (m ((c : Thread nD τ).loc main_arg12) : (⟨1, ![262144]⟩ : Shape).Idx → BitVec 32) (m ((c : Thread nD τ).loc main_arg13) : (⟨1, ![262144]⟩ : Shape).Idx → BitVec 32) hus hvs k e)
    (o : Fin 2) :
    (V33 m outs c main_v200 : S1x2.Idx → EReal) (ix2 (0 : Fin 1) o)
      = Spec.outOf (m ((c : Thread nD τ).loc main_arg0) : (⟨2, ![8192, 256]⟩ : Shape).Idx → EReal) (m ((c : Thread nD τ).loc main_arg1) : (⟨3, ![3, 8192, 8192]⟩ : Shape).Idx → EReal) (m ((c : Thread nD τ).loc main_arg2) : (⟨2, ![256, 256]⟩ : Shape).Idx → EReal) (m ((c : Thread nD τ).loc main_arg3) : (⟨1, ![256]⟩ : Shape).Idx → EReal) (m ((c : Thread nD τ).loc main_arg4) : (⟨2, ![256, 256]⟩ : Shape).Idx → EReal) (m ((c : Thread nD τ).loc main_arg5) : (⟨1, ![256]⟩ : Shape).Idx → EReal) (m ((c : Thread nD τ).loc main_arg6) : (⟨2, ![512, 1]⟩ : Shape).Idx → EReal) (m ((c : Thread nD τ).loc main_arg7) : (⟨1, ![1]⟩ : Shape).Idx → EReal) (m ((c : Thread nD τ).loc main_arg8) : (⟨3, ![3, 256, 256]⟩ : Shape).Idx → EReal) (m ((c : Thread nD τ).loc main_arg9) : (⟨2, ![3, 256]⟩ : Shape).Idx → EReal) (m ((c : Thread nD τ).loc main_arg10) : (⟨2, ![1024, 2]⟩ : Shape).Idx → EReal) (m ((c : Thread nD τ).loc main_arg11) : (⟨1, ![2]⟩ : Shape).Idx → EReal) (m ((c : Thread nD τ).loc main_arg12) : (⟨1, ![262144]⟩ : Shape).Idx → BitVec 32) (m ((c : Thread nD τ).loc main_arg13) : (⟨1, ![262144]⟩ : Shape).Idx → BitVec 32) hus hvs o :=
  KOut.kOut' (I := ⟨hus, hvs⟩) ⟨hZ, h98_0, h98_1, h98_2⟩ o

end Final

end Cert.KernelIdeal.Val
-- ==== Proof.RefValB1.lean ====
import proofs.«428349_j38809324486859_3_alg».proof.Proof.RefValB0

noncomputable section

namespace Cert.ReferenceIdeal.Val

open Idealize.ShloMosaic Idealize.ShloMosaic.ValueIdx Finset
open Cert.ReferenceIdeal Cert.ReferenceIdeal.Gen Cert.Spec Cert.RefRead

theorem mat_apply {α : Type} (o : ℕ) (ho : o < 3) (x : S3x256x256.Idx → α) (hs : S3x256x256.Slices ![o, 0, 0] S1x256x256)
    (hc : S1x256x256.ShapeCasts S256x256) (d j : Fin 256) :
    shapeCast S256x256 (extractStridedSlice S1x256x256 ![o, 0, 0] x hs) hc (ix2 d j) = x (ix3 ⟨o, ho⟩ d j) := by
  refine (shapeCast_apply _ hc (ix2 d j) (ix3 (0 : Fin 1) d j) ?_).trans ?_
  · rw [Shape.rowMajor_val_three, Shape.rowMajor_val_two]; simp
  · refine extractStridedSlice_apply _ x hs _ _ fun a => ?_
    match a with
    | ⟨0, _⟩ => show o = o + 0; omega
    | ⟨1, _⟩ => show d.val = 0 + d.val; omega
    | ⟨2, _⟩ => show j.val = 0 + j.val; omega

def wrapT (a : IVec S262144 32) : IVec S262144 32 :=
  select (cmpi .slt a (broadcastInDim S262144 ![] bcast_S_S262144 (constantI S_ 32 0#32)))
    (addi a (broadcastInDim S262144 ![] bcast_S_S262144 (constantI S_ 32 8192#32))) a

def idxT (a12 a13 : IVec S262144 32) : IVec S262144x2 32 :=
  concatenate S262144x2 1
    [⟨S262144x1, broadcastInDim S262144x1 ![0] bcast_S262144_S262144x1_0 (wrapT a12)⟩,
      ⟨S262144x1, broadcastInDim S262144x1 ![0] bcast_S262144_S262144x1_0 (wrapT a13)⟩]
    concatenates_S262144x1_S262144x1_S262144x2_d1

def gT (a1 : FVec Ideal S3x8192x8192 .f32) (a12 a13 : IVec S262144 32) : FVec Ideal S3x262144 .f32 :=
  Host.gather gather_S3x8192x8192_S262144x2_S3x262144_0_12_n_n_12_1_311 a1 (idxT a12 a13)

theorem wrapT_apply (a : IVec S262144 32) (e : Fin 262144) (h : (a (ix1 e)).toNat < 8192) : wrapT a (ix1 e) = a (ix1 e) :=
  norm_vec_apply a 8192#32 _ _ (ix1 e) (by omega)

-- Motif k's adjacency entry at the two endpoints of edge e: both index words are node numbers, so the clamp is idle.
theorem gT_apply (a1 : FVec Ideal S3x8192x8192 .f32) (a12 a13 : IVec S262144 32)
    (hus : ∀ e : Fin 262144, (a12 (ix1 e)).toNat < 8192) (hvs : ∀ e : Fin 262144, (a13 (ix1 e)).toNat < 8192)
    (k : Fin 3) (e : Fin 262144) :
    gT a1 a12 a13 (ix2 k e) = a1 (ix3 k (node a12 hus e) (node a13 hvs e)) := by
  unfold gT
  rw [gatherA_apply]
  refine congrArg₂ (fun p q => a1 (ix3 k p q)) (Fin.ext ?_) (Fin.ext ?_)
  · show min (idxT a12 a13 (ix2 e (0 : Fin 2))).toInt.toNat 8191 = (a12 (ix1 e)).toNat
    rw [show idxT a12 a13 (ix2 e (0 : Fin 2)) = a12 (ix1 e) from
      (cat_col_left (E := 262144) (A := 1) (B := 1) (T := 2) _ _ _ e (0 : Fin 2) (by decide)).trans
        ((bcast_col_apply ![0] rfl _ _ e _).trans (wrapT_apply a12 e (hus e)))]
    exact clamp_small _ 8192 (by norm_num) (hus e)
  · show min (idxT a12 a13 (ix2 e (1 : Fin 2))).toInt.toNat 8191 = (a13 (ix1 e)).toNat
    rw [show idxT a12 a13 (ix2 e (1 : Fin 2)) = a13 (ix1 e) from
      (cat_col_right (E := 262144) (A := 1) (B := 1) (T := 2) _ _ _ e (1 : Fin 2) (0 : Fin 1) (by decide)).trans
        ((bcast_col_apply ![0] rfl _ _ e _).trans (wrapT_apply a13 e (hvs e)))]
    exact clamp_small _ 8192 (by norm_num) (hvs e)

-- Four vectors of 256 entries end to end, read at q: vector q / 256 at q % 256.
theorem cat4_apply {α : Type} (u0 u1 u2 u3 : S256.Idx → α)
    (h : Shape.Concatenates (([⟨S256, u0⟩, ⟨S256, u1⟩, ⟨S256, u2⟩, ⟨S256, u3⟩] : List ((s : Shape) × (s.Idx → α))).map (·.1)) S1024 0)
    (q : Fin 1024) :
    concatenate S1024 0 [⟨S256, u0⟩, ⟨S256, u1⟩, ⟨S256, u2⟩, ⟨S256, u3⟩] h (ix1 q)
      = if h0 : q.val < 256 then u0 (ix1 ⟨q.val, h0⟩)
        else if h1 : q.val < 512 then u1 (ix1 ⟨q.val - 256, by omega⟩)
        else if h2 : q.val < 768 then u2 (ix1 ⟨q.val - 512, by omega⟩)
        else u3 (ix1 ⟨q.val - 768, by omega⟩) := by
  have hi : ∀ (r : Fin 256) (b : Fin S256.rank), b.cast (rfl : S256.rank = S1024.rank) ≠ (0 : Fin S1024.rank) →
      ((ix1 r : S256.Idx) b).val = ((ix1 q : S1024.Idx) (b.cast rfl)).val :=
    fun r b hb => absurd (Subsingleton.elim _ _) hb
  by_cases h0 : q.val < 256
  · rw [dif_pos h0]
    exact concatenate_apply_piece 0 _ h _ 0 (by simp) S256 u0 rfl rfl 0 rfl (ix1 ⟨q.val, h0⟩) (hi _)
      (by show 0 + q.val = q.val; omega)
  rw [dif_neg h0]
  by_cases h1 : q.val < 512
  · rw [dif_pos h1]
    exact concatenate_apply_piece 0 _ h _ 1 (by simp) S256 u1 rfl rfl 256 rfl (ix1 ⟨q.val - 256, by omega⟩) (hi _)
      (by show 256 + (q.val - 256) = q.val; omega)
  rw [dif_neg h1]
  by_cases h2 : q.val < 768
  · rw [dif_pos h2]
    exact concatenate_apply_piece 0 _ h _ 2 (by simp) S256 u2 rfl rfl 512 rfl (ix1 ⟨q.val - 512, by omega⟩) (hi _)
      (by show 512 + (q.val - 512) = q.val; omega)
  rw [dif_neg h2]
  exact concatenate_apply_piece 0 _ h _ 3 (by simp) S256 u3 rfl rfl 768 rfl (ix1 ⟨q.val - 768, by have := q.isLt; omega⟩) (hi _)
    (by show 768 + (q.val - 768) = q.val; omega)

section Block

variable (o : ℕ)
  (hsA : S3x262144.Slices ![o, 0] S1x262144) (hsW : S3x256x256.Slices ![o, 0, 0] S1x256x256)
  (hsB : S3x256.Slices ![o, 0] S1x256)
  (g : FVec Ideal S3x262144 .f32) (tt : FVec Ideal S262144 .f32) (Zm : FVec Ideal S8192x256 .f32)
  (w8 : FVec Ideal S3x256x256 .f32) (b9 : FVec Ideal S3x256 .f32) (i12 i13 : IVec S262144 32)

def maskT : IVec S262144 1 :=
  cmpf .ogt (shapeCast S262144 (extractStridedSlice S1x262144 ![o, 0] g hsA) shapeCasts_S1x262144_S262144)
    (broadcastInDim S262144 ![] bcast_S_S262144 (constant (F := Ideal) S_ .f32 0x00000000#32))

def whereT : FVec Ideal S262144 .f32 :=
  select (maskT o hsA g) tt (broadcastInDim S262144 ![] bcast_S_S262144 (id (constant (F := Ideal) S_ .f32 0x00000000#32)))

def indT : FVec Ideal S262144 .f32 := uitofp .f32 (maskT o hsA g)

def segT (i : IVec S262144 32) (upd : FVec Ideal S262144 .f32) : FVec Ideal S8192 .f32 :=
  Host.scatterAdd scatter_S8192_S262144x1_S262144_n_0_0_1 (broadcastInDim S8192 ![] bcast_S_S8192 (constant (F := Ideal) S_ .f32 0x00000000#32))
    (broadcastInDim S262144x1 ![0] bcast_S262144_S262144x1_0 i) upd

def numT : FVec Ideal S8192 .f32 := segT i13 (whereT o hsA g tt)
def cntT : FVec Ideal S8192 .f32 := segT i13 (indT o hsA g)
def srcT : FVec Ideal S8192 .f32 := segT i12 (indT o hsA g)

def meanT : FVec Ideal S8192 .f32 :=
  Host.divf (numT o hsA g tt i13) (maximumf (cntT o hsA g i13) (broadcastInDim S8192 ![] bcast_S_S8192 (constant (F := Ideal) S_ .f32 0x3F800000#32)))

def azT : FVec Ideal S8192x256 .f32 :=
  addf (Host.dotGeneral dot_S8192x256_S256x256_S8192x256_1_0_0_1_n_n none Zm
      (shapeCast S256x256 (extractStridedSlice S1x256x256 ![o, 0, 0] w8 hsW) shapeCasts_S1x256x256_S256x256))
    (broadcastInDim S8192x256 ![0, 1] bcast_S1x256_S8192x256_0_1
      (broadcastInDim S1x256 ![1] bcast_S256_S1x256_1
        (shapeCast S256 (extractStridedSlice S1x256 ![o, 0] b9 hsB) shapeCasts_S1x256_S256)))

def posT : IVec S8192x1 1 :=
  cmpf .ogt (broadcastInDim S8192x1 ![0] bcast_S8192_S8192x1_0 (cntT o hsA g i13))
    (broadcastInDim S8192x1 ![] bcast_S_S8192x1 (constant (F := Ideal) S_ .f32 0x00000000#32))

def hkT : FVec Ideal S8192x256 .f32 :=
  select (broadcastInDim S8192x256 ![0, 1] bcast_S8192x1_S8192x256_0_1 (posT o hsA g i13))
    (mulf (azT o hsW hsB Zm w8 b9)
      (broadcastInDim S8192x256 ![0, 1] bcast_S8192x1_S8192x256_0_1
        (broadcastInDim S8192x1 ![0] bcast_S8192_S8192x1_0 (meanT o hsA g tt i13))))
    Zm

def insubT : FVec Ideal S8192 .f32 :=
  uitofp .f32 (cmpf .ogt (addf (cntT o hsA g i13) (srcT o hsA g i12)) (broadcastInDim S8192 ![] bcast_S_S8192 (constant (F := Ideal) S_ .f32 0x00000000#32)))

def nsubT : FVec Ideal S_ .f32 := Host.reduceAdd (insubT o hsA g i12 i13) (constant (F := Ideal) S_ .f32 0x00000000#32) reducesTo_S8192_S_d0 h_S_

def poolT : FVec Ideal S256 .f32 :=
  select (broadcastInDim S256 ![] bcast_S_S256 (cmpf .ogt (nsubT o hsA g i12 i13) (constant (F := Ideal) S_ .f32 0x00000000#32)))
    (Host.divf
      (Host.reduceAdd
        (mulf (hkT o hsA hsW hsB g tt Zm w8 b9 i13)
          (broadcastInDim S8192x256 ![0, 1] bcast_S8192x1_S8192x256_0_1
            (broadcastInDim S8192x1 ![0] bcast_S8192_S8192x1_0 (insubT o hsA g i12 i13))))
        (constant (F := Ideal) S_ .f32 0x00000000#32) reducesTo_S8192x256_S256_d0 h_S_)
      (broadcastInDim S256 ![] bcast_S_S256 (maximumf (nsubT o hsA g i12 i13) (constant (F := Ideal) S_ .f32 0x3F800000#32))))
    (broadcastInDim S256 ![] bcast_S_S256 (constant (F := Ideal) S_ .f32 0x00000000#32))

variable {o hsA hsW hsB g tt Zm}
  {a0 : S8192x256.Idx → EReal} {a1 : S3x8192x8192.Idx → EReal} {a2 : S256x256.Idx → EReal} {a3 : S256.Idx → EReal}
  {a4 : S256x256.Idx → EReal} {a5 : S256.Idx → EReal} {a6 : S512x1.Idx → EReal} {a7 : S1.Idx → EReal}
  {a8 : S3x256x256.Idx → EReal} {a9 : S3x256.Idx → EReal} {a12 a13 : S262144.Idx → BitVec 32}
  {hus : ∀ e : Fin 262144, (a12 (ix1 e)).toNat < 8192} {hvs : ∀ e : Fin 262144, (a13 (ix1 e)).toNat < 8192}
  (ho : o < 3)
  (hg : ∀ (k : Fin 3) (e : Fin 262144), g (ix2 k e) = a1 (ix3 k (node a12 hus e) (node a13 hvs e)))
  (htt : ∀ e : Fin 262144, tt (ix1 e) = tOf a0 a2 a3 a4 a5 a6 a7 a12 a13 hus hvs e)
  (hZm : ∀ (n : Fin 8192) (j : Fin 256), Zm (ix2 n j) = ZOf a0 a2 a3 a4 a5 a12 a13 hus hvs n j)

include hg

theorem maskT_spec (e : Fin 262144) :
    maskT o hsA g (ix1 e) = Ideal.cmp .ogt (a1 (ix3 ⟨o, ho⟩ (node a12 hus e) (node a13 hvs e))) 0 := by
  unfold maskT
  rw [cmpf_apply, row_apply o ho, bcast0_apply, zero_scalar, hg]
  rfl

theorem indT_apply (e : Fin 262144) : indT o hsA g (ix1 e) = indOf a1 a12 a13 hus hvs ⟨o, ho⟩ e := by
  unfold indT
  show FloatOps.uitofp (F := Ideal) .f32 (maskT o hsA g (ix1 e)) = _
  rw [bit_float, maskT_spec ho hg e]
  exact if_congr Iff.rfl rfl rfl

theorem cntT_apply (n : Fin 8192) : cntT o hsA g a13 (ix1 n) = cntOf a1 a12 a13 hus hvs ⟨o, ho⟩ n := by
  unfold cntT segT cntOf Cert.Spec.cnt
  rw [segsum_apply _ _ a13 hvs]
  exact Finset.sum_congr rfl fun e _ => indT_apply ho hg e

theorem srcT_apply (n : Fin 8192) : srcT o hsA g a12 (ix1 n) = srcOf a1 a12 a13 hus hvs ⟨o, ho⟩ n := by
  unfold srcT segT srcOf Cert.Spec.src
  rw [segsum_apply _ _ a12 hus]
  exact Finset.sum_congr rfl fun e _ => indT_apply ho hg e

theorem insubT_apply (n : Fin 8192) :
    insubT o hsA g a12 a13 (ix1 n) = Cert.Spec.insub (ten3 a1) (node a12 hus) (node a13 hvs) ⟨o, ho⟩ n := by
  unfold insubT
  show FloatOps.uitofp (F := Ideal) .f32
    (cmpf .ogt (addf (cntT o hsA g a13) (srcT o hsA g a12)) (broadcastInDim S8192 ![] bcast_S_S8192 (constant (F := Ideal) S_ .f32 0x00000000#32)) (ix1 n)) = _
  rw [bit_float, cmpf_apply, addf_apply, bcast0_apply, zero_scalar, cntT_apply ho hg n, srcT_apply ho hg n]
  exact if_congr Iff.rfl rfl rfl

include htt

theorem numT_apply (n : Fin 8192) :
    numT o hsA g tt a13 (ix1 n) = numOf a0 a1 a2 a3 a4 a5 a6 a7 a12 a13 hus hvs ⟨o, ho⟩ n := by
  unfold numT segT numOf Cert.Spec.num
  rw [segsum_apply _ _ a13 hvs]
  refine Finset.sum_congr rfl fun e _ => ?_
  unfold whereT
  rw [select_apply, select_bit, bcast0_apply, maskT_spec ho hg e, htt]
  exact if_congr Iff.rfl rfl (zero_scalar ix0)

include hZm

theorem hkT_apply (n : Fin 8192) (j : Fin 256) :
    hkT o hsA hsW hsB g tt Zm a8 a9 a13 (ix2 n j) = Cert.Spec.hk (mat2 a0) (ten3 a1) (mat2 a2) (vec1 a3) (mat2 a4) (vec1 a5) (col1 a6) (the1 a7) (ten3 a8) (mat2 a9) (node a12 hus) (node a13 hvs) ⟨o, ho⟩ n j := by
  unfold hkT posT meanT azT
  rw [select_apply, select_bit, mulf_apply, bcast_rep_apply ![0, 1] rfl rfl, bcast_rep_apply ![0, 1] rfl rfl,
    bcast_col_apply ![0] rfl, hostDivf_apply, maximumf_apply, bcast0_apply, one_scalar, numT_apply ho hg htt n,
    cntT_apply ho hg n, addf_apply, dotZ_apply, bcast_down_apply ![0, 1] rfl rfl, bcast_row_apply ![1] rfl,
    row_apply o ho, cmpf_apply, bcast_col_apply ![0] rfl, bcast0_apply, zero_scalar, cntT_apply ho hg n]
  simp only [hZm, mat_apply o ho]
  exact if_congr Iff.rfl rfl rfl

theorem poolT_apply (j : Fin 256) :
    poolT o hsA hsW hsB g tt Zm a8 a9 a12 a13 (ix1 j) = poolkOf a0 a1 a2 a3 a4 a5 a6 a7 a8 a9 a12 a13 hus hvs ⟨o, ho⟩ j := by
  unfold poolT nsubT poolkOf Cert.Spec.poolk
  rw [select_apply, select_bit, hostDivf_apply, colsum_apply, bcast0_apply, bcast0_apply, bcast0_apply, cmpf_apply,
    maximumf_apply, nodesum_apply, zero_scalar, one_scalar]
  have hn : (∑ n : Fin 8192, insubT o hsA g a12 a13 (ix1 n)) = Cert.Spec.nsub (ten3 a1) (node a12 hus) (node a13 hvs) ⟨o, ho⟩ :=
    Finset.sum_congr rfl fun n _ => insubT_apply ho hg n
  rw [hn]
  simp only [mulf_apply, bcast_rep_apply ![0, 1] rfl rfl, bcast_col_apply ![0] rfl, hkT_apply ho hg htt hZm, insubT_apply ho hg]
  exact if_congr Iff.rfl rfl rfl

end Block

def outT (p0 p1 p2 p3 : FVec Ideal S256 .f32) (w : FVec Ideal S1024x2 .f32) (b : FVec Ideal S2 .f32) : FVec Ideal S1x2 .f32 :=
  addf (Host.dotGeneral dot_S1x1024_S1024x2_S1x2_1_0_0_1_n_n none
      (broadcastInDim S1x1024 ![1] bcast_S1024_S1x1024_1
        (concatenate S1024 0 [⟨S256, p0⟩, ⟨S256, p1⟩, ⟨S256, p2⟩, ⟨S256, p3⟩] concatenates_S256_S256_S256_S256_S1024_d0))
      w)
    (broadcastInDim S1x2 ![1] bcast_S2_S1x2_1 b)

theorem outT_apply {a0 : S8192x256.Idx → EReal} {a1 : S3x8192x8192.Idx → EReal} {a2 : S256x256.Idx → EReal} {a3 : S256.Idx → EReal}
    {a4 : S256x256.Idx → EReal} {a5 : S256.Idx → EReal} {a6 : S512x1.Idx → EReal} {a7 : S1.Idx → EReal}
    {a8 : S3x256x256.Idx → EReal} {a9 : S3x256.Idx → EReal} (a10 : S1024x2.Idx → EReal) (a11 : S2.Idx → EReal)
    {a12 a13 : S262144.Idx → BitVec 32}
    {hus : ∀ e : Fin 262144, (a12 (ix1 e)).toNat < 8192} {hvs : ∀ e : Fin 262144, (a13 (ix1 e)).toNat < 8192}
    {p0 p1 p2 p3 : FVec Ideal S256 .f32}
    (h0 : ∀ j : Fin 256, p0 (ix1 j) = pool0Of a0 a2 a3 a4 a5 a12 a13 hus hvs j)
    (h1 : ∀ j : Fin 256, p1 (ix1 j) = poolkOf a0 a1 a2 a3 a4 a5 a6 a7 a8 a9 a12 a13 hus hvs ⟨0, by decide⟩ j)
    (h2 : ∀ j : Fin 256, p2 (ix1 j) = poolkOf a0 a1 a2 a3 a4 a5 a6 a7 a8 a9 a12 a13 hus hvs ⟨1, by decide⟩ j)
    (h3 : ∀ j : Fin 256, p3 (ix1 j) = poolkOf a0 a1 a2 a3 a4 a5 a6 a7 a8 a9 a12 a13 hus hvs ⟨2, by decide⟩ j)
    (z : Fin 1) (o : Fin 2) :
    outT p0 p1 p2 p3 a10 a11 (ix2 z o) = outOf a0 a1 a2 a3 a4 a5 a6 a7 a8 a9 a10 a11 a12 a13 hus hvs o := by
  unfold outT
  rw [addf_apply, dotL_apply, bcast_row_apply ![1] rfl]
  refine congrArg (· + a11 (ix1 o)) (Finset.sum_congr rfl fun q _ => congrArg (· * a10 (ix2 q o)) ?_)
  rw [bcast_row_apply ![1] rfl, cat4_apply]
  show _ = Cert.Spec.feat (mat2 a0) (ten3 a1) (mat2 a2) (vec1 a3) (mat2 a4) (vec1 a5) (col1 a6) (the1 a7) (ten3 a8) (mat2 a9)
    (node a12 hus) (node a13 hvs) q
  unfold Cert.Spec.feat
  by_cases c0 : q.val < 256
  · rw [dif_pos c0, dif_pos c0, h0]; rfl
  rw [dif_neg c0, dif_neg c0]
  by_cases c1 : q.val < 512
  · rw [dif_pos c1, h1]
    exact congrArg₂ (poolkOf a0 a1 a2 a3 a4 a5 a6 a7 a8 a9 a12 a13 hus hvs) (Fin.ext (by show 0 = q.val / 256 - 1; omega))
      (Fin.ext (by show q.val - 256 = q.val % 256; omega))
  rw [dif_neg c1]
  by_cases c2 : q.val < 768
  · rw [dif_pos c2, h2]
    exact congrArg₂ (poolkOf a0 a1 a2 a3 a4 a5 a6 a7 a8 a9 a12 a13 hus hvs) (Fin.ext (by show 1 = q.val / 256 - 1; omega))
      (Fin.ext (by show q.val - 512 = q.val % 256; omega))
  rw [dif_neg c2, h3]
  exact congrArg₂ (poolkOf a0 a1 a2 a3 a4 a5 a6 a7 a8 a9 a12 a13 hus hvs) (Fin.ext (by show 2 = q.val / 256 - 1; have := q.isLt; omega))
    (Fin.ext (by show q.val - 768 = q.val % 256; have := q.isLt; omega))

end Cert.ReferenceIdeal.Val

end
-- ==== Proof.RefValB2.lean ====
import proofs.«428349_j38809324486859_3_alg».proof.Proof.RefValB1
import proofs.«428349_j38809324486859_3_alg».proof.Proof.RefOps
import proofs.«428349_j38809324486859_3_alg».proof.Proof.RefTables

noncomputable section

namespace Cert.ReferenceIdeal.Val

open Idealize.ShloMosaic Idealize.ShloMosaic.ValueIdx Finset Idealize.SL.Sem
open Cert.ReferenceIdeal Cert.ReferenceIdeal.Gen Cert.ReferenceIdeal.Hand Idealize.ShloMosaic.TcCoe Cert.Spec

variable (m : (ℓ : Loc nD τ sig) → Buf (Elt Ideal) ℓ) (c : Dev nD)

theorem keep0 (r : Ref sig .tc) (h : r ∉ rops0_W) : RW1 m c r = RW0 m c r := StableHlo.after_of_writes_sub rops0 _ rops0_writes h
theorem keep1 (r : Ref sig .tc) (h : r ∉ rops1_W) : RW2 m c r = RW1 m c r := StableHlo.after_of_writes_sub rops1 _ rops1_writes h
theorem keep2 (r : Ref sig .tc) (h : r ∉ rops2_W) : RW3 m c r = RW2 m c r := StableHlo.after_of_writes_sub rops2 _ rops2_writes h
theorem keep3 (r : Ref sig .tc) (h : r ∉ rops3_W) : RW4 m c r = RW3 m c r := StableHlo.after_of_writes_sub rops3 _ rops3_writes h
theorem keep4 (r : Ref sig .tc) (h : r ∉ rops4_W) : RW5 m c r = RW4 m c r := StableHlo.after_of_writes_sub rops4 _ rops4_writes h
theorem keep5 (r : Ref sig .tc) (h : r ∉ rops5_W) : RW6 m c r = RW5 m c r := StableHlo.after_of_writes_sub rops5 _ rops5_writes h

abbrev arr0 : S8192x256.Idx → EReal := m ((c.tc : Thread nD τ).loc main_arg0)
abbrev arr1 : S3x8192x8192.Idx → EReal := m ((c.tc : Thread nD τ).loc main_arg1)
abbrev arr2 : S256x256.Idx → EReal := m ((c.tc : Thread nD τ).loc main_arg2)
abbrev arr3 : S256.Idx → EReal := m ((c.tc : Thread nD τ).loc main_arg3)
abbrev arr4 : S256x256.Idx → EReal := m ((c.tc : Thread nD τ).loc main_arg4)
abbrev arr5 : S256.Idx → EReal := m ((c.tc : Thread nD τ).loc main_arg5)
abbrev arr6 : S512x1.Idx → EReal := m ((c.tc : Thread nD τ).loc main_arg6)
abbrev arr7 : S1.Idx → EReal := m ((c.tc : Thread nD τ).loc main_arg7)
abbrev arr8 : S3x256x256.Idx → EReal := m ((c.tc : Thread nD τ).loc main_arg8)
abbrev arr9 : S3x256.Idx → EReal := m ((c.tc : Thread nD τ).loc main_arg9)
abbrev arr10 : S1024x2.Idx → EReal := m ((c.tc : Thread nD τ).loc main_arg10)
abbrev arr11 : S2.Idx → EReal := m ((c.tc : Thread nD τ).loc main_arg11)
abbrev arr12 : S262144.Idx → BitVec 32 := m ((c.tc : Thread nD τ).loc main_arg12)
abbrev arr13 : S262144.Idx → BitVec 32 := m ((c.tc : Thread nD τ).loc main_arg13)

theorem at2 (r : Ref sig .tc) (h0 : r ∉ rops0_W) (h1 : r ∉ rops1_W) : RW2 m c r = RW0 m c r :=
  (keep1 m c r h1).trans (keep0 m c r h0)
theorem at3 (r : Ref sig .tc) (h0 : r ∉ rops0_W) (h1 : r ∉ rops1_W) (h2 : r ∉ rops2_W) : RW3 m c r = RW0 m c r :=
  (keep2 m c r h2).trans (at2 m c r h0 h1)
theorem at6 (r : Ref sig .tc) (h0 : r ∉ rops0_W) (h1 : r ∉ rops1_W) (h2 : r ∉ rops2_W) (h3 : r ∉ rops3_W)
    (h4 : r ∉ rops4_W) (h5 : r ∉ rops5_W) : RW6 m c r = RW0 m c r :=
  (keep5 m c r h5).trans ((keep4 m c r h4).trans ((keep3 m c r h3).trans (at3 m c r h0 h1 h2)))

set_option maxHeartbeats 4000000 in
theorem g_conn : RW3 m c main_v81 = gT (RW2 m c main_arg1) (RW2 m c main_arg12) (RW2 m c main_arg13) := by
  show StableHlo.after (rops2 (F := Ideal)) (RW2 m c) (Proc.devRef .tc main_v81) = _
  generalize RW2 m c = V
  dsimp only [rops2]
  after_results_simp
  rfl

variable (hus : ∀ e : Fin 262144, ((arr12 m c) (ix1 e)).toNat < 8192) (hvs : ∀ e : Fin 262144, ((arr13 m c) (ix1 e)).toNat < 8192)

-- What a motif block finds in the buffers it reads: the gathered adjacency values, the attention, the node features and four argument arrays.
structure Carried (V : Valuation τ sig (Elt Ideal)) : Prop where
  g : ∀ (k : Fin 3) (e : Fin 262144), (V main_v81 : S3x262144.Idx → EReal) (ix2 k e) = arr1 m c (ix3 k (node (arr12 m c) hus e) (node (arr13 m c) hvs e))
  t : ∀ e : Fin 262144, (V main_v67 : S262144.Idx → EReal) (ix1 e) = tOf (arr0 m c) (arr2 m c) (arr3 m c) (arr4 m c) (arr5 m c) (arr6 m c) (arr7 m c) (arr12 m c) (arr13 m c) hus hvs e
  z : ∀ (n : Fin 8192) (j : Fin 256), (V main_v42 : S8192x256.Idx → EReal) (ix2 n j) = ZOf (arr0 m c) (arr2 m c) (arr3 m c) (arr4 m c) (arr5 m c) (arr12 m c) (arr13 m c) hus hvs n j
  a8 : (V main_arg8 : S3x256x256.Idx → EReal) = arr8 m c
  a9 : (V main_arg9 : S3x256.Idx → EReal) = arr9 m c
  a12 : (V main_arg12 : S262144.Idx → BitVec 32) = arr12 m c
  a13 : (V main_arg13 : S262144.Idx → BitVec 32) = arr13 m c

variable {m c hus hvs}

-- A list of operations that writes none of the seven buffers hands them on.
theorem Carried.step {V W : Valuation τ sig (Elt Ideal)} (h : Carried m c hus hvs V) {L : List (Ref sig .tc)}
    (hk : ∀ r : Ref sig .tc, r ∉ L → W r = V r)
    (hd : main_v81 ∉ L ∧ main_v67 ∉ L ∧ main_v42 ∉ L ∧ main_arg8 ∉ L ∧ main_arg9 ∉ L ∧ main_arg12 ∉ L ∧ main_arg13 ∉ L) :
    Carried m c hus hvs W := by
  obtain ⟨d1, d2, d3, d4, d5, d6, d7⟩ := hd
  exact ⟨fun k e => (congrFun (hk _ d1) _).trans (h.g k e), fun e => (congrFun (hk _ d2) _).trans (h.t e),
    fun n j => (congrFun (hk _ d3) _).trans (h.z n j), (hk _ d4).trans h.a8, (hk _ d5).trans h.a9,
    (hk _ d6).trans h.a12, (hk _ d7).trans h.a13⟩

-- The pool of the motif block that starts from V, given the block's pool buffer as the block's term of V's buffers.
theorem Carried.pool {V : Valuation τ sig (Elt Ideal)} (h : Carried m c hus hvs V) {o : ℕ} (ho : o < 3)
    {hsA : S3x262144.Slices ![o, 0] S1x262144} {hsW : S3x256x256.Slices ![o, 0, 0] S1x256x256} {hsB : S3x256.Slices ![o, 0] S1x256}
    {P : S256.Idx → EReal}
    (hP : P = poolT o hsA hsW hsB (V main_v81) (V main_v67) (V main_v42) (V main_arg8) (V main_arg9) (V main_arg12) (V main_arg13))
    (j : Fin 256) : P (ix1 j) = poolkOf (arr0 m c) (arr1 m c) (arr2 m c) (arr3 m c) (arr4 m c) (arr5 m c) (arr6 m c) (arr7 m c) (arr8 m c) (arr9 m c) (arr12 m c) (arr13 m c) hus hvs ⟨o, ho⟩ j := by
  rw [hP, h.a8, h.a9, h.a12, h.a13]
  exact poolT_apply ho h.g h.t h.z j

variable (m c hus hvs)
  (hZ : ∀ (n : Fin 8192) (j : Fin 256), (RW1 m c main_v42 : S8192x256.Idx → EReal) (ix2 n j) = ZOf (arr0 m c) (arr2 m c) (arr3 m c) (arr4 m c) (arr5 m c) (arr12 m c) (arr13 m c) hus hvs n j)
  (hT : ∀ e : Fin 262144, (RW2 m c main_v67 : S262144.Idx → EReal) (ix1 e) = tOf (arr0 m c) (arr2 m c) (arr3 m c) (arr4 m c) (arr5 m c) (arr6 m c) (arr7 m c) (arr12 m c) (arr13 m c) hus hvs e)

include hZ hT

theorem carried3 : Carried m c hus hvs (RW3 m c) where
  g k e := by
    refine (congrFun (g_conn m c) (ix2 k e)).trans ?_
    rw [at2 m c main_arg1 (by decide) (by decide), at2 m c main_arg12 (by decide) (by decide),
      at2 m c main_arg13 (by decide) (by decide)]
    exact gT_apply _ _ _ hus hvs k e
  t e := by rw [keep2 m c main_v67 (by decide)]; exact hT e
  z n j := by rw [keep2 m c main_v42 (by decide), keep1 m c main_v42 (by decide)]; exact hZ n j
  a8 := at3 m c main_arg8 (by decide) (by decide) (by decide)
  a9 := at3 m c main_arg9 (by decide) (by decide) (by decide)
  a12 := at3 m c main_arg12 (by decide) (by decide) (by decide)
  a13 := at3 m c main_arg13 (by decide) (by decide) (by decide)

theorem carried4 : Carried m c hus hvs (RW4 m c) := (carried3 m c hus hvs hZ hT).step (keep3 m c) (by decide)

theorem carried5 : Carried m c hus hvs (RW5 m c) := (carried4 m c hus hvs hZ hT).step (keep4 m c) (by decide)

end Cert.ReferenceIdeal.Val

end
-- ==== Proof.RefValB.lean ====
import proofs.«428349_j38809324486859_3_alg».proof.Proof.RefValB2

set_option Elab.async false

noncomputable section

namespace Cert.ReferenceIdeal.Val

open Idealize.ShloMosaic Idealize.ShloMosaic.ValueIdx Finset Idealize.SL.Sem
open Cert.ReferenceIdeal Cert.ReferenceIdeal.Gen Cert.ReferenceIdeal.Hand Idealize.ShloMosaic.TcCoe Cert.Spec

set_option maxHeartbeats 4000000 in
theorem pool0_conn (V : Valuation τ sig (Elt Ideal)) :
    StableHlo.after (rops3 (F := Ideal)) V (Proc.devRef .tc main_v131) = poolT 0 slices_S3x262144_S1x262144_0_0 slices_S3x256x256_S1x256x256_0_0_0 slices_S3x256_S1x256_0_0 (V main_v81) (V main_v67) (V main_v42) (V main_arg8) (V main_arg9) (V main_arg12) (V main_arg13) := by
  dsimp only [rops3]
  after_results_simp
  try simp only [StableHlo.TRef.ofBuf, StableHlo.TRef.toBuf, cast_eq]
  unfold poolT hkT nsubT insubT posT azT meanT numT cntT srcT segT whereT indT maskT
  rfl

set_option maxHeartbeats 4000000 in
theorem pool1_conn (V : Valuation τ sig (Elt Ideal)) :
    StableHlo.after (rops4 (F := Ideal)) V (Proc.devRef .tc main_v181) = poolT 1 slices_S3x262144_S1x262144_1_0 slices_S3x256x256_S1x256x256_1_0_0 slices_S3x256_S1x256_1_0 (V main_v81) (V main_v67) (V main_v42) (V main_arg8) (V main_arg9) (V main_arg12) (V main_arg13) := by
  dsimp only [rops4]
  after_results_simp
  try simp only [StableHlo.TRef.ofBuf, StableHlo.TRef.toBuf, cast_eq]
  unfold poolT hkT nsubT insubT posT azT meanT numT cntT srcT segT whereT indT maskT
  rfl

set_option maxHeartbeats 4000000 in
theorem pool2_conn (V : Valuation τ sig (Elt Ideal)) :
    StableHlo.after (rops5 (F := Ideal)) V (Proc.devRef .tc main_v231) = poolT 2 slices_S3x262144_S1x262144_2_0 slices_S3x256x256_S1x256x256_2_0_0 slices_S3x256_S1x256_2_0 (V main_v81) (V main_v67) (V main_v42) (V main_arg8) (V main_arg9) (V main_arg12) (V main_arg13) := by
  dsimp only [rops5]
  after_results_simp
  try simp only [StableHlo.TRef.ofBuf, StableHlo.TRef.toBuf, cast_eq]
  unfold poolT hkT nsubT insubT posT azT meanT numT cntT srcT segT whereT indT maskT
  rfl

set_option maxHeartbeats 4000000 in
theorem out_conn (V : Valuation τ sig (Elt Ideal)) :
    StableHlo.after (rops6 (F := Ideal)) V (Proc.devRef .tc main_v236)
      = outT (V main_v45) (V main_v131) (V main_v181) (V main_v231) (V main_arg10) (V main_arg11) := by
  dsimp only [rops6]
  after_results
  rfl

variable (m : (ℓ : Loc nD τ sig) → Buf (Elt Ideal) ℓ) (c : Dev nD)

variable (hus : ∀ e : Fin 262144, ((arr12 m c) (ix1 e)).toNat < 8192) (hvs : ∀ e : Fin 262144, ((arr13 m c) (ix1 e)).toNat < 8192)
  (hZ : ∀ (n : Fin 8192) (j : Fin 256), (RW1 m c main_v42 : S8192x256.Idx → EReal) (ix2 n j) = ZOf (arr0 m c) (arr2 m c) (arr3 m c) (arr4 m c) (arr5 m c) (arr12 m c) (arr13 m c) hus hvs n j)
  (hT : ∀ e : Fin 262144, (RW2 m c main_v67 : S262144.Idx → EReal) (ix1 e) = tOf (arr0 m c) (arr2 m c) (arr3 m c) (arr4 m c) (arr5 m c) (arr6 m c) (arr7 m c) (arr12 m c) (arr13 m c) hus hvs e)
  (hP0 : ∀ j : Fin 256, (RW2 m c main_v45 : S256.Idx → EReal) (ix1 j) = pool0Of (arr0 m c) (arr2 m c) (arr3 m c) (arr4 m c) (arr5 m c) (arr12 m c) (arr13 m c) hus hvs j)

include hZ hT hP0 in
theorem rOut (o : Fin 2) :
    (RW7 m c main_v236 : S1x2.Idx → EReal) (ix2 (0 : Fin 1) o) = outOf (arr0 m c) (arr1 m c) (arr2 m c) (arr3 m c) (arr4 m c) (arr5 m c) (arr6 m c) (arr7 m c) (arr8 m c) (arr9 m c) (arr10 m c) (arr11 m c) (arr12 m c) (arr13 m c) hus hvs o := by
  have h10 := at6 m c main_arg10 (by decide) (by decide) (by decide) (by decide) (by decide) (by decide)
  have h11 := at6 m c main_arg11 (by decide) (by decide) (by decide) (by decide) (by decide) (by decide)
  have hp0 : ∀ j : Fin 256, (RW6 m c main_v45 : S256.Idx → EReal) (ix1 j) = pool0Of (arr0 m c) (arr2 m c) (arr3 m c) (arr4 m c) (arr5 m c) (arr12 m c) (arr13 m c) hus hvs j := fun j => by
    rw [keep5 m c main_v45 (by decide), keep4 m c main_v45 (by decide), keep3 m c main_v45 (by decide),
      keep2 m c main_v45 (by decide)]
    exact hP0 j
  have hp1 : ∀ j : Fin 256, (RW6 m c main_v131 : S256.Idx → EReal) (ix1 j) = poolkOf (arr0 m c) (arr1 m c) (arr2 m c) (arr3 m c) (arr4 m c) (arr5 m c) (arr6 m c) (arr7 m c) (arr8 m c) (arr9 m c) (arr12 m c) (arr13 m c) hus hvs ⟨0, by decide⟩ j :=
    fun j => by
      rw [keep5 m c main_v131 (by decide), keep4 m c main_v131 (by decide)]
      exact (carried3 m c hus hvs hZ hT).pool (by decide) (pool0_conn _) j
  have hp2 : ∀ j : Fin 256, (RW6 m c main_v181 : S256.Idx → EReal) (ix1 j) = poolkOf (arr0 m c) (arr1 m c) (arr2 m c) (arr3 m c) (arr4 m c) (arr5 m c) (arr6 m c) (arr7 m c) (arr8 m c) (arr9 m c) (arr12 m c) (arr13 m c) hus hvs ⟨1, by decide⟩ j :=
    fun j => by
      rw [keep5 m c main_v181 (by decide)]
      exact (carried4 m c hus hvs hZ hT).pool (by decide) (pool1_conn _) j
  have hp3 : ∀ j : Fin 256, (RW6 m c main_v231 : S256.Idx → EReal) (ix1 j) = poolkOf (arr0 m c) (arr1 m c) (arr2 m c) (arr3 m c) (arr4 m c) (arr5 m c) (arr6 m c) (arr7 m c) (arr8 m c) (arr9 m c) (arr12 m c) (arr13 m c) hus hvs ⟨2, by decide⟩ j :=
    fun j => (carried5 m c hus hvs hZ hT).pool (by decide) (pool2_conn _) j
  show (StableHlo.after (rops6 (F := Ideal)) (RW6 m c) (Proc.devRef .tc main_v236) : S1x2.Idx → EReal) (ix2 (0 : Fin 1) o) = _
  generalize RW6 m c = V at h10 h11 hp0 hp1 hp2 hp3 ⊢
  rw [out_conn V, h10, h11]
  exact outT_apply (arr10 m c) (arr11 m c) hp0 hp1 hp2 hp3 0 o

end Cert.ReferenceIdeal.Val

end
-- ==== Proof.KValMask.lean ====
import proofs.«428349_j38809324486859_3_alg».proof.Proof.RegionsKernelIdeal
import proofs.«428349_j38809324486859_3_alg».proof.Proof.SpecArgs
import proofs.«428349_j38809324486859_3_alg».proof.Proof.LibCoe
import proofs.«428349_j38809324486859_3_alg».proof.Proof.LibGather
import proofs.«428349_j38809324486859_3_alg».proof.Proof.RefRead
import Idealize.ShloMosaic.Lib.IdealHost
import Idealize.ShloMosaic.Lib.KernelVsHost

noncomputable section

namespace Cert.KernelIdeal.ValMask

open Cert.KernelIdeal Cert.KernelIdeal.Gen Cert.KernelIdeal.GenP
open Idealize.ShloMosaic Idealize.ShloMosaic.ValueIdx Idealize.ShloMosaic.TcCoe
open Idealize.SL.Sem

open Cert.RefRead Cert.LibGather

theorem addi_at {s : Shape} {w : ℕ} (x y : IVec s w) (i : s.Idx) : addi x y i = IntOp.addi (x i) (y i) := rfl
theorem muli_at {s : Shape} {w : ℕ} (x y : IVec s w) (i : s.Idx) : muli x y i = IntOp.muli (x i) (y i) := rfl
theorem andi_at {s : Shape} {w : ℕ} (x y : IVec s w) (i : s.Idx) : andi x y i = IntOp.andi (x i) (y i) := rfl
theorem cmpi_at {s : Shape} {w : ℕ} (p : CmpIPredicate) (x y : IVec s w) (i : s.Idx) : cmpi p x y i = IntOp.cmpi p (x i) (y i) := rfl

/-- Both products and both sums stay below `2^32`. -/
theorem flat_word (k : ℕ) (hk : k < 3) (u v : BitVec 32) (hu : u.toNat < 8192) (hv : v.toNat < 8192) :
    (IntOp.addi (IntOp.addi (IntOp.muli (BitVec.ofNat 32 k) 67108864#32) (IntOp.muli u 8192#32)) v).toNat
      = k * 67108864 + u.toNat * 8192 + v.toNat := by
  show ((BitVec.ofNat 32 k * 67108864#32 + u * 8192#32) + v).toNat = _
  rw [BitVec.toNat_add, BitVec.toNat_add, BitVec.toNat_mul, BitVec.toNat_mul, BitVec.toNat_ofNat,
    show (67108864#32 : BitVec 32).toNat = 67108864 from rfl, show (8192#32 : BitVec 32).toNat = 8192 from rfl]
  omega

def flatIdx (a12 a13 : IVec S262144 32) : IVec S786432 32 :=
  shapeCast S786432
    (addi
      (addi
        (broadcastInDim S3x262144 ![0, 1] bcast_S3x1_S3x262144_0_1
          (muli (broadcastInDim S3x1 ![0] bcast_S3_S3x1_0 (iotaInDim S3 32 0))
            (broadcastInDim S3x1 ![] bcast_S_S3x1 (constantI S_ 32 67108864#32))))
        (broadcastInDim S3x262144 ![0, 1] bcast_S1x262144_S3x262144_0_1
          (muli (broadcastInDim S1x262144 ![1] bcast_S262144_S1x262144_1 a12)
            (broadcastInDim S1x262144 ![] bcast_S_S1x262144 (constantI S_ 32 8192#32)))))
      (broadcastInDim S3x262144 ![0, 1] bcast_S1x262144_S3x262144_0_1
        (broadcastInDim S1x262144 ![1] bcast_S262144_S1x262144_1 a13)))
    shapeCasts_S3x262144_S786432

theorem flatIdx_apply (a12 a13 : IVec S262144 32) (k : Fin 3) (e : Fin 262144) :
    flatIdx a12 a13 (ix1 (⟨k.val * 262144 + e.val, by omega⟩ : Fin 786432))
      = IntOp.addi (IntOp.addi (IntOp.muli (BitVec.ofNat 32 k.val) 67108864#32) (IntOp.muli (a12 (ix1 e)) 8192#32)) (a13 (ix1 e)) := by
  unfold flatIdx
  rw [shapeCast_apply _ _ _ (ix2 k e) (by
    rw [Shape.rowMajor_val_two, Shape.rowMajor_val_one]; rfl)]
  rw [addi_at, addi_at, bcast_rep_apply _ rfl rfl, bcast_down_apply _ rfl rfl, bcast_down_apply _ rfl rfl,
    bcast_row_apply _ rfl, muli_at, muli_at, bcast_col_apply _ rfl, bcast_row_apply _ rfl,
    broadcastInDim_scalar_apply, broadcastInDim_scalar_apply, constantI_apply, constantI_apply, iotaInDim_apply]

/-- Reducing over an axis of extent one folds a single entry into the initial value. -/
theorem reduce_andi_col_apply {E : Nat} {u : Shape} (x : IVec ⟨2, ![E, 1]⟩ 1) (init : IVec u 1)
    (h' : (⟨2, ![E, 1]⟩ : Shape).ReducesTo [1] ⟨1, ![E]⟩) (hu : 0 < u.numel) (j : Fin E) :
    Host.reduce IntOp.andi x init h' hu (ix1 j) = IntOp.andi (x (ix2 j (0 : Fin 1))) (init (Shape.Idx.first hu)) := by
  have h : (⟨2, ![E, 1]⟩ : Shape).Reduces [1] ⟨1, ![E]⟩ := ⟨h'.1, Nat.one_pos, h'.2⟩
  rw [Host.reduce_eq_fold_single IntOp.andi x init h' h hu (ix1 j)]
  have key : ∀ (n : Nat) (hn : n = 1) (g : Fin n → BitVec 1) (i0 : BitVec 1),
      (Finset.univ : Finset (Fin n)).fold IntOp.andi i0 g = IntOp.andi (g ⟨0, by omega⟩) i0 := by
    intro n hn g i0; subst hn; rw [Finset.univ_unique, Finset.fold_singleton]; rfl
  refine (key _ rfl _ _).trans ?_
  show IntOp.andi (x (h.lift (ix1 j) ⟨0, _⟩)) _ = _
  congr 2
  funext e; refine Fin.ext ?_
  match e with
  | ⟨0, _⟩ => rfl
  | ⟨1, _⟩ => rfl

def colIdx (i : IVec S786432 32) : IVec S786432x1 32 :=
  broadcastInDim S786432x1 ![0] bcast_S786432_S786432x1_0
    (select (cmpi .slt i (broadcastInDim S786432 ![] bcast_S_S786432 (constantI S_ 32 0#32)))
      (addi i (broadcastInDim S786432 ![] bcast_S_S786432 (constantI S_ 32 201326592#32))) i)

def inbMask (y : IVec S786432x1 32) : IVec S786432 1 :=
  Host.reduce IntOp.andi
    (andi (cmpi .sge y (broadcastInDim S786432x1 ![] bcast_S_S786432x1 (constantI S_ 32 0#32)))
      (cmpi .sle y (broadcastInDim S786432x1 ![0, 1] bcast_S1x1_S786432x1_0_1
        (broadcastInDim S1x1 ![1] bcast_S1_S1x1_1 (constantI S1 32 201326591#32)))))
    (constantI S_ 1 1#1) reducesTo_S786432x1_S786432_d1 h_S_

/-- `x[i]` on a flat array, as the program spells it. -/
def takeFlat (x : S201326592.Idx → EReal) (i : IVec S786432 32) : S786432.Idx → EReal :=
  select (inbMask (colIdx i)) (Host.gather gather_S201326592_S786432x1_S786432_n_0_n_n_0_1_1 x (colIdx i))
    (broadcastInDim S786432 ![] bcast_S_S786432 (constant (F := Ideal) S_ .f32 0x7FC00000#32))

theorem colIdx_apply (i : IVec S786432 32) (j : Fin 786432) (hi : (i (ix1 j)).toNat < 2 ^ 31) :
    colIdx i (ix2 j (0 : Fin 1)) = i (ix1 j) := by
  unfold colIdx
  rw [bcast_col_apply _ rfl]
  exact norm_vec_apply i _ _ _ (ix1 j) hi

theorem inbMask_apply (y : IVec S786432x1 32) (j : Fin 786432) (hy : (y (ix2 j (0 : Fin 1))).toNat ≤ 201326591) :
    inbMask y (ix1 j) = 1#1 := by
  have hy' : (y (ix2 j (0 : Fin 1))).toNat < 2 ^ 31 := by omega
  unfold inbMask
  rw [reduce_andi_col_apply, IntOp.andi_eq_one]
  refine ⟨?_, rfl⟩
  rw [andi_at, cmpi_at, cmpi_at, broadcastInDim_scalar_apply, constantI_apply, bcast_down_apply _ rfl rfl,
    bcast_row_apply _ rfl, constantI_apply, IntOp.andi_eq_one]
  exact ⟨(sge_const _ hy' 0 (by norm_num)).mpr (Nat.zero_le _), (sle_const _ hy' 201326591 (by norm_num)).mpr hy⟩

/-- An index in range is neither wrapped nor masked. -/
theorem takeFlat_apply (x : S201326592.Idx → EReal) (i : IVec S786432 32) (j : Fin 786432) (q : Fin 201326592)
    (hq : (i (ix1 j)).toNat = q.val) : takeFlat x i (ix1 j) = x (ix1 q) := by
  have hq' := q.isLt
  have hc : colIdx i (ix2 j (0 : Fin 1)) = i (ix1 j) := colIdx_apply i j (by omega)
  unfold takeFlat
  rw [select_apply, inbMask_apply _ j (by rw [hc, hq]; omega), select_one]
  exact gather_vec_at (N := 201326592) (E := 786432) (by norm_num) gather_S201326592_S786432x1_S786432_n_0_n_n_0_1_1_wf
    x (colIdx i) j q (by show (colIdx i (ix2 j (0 : Fin 1))).toNat = q.val; rw [hc, hq])

theorem uitofp_at {s : Shape} {w : ℕ} (x : IVec s w) (i : s.Idx) :
    (uitofp (F := Ideal) .f32 x : FVec Ideal s .f32) i = FloatOps.uitofp (F := Ideal) .f32 (x i) := rfl

theorem unflat_apply {α : Type} (y : S786432.Idx → α) (k : Fin 3) (e : Fin 262144) :
    shapeCast S3x262144 y shapeCasts_S786432_S3x262144 (ix2 k e)
      = y (ix1 (⟨k.val * 262144 + e.val, by omega⟩ : Fin 786432)) := by
  refine shapeCast_apply y _ _ _ ?_
  rw [Shape.rowMajor_val_two, Shape.rowMajor_val_one]; rfl

/-- In row-major order the flat position of `A[k, u, v]` is `k · 8192² + u · 8192 + v`. -/
theorem flatA_apply {α : Type} (a1 : S3x8192x8192.Idx → α) (k : Fin 3) (u v : Fin 8192) :
    shapeCast S201326592 a1 shapeCasts_S3x8192x8192_S201326592
        (ix1 (⟨k.val * 67108864 + u.val * 8192 + v.val, by omega⟩ : Fin 201326592))
      = a1 (ix3 k u v) := by
  refine shapeCast_apply a1 _ _ _ ?_
  rw [Shape.rowMajor_val_three, Shape.rowMajor_val_one]
  show (k.val * 8192 + u.val) * 8192 + v.val = k.val * 67108864 + u.val * 8192 + v.val
  omega

theorem gtZero_apply (y : FVec Ideal S3x262144 .f32) (k : Fin 3) (e : Fin 262144) :
    (uitofp (F := Ideal) .f32 (cmpf .ogt y
        (broadcastInDim S3x262144 ![] bcast_S_S3x262144 (constant (F := Ideal) S_ .f32 0x00000000#32)))
      : FVec Ideal S3x262144 .f32) (ix2 k e)
      = if Ideal.cmp .ogt (y (ix2 k e)) 0 = 1#1 then 1 else 0 := by
  rw [uitofp_at, cmpf_apply, broadcastInDim_scalar_apply, constant_apply, Ideal.ofBits_zero_f32, Gnn.Coe.uitofp_bit,
    Ideal.cmpf_def, EReal.coe_one, EReal.coe_zero]

theorem pad0_apply {α : Type} (x : S3x262144.Idx → α) {u : Shape} (v : u.Idx → α)
    (h : S3x262144.Pads (![0, 0] : Fin 2 → Nat) ![0, 0] ![0, 0] S3x262144) (hu : 0 < u.numel) (k : Fin 3) (e : Fin 262144) :
    pad S3x262144 ![0, 0] ![0, 0] ![0, 0] x v h hu (ix2 k e) = x (ix2 k e) :=
  pad_apply_of_inside _ _ _ x v h hu (ix2 k e) (ix2 k e) fun a => match a with
    | ⟨0, _⟩ => by show k.val = 0 + k.val * (0 + 1); omega
    | ⟨1, _⟩ => by show e.val = 0 + e.val * (0 + 1); omega

section Casts
variable {Val : EltTy → Type}

theorem ofBuf_toBuf {T : BufTy} (x : StableHlo.TRef sig T) (v : T.Contents Val) : x.ofBuf (x.toBuf v) = v := by
  obtain ⟨r, rfl, _, _⟩ := x; rfl

abbrev t83 : StableHlo.TRef sig ⟨S201326592, .f32⟩ := .of main_v83
abbrev t84 : StableHlo.TRef sig ⟨S786432, .i32⟩ := .of main_v84
abbrev t85 : StableHlo.TRef sig ⟨S786432, .f32⟩ := .of main_v85

theorem t83_ofBuf (X : Valuation τ sig (Elt Ideal)) :
    t83.ofBuf (X (Proc.devRef .tc main_v83)) = (X (Proc.devRef .tc main_v83) : S201326592.Idx → EReal) := rfl
theorem t84_ofBuf (X : Valuation τ sig (Elt Ideal)) :
    t84.ofBuf (X (Proc.devRef .tc main_v84)) = (X (Proc.devRef .tc main_v84) : S786432.Idx → BitVec 32) := rfl
theorem t85_toBuf (v : S786432.Idx → EReal) :
    ((t85.toBuf (Val := Elt Ideal) v) : S786432.Idx → EReal) = v := rfl

end Casts

variable (m : (ℓ : Loc nD τ sig) → Buf (Elt Ideal) ℓ) (outs : Outs (F := Ideal)) (c : Dev nD)

theorem v94_eq : (V19 m outs c main_v94 : S3x262144.Idx → EReal)
    = truncf (F := Ideal) .bf16 (V18 m outs c main_v93 : S3x262144.Idx → EReal) bitsLt_bf16_f32 := by
  dsimp only [V19, hostOps1_12]
  generalize V18 m outs c = W
  after_results

theorem v93_eq : (V18 m outs c main_v93 : S3x262144.Idx → EReal)
    = pad S3x262144 ![0, 0] ![0, 0] ![0, 0] (V17 m outs c main_v89 : S3x262144.Idx → EReal)
        (sitofp (F := Ideal) .f32 (V17 m outs c main_c_18 : S_.Idx → BitVec 32) : S_.Idx → EReal)
        pads_S3x262144_S3x262144_000_000 h_S_ := by
  dsimp only [V18, hostOps1_11]
  generalize V17 m outs c = W
  after_results
  rfl

theorem v89_eq : (V11 m outs c main_v89 : S3x262144.Idx → EReal)
    = uitofp (F := Ideal) .f32 (cmpf .ogt
        (shapeCast S3x262144 (V10 m outs c main_v85 : S786432.Idx → EReal) shapeCasts_S786432_S3x262144)
        (broadcastInDim S3x262144 ![] bcast_S_S3x262144 (constant (F := Ideal) S_ .f32 0x00000000#32))) := by
  dsimp only [V11, hostOps1_4]
  generalize V10 m outs c = W
  after_results
  rfl

set_option maxHeartbeats 1000000 in
theorem v85_eq : (V10 m outs c main_v85 : S786432.Idx → EReal)
    = takeFlat (V9 m outs c main_v83 : S201326592.Idx → EReal) (V9 m outs c main_v84 : S786432.Idx → BitVec 32) := by
  dsimp only [V10, hostOps1_3]
  generalize V9 m outs c = W
  after_results_simp
  simp only [ofBuf_toBuf]
  simp only [t83_ofBuf, t84_ofBuf, t85_toBuf]
  rfl

set_option maxHeartbeats 1000000 in
set_option maxRecDepth 8192 in
theorem v84_eq : (V9 m outs c main_v84 : S786432.Idx → BitVec 32)
    = flatIdx (V8 m outs c main_arg12 : S262144.Idx → BitVec 32) (V8 m outs c main_arg13 : S262144.Idx → BitVec 32) := by
  dsimp only [V9, hostOps1_2]
  generalize V8 m outs c = W
  after_results_simp
  rfl

set_option maxHeartbeats 1000000 in
theorem v83_eq : (V9 m outs c main_v83 : S201326592.Idx → EReal)
    = shapeCast S201326592 (V8 m outs c main_arg1 : S3x8192x8192.Idx → EReal) shapeCasts_S3x8192x8192_S201326592 := by
  dsimp only [V9, hostOps1_2]
  generalize V8 m outs c = W
  after_results_simp
  rfl

/-- No stretch up to the mask's writes an argument array. -/
theorem arg1_eq : (V8 m outs c main_arg1 : S3x8192x8192.Idx → EReal)
    = (m ((c.tc : Thread nD τ).loc main_arg1) : S3x8192x8192.Idx → EReal) := by
  rw [V8_of, V7_of, V6_of, V5_of, V4_of, V3_of, V2_of, V1_of] <;> decide

theorem arg12_eq : (V8 m outs c main_arg12 : S262144.Idx → BitVec 32)
    = (m ((c.tc : Thread nD τ).loc main_arg12) : S262144.Idx → BitVec 32) := by
  rw [V8_of, V7_of, V6_of, V5_of, V4_of, V3_of, V2_of, V1_of] <;> decide

theorem arg13_eq : (V8 m outs c main_arg13 : S262144.Idx → BitVec 32)
    = (m ((c.tc : Thread nD τ).loc main_arg13) : S262144.Idx → BitVec 32) := by
  rw [V8_of, V7_of, V6_of, V5_of, V4_of, V3_of, V2_of, V1_of] <;> decide

theorem v89_carry : (V17 m outs c main_v89 : S3x262144.Idx → EReal) = (V11 m outs c main_v89 : S3x262144.Idx → EReal) := by
  rw [V17_of, V16_of, V15_of, V14_of, V13_of, V12_of] <;> decide

/-- The gathered entry is `A[k, us[e], vs[e]]`, and its comparison with zero is the specification's test for a counted edge. -/
theorem kMask (c : Dev nD)
    (hus : ∀ e : Fin 262144, ((m (c.tc.loc main_arg12) : S262144.Idx → BitVec 32) (ix1 e)).toNat < 8192)
    (hvs : ∀ e : Fin 262144, ((m (c.tc.loc main_arg13) : S262144.Idx → BitVec 32) (ix1 e)).toNat < 8192)
    (k : Fin 3) (e : Fin 262144) :
    (V19 m outs c main_v94 : S3x262144.Idx → EReal) (ix2 k e)
      = Cert.Spec.indOf (m (c.tc.loc main_arg1))
          (m (c.tc.loc main_arg12))
          (m (c.tc.loc main_arg13)) hus hvs k e := by
  rw [v94_eq, truncf_apply, v93_eq, pad0_apply, v89_carry, v89_eq, gtZero_apply, unflat_apply, v85_eq, v84_eq, v83_eq,
    arg1_eq, arg12_eq, arg13_eq]
  generalize (m ((c.tc : Thread nD τ).loc main_arg1) : S3x8192x8192.Idx → EReal) = a1
  generalize (m ((c.tc : Thread nD τ).loc main_arg12) : S262144.Idx → BitVec 32) = a12 at hus ⊢
  generalize (m ((c.tc : Thread nD τ).loc main_arg13) : S262144.Idx → BitVec 32) = a13 at hvs ⊢
  have hw := flat_word k.val k.isLt (a12 (ix1 e)) (a13 (ix1 e)) (hus e) (hvs e)
  have hu := hus e
  have hv := hvs e
  rw [takeFlat_apply _ _ _ (⟨k.val * 67108864 + (a12 (ix1 e)).toNat * 8192 + (a13 (ix1 e)).toNat, by have := k.isLt; omega⟩ : Fin 201326592)
      (by rw [flatIdx_apply]; exact hw),
    flatA_apply a1 k ⟨(a12 (ix1 e)).toNat, hu⟩ ⟨(a13 (ix1 e)).toNat, hv⟩]
  unfold Cert.Spec.indOf Cert.Spec.ind
  by_cases h : Ideal.cmp .ogt (a1 (ix3 k (⟨(a12 (ix1 e)).toNat, hu⟩ : Fin 8192) (⟨(a13 (ix1 e)).toNat, hv⟩ : Fin 8192))) 0 = 1#1
  · rw [if_pos h, if_pos (show Cert.Spec.counted (Cert.Spec.ten3 a1) (Cert.Spec.node a12 hus) (Cert.Spec.node a13 hvs) k e from h)]
  · rw [if_neg h, if_neg (show ¬ Cert.Spec.counted (Cert.Spec.ten3 a1) (Cert.Spec.node a12 hus) (Cert.Spec.node a13 hvs) k e from h)]

end Cert.KernelIdeal.ValMask

end
-- ==== Proof.Bridge.lean ====
import proofs.«428349_j38809324486859_3_alg».proof.Proof.RegionsKernelIdeal
import proofs.«428349_j38809324486859_3_alg».proof.Proof.Reg0Defs
import proofs.«428349_j38809324486859_3_alg».proof.Proof.Reg1Defs
import proofs.«428349_j38809324486859_3_alg».proof.Proof.RefRun
import proofs.«428349_j38809324486859_3_alg».proof.Proof.SpecArgs
import proofs.«428349_j38809324486859_3_alg».proof.Proof.PreFacts
import proofs.«428349_j38809324486859_3_alg».proof.Proof.SpecReal
import proofs.«428349_j38809324486859_3_alg».proof.Proof.RunK
import proofs.«428349_j38809324486859_3_alg».proof.Proof.Reg0
import proofs.«428349_j38809324486859_3_alg».proof.Proof.KValCols
import proofs.«428349_j38809324486859_3_alg».proof.Proof.KValZ
import proofs.«428349_j38809324486859_3_alg».proof.Proof.BridgeK
import proofs.«428349_j38809324486859_3_alg».proof.Proof.Reg1Out
import proofs.«428349_j38809324486859_3_alg».proof.Proof.KValT
import proofs.«428349_j38809324486859_3_alg».proof.Proof.RefValA
import proofs.«428349_j38809324486859_3_alg».proof.Proof.KValM3
import proofs.«428349_j38809324486859_3_alg».proof.Proof.RefValB
import proofs.«428349_j38809324486859_3_alg».proof.Proof.KValMask
import Idealize.ShloMosaic.Lib.ValueIdx

set_option maxRecDepth 1824

noncomputable section

namespace Cert.Proof.Bridge

open Idealize.ShloMosaic Idealize.ShloMosaic.TcCoe Idealize.ShloMosaic.ValueIdx
open Cert.KernelIdeal.GenP Cert.ReferenceIdeal.Hand Cert.KernelIdeal.Hand Cert.KernelIdeal.Bridge

-- The read-out is a function of the argument arrays alone: the two range proofs are propositions.
theorem outOf_congr {a0 b0 a1 b1 a2 b2 a3 b3 a4 b4 a5 b5 a6 b6 a7 b7 a8 b8 a9 b9 a10 b10 a11 b11 a12 b12 a13 b13 hus' hvs' hus hvs}
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (o : Fin 2) :
    Cert.Spec.outOf b0 b1 b2 b3 b4 b5 b6 b7 b8 b9 b10 b11 b12 b13 hus' hvs' o = Cert.Spec.outOf a0 a1 a2 a3 a4 a5 a6 a7 a8 a9 a10 a11 a12 a13 hus hvs o := by
  subst e0 e1 e2 e3 e4 e5 e6 e7 e8 e9 e10 e11 e12 e13
  rfl

variable [Cert.Pre_finite_inputs.Facts]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

-- Both results are the specification's read-out of the fourteen arguments, on which the two memories agree.
theorem result_eq_final (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (c : Dev Cert.KernelIdeal.nD) :
    (RW7 m' c Cert.ReferenceIdeal.main_v236 : (⟨2, ![1, 2]⟩ : Shape).Idx → EReal)
      = (V33 m (Cert.KernelIdeal.Hand.outsOf (Cert.KernelIdeal.Hand.dat0 (F := Ideal)) (Cert.KernelIdeal.Hand.dat1 (F := Ideal)) m) c Cert.KernelIdeal.main_v200 : (⟨2, ![1, 2]⟩ : Shape).Idx → EReal) := by
  obtain ⟨e0, e1, e2, e3, e4, e5, e6, e7, e8, e9, e10, e11, e12, e13⟩ := hagree c
  have hus := Cert.PreFacts.us_lt _ _ _ _ _ _ _ _ _ _ _ _ _ _ (hpre c)
  have hvs := Cert.PreFacts.vs_lt _ _ _ _ _ _ _ _ _ _ _ _ _ _ (hpre c)
  have hus' : ∀ e : Fin 262144, (m' ((c.tc : Thread Cert.ReferenceIdeal.nD Cert.ReferenceIdeal.τ).loc Cert.ReferenceIdeal.main_arg12) (ix1 e)).toNat < 8192 :=
    fun e => by rw [e12]; exact hus e
  have hvs' : ∀ e : Fin 262144, (m' ((c.tc : Thread Cert.ReferenceIdeal.nD Cert.ReferenceIdeal.τ).loc Cert.ReferenceIdeal.main_arg13) (ix1 e)).toNat < 8192 :=
    fun e => by rw [e13]; exact hvs e
  have hs := fun n d => Cert.Spec.hsOf_real _ _ _ hus (Cert.PreFacts.finite_0 _ _ _ _ _ _ _ _ _ _ _ _ _ _ (hpre c))
    (Cert.PreFacts.finite_2 _ _ _ _ _ _ _ _ _ _ _ _ _ _ (hpre c)) n d
  have h24 := fun a n d =>
    (congrFun ((outsOf_main_v24 (dat0 (F := Ideal)) dat1 m c).trans (arrAt0_out (entry0 m) c)) (ix3 a n d)).trans
      (regOut0_spec _ _ _ _ hus hvs _ _ _ _ (Cert.KernelIdeal.Val.kUsCol0 m c) (Cert.KernelIdeal.Val.kVsCol0 m c)
        (Cert.KernelIdeal.Val.kHi m c hus)
        (fun i => by
          obtain ⟨n, d, rfl⟩ : ∃ (n : Fin 8192) (d : Fin 256), i = ix2 n d := ⟨i 0, i 1, eq_ix2 i⟩
          exact Cert.KernelIdeal.Val.kLo m c hus n d (hs n d)) a n d)
  have hT := Cert.KernelIdeal.ValT.kT m (outsA dat0 m) c hus hvs (Cert.KernelIdeal.Val.kZ m c (outsA dat0 m) hus hvs h24)
  have kM := Cert.KernelIdeal.ValMask.kMask m (outsA (dat0 (F := Ideal)) m) c hus hvs
  have hO := Cert.KernelIdeal.Val.kOut m (outsOf dat0 dat1 m) c hus hvs (Cert.KernelIdeal.Val.kZ m c (outsOf dat0 dat1 m) hus hvs h24)
    (fun a k n => (congrFun ((outsOf_arr1 dat0 dat1 m c 4).trans (arrAt1_out4 (entry1 dat0 m) c)) (ix3 a k n)).trans
      (regOut1_0_spec _ _ _ _ _ _ _ _ _ _ hus hvs _ _ _ _ (Cert.KernelIdeal.ValT.kVsCol m (outsA dat0 m) c) hT kM a k n))
    (fun a k n => (congrFun ((outsOf_arr1 dat0 dat1 m c 5).trans (arrAt1_out5 (entry1 dat0 m) c)) (ix3 a k n)).trans
      (regOut1_1_spec _ _ _ _ _ _ _ _ _ _ hus hvs _ _ _ _ (Cert.KernelIdeal.ValT.kVsCol m (outsA dat0 m) c) hT kM a k n))
    (fun a k n => (congrFun ((outsOf_arr1 dat0 dat1 m c 6).trans (arrAt1_out6 (entry1 dat0 m) c)) (ix3 a k n)).trans
      (regOut1_2_spec _ _ _ _ _ _ _ _ _ _ hus hvs _ _ _ _ (Cert.KernelIdeal.ValT.kUsCol m (outsA dat0 m) c) hT kM a k n))
  have hR := Cert.ReferenceIdeal.Val.rOut m' c hus' hvs' (Cert.ReferenceIdeal.Val.rZ m' c hus' hvs')
    (Cert.ReferenceIdeal.Val.rT m' c hus' hvs') (Cert.ReferenceIdeal.Val.rPool0 m' c hus' hvs')
  funext i
  obtain ⟨u, o, rfl⟩ : ∃ (u : Fin 1) (o : Fin 2), i = ix2 u o := ⟨i 0, i 1, eq_ix2 i⟩
  obtain rfl : u = 0 := Subsingleton.elim _ _
  exact (hR o).trans ((outOf_congr e0 e1 e2 e3 e4 e5 e6 e7 e8 e9 e10 e11 e12 e13 o).trans (hO o).symm)

end Cert.Proof.Bridge

end
-- ==== Proof.lean ====
/-
  A graph layer on 8192 nodes and 262144 directed edges, computed two ways: the reference sums over the edge list
  with segment sums and gathers rows; the kernel program builds, chunk by chunk, the one-hot matrices of the edge
  endpoints, so that a gather is a product with the one-hot matrix and a segment sum a product with its transpose.
  Over the extended reals the two agree: the differences are the order and grouping of finite sums, and a
  remainder x - x that vanishes because x is a real number under the precondition.
-/
import proofs.«428349_j38809324486859_3_alg».proof.Defs
import proofs.«428349_j38809324486859_3_alg».proof.Proof.Gen.Kernel
import proofs.«428349_j38809324486859_3_alg».proof.Proof.Gen.KernelIdeal
import proofs.«428349_j38809324486859_3_alg».proof.Proof.Gen.ReferenceIdeal
import proofs.«428349_j38809324486859_3_alg».proof.Proof.Gen.Pre_finite_inputs
import proofs.«428349_j38809324486859_3_alg».proof.Proof.Reg0W
import proofs.«428349_j38809324486859_3_alg».proof.Proof.Reg1W
import proofs.«428349_j38809324486859_3_alg».proof.Proof.RunKW
import proofs.«428349_j38809324486859_3_alg».proof.Proof.Reg0
import proofs.«428349_j38809324486859_3_alg».proof.Proof.Reg1
import proofs.«428349_j38809324486859_3_alg».proof.Proof.RunK
import proofs.«428349_j38809324486859_3_alg».proof.Proof.RefRun
import proofs.«428349_j38809324486859_3_alg».proof.Proof.Bridge
import Idealize.ShloMosaic.Adequacy
import Idealize.ShloMosaic.Init

noncomputable section

namespace Cert.Proof

open Idealize.ShloMosaic Idealize.SL.Sem

open Cert.Kernel.Hand in
theorem frame_word : Cert.frame_Kernel := fun m ρ _ =>
  frame_all dat0 A_eq0 body_obligation0 hin0 hout0 hq0 howed0 hrec0 dat1 A_eq1 body_obligation1 hin1 hout1 hq1 howed1 hrec1 m ρ

open Cert.KernelIdeal.Hand in
theorem frame_ideal : Cert.frame_KernelIdeal := fun m ρ _ =>
  frame_all dat0 A_eq0 body_obligation0 hin0 hout0 hq0 howed0 hrec0 dat1 A_eq1 body_obligation1 hin1 hout1 hq1 howed1 hrec1 m ρ

theorem preserves : Cert.preserves_Kernel_KernelIdeal :=
  ⟨IdealRules.truncf_extf.statement _ .f32 .bf16, IdealRules.truncf_extf.statement _ .f32 .bf16,
    IdealRules.truncf_extf.statement _ .f32 .bf16⟩

open Cert.KernelIdeal.Hand in
/-- Each run names its result as an entry of its last valuation; both entries are the specification's output. -/
theorem algebraic : Cert.algebraic_KernelIdeal_ReferenceIdeal := fun m ρ m' ρ' hpre hagree =>
  ⟨fun c => Cert.KernelIdeal.GenP.V33 m (outsOf dat0 dat1 m) c (Proc.devRef .tc Cert.KernelIdeal.main_v200),
    value_all dat0 A_eq0 body_obligation0 hin0 hout0 hq0 howed0 hrec0 dat1 A_eq1 body_obligation1 hin1 hout1 hq1 howed1 hrec1 m ρ,
    (θ_run Cert.ReferenceIdeal.defs _ _).mono
      (fun r h c => ⟨(h c).1.trans (Cert.Proof.Bridge.result_eq_final m m' hpre hagree c), (h c).2⟩)
      (Cert.ReferenceIdeal.Hand.run m' ρ')⟩

theorem claim : Cert.Claim :=
  ⟨Cert.Kernel.Gen.facts, Cert.KernelIdeal.Gen.facts, Cert.ReferenceIdeal.Gen.facts, Cert.Pre_finite_inputs.Gen.facts,
    frame_word, frame_ideal, Cert.ReferenceIdeal.Hand.frame, preserves, algebraic⟩

end Cert.Proof

end
